-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S2x512x512 .f32 .bf16
  ∧ IdealRules.truncf_extf.Statement Cert.KernelIdeal.S2x512x512 .f32 .bf16
  ∧ IdealRules.truncf_extf.Statement Cert.KernelIdeal.S2x512x512 .f32 .bf16
  ∧ IdealRules.truncf_extf.Statement Cert.KernelIdeal.S2x512x512 .f32 .bf16

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 2048, 512]⟩ ⟨3, ![2, 2048, 2048]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 2048]⟩ 1 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 2048, 512]⟩ ⟨3, ![2, 2048, 2048]⟩ 2 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v22) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x2048x512 : Shape := ⟨3, ![2, 2048, 512]⟩
abbrev S2x128 : Shape := ⟨2, ![2, 128]⟩
abbrev S128x512 : Shape := ⟨2, ![128, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x128 : S_.BroadcastsInDim S2x128 (![] : Fin 0 → Fin S2x128.rank)
  reducesTo_S2x128_S_d0_1 : S2x128.ReducesTo [0, 1] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  main_v18

def fn {F : FTy → Type} [FloatOps F] (main_arg0 : FVec F S2x2048x512 .f32) (main_arg1 : FVec F S2x128 .f32) (main_arg2 : FVec F S128x512 .f32) (main_arg3 : FVec F S128x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_v13 main_v16
-- ==== Pre_finite_inputs_ReferenceIdeal.lean ====
abbrev S2x2048x2048 : Shape := ⟨3, ![2, 2048, 2048]⟩
abbrev S2x128 : Shape := ⟨2, ![2, 128]⟩
abbrev S128x2048 : Shape := ⟨2, ![128, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2x128 : S_.BroadcastsInDim S2x128 (![] : Fin 0 → Fin S2x128.rank)
  reducesTo_S2x128_S_d0_1 : S2x128.ReducesTo [0, 1] S_
  bcast_S_S128x2048 : S_.BroadcastsInDim S128x2048 (![] : Fin 0 → Fin S128x2048.rank)
  reducesTo_S128x2048_S_d0_1 : S128x2048.ReducesTo [0, 1] S_

variable [Facts]

def fn_part1 {F : FTy → Type} [FloatOps F] (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  main_v18

def fn {F : FTy → Type} [FloatOps F] (main_arg0 : FVec F S2x2048x2048 .f32) (main_arg1 : FVec F S2x128 .f32) (main_arg2 : FVec F S128x2048 .f32) (main_arg3 : FVec F S128x2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2x128 .f32 := Host.absf main_arg1
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128x2048 .f32 := Host.absf main_arg3
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_v13 main_v16
-- ==== Kernel.lean ====
abbrev S2x2048x512 : Shape := ⟨3, ![2, 2048, 512]⟩
abbrev S2x128 : Shape := ⟨2, ![2, 128]⟩
abbrev S128x512 : Shape := ⟨2, ![128, 512]⟩
abbrev S4x4x512 : Shape := ⟨3, ![4, 4, 512]⟩
abbrev S4x3x4x512 : Shape := ⟨4, ![4, 3, 4, 512]⟩
abbrev S4x3 : Shape := ⟨2, ![4, 3]⟩
abbrev S_ : Shape := ⟨0, ![]⟩
abbrev S2x512x512 : Shape := ⟨3, ![2, 512, 512]⟩
abbrev S2x512 : Shape := ⟨2, ![2, 512]⟩
abbrev S4x512 : Shape := ⟨2, ![4, 512]⟩
abbrev S1x4x512 : Shape := ⟨3, ![1, 4, 512]⟩
abbrev S1x1 : Shape := ⟨2, ![1, 1]⟩
abbrev S1x1x4x512 : Shape := ⟨4, ![1, 1, 4, 512]⟩
abbrev S2x1x512 : Shape := ⟨3, ![2, 1, 512]⟩
abbrev S2x512x1 : Shape := ⟨3, ![2, 512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2x2048x512, .f32⟩
  | .hbm, ⟨1, _⟩ => ⟨S2x128, .f32⟩
  | .hbm, ⟨2, _⟩ => ⟨S128x512, .f32⟩
  | .hbm, ⟨3, _⟩ => ⟨S128x512, .f32⟩
  | .hbm, ⟨4, _⟩ => ⟨S2x2048x512, .bf16⟩
  | .local _ .vmem, ⟨0, _⟩ => ⟨S2x2048x512, .f32⟩
  | .local _ .vmem, ⟨1, _⟩ => ⟨S2x128, .f32⟩
  | .local _ .vmem, ⟨2, _⟩ => ⟨S128x512, .f32⟩
  | .local _ .vmem, ⟨3, _⟩ => ⟨S128x512, .f32⟩
  | .local _ .vmem, ⟨4, _⟩ => ⟨S2x2048x512, .bf16⟩
  | .local _ .vmem, ⟨5, _⟩ => ⟨S4x4x512, .f32⟩
  | .local _ .vmem, ⟨6, _⟩ => ⟨S4x3x4x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v55 : BitVec 32 := Scalar.addi v2 c1_i32_34
  let c4_i32_35 : BitVec 32 := 4#32
  let c0_i32_36 : BitVec 32 := 0#32
  let v56 : BitVec 1 := Scalar.cmpi .eq c4_i32_35 c0_i32_36
  let c1_i32_37 : BitVec 32 := 1#32
  let v57 : BitVec 32 := Scalar.select v56 c1_i32_37 c4_i32_35
  let v58 : BitVec 32 := Scalar.remsi v55 v57
  let c0_i32_39 : BitVec 32 := 0#32
  let v60 : BitVec 1 := Scalar.cmpi .slt v58 c0_i32_39
  let c0_i32_40 : BitVec 32 := 0#32
  let v61 : BitVec 1 := Scalar.cmpi .slt v57 c0_i32_40
  let v62 : BitVec 1 := Scalar.xori v60 v61
  let c0_i32_38 : BitVec 32 := 0#32
  let v59 : BitVec 1 := Scalar.cmpi .ne v58 c0_i32_38
  let v63 : BitVec 1 := Scalar.andi v62 v59
  let v64 : BitVec 32 := Scalar.addi v58 v57
  let v65 : BitVec 32 := Scalar.select v63 v64 v58
  let c1_i32_48 : BitVec 32 := 1#32
  let v66 : BitVec 32 := Scalar.muli v65 c1_i32_48
  let v67 : BitVec 32 := Scalar.addi c0_i32_49 v66
  v67.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_54 : BitVec 32 := 2#32
  let v76 : BitVec 32 := Scalar.addi v2 c2_i32_54
  let c4_i32_55 : BitVec 32 := 4#32
  let c0_i32_56 : BitVec 32 := 0#32
  let v77 : BitVec 1 := Scalar.cmpi .eq c4_i32_55 c0_i32_56
  let c1_i32_57 : BitVec 32 := 1#32
  let v78 : BitVec 32 := Scalar.select v77 c1_i32_57 c4_i32_55
  let v79 : BitVec 32 := Scalar.remsi v76 v78
  let c0_i32_59 : BitVec 32 := 0#32
  let v81 : BitVec 1 := Scalar.cmpi .slt v79 c0_i32_59
  let c0_i32_60 : BitVec 32 := 0#32
  let v82 : BitVec 1 := Scalar.cmpi .slt v78 c0_i32_60
  let v83 : BitVec 1 := Scalar.xori v81 v82
  let c0_i32_58 : BitVec 32 := 0#32
  let v80 : BitVec 1 := Scalar.cmpi .ne v79 c0_i32_58
  let v84 : BitVec 1 := Scalar.andi v83 v80
  let v85 : BitVec 32 := Scalar.addi v79 v78
  let v86 : BitVec 32 := Scalar.select v84 v85 v79
  let c1_i32_68 : BitVec 32 := 1#32
  let v87 : BitVec 32 := Scalar.muli v86 c1_i32_68
  let v88 : BitVec 32 := Scalar.addi c0_i32_69 v87
  v88.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_74 : BitVec 32 := 3#32
  let v97 : BitVec 32 := Scalar.addi v2 c3_i32_74
  let c4_i32_75 : BitVec 32 := 4#32
  let c0_i32_76 : BitVec 32 := 0#32
  let v98 : BitVec 1 := Scalar.cmpi .eq c4_i32_75 c0_i32_76
  let c1_i32_77 : BitVec 32 := 1#32
  let v99 : BitVec 32 := Scalar.select v98 c1_i32_77 c4_i32_75
  let v100 : BitVec 32 := Scalar.remsi v97 v99
  let c0_i32_79 : BitVec 32 := 0#32
  let v102 : BitVec 1 := Scalar.cmpi .slt v100 c0_i32_79
  let c0_i32_80 : BitVec 32 := 0#32
  let v103 : BitVec 1 := Scalar.cmpi .slt v99 c0_i32_80
  let v104 : BitVec 1 := Scalar.xori v102 v103
  let c0_i32_78 : BitVec 32 := 0#32
  let v101 : BitVec 1 := Scalar.cmpi .ne v100 c0_i32_78
  let v105 : BitVec 1 := Scalar.andi v104 v101
  let v106 : BitVec 32 := Scalar.addi v100 v99
  let v107 : BitVec 32 := Scalar.select v105 v106 v100
  let c1_i32_88 : BitVec 32 := 1#32
  let v108 : BitVec 32 := Scalar.muli v107 c1_i32_88
  let v109 : BitVec 32 := Scalar.addi c0_i32_89 v108
  v109.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_100 : BitVec 32 := 1#32
  let v130 : BitVec 32 := Scalar.addi v2 c1_i32_100
  let c4_i32_101 : BitVec 32 := 4#32
  let c0_i32_102 : BitVec 32 := 0#32
  let v131 : BitVec 1 := Scalar.cmpi .eq c4_i32_101 c0_i32_102
  let c1_i32_103 : BitVec 32 := 1#32
  let v132 : BitVec 32 := Scalar.select v131 c1_i32_103 c4_i32_101
  let v133 : BitVec 32 := Scalar.remsi v130 v132
  let c0_i32_105 : BitVec 32 := 0#32
  let v135 : BitVec 1 := Scalar.cmpi .slt v133 c0_i32_105
  let c0_i32_106 : BitVec 32 := 0#32
  let v136 : BitVec 1 := Scalar.cmpi .slt v132 c0_i32_106
  let v137 : BitVec 1 := Scalar.xori v135 v136
  let c0_i32_104 : BitVec 32 := 0#32
  let v134 : BitVec 1 := Scalar.cmpi .ne v133 c0_i32_104
  let v138 : BitVec 1 := Scalar.andi v137 v134
  let v139 : BitVec 32 := Scalar.addi v133 v132
  let v140 : BitVec 32 := Scalar.select v138 v139 v133
  let c1_i32_114 : BitVec 32 := 1#32
  let v141 : BitVec 32 := Scalar.muli v140 c1_i32_114
  let v142 : BitVec 32 := Scalar.addi c0_i32_115 v141
  v142.toNat
def k0_dev8 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_120 : BitVec 32 := 2#32
  let v151 : BitVec 32 := Scalar.addi v2 c2_i32_120
  let c4_i32_121 : BitVec 32 := 4#32
  let c0_i32_122 : BitVec 32 := 0#32
  let v152 : BitVec 1 := Scalar.cmpi .eq c4_i32_121 c0_i32_122
  let c1_i32_123 : BitVec 32 := 1#32
  let v153 : BitVec 32 := Scalar.select v152 c1_i32_123 c4_i32_121
  let v154 : BitVec 32 := Scalar.remsi v151 v153
  let c0_i32_125 : BitVec 32 := 0#32
  let v156 : BitVec 1 := Scalar.cmpi .slt v154 c0_i32_125
  let c0_i32_126 : BitVec 32 := 0#32
  let v157 : BitVec 1 := Scalar.cmpi .slt v153 c0_i32_126
  let v158 : BitVec 1 := Scalar.xori v156 v157
  let c0_i32_124 : BitVec 32 := 0#32
  let v155 : BitVec 1 := Scalar.cmpi .ne v154 c0_i32_124
  let v159 : BitVec 1 := Scalar.andi v158 v155
  let v160 : BitVec 32 := Scalar.addi v154 v153
  let v161 : BitVec 32 := Scalar.select v159 v160 v154
  let c1_i32_134 : BitVec 32 := 1#32
  let v162 : BitVec 32 := Scalar.muli v161 c1_i32_134
  let v163 : BitVec 32 := Scalar.addi c0_i32_135 v162
  v163.toNat
def k0_dev9 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_140 : BitVec 32 := 3#32
  let v172 : BitVec 32 := Scalar.addi v2 c3_i32_140
  let c4_i32_141 : BitVec 32 := 4#32
  let c0_i32_142 : BitVec 32 := 0#32
  let v173 : BitVec 1 := Scalar.cmpi .eq c4_i32_141 c0_i32_142
  let c1_i32_143 : BitVec 32 := 1#32
  let v174 : BitVec 32 := Scalar.select v173 c1_i32_143 c4_i32_141
  let v175 : BitVec 32 := Scalar.remsi v172 v174
  let c0_i32_145 : BitVec 32 := 0#32
  let v177 : BitVec 1 := Scalar.cmpi .slt v175 c0_i32_145
  let c0_i32_146 : BitVec 32 := 0#32
  let v178 : BitVec 1 := Scalar.cmpi .slt v174 c0_i32_146
  let v179 : BitVec 1 := Scalar.xori v177 v178
  let c0_i32_144 : BitVec 32 := 0#32
  let v176 : BitVec 1 := Scalar.cmpi .ne v175 c0_i32_144
  let v180 : BitVec 1 := Scalar.andi v179 v176
  let v181 : BitVec 32 := Scalar.addi v175 v174
  let v182 : BitVec 32 := Scalar.select v180 v181 v175
  let c1_i32_154 : BitVec 32 := 1#32
  let v183 : BitVec 32 := Scalar.muli v182 c1_i32_154
  let v184 : BitVec 32 := Scalar.addi c0_i32_155 v183
  v184.toNat
def k0_dev10 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_166 : BitVec 32 := 1#32
  let v205 : BitVec 32 := Scalar.addi v2 c1_i32_166
  let c4_i32_167 : BitVec 32 := 4#32
  let c0_i32_168 : BitVec 32 := 0#32
  let v206 : BitVec 1 := Scalar.cmpi .eq c4_i32_167 c0_i32_168
  let c1_i32_169 : BitVec 32 := 1#32
  let v207 : BitVec 32 := Scalar.select v206 c1_i32_169 c4_i32_167
  let v208 : BitVec 32 := Scalar.remsi v205 v207
  let c0_i32_171 : BitVec 32 := 0#32
  let v210 : BitVec 1 := Scalar.cmpi .slt v208 c0_i32_171
  let c0_i32_172 : BitVec 32 := 0#32
  let v211 : BitVec 1 := Scalar.cmpi .slt v207 c0_i32_172
  let v212 : BitVec 1 := Scalar.xori v210 v211
  let c0_i32_170 : BitVec 32 := 0#32
  let v209 : BitVec 1 := Scalar.cmpi .ne v208 c0_i32_170
  let v213 : BitVec 1 := Scalar.andi v212 v209
  let v214 : BitVec 32 := Scalar.addi v208 v207
  let v215 : BitVec 32 := Scalar.select v213 v214 v208
  let c1_i32_180 : BitVec 32 := 1#32
  let v216 : BitVec 32 := Scalar.muli v215 c1_i32_180
  let v217 : BitVec 32 := Scalar.addi c0_i32_181 v216
  v217.toNat
def k0_dev11 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_186 : BitVec 32 := 2#32
  let v226 : BitVec 32 := Scalar.addi v2 c2_i32_186
  let c4_i32_187 : BitVec 32 := 4#32
  let c0_i32_188 : BitVec 32 := 0#32
  let v227 : BitVec 1 := Scalar.cmpi .eq c4_i32_187 c0_i32_188
  let c1_i32_189 : BitVec 32 := 1#32
  let v228 : BitVec 32 := Scalar.select v227 c1_i32_189 c4_i32_187
  let v229 : BitVec 32 := Scalar.remsi v226 v228
  let c0_i32_191 : BitVec 32 := 0#32
  let v231 : BitVec 1 := Scalar.cmpi .slt v229 c0_i32_191
  let c0_i32_192 : BitVec 32 := 0#32
  let v232 : BitVec 1 := Scalar.cmpi .slt v228 c0_i32_192
  let v233 : BitVec 1 := Scalar.xori v231 v232
  let c0_i32_190 : BitVec 32 := 0#32
  let v230 : BitVec 1 := Scalar.cmpi .ne v229 c0_i32_190
  let v234 : BitVec 1 := Scalar.andi v233 v230
  let v235 : BitVec 32 := Scalar.addi v229 v228
  let v236 : BitVec 32 := Scalar.select v234 v235 v229
  let c1_i32_200 : BitVec 32 := 1#32
  let v237 : BitVec 32 := Scalar.muli v236 c1_i32_200
  let v238 : BitVec 32 := Scalar.addi c0_i32_201 v237
  v238.toNat
def k0_dev12 (d0 : Dev nD) : Nat :=
  let c0_i32_221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_206 : BitVec 32 := 3#32
  let v247 : BitVec 32 := Scalar.addi v2 c3_i32_206
  let c4_i32_207 : BitVec 32 := 4#32
  let c0_i32_208 : BitVec 32 := 0#32
  let v248 : BitVec 1 := Scalar.cmpi .eq c4_i32_207 c0_i32_208
  let c1_i32_209 : BitVec 32 := 1#32
  let v249 : BitVec 32 := Scalar.select v248 c1_i32_209 c4_i32_207
  let v250 : BitVec 32 := Scalar.remsi v247 v249
  let c0_i32_211 : BitVec 32 := 0#32
  let v252 : BitVec 1 := Scalar.cmpi .slt v250 c0_i32_211
  let c0_i32_212 : BitVec 32 := 0#32
  let v253 : BitVec 1 := Scalar.cmpi .slt v249 c0_i32_212
  let v254 : BitVec 1 := Scalar.xori v252 v253
  let c0_i32_210 : BitVec 32 := 0#32
  let v251 : BitVec 1 := Scalar.cmpi .ne v250 c0_i32_210
  let v255 : BitVec 1 := Scalar.andi v254 v251
  let v256 : BitVec 32 := Scalar.addi v250 v249
  let v257 : BitVec 32 := Scalar.select v255 v256 v250
  let c1_i32_220 : BitVec 32 := 1#32
  let v258 : BitVec 32 := Scalar.muli v257 c1_i32_220
  let v259 : BitVec 32 := Scalar.addi c0_i32_221 v258
  v259.toNat
def k0_dev13 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_232 : BitVec 32 := 1#32
  let v280 : BitVec 32 := Scalar.addi v2 c1_i32_232
  let c4_i32_233 : BitVec 32 := 4#32
  let c0_i32_234 : BitVec 32 := 0#32
  let v281 : BitVec 1 := Scalar.cmpi .eq c4_i32_233 c0_i32_234
  let c1_i32_235 : BitVec 32 := 1#32
  let v282 : BitVec 32 := Scalar.select v281 c1_i32_235 c4_i32_233
  let v283 : BitVec 32 := Scalar.remsi v280 v282
  let c0_i32_237 : BitVec 32 := 0#32
  let v285 : BitVec 1 := Scalar.cmpi .slt v283 c0_i32_237
  let c0_i32_238 : BitVec 32 := 0#32
  let v286 : BitVec 1 := Scalar.cmpi .slt v282 c0_i32_238
  let v287 : BitVec 1 := Scalar.xori v285 v286
  let c0_i32_236 : BitVec 32 := 0#32
  let v284 : BitVec 1 := Scalar.cmpi .ne v283 c0_i32_236
  let v288 : BitVec 1 := Scalar.andi v287 v284
  let v289 : BitVec 32 := Scalar.addi v283 v282
  let v290 : BitVec 32 := Scalar.select v288 v289 v283
  let c1_i32_246 : BitVec 32 := 1#32
  let v291 : BitVec 32 := Scalar.muli v290 c1_i32_246
  let v292 : BitVec 32 := Scalar.addi c0_i32_247 v291
  v292.toNat
def k0_dev14 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_252 : BitVec 32 := 2#32
  let v301 : BitVec 32 := Scalar.addi v2 c2_i32_252
  let c4_i32_253 : BitVec 32 := 4#32
  let c0_i32_254 : BitVec 32 := 0#32
  let v302 : BitVec 1 := Scalar.cmpi .eq c4_i32_253 c0_i32_254
  let c1_i32_255 : BitVec 32 := 1#32
  let v303 : BitVec 32 := Scalar.select v302 c1_i32_255 c4_i32_253
  let v304 : BitVec 32 := Scalar.remsi v301 v303
  let c0_i32_257 : BitVec 32 := 0#32
  let v306 : BitVec 1 := Scalar.cmpi .slt v304 c0_i32_257
  let c0_i32_258 : BitVec 32 := 0#32
  let v307 : BitVec 1 := Scalar.cmpi .slt v303 c0_i32_258
  let v308 : BitVec 1 := Scalar.xori v306 v307
  let c0_i32_256 : BitVec 32 := 0#32
  let v305 : BitVec 1 := Scalar.cmpi .ne v304 c0_i32_256
  let v309 : BitVec 1 := Scalar.andi v308 v305
  let v310 : BitVec 32 := Scalar.addi v304 v303
  let v311 : BitVec 32 := Scalar.select v309 v310 v304
  let c1_i32_266 : BitVec 32 := 1#32
  let v312 : BitVec 32 := Scalar.muli v311 c1_i32_266
  let v313 : BitVec 32 := Scalar.addi c0_i32_267 v312
  v313.toNat
def k0_dev15 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_272 : BitVec 32 := 3#32
  let v322 : BitVec 32 := Scalar.addi v2 c3_i32_272
  let c4_i32_273 : BitVec 32 := 4#32
  let c0_i32_274 : BitVec 32 := 0#32
  let v323 : BitVec 1 := Scalar.cmpi .eq c4_i32_273 c0_i32_274
  let c1_i32_275 : BitVec 32 := 1#32
  let v324 : BitVec 32 := Scalar.select v323 c1_i32_275 c4_i32_273
  let v325 : BitVec 32 := Scalar.remsi v322 v324
  let c0_i32_277 : BitVec 32 := 0#32
  let v327 : BitVec 1 := Scalar.cmpi .slt v325 c0_i32_277
  let c0_i32_278 : BitVec 32 := 0#32
  let v328 : BitVec 1 := Scalar.cmpi .slt v324 c0_i32_278
  let v329 : BitVec 1 := Scalar.xori v327 v328
  let c0_i32_276 : BitVec 32 := 0#32
  let v326 : BitVec 1 := Scalar.cmpi .ne v325 c0_i32_276
  let v330 : BitVec 1 := Scalar.andi v329 v326
  let v331 : BitVec 32 := Scalar.addi v325 v324
  let v332 : BitVec 32 := Scalar.select v330 v331 v325
  let c1_i32_286 : BitVec 32 := 1#32
  let v333 : BitVec 32 := Scalar.muli v332 c1_i32_286
  let v334 : BitVec 32 := Scalar.addi c0_i32_287 v333
  v334.toNat
abbrev stage0_0 : Fin 1 → Memref sig .tc .vmem S2x2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  hamt_1 : (1#32 : BitVec 32).msb = false
  hamt_3 : (3#32 : BitVec 32).msb = false
  inb_S2x2048x512_S2x512x512_0_0_0 : ∀ a, (![0, 0, 0] : Fin 3 → Nat) a + S2x512x512.size a ≤ S2x2048x512.size a
  h_S2x512x512 : 0 < S2x512x512.numel
  shapeCasts_S2x512x512_S2x512x512 : S2x512x512.ShapeCasts S2x512x512
  bitsLt_bf16_f32 : FTy.bits .bf16 < FTy.bits .f32
  reduces_S2x512x512_S2x512 : S2x512x512.Reduces [2] S2x512
  concatenates_S2x512_S2x512_S4x512_d0 : Shape.Concatenates [S2x512, S2x512] S4x512 0
  inb_S4x4x512_S1x4x512_0_0_0 : ∀ a, (![0, 0, 0] : Fin 3 → Nat) a + S1x4x512.size a ≤ S4x4x512.size a
  h_S1x4x512 : 0 < S1x4x512.numel
  shapeCasts_S1x4x512_S4x512 : S1x4x512.ShapeCasts S4x512
  shapeCasts_S4x512_S1x4x512 : S4x512.ShapeCasts S1x4x512
  inb_S4x3_S1x1_0_0 : ∀ a, (![0, 0] : Fin 2 → Nat) a + S1x1.size a ≤ S4x3.size a
  squeezes_S1x1_S_ : S1x1.Squeezes S_
  inb_S4x3_S1x1_0_2 : ∀ a, (![0, 2] : Fin 2 → Nat) a + S1x1.size a ≤ S4x3.size a
  inb_S4x3x4x512_S1x1x4x512_0_2_0_0 : ∀ a, (![0, 2, 0, 0] : Fin 4 → Nat) a + S1x1x4x512.size a ≤ S4x3x4x512.size a
  squeezes_S1x1x4x512_S4x512 : S1x1x4x512.Squeezes S4x512
  squeezes_S1x4x512_S4x512 : S1x4x512.Squeezes S4x512
  inb_S4x3_S1x1_0_1 : ∀ a, (![0, 1] : Fin 2 → Nat) a + S1x1.size a ≤ S4x3.size a
  inb_S4x3x4x512_S1x1x4x512_0_1_0_0 : ∀ a, (![0, 1, 0, 0] : Fin 4 → Nat) a + S1x1x4x512.size a ≤ S4x3x4x512.size a
  inb_S4x3x4x512_S1x1x4x512_0_0_0_0 : ∀ a, (![0, 0, 0, 0] : Fin 4 → Nat) a + S1x1x4x512.size a ≤ S4x3x4x512.size a
  inb_S2x2048x512_S2x512x512_0_512_0 : ∀ a, (![0, 512, 0] : Fin 3 → Nat) a + S2x512x512.size a ≤ S2x2048x512.size a
  inb_S4x4x512_S1x4x512_1_0_0 : ∀ a, (![1, 0, 0] : Fin 3 → Nat) a + S1x4x512.size a ≤ S4x4x512.size a
  inb_S4x3_S1x1_1_0 : ∀ a, (![1, 0] : Fin 2 → Nat) a + S1x1.size a ≤ S4x3.size a
  inb_S4x3_S1x1_1_2 : ∀ a, (![1, 2] : Fin 2 → Nat) a + S1x1.size a ≤ S4x3.size a
  inb_S4x3x4x512_S1x1x4x512_1_2_0_0 : ∀ a, (![1, 2, 0, 0] : Fin 4 → Nat) a + S1x1x4x512.size a ≤ S4x3x4x512.size a
  inb_S4x3_S1x1_1_1 : ∀ a, (![1, 1] : Fin 2 → Nat) a + S1x1.size a ≤ S4x3.size a
  inb_S4x3x4x512_S1x1x4x512_1_1_0_0 : ∀ a, (![1, 1, 0, 0] : Fin 4 → Nat) a + S1x1x4x512.size a ≤ S4x3x4x512.size a
  inb_S4x3x4x512_S1x1x4x512_1_0_0_0 : ∀ a, (![1, 0, 0, 0] : Fin 4 → Nat) a + S1x1x4x512.size a ≤ S4x3x4x512.size a
  inb_S2x2048x512_S2x512x512_0_1024_0 : ∀ a, (![0, 1024, 0] : Fin 3 → Nat) a + S2x512x512.size a ≤ S2x2048x512.size a
  inb_S4x4x512_S1x4x512_2_0_0 : ∀ a, (![2, 0, 0] : Fin 3 → Nat) a + S1x4x512.size a ≤ S4x4x512.size a
  inb_S4x3_S1x1_2_0 : ∀ a, (![2, 0] : Fin 2 → Nat) a + S1x1.size a ≤ S4x3.size a
  inb_S4x3_S1x1_2_2 : ∀ a, (![2, 2] : Fin 2 → Nat) a + S1x1.size a ≤ S4x3.size a
  inb_S4x3x4x512_S1x1x4x512_2_2_0_0 : ∀ a, (![2, 2, 0, 0] : Fin 4 → Nat) a + S1x1x4x512.size a ≤ S4x3x4x512.size a
  inb_S4x3_S1x1_2_1 : ∀ a, (![2, 1] : Fin 2 → Nat) a + S1x1.size a ≤ S4x3.size a
  inb_S4x3x4x512_S1x1x4x512_2_1_0_0 : ∀ a, (![2, 1, 0, 0] : Fin 4 → Nat) a + S1x1x4x512.size a ≤ S4x3x4x512.size a
  inb_S4x3x4x512_S1x1x4x512_2_0_0_0 : ∀ a, (![2, 0, 0, 0] : Fin 4 → Nat) a + S1x1x4x512.size a ≤ S4x3x4x512.size a
  inb_S2x2048x512_S2x512x512_0_1536_0 : ∀ a, (![0, 1536, 0] : Fin 3 → Nat) a + S2x512x512.size a ≤ S2x2048x512.size a
  inb_S4x4x512_S1x4x512_3_0_0 : ∀ a, (![3, 0, 0] : Fin 3 → Nat) a + S1x4x512.size a ≤ S4x4x512.size a
  inb_S4x3_S1x1_3_0 : ∀ a, (![3, 0] : Fin 2 → Nat) a + S1x1.size a ≤ S4x3.size a
  inb_S4x3_S1x1_3_2 : ∀ a, (![3, 2] : Fin 2 → Nat) a + S1x1.size a ≤ S4x3.size a
  inb_S4x3x4x512_S1x1x4x512_3_2_0_0 : ∀ a, (![3, 2, 0, 0] : Fin 4 → Nat) a + S1x1x4x512.size a ≤ S4x3x4x512.size a
  inb_S4x3_S1x1_3_1 : ∀ a, (![3, 1] : Fin 2 → Nat) a + S1x1.size a ≤ S4x3.size a
  inb_S4x3x4x512_S1x1x4x512_3_1_0_0 : ∀ a, (![3, 1, 0, 0] : Fin 4 → Nat) a + S1x1x4x512.size a ≤ S4x3x4x512.size a
  inb_S4x3x4x512_S1x1x4x512_3_0_0_0 : ∀ a, (![3, 0, 0, 0] : Fin 4 → Nat) a + S1x1x4x512.size a ≤ S4x3x4x512.size a
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  shapeCasts_S2x512_S2x1x512 : S2x512.ShapeCasts S2x1x512
  h_S1x1x4x512 : 0 < S1x1x4x512.numel
  shapeCasts_S1x1x4x512_S4x512 : S1x1x4x512.ShapeCasts S4x512
  slices_S4x512_o0_0_S2x512 : S4x512.Slices ![0, 0] S2x512
  slices_S4x512_o2_0_S2x512 : S4x512.Slices ![2, 0] S2x512
  shapeCasts_S2x512_S2x512x1 : S2x512.ShapeCasts S2x512x1
  broadcasts_S2x512x1_S2x512x512 : S2x512x1.Broadcasts S2x512x512
  broadcasts_S2x1x512_S2x512x512 : S2x1x512.Broadcasts S2x512x512
  packedbf16_S2x2048x512_S2x512x512_0_0_0 : (Rect.unit (s := S2x2048x512) ![0, 0, 0] S2x512x512.size inb_S2x2048x512_S2x512x512_0_0_0).PackedRows (EltTy.packing .bf16)
  packedbf16_S2x2048x512_S2x512x512_0_512_0 : (Rect.unit (s := S2x2048x512) ![0, 512, 0] S2x512x512.size inb_S2x2048x512_S2x512x512_0_512_0).PackedRows (EltTy.packing .bf16)
  packedbf16_S2x2048x512_S2x512x512_0_1024_0 : (Rect.unit (s := S2x2048x512) ![0, 1024, 0] S2x512x512.size inb_S2x2048x512_S2x512x512_0_1024_0).PackedRows (EltTy.packing .bf16)
  packedbf16_S2x2048x512_S2x512x512_0_1536_0 : (Rect.unit (s := S2x2048x512) ![0, 1536, 0] S2x512x512.size inb_S2x2048x512_S2x512x512_0_1536_0).PackedRows (EltTy.packing .bf16)
  dot_S2x128_S128x512_S2x512_1_0_0_1_n_n_wf : DotDims.WF S2x128 S128x512 S2x512 [1] [0] [0] [1] [] []
  hcc0_scratch2 : 5 + S4x3.numel ≤ 29
  hcc0_scratch3 : 17 + S4x3.numel ≤ 29
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch2 : DmaSems sig S4x3 := SemArray.consecutive 5 S4x3 hcc0_scratch2
abbrev cc0_scratch3 : DmaSems sig S4x3 := SemArray.consecutive 17 S4x3 hcc0_scratch3
def dot_S2x128_S128x512_S2x512_1_0_0_1_n_n : DotDims S2x128 S128x512 S2x512 where
  lhsContracting := [1]
  rhsContracting := [0]
  lhsNonContracting := [0]
  rhsNonContracting := [1]
  lhsBatch := []
  rhsBatch := []
  wf := dot_S2x128_S128x512_S2x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x2048 : Shape := ⟨3, ![2, 2048, 2048]⟩
abbrev S2x128 : Shape := ⟨2, ![2, 128]⟩
abbrev S128x2048 : Shape := ⟨2, ![128, 2048]⟩
abbrev S_ : Shape := ⟨0, ![]⟩
abbrev S2x2048 : Shape := ⟨2, ![2, 2048]⟩
abbrev S2x2048x1 : Shape := ⟨3, ![2, 2048, 1]⟩
abbrev S2x1x2048 : Shape := ⟨3, ![2, 1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x128, .f32⟩
  | .hbm, ⟨2, _⟩ => ⟨S128x2048, .f32⟩
  | .hbm, ⟨3, _⟩ => ⟨S128x2048, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .i32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x2048, .f32⟩
  | .hbm, ⟨18, _⟩ => ⟨S2x2048x2048, .f32⟩
  | .hbm, ⟨19, _⟩ => ⟨S2x2048x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x2048, .f32⟩
  | .hbm, ⟨35, _⟩ => ⟨S2x2048x2048, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S2x2048x1, .f32⟩
  | .hbm, ⟨40, _⟩ => ⟨S2x2048x2048, .f32⟩
  | .hbm, ⟨41, _⟩ => ⟨S2x2048x2048, .f32⟩
  | .hbm, ⟨42, _⟩ => ⟨S2x2048, .f32⟩
  | .hbm, ⟨43, _⟩ => ⟨S2x2048, .f32⟩
  | .hbm, ⟨44, _⟩ => ⟨S2x1x2048, .f32⟩
  | .hbm, ⟨45, _⟩ => ⟨S_, .f32⟩
  | .hbm, ⟨46, _⟩ => ⟨S2x1x2048, .f32⟩
  | .hbm, ⟨47, _⟩ => ⟨S2x1x2048, .f32⟩
  | .hbm, ⟨48, _⟩ => ⟨S2x2048x2048, .f32⟩
  | .hbm, ⟨49, _⟩ => ⟨S2x2048x2048, .f32⟩
  | .hbm, ⟨50, _⟩ => ⟨S2x1x2048, .f32⟩
  | .hbm, ⟨51, _⟩ => ⟨S2x2048x2048, .f32⟩
  | .hbm, ⟨52, _⟩ => ⟨S2x2048x2048, .f32⟩
  | .hbm, ⟨53, _⟩ => ⟨S2x2048x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]

class Facts₀ : Prop where
  reducesTo_S2x2048x2048_S2x2048_d2 : S2x2048x2048.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x2048_0_1_2 : S2x2048x1.BroadcastsInDim S2x2048x2048 (![0, 1, 2] : Fin 3 → Fin S2x2048x2048.rank)
  bcast_S2x2048_S2x1x2048_0_2 : S2x2048.BroadcastsInDim S2x1x2048 (![0, 2] : Fin 2 → Fin S2x1x2048.rank)
  bcast_S_S2x1x2048 : S_.BroadcastsInDim S2x1x2048 (![] : Fin 0 → Fin S2x1x2048.rank)
  bcast_S2x1x2048_S2x2048x2048_0_1_2 : S2x1x2048.BroadcastsInDim S2x2048x2048 (![0, 1, 2] : Fin 3 → Fin S2x2048x2048.rank)
  bitsLt_bf16_f32 : FTy.bits .bf16 < FTy.bits .f32
  dot_S2x128_S128x2048_S2x2048_1_0_0_1_n_n_wf : DotDims.WF S2x128 S128x2048 S2x2048 [1] [0] [0] [1] [] []

variable [Facts₀]

def dot_S2x128_S128x2048_S2x2048_1_0_0_1_n_n : DotDims S2x128 S128x2048 S2x2048 where
  lhsContracting := [1]
  rhsContracting := [0]
  lhsNonContracting := [0]
  rhsNonContracting := [1]
  lhsBatch := []
  rhsBatch := []
  wf := dot_S2x128_S128x2048_S2x2048_1_0_0_1_n_n_wf

class Facts : Prop extends Facts₀ where

variable [Facts]
-- ==== Proof.RefRun.lean ====
import proofs.«900763_g7700000000000764_dist_diff_adaln_cshard_i_b2_s2048_c512_v7x_i4_bf16_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev zero0 : Vec F S_ .f32 := constant S_ .f32 0x00000000#32

abbrev len0 : Vec F S_ .f32 := constant S_ .f32 0x45000000#32

def mean3 (X : Vec F S2x2048x2048 .f32) : Vec F S2x2048x1 .f32 :=
  Host.divf
    (broadcastInDim S2x2048x1 ![0, 1] bcast_S2x2048_S2x2048x1_0_1
      (Host.reduceAdd X zero0 reducesTo_S2x2048x2048_S2x2048_d2 h_S_))
    (broadcastInDim S2x2048x1 ![] bcast_S_S2x2048x1 len0)

def centered (X : Vec F S2x2048x2048 .f32) : Vec F S2x2048x2048 .f32 :=
  subf X (broadcastInDim S2x2048x2048 ![0, 1, 2] bcast_S2x2048x1_S2x2048x2048_0_1_2 (mean3 X))

def count0 : Vec F S_ .f32 :=
  subf len0 (sitofp .f32 (constantI S_ 32 0#32))

def var3 (X : Vec F S2x2048x2048 .f32) : Vec F S2x2048x1 .f32 :=
  select
    (broadcastInDim S2x2048x1 ![] bcast_S_S2x2048x1 (cmpf .ogt (count0 (F := F)) zero0))
    (Host.divf
      (broadcastInDim S2x2048x1 ![0, 1] bcast_S2x2048_S2x2048x1_0_1
        (Host.reduceAdd (mulf (centered X) (centered X)) zero0 reducesTo_S2x2048x2048_S2x2048_d2 h_S_))
      (broadcastInDim S2x2048x1 ![] bcast_S_S2x2048x1 count0))
    (broadcastInDim S2x2048x1 ![] bcast_S_S2x2048x1 (constant S_ .f32 0x7FC00000#32))

def normed (X : Vec F S2x2048x2048 .f32) : Vec F S2x2048x2048 .f32 :=
  Host.divf (centered X)
    (broadcastInDim S2x2048x2048 ![0, 1, 2] bcast_S2x2048x1_S2x2048x2048_0_1_2
      (Host.sqrt (addf (var3 X) (broadcastInDim S2x2048x1 ![] bcast_S_S2x2048x1 (constant S_ .f32 0x3727C5AC#32)))))

def cond (T : Vec F S2x128 .f32) (W : Vec F S128x2048 .f32) : Vec F S2x1x2048 .f32 :=
  broadcastInDim S2x1x2048 ![0, 2] bcast_S2x2048_S2x1x2048_0_2
    (Host.dotGeneral dot_S2x128_S128x2048_S2x2048_1_0_0_1_n_n none T W)

def scale (T : Vec F S2x128 .f32) (Ws : Vec F S128x2048 .f32) : Vec F S2x2048x2048 .f32 :=
  broadcastInDim S2x2048x2048 ![0, 1, 2] bcast_S2x1x2048_S2x2048x2048_0_1_2
    (addf (broadcastInDim S2x1x2048 ![] bcast_S_S2x1x2048 (constant S_ .f32 0x3F800000#32)) (cond T Ws))

def shift (T : Vec F S2x128 .f32) (Wsh : Vec F S128x2048 .f32) : Vec F S2x2048x2048 .f32 :=
  broadcastInDim S2x2048x2048 ![0, 1, 2] bcast_S2x1x2048_S2x2048x2048_0_1_2 (cond T Wsh)

def refOut (X : Vec F S2x2048x2048 .f32) (T : Vec F S2x128 .f32) (Ws Wsh : Vec F S128x2048 .f32) :
    Vec F S2x2048x2048 .bf16 :=
  truncf .bf16 (addf (mulf (normed X) (scale T Ws)) (shift T Wsh)) bitsLt_bf16_f32

abbrev ops : List (HloOp τ sig (Elt F)) :=
  [ nullary main_cst (constant S_ .f32 0x00000000#32),
    binary main_arg0 main_cst main_v0 ((fun x v => Host.reduceAdd x v reducesTo_S2x2048x2048_S2x2048_d2 h_S_) : (⟨S2x2048x2048, .f32⟩ : BufTy).Contents (Elt F) → (⟨S_, .f32⟩ : BufTy).Contents (Elt F) → (⟨S2x2048, .f32⟩ : BufTy).Contents (Elt F)),
    unary main_v0 main_v1 (broadcastInDim S2x2048x1 ![0, 1] bcast_S2x2048_S2x2048x1_0_1 : (⟨S2x2048, .f32⟩ : BufTy).Contents (Elt F) → (⟨S2x2048x1, .f32⟩ : BufTy).Contents (Elt F)),
    nullary main_cst_0 (constant S_ .f32 0x45000000#32),
    unary main_cst_0 main_v2 (broadcastInDim S2x2048x1 ![] bcast_S_S2x2048x1 : (⟨S_, .f32⟩ : BufTy).Contents (Elt F) → (⟨S2x2048x1, .f32⟩ : BufTy).Contents (Elt F)),
    binary main_v1 main_v2 main_v3 (Host.divf : (⟨S2x2048x1, .f32⟩ : BufTy).Contents (Elt F) → (⟨S2x2048x1, .f32⟩ : BufTy).Contents (Elt F) → (⟨S2x2048x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S2x2048x2048_S2x2048_d2 h_S_),
    TRef.unary main_call0.v0 main_call0.v1 (broadcastInDim S2x2048x1 ![0, 1] bcast_S2x2048_S2x2048x1_0_1),
    TRef.nullary main_call0.cst_0 (constant S_ .f32 0x45000000#32),
    TRef.unary main_call0.cst_0 main_call0.v2 (broadcastInDim S2x2048x1 ![] bcast_S_S2x2048x1),
    TRef.binary main_call0.v1 main_call0.v2 main_call0.v3 Host.divf,
    TRef.unary main_call0.v3 main_call0.v4 (broadcastInDim S2x2048x2048 ![0, 1, 2] bcast_S2x2048x1_S2x2048x2048_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x45000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S2x2048x2048_S2x2048_d2 h_S_),
    TRef.unary main_call0.v9 main_call0.v10 (broadcastInDim S2x2048x1 ![0, 1] bcast_S2x2048_S2x2048x1_0_1),
    TRef.unary main_call0.v8 main_call0.v11 (broadcastInDim S2x2048x1 ![] bcast_S_S2x2048x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S2x2048x1 ![] bcast_S_S2x2048x1),
    TRef.ternary main_call0.v13 main_call0.v12 main_call0.call0.v1 main_call0.call0.v2 (fun p a b => select (broadcastInDim S2x2048x1 ![] bcast_S_S2x2048x1 p) a b),
    unary main_v3 main_v5 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_arg0 main_v5 main_v6 (subf : (⟨S2x2048x2048, .f32⟩ : BufTy).Contents (Elt F) → (⟨S2x2048x2048, .f32⟩ : BufTy).Contents (Elt F) → (⟨S2x2048x2048, .f32⟩ : BufTy).Contents (Elt F)),
    nullary main_cst_1 (constant S_ .f32 0x3727C5AC#32),
    unary main_cst_1 main_v7 (broadcastInDim S2x2048x1 ![] bcast_S_S2x2048x1 : (⟨S_, .f32⟩ : BufTy).Contents (Elt F) → (⟨S2x2048x1, .f32⟩ : BufTy).Contents (Elt F)),
    binary main_v4 main_v7 main_v8 (addf : (⟨S2x2048x1, .f32⟩ : BufTy).Contents (Elt F) → (⟨S2x2048x1, .f32⟩ : BufTy).Contents (Elt F) → (⟨S2x2048x1, .f32⟩ : BufTy).Contents (Elt F)),
    unary main_v8 main_v9 (Host.sqrt : (⟨S2x2048x1, .f32⟩ : BufTy).Contents (Elt F) → (⟨S2x2048x1, .f32⟩ : BufTy).Contents (Elt F)),
    unary main_v9 main_v10 (broadcastInDim S2x2048x2048 ![0, 1, 2] bcast_S2x2048x1_S2x2048x2048_0_1_2 : (⟨S2x2048x1, .f32⟩ : BufTy).Contents (Elt F) → (⟨S2x2048x2048, .f32⟩ : BufTy).Contents (Elt F)),
    binary main_v6 main_v10 main_v11 (Host.divf : (⟨S2x2048x2048, .f32⟩ : BufTy).Contents (Elt F) → (⟨S2x2048x2048, .f32⟩ : BufTy).Contents (Elt F) → (⟨S2x2048x2048, .f32⟩ : BufTy).Contents (Elt F)),
    binary main_arg1 main_arg2 main_v12 ((fun l r => Host.dotGeneral dot_S2x128_S128x2048_S2x2048_1_0_0_1_n_n none l r) : (⟨S2x128, .f32⟩ : BufTy).Contents (Elt F) → (⟨S128x2048, .f32⟩ : BufTy).Contents (Elt F) → (⟨S2x2048, .f32⟩ : BufTy).Contents (Elt F)),
    binary main_arg1 main_arg3 main_v13 ((fun l r => Host.dotGeneral dot_S2x128_S128x2048_S2x2048_1_0_0_1_n_n none l r) : (⟨S2x128, .f32⟩ : BufTy).Contents (Elt F) → (⟨S128x2048, .f32⟩ : BufTy).Contents (Elt F) → (⟨S2x2048, .f32⟩ : BufTy).Contents (Elt F)),
    unary main_v12 main_v14 (broadcastInDim S2x1x2048 ![0, 2] bcast_S2x2048_S2x1x2048_0_2 : (⟨S2x2048, .f32⟩ : BufTy).Contents (Elt F) → (⟨S2x1x2048, .f32⟩ : BufTy).Contents (Elt F)),
    nullary main_cst_2 (constant S_ .f32 0x3F800000#32),
    unary main_cst_2 main_v15 (broadcastInDim S2x1x2048 ![] bcast_S_S2x1x2048 : (⟨S_, .f32⟩ : BufTy).Contents (Elt F) → (⟨S2x1x2048, .f32⟩ : BufTy).Contents (Elt F)),
    binary main_v15 main_v14 main_v16 (addf : (⟨S2x1x2048, .f32⟩ : BufTy).Contents (Elt F) → (⟨S2x1x2048, .f32⟩ : BufTy).Contents (Elt F) → (⟨S2x1x2048, .f32⟩ : BufTy).Contents (Elt F)),
    unary main_v16 main_v17 (broadcastInDim S2x2048x2048 ![0, 1, 2] bcast_S2x1x2048_S2x2048x2048_0_1_2 : (⟨S2x1x2048, .f32⟩ : BufTy).Contents (Elt F) → (⟨S2x2048x2048, .f32⟩ : BufTy).Contents (Elt F)),
    binary main_v11 main_v17 main_v18 (mulf : (⟨S2x2048x2048, .f32⟩ : BufTy).Contents (Elt F) → (⟨S2x2048x2048, .f32⟩ : BufTy).Contents (Elt F) → (⟨S2x2048x2048, .f32⟩ : BufTy).Contents (Elt F)),
    unary main_v13 main_v19 (broadcastInDim S2x1x2048 ![0, 2] bcast_S2x2048_S2x1x2048_0_2 : (⟨S2x2048, .f32⟩ : BufTy).Contents (Elt F) → (⟨S2x1x2048, .f32⟩ : BufTy).Contents (Elt F)),
    unary main_v19 main_v20 (broadcastInDim S2x2048x2048 ![0, 1, 2] bcast_S2x1x2048_S2x2048x2048_0_1_2 : (⟨S2x1x2048, .f32⟩ : BufTy).Contents (Elt F) → (⟨S2x2048x2048, .f32⟩ : BufTy).Contents (Elt F)),
    binary main_v18 main_v20 main_v21 (addf : (⟨S2x2048x2048, .f32⟩ : BufTy).Contents (Elt F) → (⟨S2x2048x2048, .f32⟩ : BufTy).Contents (Elt F) → (⟨S2x2048x2048, .f32⟩ : BufTy).Contents (Elt F)),
    unary main_v21 main_v22 ((truncf .bf16 · bitsLt_bf16_f32) : (⟨S2x2048x2048, .f32⟩ : BufTy).Contents (Elt F) → (⟨S2x2048x2048, .bf16⟩ : BufTy).Contents (Elt F)) ]

set_option maxRecDepth 2048 in

theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., binary_bufs_sub .., binary_bufs_sub .., unary_bufs_sub .., nullary_bufs_sub ..,
    unary_bufs_sub .., binary_bufs_sub .., unary_bufs_sub .., binary_bufs_sub .., unary_bufs_sub .., unary_bufs_sub ..,
    binary_bufs_sub .., unary_bufs_sub ..⟩

theorem out_eq (V : Valuation τ sig (Elt F)) :
    after ops V (main_v22 : DevRef τ sig)
      = refOut (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v22)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v22).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.KernelIdeal.Sched.lean ====
import proofs.«900763_g7700000000000764_dist_diff_adaln_cshard_i_b2_s2048_c512_v7x_i4_bf16_1_alg».proof.Proof.Gen.KernelIdeal
import proofs.«900763_g7700000000000764_dist_diff_adaln_cshard_i_b2_s2048_c512_v7x_i4_bf16_1_alg».proof.Proof.Gen.KernelIdeal.Skeleton
import proofs.«900763_g7700000000000764_dist_diff_adaln_cshard_i_b2_s2048_c512_v7x_i4_bf16_1_alg».proof.Proof.Gen.KernelIdeal.Launch
import proofs.«900763_g7700000000000764_dist_diff_adaln_cshard_i_b2_s2048_c512_v7x_i4_bf16_1_alg».proof.Proof.Gen.KernelIdeal.Points
import Idealize.ShloMosaic.Lib.Pipeline.Launch
import Idealize.ShloMosaic.Lib.Pipeline.Kit
import Idealize.ShloMosaic.Lib.Pipeline.FrameBody
import Idealize.ShloMosaic.Lib.Pipeline.Value
import Idealize.ShloMosaic.Lib.Tactic

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

def sh (c : Dev nD) (d : ℕ) : Dev nD := ⟨(c.val + d) % 4, Nat.mod_lt _ (by decide)⟩

theorem sh_sh (c : Dev nD) (a b : ℕ) : sh (sh c a) b = sh c (a + b) := by
  apply Fin.ext; show ((c.val + a) % 4 + b) % 4 = (c.val + (a + b)) % 4; omega
theorem sh_four (c : Dev nD) : sh c 4 = c := by revert c; decide
theorem dev1_eq (c : Dev nD) : (⟨k0_dev1 c, k0_dev1_lt c⟩ : Dev nD) = sh c 1 := by revert c; decide +kernel
theorem dev2_eq (c : Dev nD) : (⟨k0_dev2 c, k0_dev2_lt c⟩ : Dev nD) = sh c 2 := by revert c; decide +kernel
theorem dev3_eq (c : Dev nD) : (⟨k0_dev3 c, k0_dev3_lt c⟩ : Dev nD) = sh c 3 := by revert c; decide +kernel

abbrev xM : Memref sig .tc .vmem S2x2048x512 .f32 := Memref.whole cc0_stg0_0
abbrev tM : Memref sig .tc .vmem S2x128 .f32 := Memref.whole cc0_stg1_0
abbrev wsM : Memref sig .tc .vmem S128x512 .f32 := Memref.whole cc0_stg2_0
abbrev wshM : Memref sig .tc .vmem S128x512 .f32 := Memref.whole cc0_stg3_0
abbrev oM : Memref sig .tc .vmem S2x2048x512 .bf16 := Memref.whole cc0_stg4_0

abbrev ownM : Memref sig .tc .vmem S4x4x512 .f32 := Memref.whole cc0_scratch0

abbrev commM : Memref sig .tc .vmem S4x3x4x512 .f32 := Memref.whole cc0_scratch1

theorem x_inb : ∀ (h : Fin 4) a, (![0, 512 * h.val, 0] : Fin 3 → Nat) a + S2x512x512.size a ≤ S2x2048x512.size a := by decide
theorem own_inb : ∀ (h : Fin 4) a, (![h.val, 0, 0] : Fin 3 → Nat) a + S1x4x512.size a ≤ S4x4x512.size a := by decide
theorem slot_inb : ∀ (h : Fin 4) (j : Fin 3) a, (![h.val, j.val, 0, 0] : Fin 4 → Nat) a + S1x1x4x512.size a ≤ S4x3x4x512.size a := by decide
theorem sem_inb : ∀ (h : Fin 4) (j : Fin 3) a, (![h.val, j.val] : Fin 2 → Nat) a + S1x1.size a ≤ S4x3.size a := by decide

abbrev xRect (h : Fin 4) : Rect S2x2048x512 := Rect.unit (s := S2x2048x512) ![0, 512 * h.val, 0] S2x512x512.size (x_inb h)

abbrev ownRect (h : Fin 4) : Rect S4x4x512 := Rect.unit (s := S4x4x512) ![h.val, 0, 0] S1x4x512.size (own_inb h)

abbrev slotRect (h : Fin 4) (j : Fin 3) : Rect S4x3x4x512 := Rect.unit (s := S4x3x4x512) ![h.val, j.val, 0, 0] S1x1x4x512.size (slot_inb h j)

abbrev ownSl (h : Fin 4) : Memref sig .tc .vmem S4x512 .f32 :=
  (ownM.slice (ownRect h) (fun _ => rfl)).squeeze S4x512 squeezes_S1x4x512_S4x512

abbrev commSl (h : Fin 4) (j : Fin 3) : Memref sig .tc .vmem S4x512 .f32 :=
  (commM.slice (slotRect h j) (fun _ => rfl)).squeeze S4x512 squeezes_S1x1x4x512_S4x512

abbrev barS : Sem sig := (SemArray.scalar (sig.barrier 0 rfl) : Sems sig S_).sem

abbrev sendSem (h : Fin 4) (e : Fin 3) : DmaSem sig :=
  ((cc0_scratch2.slice (Rect.unit (s := S4x3) ![h.val, e.val] S1x1.size (sem_inb h e))).squeeze S_ squeezes_S1x1_S_).sem

abbrev recvSem (h : Fin 4) (j : Fin 3) : DmaSem sig :=
  ((cc0_scratch3.slice (Rect.unit (s := S4x3) ![h.val, j.val] S1x1.size (sem_inb h j))).squeeze S_ squeezes_S1x1_S_).sem

theorem sendSem_val (h : Fin 4) (e : Fin 3) : (sendSem h e).val = 5 + 3 * h.val + e.val := by revert h e; decide
theorem recvSem_val (h : Fin 4) (j : Fin 3) : (recvSem h j).val = 17 + 3 * h.val + j.val := by revert h j; decide

abbrev barCell (c : Dev nD) : GSem nD τ sig := ((c : Thread nD τ), .reg barS)
abbrev sendCell (c : Dev nD) (h : Fin 4) (e : Fin 3) : GSem nD τ sig := ((c : Thread nD τ), .dma (sendSem h e))
abbrev recvCell (c : Dev nD) (h : Fin 4) (j : Fin 3) : GSem nD τ sig := ((c : Thread nD τ), .dma (recvSem h j))

abbrev N : ℕ := (commSl 0 0).view.dmaCredit
theorem N_pos : 0 < N := View.dmaCredit_pos _ (by decide)

def xstg (c : Dev nD) : (cc0_stg0_0 : Ref sig .tc).ty.Contents (Elt F) :=
  (win0_0.blk (0 : Fin 1)).view.read (Elt F) (m ((c : Thread nD τ).loc main_arg0))
def tstg (c : Dev nD) : (cc0_stg1_0 : Ref sig .tc).ty.Contents (Elt F) :=
  (win0_1.blk (0 : Fin 1)).view.read (Elt F) (m ((c : Thread nD τ).loc main_arg1))
def wsstg (c : Dev nD) : (cc0_stg2_0 : Ref sig .tc).ty.Contents (Elt F) :=
  (win0_2.blk (0 : Fin 1)).view.read (Elt F) (m ((c : Thread nD τ).loc main_arg2))
def wshstg (c : Dev nD) : (cc0_stg3_0 : Ref sig .tc).ty.Contents (Elt F) :=
  (win0_3.blk (0 : Fin 1)).view.read (Elt F) (m ((c : Thread nD τ).loc main_arg3))

def xrow (c : Dev nD) (h : Fin 4) : Vec F S2x512x512 .f32 :=
  (xM : Memref sig .tc .vmem S2x2048x512 .f32).view.readAt (Elt F) (xRect h).toLoadRect (xstg m c)

def ownV (c : Dev nD) : Fin 4 → FVec F S1x4x512 .f32
  | ⟨0, _⟩ => k0_pay1 (xrow m c 0)
  | ⟨1, _⟩ => k0_pay5 (k0_pay3 (xrow m c 1)) (k0_pay4 (xrow m c 1))
  | ⟨2, _⟩ => k0_pay6 (xrow m c 2)
  | ⟨3, _⟩ => k0_pay8 (k0_pay7 (xrow m c 3))
  | ⟨_ + 4, hh⟩ => absurd hh (by omega)

theorem shapeCasts_S4x512_S1x1x4x512 : S4x512.ShapeCasts S1x1x4x512 := by decide

def commV (c : Dev nD) (h : Fin 4) (j : Fin 3) : Vec F S1x1x4x512 .f32 :=
  shapeCast S1x1x4x512 (shapeCast S4x512 (ownV m (sh c (j.val + 1)) h) shapeCasts_S1x4x512_S4x512) shapeCasts_S4x512_S1x1x4x512

def slotPts (c : Dev nD) (h : Fin 4) (j : Fin 3) (g : Buf (Elt F) ((commSl h j).view.loc (c : Thread nD τ))) : sProp 𝕄 :=
  (commSl h j).view.loc (c : Thread nD τ) ↦[(commSl h j).view.set]{fullShare} g

def slotFree (c : Dev nD) (h : Fin 4) (j : Fin 3) : sProp 𝕄 := iprop(∃ g, slotPts c h j g)

def slotLanded (c : Dev nD) (h : Fin 4) (j : Fin 3) : sProp 𝕄 :=
  iprop(∃ g, ⌜(commM : Memref sig .tc .vmem S4x3x4x512 .f32).view.readAt (Elt F) (slotRect h j).toLoadRect g = commV m c h j⌝ ∗ slotPts c h j g)

def ownPts (c : Dev nD) (h : Fin 4) (q : PosShare TreeShare) (f : Buf (Elt F) ((ownSl h).view.loc (c : Thread nD τ))) : sProp 𝕄 :=
  (ownSl h).view.loc (c : Thread nD τ) ↦[(ownSl h).view.set]{q} f

def ownHeld (c : Dev nD) (h : Fin 4) (q : PosShare TreeShare) : sProp 𝕄 :=
  iprop(∃ f, ⌜(ownM : Memref sig .tc .vmem S4x4x512 .f32).view.readAt (Elt F) (ownRect h).toLoadRect f = ownV m c h⌝ ∗ ownPts c h q f)

def qLent : Fin 3 → PosShare TreeShare
  | ⟨0, _⟩ => fullShare.left.left
  | ⟨1, _⟩ => fullShare.left.right
  | ⟨2, _⟩ => fullShare.right.left
  | ⟨_ + 3, hj⟩ => absurd hj (by omega)
abbrev qKept : PosShare TreeShare := fullShare.right.right

def barPay (c : Dev nD) (e : Fin 3) : sProp 𝕄 :=
  iprop((slotFree (sh c (3 - e.val)) 0 e ∗ reached ER (recvCell (sh c (3 - e.val)) 0 e) 0)
    ∗ (slotFree (sh c (3 - e.val)) 1 e ∗ reached ER (recvCell (sh c (3 - e.val)) 1 e) 0)
    ∗ (slotFree (sh c (3 - e.val)) 2 e ∗ reached ER (recvCell (sh c (3 - e.val)) 2 e) 0)
    ∗ (slotFree (sh c (3 - e.val)) 3 e ∗ reached ER (recvCell (sh c (3 - e.val)) 3 e) 0))

def sendPay (c : Dev nD) (h : Fin 4) (e : Fin 3) : sProp 𝕄 := ownHeld m c h (qLent e)
def recvPay (c : Dev nD) (h : Fin 4) (j : Fin 3) : sProp 𝕄 := slotLanded m c h j

def dmaPay (c : Dev nD) (n : ℕ) : sProp 𝕄 :=
  if h1 : 5 ≤ n ∧ n < 17 then sendPay m c ⟨(n - 5) / 3, by omega⟩ ⟨(n - 5) % 3, Nat.mod_lt _ (by decide)⟩
  else if h2 : 17 ≤ n ∧ n < 29 then recvPay m c ⟨(n - 17) / 3, by omega⟩ ⟨(n - 17) % 3, Nat.mod_lt _ (by decide)⟩
  else iprop(emp)

def ringRd : Rounds.Schedule (GSem nD τ sig) (Fin 3) 𝕄 where
  duties g r := if r = 0 then (match g.2 with | .reg _ => Finset.univ | .dma s => if 5 ≤ s.val then {0} else ∅) else ∅
  unitless _ := False
  amount g _ _ := match g.2 with | .reg _ => 1 | .dma _ => N
  payload g _ d := match g.2 with | .reg _ => barPay g.1.1 d | .dma s => dmaPay m g.1.1 s.val
  amount_pos g _ _ _ := by
    cases hg : g.2 with
    | reg s => simp only [hg]; exact Nat.one_pos
    | dma s => simp only [hg]; exact N_pos

def tload (c : Dev nD) : Vec F S2x128 .f32 :=
  (tM : Memref sig .tc .vmem S2x128 .f32).view.readAt (Elt F) (Rect.unit (s := S2x128) ![0, 0] S2x128.size inb_S2x128_S2x128_0_0).toLoadRect (tstg m c)
def wsload (c : Dev nD) : Vec F S128x512 .f32 :=
  (wsM : Memref sig .tc .vmem S128x512 .f32).view.readAt (Elt F) (Rect.unit (s := S128x512) ![0, 0] S128x512.size inb_S128x512_S128x512_0_0).toLoadRect (wsstg m c)
def wshload (c : Dev nD) : Vec F S128x512 .f32 :=
  (wshM : Memref sig .tc .vmem S128x512 .f32).view.readAt (Elt F) (Rect.unit (s := S128x512) ![0, 0] S128x512.size inb_S128x512_S128x512_0_0).toLoadRect (wshstg m c)

def scV (c : Dev nD) : FVec F S2x1x512 .bf16 := k0_pay10 (tload m c) (wsload m c)
def shV (c : Dev nD) : FVec F S2x1x512 .bf16 := k0_pay11 (tload m c) (wshload m c)

def outV (c : Dev nD) : Fin 4 → FVec F S2x512x512 .bf16
  | ⟨0, _⟩ => k0_pay13 (scV m c) (shV m c) (k0_pay12 (ownV m c 0) (commV m c 0 0) (commV m c 0 1)) (commV m c 0 2) (xrow m c 0)
  | ⟨1, _⟩ => k0_pay15 (scV m c) (shV m c) (k0_pay14 (ownV m c 1) (commV m c 1 0)) (commV m c 1 1) (commV m c 1 2) (xrow m c 1)
  | ⟨2, _⟩ => k0_pay16 (scV m c) (shV m c) (ownV m c 2) (commV m c 2 0) (commV m c 2 1) (commV m c 2 2) (xrow m c 2)
  | ⟨3, _⟩ => k0_pay18 (scV m c) (shV m c) (k0_pay17 (ownV m c 3) (commV m c 3 0) (commV m c 3 1) (commV m c 3 2) (xrow m c 3))
  | ⟨_ + 4, hh⟩ => absurd hh (by omega)

def outBlk (c : Dev nD) : (cc0_stg4_0 : Ref sig .tc).ty.Contents (Elt F) :=
  View.canon [⟨xRect 3, outV m c 3⟩, ⟨xRect 2, outV m c 2⟩, ⟨xRect 1, outV m c 1⟩, ⟨xRect 0, outV m c 0⟩]

def acts (c : Dev nD) : List (GSem nD τ sig × ℕ) :=
  [(barCell (sh c 1), 1), (barCell (sh c 2), 1), (barCell (sh c 3), 1),
   (recvCell (sh c 1) 0 2, N), (recvCell (sh c 2) 0 1, N), (recvCell (sh c 3) 0 0, N),
   (recvCell (sh c 1) 1 2, N), (recvCell (sh c 2) 1 1, N), (recvCell (sh c 3) 1 0, N),
   (recvCell (sh c 1) 2 2, N), (recvCell (sh c 2) 2 1, N), (recvCell (sh c 3) 2 0, N),
   (recvCell (sh c 1) 3 2, N), (recvCell (sh c 2) 3 1, N), (recvCell (sh c 3) 3 0, N)]

def owedFor : List (GSem nD τ sig × ℕ) → CellTallies nD τ sig Unit
  | [] => 0
  | a :: l => owedFor l + tallyAt a.1 () a.2
def O₀ (c : Dev nD) : CellTallies nD τ sig Unit := owedFor (acts c)

def L (g : GSem nD τ sig) : Finset Unit := if g.1.2 = .tc then {()} else ∅

def lv (g : GSem nD τ sig) (_ : Unit) : ℕ := match g.2 with | .reg _ => 1 | .dma s => if 17 ≤ s.val then 2 else 0

abbrev csem (k : Fin 25) : SemLoc sig := if k.val = 0 then .reg barS else .dma ⟨k.val + 4, by have := k.isLt; show k.val + 4 < 29; omega⟩
abbrev kcell (ck : Dev nD × Fin 25) : GSem nD τ sig := ((ck.1 : Thread nD τ), csem ck.2)

def records (K : Dev nD × Fin 25 → ℕ) : sProp 𝕄 :=
  iprop((bigSep Finset.univ fun ck : Dev nD × Fin 25 => cellInv ER (ringRd m) (K ck) (kcell ck))
    ∗ bigSep Finset.univ fun ck : Dev nD × Fin 25 => reached ER (kcell ck) 0)

def payToks (c : Dev nD) : sProp 𝕄 :=
  iprop((bigSep Finset.univ fun e : Fin 3 => dutyTok ER (barCell (sh c (e.val + 1))) 0 e)
    ∗ (bigSep Finset.univ fun he : Fin 4 × Fin 3 => dutyTok ER (recvCell (sh c (he.2.val + 1)) he.1 ⟨2 - he.2.val, by omega⟩) 0 0)
    ∗ (bigSep Finset.univ fun he : Fin 4 × Fin 3 => dutyTok ER (sendCell c he.1 he.2) 0 0))

def positions (c : Dev nD) : sProp 𝕄 := bigSep Finset.univ fun k : Fin 25 => atPos ER (kcell (c, k)) 0 ∅ 0

def ghost (K : Dev nD × Fin 25 → ℕ) (c : Dev nD) : sProp 𝕄 := iprop(records m K ∗ positions c ∗ payToks c)

def start (c : Dev nD) : sProp 𝕄 :=
  iprop((∃ K, ghost m K c) ∗ cred (tallyAt (barCell c) () 3)
    ∗ (bigSep Finset.univ fun hj : Fin 4 × Fin 3 => cred (tallyAt (recvCell c hj.1 hj.2) () N)) ∗ levAts L lv)

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun he : Fin 4 × Fin 3 => semVal (sendCell c he.1 he.2) 0)
    ∗ (bigSep Finset.univ fun hj : Fin 4 × Fin 3 => semVal (recvCell c hj.1 hj.2) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => tstg m c
    | ⟨2, _⟩ => wsstg m c
    | ⟨3, _⟩ => wshstg m c
    | ⟨4, _⟩ => outBlk m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem bigSep_fin3 (Φ : Fin 3 → sProp 𝕄) : bigSep Finset.univ Φ = iprop(Φ 0 ∗ Φ 1 ∗ Φ 2) := bigSep_univ_eq_bigSepL [0, 1, 2] (by decide) (by decide) Φ

end Cert.KernelIdeal.Coll

end
-- ==== Proof.RefValue.lean ====
import proofs.«900763_g7700000000000764_dist_diff_adaln_cshard_i_b2_s2048_c512_v7x_i4_bf16_1_alg».proof.Proof.RefRun
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember
import Mathlib.Data.EReal.Basic
import Mathlib.Data.EReal.Operations
import Mathlib.Tactic.NormNum

noncomputable section

open scoped BigOperators

namespace Cert.ReferenceIdeal.RefValue

open Cert.ReferenceIdeal Cert.ReferenceIdeal.Gen Cert.ReferenceIdeal.RefRun Idealize.ShloMosaic Idealize.ShloMosaic.ValueIdx

theorem bcastRow_apply (v : Vec Ideal S2x2048x1 .f32) (b : Fin 2) (s : Fin 2048) (j : Fin 2048) :
    broadcastInDim S2x2048x2048 ![0, 1, 2] bcast_S2x2048x1_S2x2048x2048_0_1_2 v (ix3 b s j) = v (ix3 b s 0) :=
  broadcastInDim_apply _ _ v _ (ix3 b s 0) (fun a => by
    match a with
    | ⟨0, _⟩ => rfl
    | ⟨1, _⟩ => rfl
    | ⟨2, _⟩ => rfl)

theorem bcastUnit_apply (v : Vec Ideal S2x2048 .f32) (b : Fin 2) (s : Fin 2048) (z : Fin 1) :
    broadcastInDim S2x2048x1 ![0, 1] bcast_S2x2048_S2x2048x1_0_1 v (ix3 b s z) = v (ix2 b s) :=
  broadcastInDim_apply _ _ v _ (ix2 b s) (fun a => by
    match a with
    | ⟨0, _⟩ => rfl
    | ⟨1, _⟩ => rfl)

theorem bcastMid_apply (v : Vec Ideal S2x2048 .f32) (b : Fin 2) (z : Fin 1) (j : Fin 2048) :
    broadcastInDim S2x1x2048 ![0, 2] bcast_S2x2048_S2x1x2048_0_2 v (ix3 b z j) = v (ix2 b j) :=
  broadcastInDim_apply _ _ v _ (ix2 b j) (fun a => by
    match a with
    | ⟨0, _⟩ => rfl
    | ⟨1, _⟩ => rfl)

theorem bcastCol_apply (v : Vec Ideal S2x1x2048 .f32) (b : Fin 2) (s : Fin 2048) (j : Fin 2048) :
    broadcastInDim S2x2048x2048 ![0, 1, 2] bcast_S2x1x2048_S2x2048x2048_0_1_2 v (ix3 b s j) = v (ix3 b 0 j) :=
  broadcastInDim_apply _ _ v _ (ix3 b 0 j) (fun a => by
    match a with
    | ⟨0, _⟩ => rfl
    | ⟨1, _⟩ => rfl
    | ⟨2, _⟩ => rfl)

theorem rowSum_apply (Y : Vec Ideal S2x2048x2048 .f32) (b : Fin 2) (s : Fin 2048) :
    Host.reduceAdd (F := Ideal) (φ := .f32) Y (zero0 (F := Ideal)) reducesTo_S2x2048x2048_S2x2048_d2 h_S_ (ix2 b s)
      = 0 + ∑ i : Fin 2048, Y (ix3 b s i) := by
  have h : S2x2048x2048.Reduces [2] S2x2048 := by decide
  rw [hostReduceAdd_apply, Ideal.hostReduceAdd_single reducesTo_S2x2048x2048_S2x2048_d2 h]
  show Ideal.ofBits .f32 0x00000000#32 + _ = _
  rw [Ideal.ofBits_zero_f32]
  refine congrArg (0 + ·) (Finset.sum_congr rfl fun i _ => congrArg Y ?_)
  funext a
  match a with
  | ⟨0, _⟩ => rfl
  | ⟨1, _⟩ => rfl
  | ⟨2, _⟩ => rfl

theorem dot_apply (T : Vec Ideal S2x128 .f32) (W : Vec Ideal S128x2048 .f32) (b : Fin 2) (j : Fin 2048) :
    Host.dotGeneral (F := Ideal) (φ₁ := .f32) (φ₂ := .f32) dot_S2x128_S128x2048_S2x2048_1_0_0_1_n_n none T W (ix2 b j)
      = ∑ k : Fin 128, T (ix2 b k) * W (ix2 k j) :=
  StackMember.dotGeneral_plain_apply (m := 2) (n := 2048) (k := 128) none T W b j

theorem ofBits_f32_2048 : Ideal.ofBits .f32 0x45000000#32 = ((2048 : ℝ) : EReal) := by
  simp [Ideal.ofBits, Ideal.ieee, -EReal.coe_mul]; norm_num

theorem count0_apply (i : S_.Idx) : count0 (F := Ideal) i = Ideal.ofBits .f32 0x45000000#32 := by
  show Ideal.ofBits .f32 0x45000000#32 - (((0#32 : BitVec 32).toInt : ℝ) : EReal) = _
  simp

theorem guard_apply (i : S_.Idx) :
    cmpf (F := Ideal) (φ := .f32) .ogt (count0 (F := Ideal)) (zero0 (F := Ideal)) i = 1#1 := by
  show Ideal.cmp .ogt (count0 (F := Ideal) i) (Ideal.ofBits .f32 0x00000000#32) = 1#1
  rw [count0_apply, Ideal.ofBits_zero_f32, ofBits_f32_2048]
  have h : (0 : EReal) < ((2048 : ℝ) : EReal) := EReal.coe_pos.mpr (by norm_num)
  simp [Ideal.cmp, h]

theorem mean3_apply (X : Vec Ideal S2x2048x2048 .f32) (b : Fin 2) (s : Fin 2048) (z : Fin 1) :
    mean3 (F := Ideal) X (ix3 b s z)
      = Ideal.div (0 + ∑ i : Fin 2048, X (ix3 b s i)) (Ideal.ofBits .f32 0x45000000#32) := by
  unfold mean3
  rw [hostDivf_apply, bcastUnit_apply, rowSum_apply, broadcastInDim_scalar_apply]
  rfl

theorem centered_apply (X : Vec Ideal S2x2048x2048 .f32) (b : Fin 2) (s : Fin 2048) (j : Fin 2048) :
    centered (F := Ideal) X (ix3 b s j) = X (ix3 b s j) - mean3 (F := Ideal) X (ix3 b s 0) := by
  unfold centered
  rw [subf_apply, bcastRow_apply]

theorem var3_apply (X : Vec Ideal S2x2048x2048 .f32) (b : Fin 2) (s : Fin 2048) (z : Fin 1) :
    var3 (F := Ideal) X (ix3 b s z)
      = Ideal.div (0 + ∑ i : Fin 2048, centered (F := Ideal) X (ix3 b s i) * centered (F := Ideal) X (ix3 b s i))
          (Ideal.ofBits .f32 0x45000000#32) := by
  unfold var3
  rw [select_apply, broadcastInDim_scalar_apply, guard_apply, select_one, hostDivf_apply, bcastUnit_apply,
    rowSum_apply, broadcastInDim_scalar_apply, count0_apply]
  rfl

theorem normed_apply (X : Vec Ideal S2x2048x2048 .f32) (b : Fin 2) (s : Fin 2048) (j : Fin 2048) :
    normed (F := Ideal) X (ix3 b s j)
      = Ideal.div (centered (F := Ideal) X (ix3 b s j))
          (Ideal.sqrt (var3 (F := Ideal) X (ix3 b s 0) + Ideal.ofBits .f32 0x3727C5AC#32)) := by
  unfold normed
  rw [hostDivf_apply, bcastRow_apply]
  show Ideal.div _ (Ideal.sqrt (var3 (F := Ideal) X (ix3 b s 0)
    + broadcastInDim S2x2048x1 ![] bcast_S_S2x2048x1 (constant (F := Ideal) S_ .f32 0x3727C5AC#32) (ix3 b s 0))) = _
  rw [broadcastInDim_scalar_apply]
  rfl

theorem cond_apply (T : Vec Ideal S2x128 .f32) (W : Vec Ideal S128x2048 .f32) (b : Fin 2) (z : Fin 1) (j : Fin 2048) :
    RefRun.cond (F := Ideal) T W (ix3 b z j) = ∑ k : Fin 128, T (ix2 b k) * W (ix2 k j) := by
  unfold RefRun.cond
  rw [bcastMid_apply, dot_apply]

theorem scale_apply (T : Vec Ideal S2x128 .f32) (Ws : Vec Ideal S128x2048 .f32) (b : Fin 2) (s : Fin 2048) (j : Fin 2048) :
    scale (F := Ideal) T Ws (ix3 b s j)
      = Ideal.ofBits .f32 0x3F800000#32 + ∑ k : Fin 128, T (ix2 b k) * Ws (ix2 k j) := by
  unfold scale
  rw [bcastCol_apply, addf_apply, broadcastInDim_scalar_apply, cond_apply]
  rfl

theorem shift_apply (T : Vec Ideal S2x128 .f32) (Wsh : Vec Ideal S128x2048 .f32) (b : Fin 2) (s : Fin 2048) (j : Fin 2048) :
    shift (F := Ideal) T Wsh (ix3 b s j) = ∑ k : Fin 128, T (ix2 b k) * Wsh (ix2 k j) := by
  unfold shift
  rw [bcastCol_apply, cond_apply]

theorem refOut_apply (X : Vec Ideal S2x2048x2048 .f32) (T : Vec Ideal S2x128 .f32) (Ws Wsh : Vec Ideal S128x2048 .f32)
    (b : Fin 2) (s : Fin 2048) (j : Fin 2048) :
    refOut (F := Ideal) X T Ws Wsh (ix3 b s j)
      = Ideal.div
            (X (ix3 b s j) - Ideal.div (0 + ∑ i : Fin 2048, X (ix3 b s i)) (Ideal.ofBits .f32 0x45000000#32))
            (Ideal.sqrt
              (Ideal.div
                  (0 + ∑ i : Fin 2048,
                    (X (ix3 b s i) - Ideal.div (0 + ∑ i : Fin 2048, X (ix3 b s i)) (Ideal.ofBits .f32 0x45000000#32))
                      * (X (ix3 b s i) - Ideal.div (0 + ∑ i : Fin 2048, X (ix3 b s i)) (Ideal.ofBits .f32 0x45000000#32)))
                  (Ideal.ofBits .f32 0x45000000#32)
                + Ideal.ofBits .f32 0x3727C5AC#32))
          * (Ideal.ofBits .f32 0x3F800000#32 + ∑ k : Fin 128, T (ix2 b k) * Ws (ix2 k j))
        + ∑ k : Fin 128, T (ix2 b k) * Wsh (ix2 k j) := by
  unfold refOut
  rw [truncf_apply, addf_apply, mulf_apply, normed_apply, scale_apply, shift_apply, var3_apply]
  simp only [centered_apply, mean3_apply]

end Cert.ReferenceIdeal.RefValue

end
-- ==== Proof.LibIdealReal.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.Order.BigOperators.Group.Finset
import Mathlib.Analysis.SpecialFunctions.Exp
import Mathlib.Tactic.Ring
import Mathlib.Tactic.FieldSimp
import Mathlib.Tactic.Positivity
import Mathlib.Tactic.NormNum

open Idealize.ShloMosaic

namespace Cert.Lib

def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

protected theorem IsReal.add {x y : EReal} (hx : IsReal x) (hy : IsReal y) : IsReal (x + y) := by
  obtain ⟨a, rfl⟩ := hx; obtain ⟨b, rfl⟩ := hy; exact ⟨a + b, (EReal.coe_add a b).symm⟩

protected theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_max (a b : ℝ) : ((Max.max a b : ℝ) : EReal) = Max.max (a : EReal) (b : EReal) :=
  (EReal.coe_strictMono.monotone).map_max

protected theorem IsReal.max {x y : EReal} (hx : IsReal x) (hy : IsReal y) : IsReal (Max.max x y) := by
  obtain ⟨a, rfl⟩ := hx; obtain ⟨b, rfl⟩ := hy; exact ⟨Max.max a b, (coe_max a b).symm⟩

theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

protected theorem IsReal.sum {ι : Type*} (s : Finset ι) (f : ι → EReal) (h : ∀ i ∈ s, IsReal (f i)) :
    IsReal (∑ i ∈ s, f i) := by
  classical
  induction s using Finset.induction_on with
  | empty => simpa using IsReal.zero
  | insert i s hi ih =>
    rw [Finset.sum_insert hi]
    exact (h i (Finset.mem_insert_self i s)).add (ih fun j hj => h j (Finset.mem_insert_of_mem hj))

protected theorem IsReal.div {x y : EReal} (hx : IsReal x) (hy : IsReal y) (h0 : y ≠ 0) :
    IsReal (Ideal.div x y) := by
  obtain ⟨a, rfl⟩ := hx; obtain ⟨b, rfl⟩ := hy
  have hb : b ≠ 0 := fun h => h0 (by rw [h, EReal.coe_zero])
  rw [Ideal.div_coe hb]
  exact ⟨a * (1 / b), (EReal.coe_mul a (1 / b)).symm⟩

protected theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact ⟨_, rfl⟩

theorem isReal_of_abs_lt_top {x : EReal} (h : Max.max x (-x) < ⊤) : IsReal x := by
  induction x with
  | bot => simp at h
  | coe r => exact ⟨r, rfl⟩
  | top => simp at h

theorem div_sum_coe {ι : Type*} (s : Finset ι) (a : ι → ℝ) {N : ℝ} (hN : N ≠ 0) :
    Ideal.div (0 + ∑ i ∈ s, ((a i : ℝ) : EReal)) (N : EReal) = (((∑ i ∈ s, a i) * (1 / N) : ℝ) : EReal) := by
  rw [zero_add, Ideal.div_coe hN, coe_sum, ← EReal.coe_mul]

theorem real_variance {ι : Type*} [Fintype ι] (a : ι → ℝ) (N : ℝ) (hN : (Fintype.card ι : ℝ) = N)
    (hpos : 0 < N) :
    (∑ i, (a i - (∑ j, a j) * (1 / N)) * (a i - (∑ j, a j) * (1 / N))) * (1 / N)
      = (∑ i, a i * a i) * (1 / N) - ((∑ i, a i) * (1 / N)) * ((∑ i, a i) * (1 / N)) := by
  have hN0 : N ≠ 0 := hpos.ne'
  have h1 : ∀ m : ℝ, ∑ i, (a i - m) * (a i - m) = ∑ i, a i * a i - 2 * m * ∑ i, a i + N * (m * m) := by
    intro m
    have e : ∀ i, (a i - m) * (a i - m) = a i * a i - 2 * m * a i + m * m := fun i => by ring
    simp only [e]
    rw [Finset.sum_add_distrib, Finset.sum_sub_distrib, ← Finset.mul_sum, Finset.sum_const,
      Finset.card_univ, nsmul_eq_mul, hN]
  rw [h1]
  field_simp
  ring

theorem twoPass_coe {ι : Type*} [Fintype ι] (a : ι → ℝ) {N : ℝ} (hN : N ≠ 0) :
    Ideal.div (0 + ∑ i, (((a i : ℝ) : EReal) - Ideal.div (0 + ∑ j, ((a j : ℝ) : EReal)) (N : EReal))
        * (((a i : ℝ) : EReal) - Ideal.div (0 + ∑ j, ((a j : ℝ) : EReal)) (N : EReal))) (N : EReal)
      = (((∑ i, (a i - (∑ j, a j) * (1 / N)) * (a i - (∑ j, a j) * (1 / N))) * (1 / N) : ℝ) : EReal) := by
  rw [div_sum_coe Finset.univ a hN]
  simp only [← EReal.coe_sub, ← EReal.coe_mul]
  exact div_sum_coe Finset.univ (fun i => (a i - (∑ j, a j) * (1 / N)) * (a i - (∑ j, a j) * (1 / N))) hN

theorem ofBits_f32_one : Ideal.ofBits .f32 0x3F800000#32 = 1 := by
  simp [Ideal.ofBits, Ideal.ieee, -EReal.coe_mul]; norm_num

theorem ofBits_f32_1em5 :
    Ideal.ofBits .f32 0x3727C5AC#32 = (((10995116 : ℝ) * (2 : ℝ) ^ (-40 : Int) : ℝ) : EReal) := by
  simp [Ideal.ofBits, Ideal.ieee, -EReal.coe_mul]

end Cert.Lib
-- ==== Proof.NormMath.lean ====
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Algebra.BigOperators.Fin
import Mathlib.Algebra.Order.BigOperators.Group.Finset
import Mathlib.Logic.Equiv.Fin.Basic
import Mathlib.Tactic.Ring
import Mathlib.Tactic.FieldSimp
import Mathlib.Tactic.Positivity
import Mathlib.Tactic.NormNum
import Mathlib.Tactic.Linarith
import Mathlib.Tactic.FinCases
import proofs.«900763_g7700000000000764_dist_diff_adaln_cshard_i_b2_s2048_c512_v7x_i4_bf16_1_alg».proof.Proof.LibIdealReal

open Cert.Lib Idealize.ShloMosaic

namespace Cert.NormMath

local notation "N" => Ideal.ofBits FTy.f32 0x45000000#32

local notation "eps" => Ideal.ofBits FTy.f32 0x3727C5AC#32

theorem ofBits_f32_2048 : Ideal.ofBits .f32 0x45000000#32 = ((2048 : ℝ) : EReal) := by
  simp [Ideal.ofBits, Ideal.ieee, -EReal.coe_mul]; norm_num

theorem row_eq {x : Fin 2048 → EReal} (hx : ∀ i, IsReal (x i)) {a sh : EReal} (ha : IsReal a)
    (hsh : IsReal sh) (S1 S2 : EReal) (hS1 : S1 = ∑ i, x i) (hS2 : S2 = ∑ i, x i * x i) (j : Fin 2048) :
    ((x j - Ideal.div S1 N) * Ideal.rsqrt (Ideal.div S2 N - Ideal.div S1 N * Ideal.div S1 N + eps)) * a + sh
      = Ideal.div (x j - Ideal.div (0 + ∑ i, x i) N)
          (Ideal.sqrt (Ideal.div (0 + ∑ i, (x i - Ideal.div (0 + ∑ i, x i) N)
            * (x i - Ideal.div (0 + ∑ i, x i) N)) N + eps)) * a + sh := by
  subst hS1 hS2
  choose r hr using hx
  obtain rfl : x = fun i => ((r i : ℝ) : EReal) := funext hr
  obtain ⟨α, rfl⟩ := ha
  obtain ⟨σ, rfl⟩ := hsh
  have hN : (2048 : ℝ) ≠ 0 := by norm_num
  have hNpos : (0 : ℝ) < 2048 := by norm_num
  have hcard : ((Fintype.card (Fin 2048) : ℕ) : ℝ) = 2048 := by simp
  rw [ofBits_f32_2048, ofBits_f32_1em5]
  dsimp only
  rw [twoPass_coe r hN, div_sum_coe Finset.univ r hN]
  have h1 : Ideal.div (∑ i, ((r i : ℝ) : EReal)) ((2048 : ℝ) : EReal)
      = (((∑ i, r i) * (1 / 2048) : ℝ) : EReal) := by
    rw [Ideal.div_coe hN, coe_sum, ← EReal.coe_mul]
  have h2 : Ideal.div (∑ i, ((r i : ℝ) : EReal) * ((r i : ℝ) : EReal)) ((2048 : ℝ) : EReal)
      = (((∑ i, r i * r i) * (1 / 2048) : ℝ) : EReal) := by
    simp only [← EReal.coe_mul]
    rw [Ideal.div_coe hN, coe_sum, ← EReal.coe_mul]
  rw [h1, h2, real_variance r 2048 hcard hNpos]
  set m : ℝ := (∑ i, r i) * (1 / 2048) with hm
  set q : ℝ := (∑ i, r i * r i) * (1 / 2048) with hq
  set e : ℝ := (10995116 : ℝ) * (2 : ℝ) ^ (-40 : Int) with he
  have hepos : 0 < e := by positivity
  have hV : 0 ≤ q - m * m := by
    rw [hq, hm, ← real_variance r 2048 hcard hNpos]
    exact mul_nonneg (Finset.sum_nonneg fun i _ => mul_self_nonneg _) (by positivity)
  have hv : 0 < q - m * m + e := by linarith
  simp only [← EReal.coe_mul, ← EReal.coe_sub, ← EReal.coe_add]
  rw [Ideal.rsqrt_coe, if_neg (not_lt.mpr hv.le), if_neg hv.ne', Ideal.sqrt_coe,
    if_neg (not_lt.mpr hv.le), Ideal.div_coe (Real.sqrt_pos.mpr hv).ne']
  simp only [← EReal.coe_mul, ← EReal.coe_add]
  rw [one_div]

theorem sum_eq_sum_blocks (f : Fin 4 → Fin 512 → EReal) (g : Fin 2048 → EReal)
    (hg : ∀ (p : Fin 4) (k : Fin 512), g ⟨512 * p.val + k.val, by omega⟩ = f p k) :
    ∑ i, g i = ∑ p : Fin 4, ∑ k : Fin 512, f p k := by
  rw [← Fintype.sum_prod_type']
  symm
  refine Fintype.sum_equiv (finProdFinEquiv : Fin 4 × Fin 512 ≃ Fin 2048) _ _ ?_
  rintro ⟨p, k⟩
  rw [← hg p k]
  congr 1
  apply Fin.ext
  simp only [finProdFinEquiv, Equiv.coe_fn_mk]
  omega

theorem rot_sum (F : Fin 4 → EReal) (c : Fin 4) :
    ((F ⟨(c.val + 0) % 4, Nat.mod_lt _ (by norm_num)⟩ + F ⟨(c.val + 1) % 4, Nat.mod_lt _ (by norm_num)⟩)
        + F ⟨(c.val + 2) % 4, Nat.mod_lt _ (by norm_num)⟩) + F ⟨(c.val + 3) % 4, Nat.mod_lt _ (by norm_num)⟩
      = F 0 + F 1 + F 2 + F 3 := by
  fin_cases c
  · show F 0 + F 1 + F 2 + F 3 = _; rfl
  · show F 1 + F 2 + F 3 + F 0 = _; ac_rfl
  · show F 2 + F 3 + F 0 + F 1 = _; ac_rfl
  · show F 3 + F 0 + F 1 + F 2 = _; ac_rfl

end Cert.NormMath
-- ==== Proof.FiniteInputs.lean ====
import proofs.«900763_g7700000000000764_dist_diff_adaln_cshard_i_b2_s2048_c512_v7x_i4_bf16_1_alg».proof.Pre_finite_inputs_Kernel
import proofs.«900763_g7700000000000764_dist_diff_adaln_cshard_i_b2_s2048_c512_v7x_i4_bf16_1_alg».proof.Proof.Gen.Pre_finite_inputs_Kernel
import Idealize.ShloMosaic.Lib.ReduceAll
import Idealize.ShloMosaic.Lib.ValueIdx
import proofs.«900763_g7700000000000764_dist_diff_adaln_cshard_i_b2_s2048_c512_v7x_i4_bf16_1_alg».proof.Proof.LibIdealReal

open Idealize.ShloMosaic Cert.Lib Cert.Pre_finite_inputs_Kernel

namespace Cert.FiniteInputs

instance : Subsingleton S_.Idx := ⟨fun a b => funext fun d => d.elim0⟩

theorem ofBits_f32_inf : Ideal.ofBits .f32 0x7F800000#32 = (⊤ : EReal) := by
  simp [Ideal.ofBits, Ideal.ieee]

theorem lt_of_cmp_olt {a b : EReal} (h : Ideal.cmp .olt a b = 1#1) : a < b := by
  unfold Ideal.cmp at h
  by_contra hn
  simp [hn] at h

theorem isReal_of_elem {s : Shape} (hb : S_.BroadcastsInDim s (![] : Fin 0 → Fin s.rank))
    (X : FVec Ideal s .f32) (i : s.Idx)
    (h : cmpf .olt (Host.absf X) (broadcastInDim s ![] hb (constant S_ .f32 0x7F800000#32)) i = 1#1) :
    IsReal (X i) := by
  have h' : Ideal.cmp .olt (Max.max (X i) (-(X i))) (Ideal.ofBits .f32 0x7F800000#32) = 1#1 := h
  rw [ofBits_f32_inf] at h'
  exact isReal_of_abs_lt_top (lt_of_cmp_olt h')

theorem finite_inputs (X : FVec Ideal S2x2048x512 .f32) (T : FVec Ideal S2x128 .f32)
    (Ws Wsh : FVec Ideal S128x512 .f32)
    (h : Cert.Pre_finite_inputs_Kernel.fn (F := Ideal) X T Ws Wsh = fun _ => 1#1) :
    (∀ i, IsReal (X i)) ∧ (∀ i, IsReal (T i)) ∧ (∀ i, IsReal (Ws i)) ∧ (∀ i, IsReal (Wsh i)) := by
  have h0 := congrFun h ValueIdx.ix0
  dsimp only [fn, fn_part1] at h0
  have e : ∀ (a b : IVec S_ 1), andi a b ValueIdx.ix0 = IntOp.andi (a ValueIdx.ix0) (b ValueIdx.ix0) :=
    fun _ _ => rfl
  rw [e, IntOp.andi_eq_one, e, IntOp.andi_eq_one, e, IntOp.andi_eq_one] at h0
  obtain ⟨⟨⟨hX, hT⟩, hWs⟩, hWsh⟩ := h0
  exact ⟨fun i => isReal_of_elem _ X i (Host.reduce_andi_all _ _ _ _ _ hX i),
    fun i => isReal_of_elem _ T i (Host.reduce_andi_all _ _ _ _ _ hT i),
    fun i => isReal_of_elem _ Ws i (Host.reduce_andi_all _ _ _ _ _ hWs i),
    fun i => isReal_of_elem _ Wsh i (Host.reduce_andi_all _ _ _ _ _ hWsh i)⟩

end Cert.FiniteInputs
-- ==== Proof.PayValue.lean ====
import proofs.«900763_g7700000000000764_dist_diff_adaln_cshard_i_b2_s2048_c512_v7x_i4_bf16_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«900763_g7700000000000764_dist_diff_adaln_cshard_i_b2_s2048_c512_v7x_i4_bf16_1_alg».proof.Proof.LibIdealReal

open Idealize.ShloMosaic Idealize.ShloMosaic.ValueIdx Cert.KernelIdeal Cert.KernelIdeal.Gen

namespace Cert.KernelIdeal.PayValue

noncomputable section

section Layout
variable {α : Type}

theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

theorem rowSum_apply (v : FVec Ideal S2x512x512 .f32) (b : Fin 2) (s : Fin 512) :
    multiReduction (F := Ideal) .add [2] S2x512 v 0x00000000#32 reduces_S2x512x512_S2x512 (.inl rfl) rfl (ix2 b s)
      = ∑ k : Fin 512, v (ix3 b s k) := by
  refine (Ideal.multiReduction_add_single v 0x00000000#32 reduces_S2x512x512_S2x512 (.inl rfl) rfl (ix2 b s)).trans ?_
  refine Finset.sum_congr rfl fun k _ => congrArg v ?_
  funext c
  match c with
  | ⟨0, _⟩ => rfl
  | ⟨1, _⟩ => rfl
  | ⟨2, _⟩ => rfl

theorem k0_pay1_sum (v : Vec Ideal S2x512x512 .f32) (b : Fin 2) (s : Fin 512) :
    k0_pay1 v (ix3 (0 : Fin 1) (⟨b.val, by omega⟩ : Fin 4) s) = ∑ k : Fin 512, v (ix3 b s k) := by
  unfold k0_pay1
  refine (shapeCast_ab_1ab_apply _ _ (0 : Fin 1) (⟨b.val, by omega⟩ : Fin 4) s).trans ?_
  refine (concatenate_pair_apply_left (s₁ := S2x512) (s₂ := S2x512) 0 _ _ _ (ix2 (⟨b.val, by omega⟩ : Fin 4) s) rfl (ix2 b s) ?_).trans ?_
  · intro c
    match c with
    | ⟨0, _⟩ => rfl
    | ⟨1, _⟩ => rfl
  rw [shapeCast_self]
  exact rowSum_apply v b s

theorem k0_pay1_sq (v : Vec Ideal S2x512x512 .f32) (b : Fin 2) (s : Fin 512) :
    k0_pay1 v (ix3 (0 : Fin 1) (⟨b.val + 2, by omega⟩ : Fin 4) s) = ∑ k : Fin 512, v (ix3 b s k) * v (ix3 b s k) := by
  unfold k0_pay1
  refine (shapeCast_ab_1ab_apply _ _ (0 : Fin 1) (⟨b.val + 2, by omega⟩ : Fin 4) s).trans ?_
  refine (concatenate_pair_apply_right (s₁ := S2x512) (s₂ := S2x512) 0 _ _ _ (ix2 (⟨b.val + 2, by omega⟩ : Fin 4) s) rfl rfl (ix2 b s) ?_ rfl).trans ?_
  · intro c hc
    match c with
    | ⟨0, _⟩ => exact absurd rfl hc
    | ⟨1, _⟩ => rfl
  rw [shapeCast_self]
  exact rowSum_apply _ b s

theorem matmul_zero_apply (A : FVec Ideal S2x128 .f32) (B : FVec Ideal S128x512 .f32) (b : Fin 2) (j : Fin 512) :
    matmul (F := Ideal) dot_S2x128_S128x512_S2x512_1_0_0_1_n_n none A B (constant S2x512 .f32 0x00000000#32) (ix2 b j)
      = ∑ k : Fin 128, A (ix2 b k) * B (ix2 k j) := by
  show FloatOps.matmul _ none A B (constant S2x512 .f32 0x00000000#32) (ix2 b j) = _
  rw [Ideal.matmul_constant_zero_apply,
    ← Equiv.sum_comp (contrEquiv1 dot_S2x128_S128x512_S2x512_1_0_0_1_n_n 128 rfl rfl).symm]
  refine Finset.sum_congr rfl fun c _ => ?_
  have c2 := contrEquiv1_symm_val dot_S2x128_S128x512_S2x512_1_0_0_1_n_n 128 rfl rfl c
  have l2 : dot_S2x128_S128x512_S2x512_1_0_0_1_n_n.lhsIdx (ix2 b j) ((contrEquiv1 _ 128 rfl rfl).symm c) = ix2 b c := by
    funext ax; apply Fin.ext
    match ax with
    | ⟨0, _⟩ => simp [DotDims.lhsIdx, dot_S2x128_S128x512_S2x512_1_0_0_1_n_n]; rfl
    | ⟨1, _⟩ => simp [DotDims.lhsIdx, dot_S2x128_S128x512_S2x512_1_0_0_1_n_n]; exact c2
  have r2 : dot_S2x128_S128x512_S2x512_1_0_0_1_n_n.rhsIdx (ix2 b j) ((contrEquiv1 _ 128 rfl rfl).symm c) = ix2 c j := by
    funext ax; apply Fin.ext
    match ax with
    | ⟨0, _⟩ => simp [DotDims.rhsIdx, dot_S2x128_S128x512_S2x512_1_0_0_1_n_n]; exact c2
    | ⟨1, _⟩ => simp [DotDims.rhsIdx, dot_S2x128_S128x512_S2x512_1_0_0_1_n_n]; rfl
  rw [l2, r2]

theorem k0_pay10_apply (t : Vec Ideal S2x128 .f32) (ws : Vec Ideal S128x512 .f32) (b : Fin 2) (j : Fin 512) :
    k0_pay10 t ws (ix3 b (0 : Fin 1) j)
      = Ideal.ofBits .f32 0x3F800000#32 + ∑ k : Fin 128, t (ix2 b k) * ws (ix2 k j) := by
  unfold k0_pay10 k0_pay9
  refine (shapeCast_ab_a1b_apply _ _ b (0 : Fin 1) j).trans ?_
  rw [shapeCast_self, shapeCast_self]
  exact congrArg (fun z => Ideal.ofBits .f32 0x3F800000#32 + z) (matmul_zero_apply t ws b j)

theorem k0_pay11_apply (t : Vec Ideal S2x128 .f32) (wsh : Vec Ideal S128x512 .f32) (b : Fin 2) (j : Fin 512) :
    k0_pay11 t wsh (ix3 b (0 : Fin 1) j) = ∑ k : Fin 128, t (ix2 b k) * wsh (ix2 k j) := by
  unfold k0_pay11 k0_pay9
  refine (shapeCast_ab_a1b_apply _ _ b (0 : Fin 1) j).trans ?_
  rw [shapeCast_self, shapeCast_self]
  exact matmul_zero_apply t wsh b j

local notation "N" => Ideal.ofBits FTy.f32 0x45000000#32

local notation "eps" => Ideal.ofBits FTy.f32 0x3727C5AC#32

theorem rsqrt_apply {s : Shape} {φ : FTy} (a : FVec Ideal s φ) (i : s.Idx) : rsqrt a i = Ideal.rsqrt (a i) := rfl

def normVal (xv S1 S2 a sh : EReal) : EReal :=
  ((xv - Ideal.div S1 N) * Ideal.rsqrt (Ideal.div S2 N - Ideal.div S1 N * Ideal.div S1 N + eps)) * a + sh

theorem normVal_def (xv S1 S2 a sh : EReal) :
    normVal xv S1 S2 a sh
      = ((xv - Ideal.div S1 N) * Ideal.rsqrt (Ideal.div S2 N - Ideal.div S1 N * Ideal.div S1 N + eps)) * a + sh := rfl

def meanOf (tot : FVec Ideal S4x512 .f32) : FVec Ideal S2x512 .f32 :=
  divf (extractStridedSlice S2x512 ![0, 0] tot slices_S4x512_o0_0_S2x512)
    (broadcast S2x512 (Scalar.ofBits (F := Ideal) .f32 0x45000000#32))

def rstdOf (tot : FVec Ideal S4x512 .f32) : FVec Ideal S2x512 .f32 :=
  rsqrt (addf (subf (divf (extractStridedSlice S2x512 ![2, 0] tot slices_S4x512_o2_0_S2x512)
      (broadcast S2x512 (Scalar.ofBits (F := Ideal) .f32 0x45000000#32))) (mulf (meanOf tot) (meanOf tot)))
    (broadcast S2x512 (Scalar.ofBits (F := Ideal) .f32 0x3727C5AC#32)))

def centred (tot : FVec Ideal S4x512 .f32) (x : Vec Ideal S2x512x512 .f32) : FVec Ideal S2x512x512 .bf16 :=
  mulf (subf (truncf .bf16 (shapeCast S2x512x512 x shapeCasts_S2x512x512_S2x512x512 : FVec Ideal S2x512x512 .f32) bitsLt_bf16_f32)
      (broadcastTo S2x512x512 (shapeCast S2x512x1 (truncf .bf16 (meanOf tot) bitsLt_bf16_f32 : FVec Ideal S2x512 .bf16)
        shapeCasts_S2x512_S2x512x1) broadcasts_S2x512x1_S2x512x512))
    (broadcastTo S2x512x512 (shapeCast S2x512x1 (truncf .bf16 (rstdOf tot) bitsLt_bf16_f32 : FVec Ideal S2x512 .bf16)
      shapeCasts_S2x512_S2x512x1) broadcasts_S2x512x1_S2x512x512)

def affine (sc shf : FVec Ideal S2x1x512 .bf16) (y : FVec Ideal S2x512x512 .bf16) : FVec Ideal S2x512x512 .bf16 :=
  addf (mulf y (broadcastTo S2x512x512 sc broadcasts_S2x1x512_S2x512x512))
    (broadcastTo S2x512x512 shf broadcasts_S2x1x512_S2x512x512)

theorem meanOf_apply (tot : FVec Ideal S4x512 .f32) (b : Fin 2) (s : Fin 512) :
    meanOf tot (ix2 b s) = Ideal.div (tot (ix2 (⟨b.val, by omega⟩ : Fin 4) s)) N := by
  unfold meanOf
  rw [divf_apply, broadcast_apply,
    slice2_axis0_apply 0 tot slices_S4x512_o0_0_S2x512 b s (⟨b.val, by omega⟩ : Fin 4) (by simp)]
  rfl

theorem rstdOf_apply (tot : FVec Ideal S4x512 .f32) (b : Fin 2) (s : Fin 512) :
    rstdOf tot (ix2 b s)
      = Ideal.rsqrt (Ideal.div (tot (ix2 (⟨b.val + 2, by omega⟩ : Fin 4) s)) N
          - Ideal.div (tot (ix2 (⟨b.val, by omega⟩ : Fin 4) s)) N * Ideal.div (tot (ix2 (⟨b.val, by omega⟩ : Fin 4) s)) N
          + eps) := by
  unfold rstdOf
  rw [rsqrt_apply, addf_apply, subf_apply, mulf_apply, divf_apply, broadcast_apply, broadcast_apply, meanOf_apply,
    slice2_axis0_apply 2 tot slices_S4x512_o2_0_S2x512 b s (⟨b.val + 2, by omega⟩ : Fin 4) (by simp; omega)]
  rfl

theorem affine_centred_apply (sc shf : FVec Ideal S2x1x512 .bf16) (tot : FVec Ideal S4x512 .f32)
    (x : Vec Ideal S2x512x512 .f32) (b : Fin 2) (s j : Fin 512) :
    affine sc shf (centred tot x) (ix3 b s j)
      = normVal (x (ix3 b s j)) (tot (ix2 (⟨b.val, by omega⟩ : Fin 4) s)) (tot (ix2 (⟨b.val + 2, by omega⟩ : Fin 4) s))
          (sc (ix3 b (0 : Fin 1) j)) (shf (ix3 b (0 : Fin 1) j)) := by
  unfold affine centred
  rw [addf_apply, mulf_apply, mulf_apply, subf_apply, truncf_apply, shapeCast_self,
    broadcastTo_a1c_abc_apply, broadcastTo_a1c_abc_apply, broadcastTo_ab1_abc_apply, broadcastTo_ab1_abc_apply,
    shapeCast_ab_ab1_apply, shapeCast_ab_ab1_apply, truncf_apply, truncf_apply, meanOf_apply, rstdOf_apply]
  rfl

def tot4 (own : Vec Ideal S1x4x512 .f32) (c0 c1 c2 : Vec Ideal S1x1x4x512 .f32) (r : Fin 4) (s : Fin 512) : EReal :=
  ((own (ix3 (0 : Fin 1) r s) + c0 (ix4 (0 : Fin 1) (0 : Fin 1) r s)) + c1 (ix4 (0 : Fin 1) (0 : Fin 1) r s))
    + c2 (ix4 (0 : Fin 1) (0 : Fin 1) r s)

theorem tot4_def (own : Vec Ideal S1x4x512 .f32) (c0 c1 c2 : Vec Ideal S1x1x4x512 .f32) (r : Fin 4) (s : Fin 512) :
    tot4 own c0 c1 c2 r s
      = ((own (ix3 (0 : Fin 1) r s) + c0 (ix4 (0 : Fin 1) (0 : Fin 1) r s)) + c1 (ix4 (0 : Fin 1) (0 : Fin 1) r s))
        + c2 (ix4 (0 : Fin 1) (0 : Fin 1) r s) := rfl

def total (own : Vec Ideal S1x4x512 .f32) (c0 c1 c2 : Vec Ideal S1x1x4x512 .f32) : FVec Ideal S4x512 .f32 :=
  addf (addf (addf (shapeCast S4x512 own shapeCasts_S1x4x512_S4x512 : FVec Ideal S4x512 .f32)
        (shapeCast S4x512 c0 shapeCasts_S1x1x4x512_S4x512))
      (shapeCast S4x512 c1 shapeCasts_S1x1x4x512_S4x512))
    (shapeCast S4x512 c2 shapeCasts_S1x1x4x512_S4x512)

theorem total_apply (own : Vec Ideal S1x4x512 .f32) (c0 c1 c2 : Vec Ideal S1x1x4x512 .f32) (r : Fin 4) (s : Fin 512) :
    total own c0 c1 c2 (ix2 r s) = tot4 own c0 c1 c2 r s := by
  unfold total tot4
  rw [addf_apply, addf_apply, addf_apply, shapeCast_1ab_ab_apply, shapeCast_11ab_ab_apply, shapeCast_11ab_ab_apply,
    shapeCast_11ab_ab_apply]

theorem out_apply (sc shf : FVec Ideal S2x1x512 .bf16) (own : Vec Ideal S1x4x512 .f32)
    (c0 c1 c2 : Vec Ideal S1x1x4x512 .f32) (x : Vec Ideal S2x512x512 .f32) (b : Fin 2) (s j : Fin 512) :
    affine sc shf (centred (total own c0 c1 c2) x) (ix3 b s j)
      = normVal (x (ix3 b s j)) (tot4 own c0 c1 c2 (⟨b.val, by omega⟩ : Fin 4) s)
          (tot4 own c0 c1 c2 (⟨b.val + 2, by omega⟩ : Fin 4) s) (sc (ix3 b (0 : Fin 1) j)) (shf (ix3 b (0 : Fin 1) j)) := by
  rw [affine_centred_apply, total_apply, total_apply]

end

end Cert.KernelIdeal.PayValue
-- ==== Proof.BridgeLemmas.lean ====
import Mathlib.Tactic.FinCases
import proofs.«900763_g7700000000000764_dist_diff_adaln_cshard_i_b2_s2048_c512_v7x_i4_bf16_1_alg».proof.Proof.KernelIdeal.Sched
import proofs.«900763_g7700000000000764_dist_diff_adaln_cshard_i_b2_s2048_c512_v7x_i4_bf16_1_alg».proof.Proof.PayValue
import proofs.«900763_g7700000000000764_dist_diff_adaln_cshard_i_b2_s2048_c512_v7x_i4_bf16_1_alg».proof.Proof.LibIdealReal
import Idealize.ShloMosaic.Lib.Layout
import Idealize.ShloMosaic.Lib.ValueIdx
import Idealize.ShloMosaic.Lib.Pipeline.Value
import Idealize.ShloMosaic.Lib.ValueLayout

noncomputable section

namespace Cert.BridgeLemmas

open Cert.KernelIdeal Cert.KernelIdeal.Gen Cert.KernelIdeal.Coll Cert.KernelIdeal.PayValue
open Idealize.ShloMosaic Idealize.ShloMosaic.ValueIdx Idealize.ShloMosaic.TcCoe

variable (m : (ℓ : Loc nD τ sig) → Buf (Elt Ideal) ℓ)

theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

theorem ownV_eq (c : Dev nD) (h : Fin 4) : ownV (F := Ideal) m c h = k0_pay1 (xrow (F := Ideal) m c h) := by
  match h with
  | ⟨0, _⟩ => rfl
  | ⟨1, _⟩ => rfl
  | ⟨2, _⟩ => rfl
  | ⟨3, _⟩ => rfl

theorem ownV_sum (c : Dev nD) (h : Fin 4) (b : Fin 2) (s : Fin 512) :
    ownV (F := Ideal) m c h (ix3 (0 : Fin 1) (⟨b.val, by omega⟩ : Fin 4) s)
      = ∑ k : Fin 512, xrow (F := Ideal) m c h (ix3 b s k) := by
  rw [ownV_eq]; exact k0_pay1_sum _ b s

theorem ownV_sq (c : Dev nD) (h : Fin 4) (b : Fin 2) (s : Fin 512) :
    ownV (F := Ideal) m c h (ix3 (0 : Fin 1) (⟨b.val + 2, by omega⟩ : Fin 4) s)
      = ∑ k : Fin 512, xrow (F := Ideal) m c h (ix3 b s k) * xrow (F := Ideal) m c h (ix3 b s k) := by
  rw [ownV_eq]; exact k0_pay1_sq _ b s

theorem commV_apply (c : Dev nD) (h : Fin 4) (j : Fin 3) (ρ : Fin 4) (s : Fin 512) :
    commV (F := Ideal) m c h j (ix4 (0 : Fin 1) (0 : Fin 1) ρ s)
      = ownV (F := Ideal) m (sh c (j.val + 1)) h (ix3 (0 : Fin 1) ρ s) := by
  unfold commV
  rw [shapeCast_ab_11ab_apply, shapeCast_1ab_ab_apply]

theorem outV_eq (c : Dev nD) (h : Fin 4) :
    outV (F := Ideal) m c h
      = affine (scV (F := Ideal) m c) (shV (F := Ideal) m c)
          (centred (total (ownV (F := Ideal) m c h) (commV (F := Ideal) m c h 0) (commV (F := Ideal) m c h 1)
            (commV (F := Ideal) m c h 2)) (xrow (F := Ideal) m c h)) := by
  match h with
  | ⟨0, _⟩ => rfl
  | ⟨1, _⟩ => rfl
  | ⟨2, _⟩ => rfl
  | ⟨3, _⟩ => rfl

theorem outV_apply (c : Dev nD) (h : Fin 4) (b : Fin 2) (r j : Fin 512) :
    outV (F := Ideal) m c h (ix3 b r j)
      = normVal (xrow (F := Ideal) m c h (ix3 b r j))
          (tot4 (ownV (F := Ideal) m c h) (commV (F := Ideal) m c h 0) (commV (F := Ideal) m c h 1)
            (commV (F := Ideal) m c h 2) (⟨b.val, by omega⟩ : Fin 4) r)
          (tot4 (ownV (F := Ideal) m c h) (commV (F := Ideal) m c h 0) (commV (F := Ideal) m c h 1)
            (commV (F := Ideal) m c h 2) (⟨b.val + 2, by omega⟩ : Fin 4) r)
          (scV (F := Ideal) m c (ix3 b (0 : Fin 1) j)) (shV (F := Ideal) m c (ix3 b (0 : Fin 1) j)) := by
  rw [outV_eq, out_apply]

def outG (c : Dev nD) : S2x2048x512.Idx → Elt Ideal .bf16 := fun y =>
  outV (F := Ideal) m c (⟨(y 1).val / 512, by have : (y 1).val < 2048 := (y 1).isLt; omega⟩ : Fin 4)
    (ix3 (y 0 : Fin 2) (⟨(y 1).val % 512, Nat.mod_lt _ (by norm_num)⟩ : Fin 512) (y 2 : Fin 512))

theorem outV_congr (c : Dev nD) {h h' : Fin 4} (e : h = h') {i i' : S2x512x512.Idx} (e' : i = i') :
    outV (F := Ideal) m c h i = outV (F := Ideal) m c h' i' := by subst e; subst e'; rfl

theorem outG_emb (c : Dev nD) (h : Fin 4) (x : S2x512x512.Idx) :
    outG m c ((xRect h).emb x) = outV (F := Ideal) m c h x := by
  have h1 : (x 1).val < 512 := (x 1).isLt
  unfold outG
  refine outV_congr m c (Fin.ext ?_) (funext fun ax => Fin.ext ?_)
  · show (512 * h.val + 1 * (x 1).val) / 512 = h.val
    omega
  · match ax with
    | ⟨0, _⟩ =>
      show 0 + 1 * (x 0).val = (x 0).val
      omega
    | ⟨1, _⟩ =>
      show (512 * h.val + 1 * (x 1).val) % 512 = (x 1).val
      omega
    | ⟨2, _⟩ =>
      show 0 + 1 * (x 2).val = (x 2).val
      omega

theorem outBlk_apply (c : Dev nD) (h : Fin 4) (b : Fin 2) (r j : Fin 512) :
    outBlk (F := Ideal) m c (ix3 b (⟨512 * h.val + r.val, by omega⟩ : Fin 2048) j)
      = outV (F := Ideal) m c h (ix3 b r j) := by
  unfold outBlk
  refine (View.canon_apply_of_pieces (Val := Elt Ideal) (outG m c) _ ?_ _ ?_).trans ?_
  · intro p hp x
    simp only [List.mem_cons, List.not_mem_nil, or_false] at hp
    rcases hp with rfl | rfl | rfl | rfl
    · exact (outG_emb m c 3 x).symm
    · exact (outG_emb m c 2 x).symm
    · exact (outG_emb m c 1 x).symm
    · exact (outG_emb m c 0 x).symm
  · refine ⟨⟨xRect h, outV (F := Ideal) m c h⟩, ?_, ?_⟩
    · fin_cases h <;> simp
    · rw [Rect.mem_set_unit]
      intro a
      match a with
      | ⟨0, _⟩ => exact ⟨Nat.zero_le _, by show b.val < 0 + 2; omega⟩
      | ⟨1, _⟩ => exact ⟨by show 512 * h.val ≤ 512 * h.val + r.val; omega, by show 512 * h.val + r.val < 512 * h.val + 512; omega⟩
      | ⟨2, _⟩ => exact ⟨Nat.zero_le _, by show j.val < 0 + 512; omega⟩
  · unfold outG
    refine outV_congr m c (Fin.ext ?_) (funext fun ax => Fin.ext ?_)
    · show (512 * h.val + r.val) / 512 = h.val
      omega
    · match ax with
      | ⟨0, _⟩ => rfl
      | ⟨1, _⟩ =>
        show (512 * h.val + r.val) % 512 = r.val
        omega
      | ⟨2, _⟩ => rfl

theorem whole_real {X : (⟨3, ![2, 2048, 2048]⟩ : Shape).Idx → EReal}
    (hb : ∀ (p : Fin 4) (i : (⟨3, ![2, 2048, 512]⟩ : Shape).Idx),
      Cert.Lib.IsReal ((Layout.block ⟨3, ![2, 2048, 512]⟩ ⟨3, ![2, 2048, 2048]⟩ 2 4 p X) i)) :
    ∀ i, Cert.Lib.IsReal (X i) := by
  intro i
  obtain ⟨b, s, q, rfl⟩ : ∃ (b : Fin 2) (s : Fin 2048) (q : Fin 2048), i = ix3 b s q := ⟨i 0, i 1, i 2, eq_ix3 i⟩
  have h := hb (⟨q.val / 512, by omega⟩ : Fin 4) (ix3 b s (⟨q.val % 512, Nat.mod_lt _ (by norm_num)⟩ : Fin 512))
  rw [Layout.block_apply] at h
  convert h using 2
  funext ax
  apply Fin.ext
  match ax with
  | ⟨0, _⟩ => rfl
  | ⟨1, _⟩ => rfl
  | ⟨2, _⟩ =>
    show q.val = q.val / 512 * 512 + q.val % 512
    omega

theorem whole_real₂ {W : (⟨2, ![128, 2048]⟩ : Shape).Idx → EReal}
    (hb : ∀ (p : Fin 4) (i : (⟨2, ![128, 512]⟩ : Shape).Idx),
      Cert.Lib.IsReal ((Layout.block ⟨2, ![128, 512]⟩ ⟨2, ![128, 2048]⟩ 1 4 p W) i)) :
    ∀ i, Cert.Lib.IsReal (W i) := by
  intro i
  obtain ⟨k, q, rfl⟩ : ∃ (k : Fin 128) (q : Fin 2048), i = ix2 k q := ⟨i 0, i 1, eq_ix2 i⟩
  have h := hb (⟨q.val / 512, by omega⟩ : Fin 4) (ix2 k (⟨q.val % 512, Nat.mod_lt _ (by norm_num)⟩ : Fin 512))
  rw [Layout.block_apply] at h
  convert h using 2
  funext ax
  apply Fin.ext
  match ax with
  | ⟨0, _⟩ => rfl
  | ⟨1, _⟩ =>
    show q.val = q.val / 512 * 512 + q.val % 512
    omega

end Cert.BridgeLemmas

end
-- ==== Proof.BridgeReal.lean ====
import proofs.«900763_g7700000000000764_dist_diff_adaln_cshard_i_b2_s2048_c512_v7x_i4_bf16_1_alg».proof.Defs
import proofs.«900763_g7700000000000764_dist_diff_adaln_cshard_i_b2_s2048_c512_v7x_i4_bf16_1_alg».proof.Proof.Gen.Pre_finite_inputs_Kernel
import proofs.«900763_g7700000000000764_dist_diff_adaln_cshard_i_b2_s2048_c512_v7x_i4_bf16_1_alg».proof.Proof.FiniteInputs
import proofs.«900763_g7700000000000764_dist_diff_adaln_cshard_i_b2_s2048_c512_v7x_i4_bf16_1_alg».proof.Proof.LibIdealReal
import proofs.«900763_g7700000000000764_dist_diff_adaln_cshard_i_b2_s2048_c512_v7x_i4_bf16_1_alg».proof.Proof.BridgeLemmas

noncomputable section

namespace Cert.BridgeReal

open Idealize.ShloMosaic Idealize.ShloMosaic.ValueIdx Idealize.SL.Sem

theorem inputs_real
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨3, ![2, 2048, 512]⟩ ⟨3, ![2, 2048, 2048]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 2048]⟩ 1 4 c (m' (((0 : Dev Cert.ReferenceIdeal.nD).tc : Thread Cert.ReferenceIdeal.nD Cert.ReferenceIdeal.τ).loc Cert.ReferenceIdeal.main_arg3))) :
    (∀ i, Cert.Lib.IsReal (m' (((0 : Dev Cert.ReferenceIdeal.nD).tc : Thread Cert.ReferenceIdeal.nD Cert.ReferenceIdeal.τ).loc Cert.ReferenceIdeal.main_arg0) i))
    ∧ (∀ i, Cert.Lib.IsReal (m' (((0 : Dev Cert.ReferenceIdeal.nD).tc : Thread Cert.ReferenceIdeal.nD Cert.ReferenceIdeal.τ).loc Cert.ReferenceIdeal.main_arg1) i))
    ∧ (∀ i, Cert.Lib.IsReal (m' (((0 : Dev Cert.ReferenceIdeal.nD).tc : Thread Cert.ReferenceIdeal.nD Cert.ReferenceIdeal.τ).loc Cert.ReferenceIdeal.main_arg2) i))
    ∧ (∀ i, Cert.Lib.IsReal (m' (((0 : Dev Cert.ReferenceIdeal.nD).tc : Thread Cert.ReferenceIdeal.nD Cert.ReferenceIdeal.τ).loc Cert.ReferenceIdeal.main_arg3) i)) := by
  have hdev := fun c : Dev Cert.KernelIdeal.nD => Cert.FiniteInputs.finite_inputs _ _ _ _ (hpre c)
  refine ⟨?_, ?_, ?_, ?_⟩
  · refine Cert.BridgeLemmas.whole_real fun p i => ?_
    have h := (hdev p).1 i
    rw [(hagree p).1] at h
    exact h
  · intro i
    have h := (hdev 0).2.1 i
    rw [(hagree 0).2.1] at h
    exact h
  · refine Cert.BridgeLemmas.whole_real₂ fun p i => ?_
    have h := (hdev p).2.2.1 i
    rw [(hagree p).2.2.1] at h
    exact h
  · refine Cert.BridgeLemmas.whole_real₂ fun p i => ?_
    have h := (hdev p).2.2.2 i
    rw [(hagree p).2.2.2] at h
    exact h

end Cert.BridgeReal

end
-- ==== Proof.Bridge.lean ====
import proofs.«900763_g7700000000000764_dist_diff_adaln_cshard_i_b2_s2048_c512_v7x_i4_bf16_1_alg».proof.Defs
import proofs.«900763_g7700000000000764_dist_diff_adaln_cshard_i_b2_s2048_c512_v7x_i4_bf16_1_alg».proof.Proof.Gen.Pre_finite_inputs_Kernel
import proofs.«900763_g7700000000000764_dist_diff_adaln_cshard_i_b2_s2048_c512_v7x_i4_bf16_1_alg».proof.Proof.KernelIdeal.Sched
import proofs.«900763_g7700000000000764_dist_diff_adaln_cshard_i_b2_s2048_c512_v7x_i4_bf16_1_alg».proof.Proof.RefValue
import proofs.«900763_g7700000000000764_dist_diff_adaln_cshard_i_b2_s2048_c512_v7x_i4_bf16_1_alg».proof.Proof.NormMath
import proofs.«900763_g7700000000000764_dist_diff_adaln_cshard_i_b2_s2048_c512_v7x_i4_bf16_1_alg».proof.Proof.FiniteInputs
import proofs.«900763_g7700000000000764_dist_diff_adaln_cshard_i_b2_s2048_c512_v7x_i4_bf16_1_alg».proof.Proof.PayValue
import proofs.«900763_g7700000000000764_dist_diff_adaln_cshard_i_b2_s2048_c512_v7x_i4_bf16_1_alg».proof.Proof.BridgeLemmas
import proofs.«900763_g7700000000000764_dist_diff_adaln_cshard_i_b2_s2048_c512_v7x_i4_bf16_1_alg».proof.Proof.BridgeReal
import Idealize.ShloMosaic.Lib.ValueIdx
import Idealize.ShloMosaic.Lib.ValueLayout
import Idealize.ShloMosaic.Lib.Layout
import Idealize.ShloMosaic.Lib.Pipeline.Value

noncomputable section

open scoped BigOperators

namespace Cert.Bridge

open Cert.KernelIdeal Cert.KernelIdeal.Gen Cert.KernelIdeal.Coll Idealize.ShloMosaic Idealize.ShloMosaic.ValueIdx
open Idealize.ShloMosaic.TcCoe Idealize.SL.Sem Cert.Lib Cert.BridgeLemmas Cert.BridgeReal

variable (m : (ℓ : Loc nD τ sig) → Buf (Elt Ideal) ℓ)

theorem xstg_eq (c : Dev nD) : xstg (F := Ideal) m c = m ((c : Thread nD τ).loc main_arg0) := by
  funext x
  unfold xstg
  rw [View.read_apply]
  have he : (win0_0.blk (0 : Fin 1)).view.emb x = x :=
    funext fun a => Fin.ext (Pipeline.Window.rect_emb_val_of_index_zero win0_0 (0 : Fin 1) a rfl x)
  rw [he]
  rfl
theorem tstg_eq (c : Dev nD) : tstg (F := Ideal) m c = m ((c : Thread nD τ).loc main_arg1) := by
  funext x
  unfold tstg
  rw [View.read_apply]
  have he : (win0_1.blk (0 : Fin 1)).view.emb x = x :=
    funext fun a => Fin.ext (Pipeline.Window.rect_emb_val_of_index_zero win0_1 (0 : Fin 1) a rfl x)
  rw [he]
  rfl
theorem wsstg_eq (c : Dev nD) : wsstg (F := Ideal) m c = m ((c : Thread nD τ).loc main_arg2) := by
  funext x
  unfold wsstg
  rw [View.read_apply]
  have he : (win0_2.blk (0 : Fin 1)).view.emb x = x :=
    funext fun a => Fin.ext (Pipeline.Window.rect_emb_val_of_index_zero win0_2 (0 : Fin 1) a rfl x)
  rw [he]
  rfl
theorem wshstg_eq (c : Dev nD) : wshstg (F := Ideal) m c = m ((c : Thread nD τ).loc main_arg3) := by
  funext x
  unfold wshstg
  rw [View.read_apply]
  have he : (win0_3.blk (0 : Fin 1)).view.emb x = x :=
    funext fun a => Fin.ext (Pipeline.Window.rect_emb_val_of_index_zero win0_3 (0 : Fin 1) a rfl x)
  rw [he]
  rfl

theorem xrow_apply (c : Dev nD) (h : Fin 4) (b : Fin 2) (r k : Fin 512) :
    xrow (F := Ideal) m c h (ix3 b r k)
      = m ((c : Thread nD τ).loc main_arg0) (ix3 b (⟨512 * h.val + r.val, by omega⟩ : Fin 2048) k) := by
  show xstg (F := Ideal) m c ((xRect h).emb (ix3 b r k)) = _
  rw [xstg_eq]
  refine congrArg _ (funext fun a => Fin.ext ?_)
  match a with
  | ⟨0, _⟩ => simp
  | ⟨1, _⟩ => simp
  | ⟨2, _⟩ => simp

theorem tload_eq (c : Dev nD) : tload (F := Ideal) m c = m ((c : Thread nD τ).loc main_arg1) := by
  unfold tload
  rw [tstg_eq]
  exact Memref.readAt_unit_zero (Elt Ideal) cc0_stg1_0 (by funext a; match a with | ⟨0, _⟩ => rfl | ⟨1, _⟩ => rfl) _ _
theorem wsload_eq (c : Dev nD) : wsload (F := Ideal) m c = m ((c : Thread nD τ).loc main_arg2) := by
  unfold wsload
  rw [wsstg_eq]
  exact Memref.readAt_unit_zero (Elt Ideal) cc0_stg2_0 (by funext a; match a with | ⟨0, _⟩ => rfl | ⟨1, _⟩ => rfl) _ _
theorem wshload_eq (c : Dev nD) : wshload (F := Ideal) m c = m ((c : Thread nD τ).loc main_arg3) := by
  unfold wshload
  rw [wshstg_eq]
  exact Memref.readAt_unit_zero (Elt Ideal) cc0_stg3_0 (by funext a; match a with | ⟨0, _⟩ => rfl | ⟨1, _⟩ => rfl) _ _

theorem blockX_apply {α : Type} (X : (⟨3, ![2, 2048, 2048]⟩ : Shape).Idx → α) (c : Fin 4) (b : Fin 2) (s : Fin 2048) (k : Fin 512) :
    (Layout.block ⟨3, ![2, 2048, 512]⟩ ⟨3, ![2, 2048, 2048]⟩ 2 4 c X) (ix3 b s k)
      = X (ix3 b s (⟨512 * c.val + k.val, by omega⟩ : Fin 2048)) := by
  rw [Layout.block_apply]
  refine congrArg X (funext fun a => Fin.ext ?_)
  match a with
  | ⟨0, _⟩ => rfl
  | ⟨1, _⟩ => rfl
  | ⟨2, _⟩ => show c.val * 512 + k.val = 512 * c.val + k.val; omega

theorem blockW_apply {α : Type} (W : (⟨2, ![128, 2048]⟩ : Shape).Idx → α) (c : Fin 4) (k : Fin 128) (j : Fin 512) :
    (Layout.block ⟨2, ![128, 512]⟩ ⟨2, ![128, 2048]⟩ 1 4 c W) (ix2 k j)
      = W (ix2 k (⟨512 * c.val + j.val, by omega⟩ : Fin 2048)) := by
  rw [Layout.block_apply]
  refine congrArg W (funext fun a => Fin.ext ?_)
  match a with
  | ⟨0, _⟩ => rfl
  | ⟨1, _⟩ => show c.val * 512 + j.val = 512 * c.val + j.val; omega

theorem ring_sum (G : Fin 4 → EReal) (c : Dev nD) :
    ((G c + G (sh c 1)) + G (sh c 2)) + G (sh c 3) = ∑ p, G p := by
  rw [Fin.sum_univ_four]
  have h := NormMath.rot_sum G c
  have h0 : (⟨(c.val + 0) % 4, Nat.mod_lt _ (by norm_num)⟩ : Fin 4) = c := Fin.ext (by
    have hc : c.val < 4 := c.isLt
    show (c.val + 0) % 4 = c.val
    omega)
  rw [h0] at h
  exact h

theorem tot4_ring (c : Dev nD) (h : Fin 4) (ρ : Fin 4) (r : Fin 512) (G : Fin 4 → EReal)
    (hown : ∀ p : Dev nD, ownV (F := Ideal) m p h (ix3 (0 : Fin 1) ρ r) = G p) :
    PayValue.tot4 (ownV (F := Ideal) m c h) (commV (F := Ideal) m c h 0) (commV (F := Ideal) m c h 1)
        (commV (F := Ideal) m c h 2) ρ r = ∑ p, G p := by
  rw [PayValue.tot4_def, commV_apply, commV_apply, commV_apply, hown, hown, hown, hown]
  exact ring_sum G c

section Whole

variable (X : (⟨3, ![2, 2048, 2048]⟩ : Shape).Idx → EReal)
  (hX : ∀ p : Dev nD, m ((p : Thread nD τ).loc main_arg0) = Layout.block ⟨3, ![2, 2048, 512]⟩ ⟨3, ![2, 2048, 2048]⟩ 2 4 p X)

include hX in

theorem tot4_sum (c : Dev nD) (h : Fin 4) (b : Fin 2) (r : Fin 512) :
    PayValue.tot4 (ownV (F := Ideal) m c h) (commV (F := Ideal) m c h 0) (commV (F := Ideal) m c h 1)
        (commV (F := Ideal) m c h 2) (⟨b.val, by omega⟩ : Fin 4) r
      = ∑ i : Fin 2048, X (ix3 b (⟨512 * h.val + r.val, by omega⟩ : Fin 2048) i) := by
  rw [tot4_ring m c h _ r (fun p => ∑ k : Fin 512, X (ix3 b (⟨512 * h.val + r.val, by omega⟩ : Fin 2048)
      (⟨512 * p.val + k.val, by omega⟩ : Fin 2048)))
    (fun p => by rw [ownV_sum]; simp only [xrow_apply, hX, blockX_apply])]
  exact (NormMath.sum_eq_sum_blocks _ (fun i => X (ix3 b (⟨512 * h.val + r.val, by omega⟩ : Fin 2048) i))
    (fun p k => rfl)).symm

include hX in

theorem tot4_sq (c : Dev nD) (h : Fin 4) (b : Fin 2) (r : Fin 512) :
    PayValue.tot4 (ownV (F := Ideal) m c h) (commV (F := Ideal) m c h 0) (commV (F := Ideal) m c h 1)
        (commV (F := Ideal) m c h 2) (⟨b.val + 2, by omega⟩ : Fin 4) r
      = ∑ i : Fin 2048, X (ix3 b (⟨512 * h.val + r.val, by omega⟩ : Fin 2048) i)
          * X (ix3 b (⟨512 * h.val + r.val, by omega⟩ : Fin 2048) i) := by
  rw [tot4_ring m c h _ r (fun p => ∑ k : Fin 512,
      X (ix3 b (⟨512 * h.val + r.val, by omega⟩ : Fin 2048) (⟨512 * p.val + k.val, by omega⟩ : Fin 2048))
        * X (ix3 b (⟨512 * h.val + r.val, by omega⟩ : Fin 2048) (⟨512 * p.val + k.val, by omega⟩ : Fin 2048)))
    (fun p => by rw [ownV_sq]; simp only [xrow_apply, hX, blockX_apply])]
  exact (NormMath.sum_eq_sum_blocks _ (fun i => X (ix3 b (⟨512 * h.val + r.val, by omega⟩ : Fin 2048) i)
      * X (ix3 b (⟨512 * h.val + r.val, by omega⟩ : Fin 2048) i))
    (fun p k => rfl)).symm

end Whole

theorem out_eq_core (X' : (⟨3, ![2, 2048, 2048]⟩ : Shape).Idx → EReal) (T' : (⟨2, ![2, 128]⟩ : Shape).Idx → EReal)
    (Ws' Wsh' : (⟨2, ![128, 2048]⟩ : Shape).Idx → EReal)
    (hX : ∀ p : Dev nD, m ((p : Thread nD τ).loc main_arg0)
      = Layout.block ⟨3, ![2, 2048, 512]⟩ ⟨3, ![2, 2048, 2048]⟩ 2 4 p X')
    (hT : ∀ p : Dev nD, m ((p : Thread nD τ).loc main_arg1) = T')
    (hWs : ∀ p : Dev nD, m ((p : Thread nD τ).loc main_arg2)
      = Layout.block ⟨2, ![128, 512]⟩ ⟨2, ![128, 2048]⟩ 1 4 p Ws')
    (hWsh : ∀ p : Dev nD, m ((p : Thread nD τ).loc main_arg3)
      = Layout.block ⟨2, ![128, 512]⟩ ⟨2, ![128, 2048]⟩ 1 4 p Wsh')
    (hXr : ∀ i, IsReal (X' i)) (hTr : ∀ i, IsReal (T' i)) (hWsr : ∀ i, IsReal (Ws' i)) (hWshr : ∀ i, IsReal (Wsh' i))
    (c : Dev nD) :
    outBlk (F := Ideal) m c
      = Layout.block ⟨3, ![2, 2048, 512]⟩ ⟨3, ![2, 2048, 2048]⟩ 2 4 c
          (Cert.ReferenceIdeal.RefRun.refOut (F := Ideal) X' T' Ws' Wsh') := by
  have hc : c.val < 4 := c.isLt
  funext y
  obtain ⟨b, s, j, rfl⟩ : ∃ (b : Fin 2) (s : Fin 2048) (j : Fin 512), y = ix3 b s j := ⟨y 0, y 1, y 2, eq_ix3 y⟩
  obtain ⟨h, r, rfl⟩ : ∃ (h : Fin 4) (r : Fin 512), s = (⟨512 * h.val + r.val, by omega⟩ : Fin 2048) :=
    ⟨⟨s.val / 512, by have := s.isLt; omega⟩, ⟨s.val % 512, Nat.mod_lt _ (by norm_num)⟩, Fin.ext (by
      show s.val = 512 * (s.val / 512) + s.val % 512
      omega)⟩
  have hsc : scV (F := Ideal) m c (ix3 b (0 : Fin 1) j)
      = Ideal.ofBits .f32 0x3F800000#32
        + ∑ k : Fin 128, T' (ix2 b k) * Ws' (ix2 k (⟨512 * c.val + j.val, by omega⟩ : Fin 2048)) := by
    unfold scV
    rw [PayValue.k0_pay10_apply, tload_eq, wsload_eq, hT, hWs]
    simp only [blockW_apply]
  have hsh : shV (F := Ideal) m c (ix3 b (0 : Fin 1) j)
      = ∑ k : Fin 128, T' (ix2 b k) * Wsh' (ix2 k (⟨512 * c.val + j.val, by omega⟩ : Fin 2048)) := by
    unfold shV
    rw [PayValue.k0_pay11_apply, tload_eq, wshload_eq, hT, hWsh]
    simp only [blockW_apply]
  have ha : IsReal (Ideal.ofBits .f32 0x3F800000#32
      + ∑ k : Fin 128, T' (ix2 b k) * Ws' (ix2 k (⟨512 * c.val + j.val, by omega⟩ : Fin 2048))) := by
    rw [ofBits_f32_one]
    exact IsReal.add IsReal.one (IsReal.sum _ _ fun k _ => IsReal.mul (hTr _) (hWsr _))
  have hs : IsReal (∑ k : Fin 128, T' (ix2 b k) * Wsh' (ix2 k (⟨512 * c.val + j.val, by omega⟩ : Fin 2048))) :=
    IsReal.sum _ _ fun k _ => IsReal.mul (hTr _) (hWshr _)
  rw [outBlk_apply, outV_apply, tot4_sum m X' hX, tot4_sq m X' hX, hsc, hsh, xrow_apply, hX, blockX_apply,
    PayValue.normVal_def]
  show _ = (Layout.block ⟨3, ![2, 2048, 512]⟩ ⟨3, ![2, 2048, 2048]⟩ 2 4 c
    (Cert.ReferenceIdeal.RefRun.refOut (F := Ideal) X' T' Ws' Wsh')) (ix3 b (⟨512 * h.val + r.val, by omega⟩ : Fin 2048) j)
  rw [blockX_apply, Cert.ReferenceIdeal.RefValue.refOut_apply]
  exact NormMath.row_eq (x := fun i => X' (ix3 b (⟨512 * h.val + r.val, by omega⟩ : Fin 2048) i))
    (fun i => hXr _) ha hs _ _ rfl rfl (⟨512 * c.val + j.val, by omega⟩ : Fin 2048)

theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨3, ![2, 2048, 512]⟩ ⟨3, ![2, 2048, 2048]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 2048]⟩ 1 4 c (m' (((0 : Dev Cert.ReferenceIdeal.nD).tc : Thread Cert.ReferenceIdeal.nD Cert.ReferenceIdeal.τ).loc Cert.ReferenceIdeal.main_arg3)))
    (c : Dev Cert.KernelIdeal.nD) :
    Cert.KernelIdeal.Coll.outBlk (F := Ideal) m c
      = Layout.block ⟨3, ![2, 2048, 512]⟩ ⟨3, ![2, 2048, 2048]⟩ 2 4 c
          (Cert.ReferenceIdeal.RefRun.refOut (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) := by
  obtain ⟨hXr, hTr, hWsr, hWshr⟩ := inputs_real m m' hpre hagree
  exact out_eq_core m _ _ _ _ (fun p => (hagree p).1) (fun p => (hagree p).2.1) (fun p => (hagree p).2.2.1)
    (fun p => (hagree p).2.2.2) hXr hTr hWsr hWshr c

end Cert.Bridge

end
-- ==== Proof.KernelIdeal.SchedLemmas.lean ====
import proofs.«900763_g7700000000000764_dist_diff_adaln_cshard_i_b2_s2048_c512_v7x_i4_bf16_1_alg».proof.Proof.KernelIdeal.Sched

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance slotPts_storable (c : Dev nD) (h : Fin 4) (j : Fin 3) (g) : BI.Storable (upEmb : UEmb _ 𝕄) (slotPts (F := F) c h j g) := by
  unfold slotPts; infer_instance
instance slotFree_storable (c : Dev nD) (h : Fin 4) (j : Fin 3) : BI.Storable (upEmb : UEmb _ 𝕄) (slotFree (F := F) c h j) := by
  unfold slotFree; infer_instance
instance slotLanded_storable (c : Dev nD) (h : Fin 4) (j : Fin 3) : BI.Storable (upEmb : UEmb _ 𝕄) (slotLanded (F := F) m c h j) := by
  unfold slotLanded; infer_instance
instance ownPts_storable (c : Dev nD) (h : Fin 4) (q : PosShare TreeShare) (f) : BI.Storable (upEmb : UEmb _ 𝕄) (ownPts (F := F) c h q f) := by
  unfold ownPts; infer_instance
instance ownHeld_storable (c : Dev nD) (h : Fin 4) (q : PosShare TreeShare) : BI.Storable (upEmb : UEmb _ 𝕄) (ownHeld (F := F) m c h q) := by
  unfold ownHeld; infer_instance
instance barPay_storable (c : Dev nD) (e : Fin 3) : BI.Storable (upEmb : UEmb _ 𝕄) (barPay (F := F) c e) := by
  unfold barPay; infer_instance
instance dmaPay_storable (c : Dev nD) (n : ℕ) : BI.Storable (upEmb : UEmb _ 𝕄) (dmaPay (F := F) m c n) := by
  unfold dmaPay sendPay recvPay; (repeat' split) <;> infer_instance

instance ringRd_payload_storable (g : GSem nD τ sig) (r : ℕ) (d : Fin 3) :
    BI.Storable (upEmb : UEmb _ 𝕄) ((ringRd (F := F) m).payload g r d) := by
  show BI.Storable upEmb (match g.2 with | .reg _ => barPay g.1.1 d | .dma s => dmaPay m g.1.1 s.val)
  split <;> infer_instance

section Sched
variable (c : Dev nD)

theorem duties_bar : (ringRd (F := F) m).duties (barCell c) 0 = Finset.univ := rfl
theorem duties_send (h : Fin 4) (e : Fin 3) : (ringRd (F := F) m).duties (sendCell c h e) 0 = {0} := by
  show (if (0 : ℕ) = 0 then (if 5 ≤ (sendSem h e).val then ({0} : Finset (Fin 3)) else ∅) else ∅) = {0}
  rw [if_pos rfl, if_pos (by rw [sendSem_val]; omega)]
theorem duties_recv (h : Fin 4) (j : Fin 3) : (ringRd (F := F) m).duties (recvCell c h j) 0 = {0} := by
  show (if (0 : ℕ) = 0 then (if 5 ≤ (recvSem h j).val then ({0} : Finset (Fin 3)) else ∅) else ∅) = {0}
  rw [if_pos rfl, if_pos (by rw [recvSem_val]; omega)]
theorem duties_later (g : GSem nD τ sig) : ∀ r, 1 ≤ r → (ringRd (F := F) m).duties g r = ∅ :=
  fun r hr => by dsimp only [ringRd]; rw [if_neg fun h => by omega]

theorem amount_bar (d : Fin 3) : (ringRd (F := F) m).amount (barCell c) 0 d = 1 := rfl
theorem amount_send (h : Fin 4) (e : Fin 3) (d : Fin 3) : (ringRd (F := F) m).amount (sendCell c h e) 0 d = N := rfl
theorem amount_recv (h : Fin 4) (j : Fin 3) (d : Fin 3) : (ringRd (F := F) m).amount (recvCell c h j) 0 d = N := rfl

theorem expect_bar : (ringRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (h : Fin 4) (e : Fin 3) : (ringRd (F := F) m).expect (sendCell c h e) 0 = N := by
  unfold Schedule.expect Schedule.amountOf; rw [duties_send, Finset.sum_singleton, amount_send]
theorem expect_recv (h : Fin 4) (j : Fin 3) : (ringRd (F := F) m).expect (recvCell c h j) 0 = N := by
  unfold Schedule.expect Schedule.amountOf; rw [duties_recv, Finset.sum_singleton, amount_recv]

theorem payload_bar (e : Fin 3) : (ringRd (F := F) m).payload (barCell c) 0 e = barPay c e := rfl

theorem dmaPay_send (h : Fin 4) (e : Fin 3) : dmaPay (F := F) m c (5 + 3 * h.val + e.val) = sendPay m c h e := by
  have hh := h.isLt; have he := e.isLt
  unfold dmaPay
  rw [dif_pos (by omega)]
  congr 1 <;> apply Fin.ext <;> simp only [] <;> omega
theorem dmaPay_recv (h : Fin 4) (j : Fin 3) : dmaPay (F := F) m c (17 + 3 * h.val + j.val) = recvPay m c h j := by
  have hh := h.isLt; have hj := j.isLt
  unfold dmaPay
  rw [dif_neg (by omega), dif_pos (by omega)]
  congr 1 <;> apply Fin.ext <;> simp only [] <;> omega

theorem payload_send (h : Fin 4) (e : Fin 3) (d : Fin 3) : (ringRd (F := F) m).payload (sendCell c h e) 0 d = sendPay m c h e := by
  show dmaPay m c (sendSem h e).val = sendPay m c h e
  rw [sendSem_val, dmaPay_send]
theorem payload_recv (h : Fin 4) (j : Fin 3) (d : Fin 3) : (ringRd (F := F) m).payload (recvCell c h j) 0 d = recvPay m c h j := by
  show dmaPay m c (recvSem h j).val = recvPay m c h j
  rw [recvSem_val, dmaPay_recv]

theorem rest_bar : bigSep ((ringRd (F := F) m).duties (barCell c) 0 \ ∅) (fun d => (ringRd (F := F) m).payload (barCell c) 0 d) = iprop(barPay c 0 ∗ barPay c 1 ∗ barPay c 2) := by
  rw [Finset.sdiff_empty, duties_bar, bigSep_fin3]
  rfl
theorem rest_send (h : Fin 4) (e : Fin 3) : bigSep ((ringRd (F := F) m).duties (sendCell c h e) 0 \ ∅) (fun d => (ringRd (F := F) m).payload (sendCell c h e) 0 d) = sendPay m c h e := by
  rw [Finset.sdiff_empty, duties_send, bigSep_singleton, payload_send]
theorem rest_recv (h : Fin 4) (j : Fin 3) : bigSep ((ringRd (F := F) m).duties (recvCell c h j) 0 \ ∅) (fun d => (ringRd (F := F) m).payload (recvCell c h j) 0 d) = recvPay m c h j := by
  rw [Finset.sdiff_empty, duties_recv, bigSep_singleton, payload_recv]

end Sched

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {h h' : Fin 4} {j j' : Fin 3} : Iff (recvCell a h j = recvCell b h' j') (a = b ∧ h = h' ∧ j = j') := by
  constructor
  · intro e
    have e1 : a = b := Fin.ext (congrArg (fun g : GSem nD τ sig => g.1.1.val) e)
    have e2 : (recvSem h j).val = (recvSem h' j').val := by
      have e3 : (SemLoc.dma (recvSem h j) : SemLoc sig) = .dma (recvSem h' j') := congrArg Prod.snd e
      injection e3 with e4; rw [e4]
    rw [recvSem_val, recvSem_val] at e2
    exact ⟨e1, Fin.ext (by omega), Fin.ext (by omega)⟩
  · rintro ⟨rfl, rfl, rfl⟩; rfl
theorem recv_ne_bar {a b : Dev nD} {h : Fin 4} {j : Fin 3} : recvCell a h j ≠ barCell b := fun e => by cases (congrArg Prod.snd e)

theorem tally_bar_bar (a c : Dev nD) (k : ℕ) : (tallyAt (barCell a) () k : CellTallies nD τ sig Unit) (barCell c) () = if a = c then k else 0 := by
  rw [tallyAt_apply]
  by_cases h : a = c
  · subst h; rw [if_pos ⟨rfl, rfl⟩, if_pos rfl]
  · rw [if_neg (fun h' => h (bar_eq_iff.mp h'.1).symm), if_neg h]
theorem tally_recv_bar (a c : Dev nD) (h : Fin 4) (j : Fin 3) (k : ℕ) : (tallyAt (recvCell a h j) () k : CellTallies nD τ sig Unit) (barCell c) () = 0 := by
  rw [tallyAt_ne_cell (fun e => recv_ne_bar e.symm)]; rfl
theorem tally_bar_recv (a c : Dev nD) (h : Fin 4) (j : Fin 3) (k : ℕ) : (tallyAt (barCell a) () k : CellTallies nD τ sig Unit) (recvCell c h j) () = 0 := by
  rw [tallyAt_ne_cell recv_ne_bar]; rfl
theorem tally_recv_recv (a c : Dev nD) (h' h : Fin 4) (j' j : Fin 3) (k : ℕ) :
    (tallyAt (recvCell a h' j') () k : CellTallies nD τ sig Unit) (recvCell c h j) () = if a = c ∧ h' = h ∧ j' = j then k else 0 := by
  rw [tallyAt_apply]
  by_cases hh : a = c ∧ h' = h ∧ j' = j
  · obtain ⟨rfl, rfl, rfl⟩ := hh; rw [if_pos ⟨rfl, rfl⟩, if_pos ⟨rfl, rfl, rfl⟩]
  · rw [if_neg (fun e => hh (by obtain ⟨e1, e2, e3⟩ := recv_eq_iff.mp e.1; exact ⟨e1.symm, e2.symm, e3.symm⟩)), if_neg hh]

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) : lv (barCell d) () = 1 := rfl
theorem lv_recv (d : Dev nD) (h : Fin 4) (j : Fin 3) : lv (recvCell d h j) () = 2 := by
  show (if 17 ≤ (recvSem h j).val then 2 else 0) = 2
  rw [recvSem_val, if_pos (by omega)]
theorem lv_stage (c : Dev nD) (q : DmaSem sig) (hq : q.val < 5) : lv ((c : Thread nD τ), .dma q) () = 0 := by
  show (if 17 ≤ q.val then 2 else 0) = 0
  rw [if_neg (by omega)]

theorem owedFor_pos : ∀ (l : List (GSem nD τ sig × ℕ)) {g : GSem nD τ sig} {u : Unit}, 0 < owedFor l g u → ∃ a ∈ l, a.1 = g
  | [], g, u, h => absurd h (Nat.lt_irrefl 0)
  | a :: l, g, u, h => by
    rcases Pipeline.add_pos_cases (D₁ := owedFor l) (D₂ := tallyAt a.1 () a.2) h with h1 | h2
    · obtain ⟨b, hb, hbg⟩ := owedFor_pos l h1
      exact ⟨b, List.mem_cons_of_mem _ hb, hbg⟩
    · rw [tallyAt_apply] at h2
      by_cases hh : g = a.1 ∧ u = ()
      · exact ⟨a, List.mem_cons_self, hh.1.symm⟩
      · rw [if_neg hh] at h2; exact absurd h2 (Nat.lt_irrefl 0)

theorem acts_cells (c : Dev nD) : ∀ a ∈ acts c, (∃ d, a.1 = barCell d) ∨ (∃ d h j, a.1 = recvCell d h j) := by
  intro a ha
  simp only [acts, List.mem_cons, List.not_mem_nil, or_false] at ha
  rcases ha with rfl | rfl | rfl | rfl | rfl | rfl | rfl | rfl | rfl | rfl | rfl | rfl | rfl | rfl | rfl
  all_goals first | exact .inl ⟨_, rfl⟩ | exact .inr ⟨_, _, _, rfl⟩

theorem acts_drop_cells (c : Dev nD) : ∀ a ∈ (acts c).drop 3, ∃ d h j, a.1 = recvCell d h j := by
  intro a ha
  simp only [acts, List.drop_succ_cons, List.drop_zero, List.mem_cons, List.not_mem_nil, or_false] at ha
  rcases ha with rfl | rfl | rfl | rfl | rfl | rfl | rfl | rfl | rfl | rfl | rfl | rfl
  all_goals exact ⟨_, _, _, rfl⟩

theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    obtain ⟨a, ha, rfl⟩ := owedFor_pos (acts c) hg
    cases u
    rw [lv_stage c q hq]
    rcases acts_cells c a ha with ⟨d, hd⟩ | ⟨d, h, j, hd⟩
    · rw [hd, L_tc, lv_bar]; exact ⟨Finset.mem_singleton_self _, by decide⟩
    · rw [hd, L_tc, lv_recv]; exact ⟨Finset.mem_singleton_self _, by decide⟩
  · rw [MayWait_zero]; iintro -; iempintro

theorem mayWait_bar (c : Dev nD) :
    (levAts L lv : sProp 𝕄) ⊢ MayWait (c : Thread nD τ) (.reg barS) () (owedFor ((acts c).drop 3)) := by
  refine Pipeline.mayWait_of_levAts (by rw [L_tc]; exact Finset.mem_singleton_self _) fun g u hg => ?_
  obtain ⟨a, ha, rfl⟩ := owedFor_pos _ hg
  cases u
  obtain ⟨d, h, j, hd⟩ := acts_drop_cells c a ha
  rw [hd, L_tc, lv_recv, lv_bar c]
  exact ⟨Finset.mem_singleton_self _, by decide⟩

theorem owed_bar (d c : Dev nD) : O₀ d (barCell c) () = if d ≠ c then 1 else 0 := by
  have key : ((if sh d 3 = c then 1 else 0) + (if sh d 2 = c then 1 else 0) + (if sh d 1 = c then 1 else 0) : ℕ) = if d ≠ c then 1 else 0 := by
    revert d c; decide
  rw [← key]
  simp only [O₀, acts, owedFor, Pi.add_apply, Finsupp.add_apply, tally_bar_bar, tally_recv_bar, Pi.zero_apply, Finsupp.zero_apply, Nat.add_zero, Nat.zero_add]

theorem owed_recv (d c : Dev nD) (h : Fin 4) (j : Fin 3) : O₀ d (recvCell c h j) () = if d = sh c (j.val + 1) then N else 0 := by
  have key : ((if sh d 3 = c ∧ 3 = h ∧ 0 = j then 1 else 0) + (if sh d 2 = c ∧ 3 = h ∧ 1 = j then 1 else 0) + (if sh d 1 = c ∧ 3 = h ∧ 2 = j then 1 else 0)
      + (if sh d 3 = c ∧ 2 = h ∧ 0 = j then 1 else 0) + (if sh d 2 = c ∧ 2 = h ∧ 1 = j then 1 else 0) + (if sh d 1 = c ∧ 2 = h ∧ 2 = j then 1 else 0)
      + (if sh d 3 = c ∧ 1 = h ∧ 0 = j then 1 else 0) + (if sh d 2 = c ∧ 1 = h ∧ 1 = j then 1 else 0) + (if sh d 1 = c ∧ 1 = h ∧ 2 = j then 1 else 0)
      + (if sh d 3 = c ∧ 0 = h ∧ 0 = j then 1 else 0) + (if sh d 2 = c ∧ 0 = h ∧ 1 = j then 1 else 0) + (if sh d 1 = c ∧ 0 = h ∧ 2 = j then 1 else 0) : ℕ)
      = if d = sh c (j.val + 1) then 1 else 0 := by
    revert d c h j; decide
  have key' := congrArg (fun k : ℕ => N * k) key
  simp only [mul_add, mul_ite, mul_one, mul_zero] at key'
  rw [← key']
  simp only [O₀, acts, owedFor, Pi.add_apply, Finsupp.add_apply, tally_bar_recv, tally_recv_recv, Pi.zero_apply, Finsupp.zero_apply, Nat.add_zero, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (h : Fin 4) (j : Fin 3) :
    tallyOn (recvCell c h j) (launchCredit (Pipeline.owing O₀) 0 (recvCell c h j)) = (tallyAt (recvCell c h j) () N : CellTallies nD τ sig Unit) := by
  unfold tallyAt; refine congrArg _ (Finsupp.ext fun u => ?_); cases u
  rw [Pipeline.launchCredit_owing, Finsupp.single_eq_same, Finset.sum_congr rfl fun d _ => owed_recv d c h j,
    Finset.sum_ite_eq' Finset.univ (sh c (j.val + 1)) fun _ => N, if_pos (Finset.mem_univ _)]

theorem recvLoc_injective : Function.Injective (fun hj : Fin 4 × Fin 3 => (SemLoc.dma (recvSem hj.1 hj.2) : SemLoc sig)) := by
  intro a b e
  have e1 : (recvSem a.1 a.2).val = (recvSem b.1 b.2).val := by injection e with e'; rw [e']
  rw [recvSem_val, recvSem_val] at e1
  have ha := a.2.isLt; have hb := b.2.isLt
  exact Prod.ext (Fin.ext (by omega)) (Fin.ext (by omega))

theorem creds (c : Dev nD) :
    (Pipeline.launchCred O₀ c : sProp 𝕄) ⊢ iprop(cred (tallyAt (barCell c) () 3)
      ∗ bigSep Finset.univ fun hj : Fin 4 × Fin 3 => cred (tallyAt (recvCell c hj.1 hj.2) () N)) := by
  unfold Pipeline.launchCred
  rw [bigSep_univ_at _ (SemLoc.reg barS), launch_bar]
  refine sep_mono_right ?_
  refine (bigSep_subset (t := Finset.univ.map ⟨_, recvLoc_injective⟩) (fun s hs => ?_)).trans ?_
  · obtain ⟨hj, _, rfl⟩ := Finset.mem_map.mp hs
    exact Finset.mem_erase.mpr ⟨(fun e => by cases e), Finset.mem_univ _⟩
  · rw [bigSep_map]
    refine bigSep_mono fun hj _ => ?_
    rw [← launch_recv]
    exact .refl _

end Cert.KernelIdeal.Coll

end
-- ==== Proof.KernelIdeal.Steps.lean ====
import proofs.«900763_g7700000000000764_dist_diff_adaln_cshard_i_b2_s2048_c512_v7x_i4_bf16_1_alg».proof.Proof.KernelIdeal.Sched
import proofs.«900763_g7700000000000764_dist_diff_adaln_cshard_i_b2_s2048_c512_v7x_i4_bf16_1_alg».proof.Proof.KernelIdeal.SchedLemmas

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev slotOf (d : Fin 3) : Fin 3 := ⟨2 - d.val, by omega⟩

theorem wp_send_slot (κ₁ κ₂ : ℕ) (c n : Dev nD) (h : Fin 4) (d : Fin 3) (hn : n = sh c (d.val + 1))
    {hsc : (commSl h (slotOf d) : Memref sig (Dev.tc n : Thread nD τ).2.kind .vmem S4x512 .f32).view.ref.isScScratch = false}
    {hsrc : (ownSl h : Memref sig .tc .vmem S4x512 .f32).view.WordExact} {hdst : (commSl h (slotOf d) : Memref sig .tc .vmem S4x512 .f32).view.WordExact}
    {hsem : DmaTarget.Typed .vmem (.dma (recvSem h (slotOf d))) (.remote (Dev.tc n : Thread nD τ) (commSl h (slotOf d) : Memref sig .tc .vmem S4x512 .f32) (.dma (sendSem h d)) hsc)}
    {α : Type} {Q : α → sProp 𝕄} {k : PUnit → Prog (TpuEff nD τ sig (Elt F) Λ₀ .tc) α}
    (fs : Buf (Elt F) ((ownSl h : Memref sig .tc .vmem S4x512 .f32).view.loc (c : Thread nD τ)))
    (hfs : (ownM : Memref sig .tc .vmem S4x4x512 .f32).view.readAt (Elt F) (ownRect h).toLoadRect fs = ownV m c h)
    (fd : Buf (Elt F) ((commSl h (slotOf d) : Memref sig .tc .vmem S4x512 .f32).view.loc (sh c (d.val + 1) : Thread nD τ)))
    (hland : (commM : Memref sig .tc .vmem S4x3x4x512 .f32).view.readAt (Elt F) (slotRect h (slotOf d)).toLoadRect
        ((commSl h (slotOf d) : Memref sig .tc .vmem S4x512 .f32).view.write (Elt F) fd ((ownSl h : Memref sig .tc .vmem S4x512 .f32).view.read (Elt F) fs) Finset.univ)
      = commV m (sh c (d.val + 1)) h (slotOf d))
    (O : CellTallies nD τ sig Unit) (W : Waits sig Unit) :
    iprop(cellInv ER (ringRd m) κ₁ (sendCell c h d) ∗ cellInv ER (ringRd m) κ₂ (recvCell (sh c (d.val + 1)) h (slotOf d))
        ∗ ownPts c h (qLent d) fs ∗ slotPts (sh c (d.val + 1)) h (slotOf d) fd
        ∗ owes (c : Thread nD τ) (O + tallyAt (recvCell (sh c (d.val + 1)) h (slotOf d)) () N) W
        ∗ dutyTok ER (sendCell c h d) 0 0 ∗ reached ER (sendCell c h d) 0
        ∗ dutyTok ER (recvCell (sh c (d.val + 1)) h (slotOf d)) 0 0 ∗ reached ER (recvCell (sh c (d.val + 1)) h (slotOf d)) 0)
      ⊢ iprop(((cred (tallyAt (sendCell c h d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownSl h) (.remote (Dev.tc n : Thread nD τ) (commSl h (slotOf d)) (.dma (sendSem h d)) hsc) (.dma (recvSem h (slotOf d))) hsrc hdst hsem) k) Q) := by
  subst hn
  unfold ownPts slotPts
  exact Rounds.wp_send_pointsTo 𝒱₀ ER (ringRd m) (c : Thread nD τ) none (κ₁ := κ₁) (κ₂ := κ₂)
    (r₁ := 0) (r₂ := 0) (d₁ := 0) (d₂ := 0) (fd := fd) (q := qLent d)
    (by rw [duties_send]; exact Finset.mem_singleton_self _) (by rw [duties_recv]; exact Finset.mem_singleton_self _)
    () () N rfl (amount_send m c h d 0) (amount_recv m (sh c (d.val + 1)) h (slotOf d) 0) O rfl (W := W)
    (by
      rw [payload_send]; unfold sendPay ownHeld ownPts
      iintro H; iexists fs; isplitr; · (ipureintro; exact hfs)
      iexact H)
    (by
      rw [payload_recv]; unfold recvPay slotLanded slotPts
      iintro H; iexists _; isplitr; · (ipureintro; exact hland)
      iexact H)

end Cert.KernelIdeal.Coll
end
-- ==== Proof.KernelIdeal.Steps2.lean ====
import proofs.«900763_g7700000000000764_dist_diff_adaln_cshard_i_b2_s2048_c512_v7x_i4_bf16_1_alg».proof.Proof.KernelIdeal.Steps

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem hw_bar (c : Dev nD) (Kk : PUnit → sProp 𝕄) :
    wpE (defs₀ (F := F)) 𝒱₀ (c : Thread nD τ) none Set.univ (.semWait barS 3) Kk = waitSpec (c : Thread nD τ) Set.univ (.reg barS) 3 Kk := rfl
theorem hw_recv (c : Dev nD) (h : Fin 4) (j : Fin 3) {src : Memref sig .tc .vmem S4x512 .f32} {hsrc : src.view.WordExact}
    {hdst : (commSl h j : Memref sig .tc .vmem S4x512 .f32).view.WordExact} (Kk : PUnit → sProp 𝕄) :
    wpE (defs₀ (F := F)) 𝒱₀ (c : Thread nD τ) none Set.univ (.waitDma2 (recvSem h j) src (commSl h j) hsrc hdst) Kk
      = waitSpec (c : Thread nD τ) Set.univ (.dma (recvSem h j)) N Kk := rfl
theorem hw_send (c : Dev nD) (h : Fin 4) (e : Fin 3) {src : Memref sig .tc .vmem S4x512 .f32} {hsrc : src.view.WordExact}
    {hdst : (ownSl h : Memref sig .tc .vmem S4x512 .f32).view.WordExact} (Kk : PUnit → sProp 𝕄) :
    wpE (defs₀ (F := F)) 𝒱₀ (c : Thread nD τ) none Set.univ (.waitDma2 (sendSem h e) src (ownSl h) hsrc hdst) Kk
      = waitSpec (c : Thread nD τ) Set.univ (.dma (sendSem h e)) N Kk := rfl

theorem wp_wait_bar {R : sProp 𝕄} {κ : ℕ} (c : Dev nD) (hinv : R ⊢ cellInv ER (ringRd m) κ (barCell c))
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.reg barS) 3 Kk)
    {α : Type} {Q : α → sProp 𝕄} {k : PUnit → Prog (TpuEff nD τ sig (Elt F) Λ₀ .tc) α} (W : Waits sig Unit) :
    iprop(R ∗ cred (tallyAt (barCell c) () 3) ∗ owes (c : Thread nD τ) (owedFor ((acts c).drop 3)) W
        ∗ levAts L lv ∗ atPos ER (barCell c) 0 ∅ 0)
      ⊢ iprop(((owes (c : Thread nD τ) (owedFor ((acts c).drop 3)) (insert (.reg barS, ()) W) ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := Rounds.wp_wait_rest_token (defs := defs₀ (F := F)) 𝒱₀ ER (ringRd m) (c : Thread nD τ) none (w := w) (sm := .reg barS) (k' := 3)
    (Es := Set.univ) (κ := κ) hw (Set.mem_univ _) (k := k) (Q := Q) ()
    (O := owedFor ((acts c).drop 3)) (W := W) (R := 0) (m := 0) (T := ∅) (by rw [expect_bar])
  rw [rest_bar] at h
  iintro ⟨HR, Hc, HO, Hlev, Hat⟩ Hk
  iapply h $$ [HR Hc HO Hlev Hat]
  · isplitl [HR]; · (iapply hinv; iexact HR)
    isplitl [Hc]; · iexact Hc
    isplitl [HO]; · iexact HO
    isplitl [Hlev]; · (iapply (mayWait_bar c); iexact Hlev)
    iexact Hat
  iintro ⟨HO, -, -, Hpay⟩
  iapply Hk
  isplitl [HO]; · iexact HO
  iexact Hpay

theorem wp_wait_recv {R : sProp 𝕄} {κ : ℕ} (c : Dev nD) (h : Fin 4) (j : Fin 3) (hinv : R ⊢ cellInv ER (ringRd m) κ (recvCell c h j))
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (recvSem h j)) N Kk)
    {α : Type} {Q : α → sProp 𝕄} {k : PUnit → Prog (TpuEff nD τ sig (Elt F) Λ₀ .tc) α} (W : Waits sig Unit) :
    iprop(R ∗ cred (tallyAt (recvCell c h j) () N) ∗ owes (c : Thread nD τ) 0 W ∗ atPos ER (recvCell c h j) 0 ∅ 0)
      ⊢ iprop(((owes (c : Thread nD τ) 0 (insert (.dma (recvSem h j), ()) W) ∗ atPos ER (recvCell c h j) 1 ∅ 0 ∗ slotLanded m c h j)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h' := Rounds.wp_wait_rest_token (defs := defs₀ (F := F)) 𝒱₀ ER (ringRd m) (c : Thread nD τ) none (w := w) (sm := .dma (recvSem h j)) (k' := N)
    (Es := Set.univ) (κ := κ) hw (Set.mem_univ _) (k := k) (Q := Q) ()
    (O := 0) (W := W) (R := 0) (m := 0) (T := ∅) (by rw [expect_recv, Nat.zero_add])
  rw [rest_recv, MayWait_zero] at h'
  unfold recvPay at h'
  iintro ⟨HR, Hc, HO, Hat⟩ Hk
  iapply h' $$ [HR Hc HO Hat]
  · isplitl [HR]; · (iapply hinv; iexact HR)
    isplitl [Hc]; · iexact Hc
    isplitl [HO]; · iexact HO
    isplitr; · iempintro
    iexact Hat
  iintro ⟨HO, Hat, -, Hpay⟩
  iapply Hk
  sl_close

theorem wp_wait_send {R : sProp 𝕄} {κ : ℕ} (c : Dev nD) (h : Fin 4) (e : Fin 3) (hinv : R ⊢ cellInv ER (ringRd m) κ (sendCell c h e))
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (sendSem h e)) N Kk)
    {α : Type} {Q : α → sProp 𝕄} {k : PUnit → Prog (TpuEff nD τ sig (Elt F) Λ₀ .tc) α} (W : Waits sig Unit) :
    iprop(R ∗ cred (tallyAt (sendCell c h e) () N) ∗ owes (c : Thread nD τ) 0 W ∗ atPos ER (sendCell c h e) 0 ∅ 0)
      ⊢ iprop(((owes (c : Thread nD τ) 0 (insert (.dma (sendSem h e), ()) W) ∗ atPos ER (sendCell c h e) 1 ∅ 0 ∗ ownHeld m c h (qLent e))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h' := Rounds.wp_wait_rest_token (defs := defs₀ (F := F)) 𝒱₀ ER (ringRd m) (c : Thread nD τ) none (w := w) (sm := .dma (sendSem h e)) (k' := N)
    (Es := Set.univ) (κ := κ) hw (Set.mem_univ _) (k := k) (Q := Q) ()
    (O := 0) (W := W) (R := 0) (m := 0) (T := ∅) (by rw [expect_send, Nat.zero_add])
  rw [rest_send, MayWait_zero] at h'
  unfold sendPay at h'
  iintro ⟨HR, Hc, HO, Hat⟩ Hk
  iapply h' $$ [HR Hc HO Hat]
  · isplitl [HR]; · (iapply hinv; iexact HR)
    isplitl [Hc]; · iexact Hc
    isplitl [HO]; · iexact HO
    isplitr; · iempintro
    iexact Hat
  iintro ⟨HO, Hat, -, Hpay⟩
  iapply Hk
  sl_close

end Cert.KernelIdeal.Coll
end
-- ==== Proof.KernelIdeal.Launch.lean ====
import proofs.«900763_g7700000000000764_dist_diff_adaln_cshard_i_b2_s2048_c512_v7x_i4_bf16_1_alg».proof.Proof.KernelIdeal.Sched
import proofs.«900763_g7700000000000764_dist_diff_adaln_cshard_i_b2_s2048_c512_v7x_i4_bf16_1_alg».proof.Proof.KernelIdeal.SchedLemmas

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev OIx : Type := (Fin 4 × Fin 3) ⊕ (Fin 4 × Fin 3)
abbrev osem : OIx → SemLoc sig
  | .inl he => .dma (sendSem he.1 he.2)
  | .inr hj => .dma (recvSem hj.1 hj.2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 25 → SemLoc sig) := by
  intro k k' h
  by_cases h0 : k.val = 0 <;> by_cases h0' : k'.val = 0
  · exact Fin.ext (h0.trans h0'.symm)
  · exfalso; simp only [csem, if_pos h0, if_neg h0'] at h; cases h
  · exfalso; simp only [csem, if_neg h0, if_pos h0'] at h; cases h
  · simp only [csem, if_neg h0, if_neg h0'] at h
    have := congrArg (fun s : SemLoc sig => match s with | .dma q => q.val | .reg _ => 0) h
    simp only [] at this
    exact Fin.ext (by omega)

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

abbrev CIx : Type := Unit ⊕ OIx
def cellE : CIx ≃ Fin 25 where
  toFun
    | .inl _ => 0
    | .inr (.inl he) => ⟨1 + 3 * he.1.val + he.2.val, by have := he.1.isLt; have := he.2.isLt; omega⟩
    | .inr (.inr hj) => ⟨13 + 3 * hj.1.val + hj.2.val, by have := hj.1.isLt; have := hj.2.isLt; omega⟩
  invFun k :=
    if h0 : k.val = 0 then .inl ()
    else if h1 : k.val < 13 then .inr (.inl (⟨(k.val - 1) / 3, by omega⟩, ⟨(k.val - 1) % 3, Nat.mod_lt _ (by decide)⟩))
    else .inr (.inr (⟨(k.val - 13) / 3, by have := k.isLt; omega⟩, ⟨(k.val - 13) % 3, Nat.mod_lt _ (by decide)⟩))
  left_inv := by decide
  right_inv := by decide

theorem csem_send (h : Fin 4) (e : Fin 3) : csem (cellE (.inr (.inl (h, e)))) = .dma (sendSem h e) := by revert h e; decide
theorem csem_recv (h : Fin 4) (j : Fin 3) : csem (cellE (.inr (.inr (h, j)))) = .dma (recvSem h j) := by revert h j; decide
theorem bigSep_cells25 (c : Dev nD) (Φ : GSem nD τ sig → sProp 𝕄) :
    (bigSep Finset.univ fun k : Fin 25 => Φ (kcell (c, k)))
      = iprop(Φ (barCell c) ∗ (bigSep Finset.univ fun he : Fin 4 × Fin 3 => Φ (sendCell c he.1 he.2))
          ∗ bigSep Finset.univ fun hj : Fin 4 × Fin 3 => Φ (recvCell c hj.1 hj.2)) := by
  have h1 : ∀ he : Fin 4 × Fin 3, Φ (kcell (c, cellE (.inr (.inl he)))) = Φ (sendCell c he.1 he.2) := fun he => by
    show Φ ((c : Thread nD τ), csem (cellE (.inr (.inl he)))) = _; rw [csem_send]
  have h2 : ∀ hj : Fin 4 × Fin 3, Φ (kcell (c, cellE (.inr (.inr hj)))) = Φ (recvCell c hj.1 hj.2) := fun hj => by
    show Φ ((c : Thread nD τ), csem (cellE (.inr (.inr hj)))) = _; rw [csem_recv]
  rw [bigSep_univ_equiv cellE (fun k : Fin 25 => Φ (kcell (c, k))), bigSep_univ_sum, bigSep_univ_sum,
    bigSep_univ_of_subsingleton (), bigSep_congr (fun he _ => h1 he), bigSep_congr (fun hj _ => h2 hj)]
  rfl

abbrev TIx : Type := Fin 3 ⊕ OIx
abbrev tokOf (cj : Dev nD × TIx) : GSem nD τ sig × ℕ × Fin 3 := match cj.2 with
  | .inl e => (barCell cj.1, 0, e)
  | .inr (.inl he) => (sendCell cj.1 he.1 he.2, 0, 0)
  | .inr (.inr hj) => (recvCell cj.1 hj.1 hj.2, 0, 0)

theorem tokOf_injective : Function.Injective (tokOf : Dev nD × TIx → GSem nD τ sig × ℕ × Fin 3) := by
  rintro ⟨c, j⟩ ⟨c', j'⟩ heq
  have h1 : c = c' := by
    have := congrArg (fun x : GSem nD τ sig × ℕ × Fin 3 => x.1.1.1) heq
    rcases j with e | he | hj <;> rcases j' with e' | he' | hj' <;> exact this
  subst h1
  have hs := congrArg (fun x : GSem nD τ sig × ℕ × Fin 3 => x.1.2) heq
  have hd := congrArg (fun x : GSem nD τ sig × ℕ × Fin 3 => x.2.2) heq
  have key : j = j' := by
    rcases j with e | ⟨h, e⟩ | ⟨h, e⟩ <;> rcases j' with e' | ⟨h', e'⟩ | ⟨h', e'⟩ <;> simp only [tokOf] at hs hd
    · rw [hd]
    · cases hs
    · cases hs
    · cases hs
    · have hv := congrArg (fun s : SemLoc sig => match s with | .dma q => q.val | .reg _ => 0) hs
      simp only [sendSem_val] at hv
      have := h.isLt; have := e.isLt; have := h'.isLt; have := e'.isLt
      have h3 : h = h' := Fin.ext (by omega)
      have h4 : e = e' := Fin.ext (by omega)
      rw [h3, h4]
    · have hv := congrArg (fun s : SemLoc sig => match s with | .dma q => q.val | .reg _ => 0) hs
      simp only [sendSem_val, recvSem_val] at hv
      have := h.isLt; have := e.isLt; have := h'.isLt; have := e'.isLt
      omega
    · cases hs
    · have hv := congrArg (fun s : SemLoc sig => match s with | .dma q => q.val | .reg _ => 0) hs
      simp only [sendSem_val, recvSem_val] at hv
      have := h.isLt; have := e.isLt; have := h'.isLt; have := e'.isLt
      omega
    · have hv := congrArg (fun s : SemLoc sig => match s with | .dma q => q.val | .reg _ => 0) hs
      simp only [recvSem_val] at hv
      have := h.isLt; have := e.isLt; have := h'.isLt; have := e'.isLt
      have h3 : h = h' := Fin.ext (by omega)
      have h4 : e = e' := Fin.ext (by omega)
      rw [h3, h4]
  rw [key]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun e : Fin 3 => dutyTok ER (barCell c) 0 e)
    ∗ (bigSep Finset.univ fun he : Fin 4 × Fin 3 => dutyTok ER (sendCell c he.1 he.2) 0 0)
    ∗ (bigSep Finset.univ fun hj : Fin 4 × Fin 3 => dutyTok ER (recvCell c hj.1 hj.2) 0 0))

def G (c : Dev nD) : sProp 𝕄 :=
  iprop((bigSep Finset.univ fun k : Fin 25 => roundState ER (ringRd m) (kcell (c, k)) 0)
    ∗ (bigSep Finset.univ fun k : Fin 25 => iprop(atPos ER (kcell (c, k)) 0 ∅ 0 ∗ reached ER (kcell (c, k)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun he : Fin 4 × Fin 3 => semVal (sendCell c he.1 he.2) 0)
        ∗ bigSep Finset.univ fun hj : Fin 4 × Fin 3 => semVal (recvCell c hj.1 hj.2) 0) := by
  unfold Pipeline.ownSems0; rw [bigSep_univ_sum]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, bigSep_cells25 c (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => iprop(∃ κ : ℕ, cellInv ER (ringRd m) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (ringRd m) (kcell (c, k)) 0)
      ⊢ (|={Set.univ}=> bigSep Finset.univ fun k : Fin 25 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  sl_close

instance records_persistent (K : Dev nD × Fin 25 → ℕ) : BI.Persistent (records m K) := by unfold records; infer_instance

theorem inv_at (K : Dev nD × Fin 25 → ℕ) (ck : Dev nD × Fin 25) : records m K ⊢ cellInv ER (ringRd m) (K ck) (kcell ck) := by
  unfold records; exact BI.sep_and.trans (and_elimL.trans (bigSep_elim (Finset.mem_univ ck)))
theorem reached_at (K : Dev nD × Fin 25 → ℕ) (ck : Dev nD × Fin 25) : records m K ⊢ reached ER (kcell ck) 0 := by
  unfold records; exact BI.sep_and.trans (and_elimR.trans (bigSep_elim (Finset.mem_univ ck)))

def shE (e : Fin 3) : Dev nD ≃ Dev nD where
  toFun c := sh c (e.val + 1)
  invFun c := sh c (3 - e.val)
  left_inv := by revert e; decide
  right_inv := by revert e; decide

def flipE : Fin 4 × Fin 3 ≃ Fin 4 × Fin 3 where
  toFun he := (he.1, ⟨2 - he.2.val, by omega⟩)
  invFun he := (he.1, ⟨2 - he.2.val, by omega⟩)
  left_inv := by decide
  right_inv := by decide

theorem toks_around : (bigSep Finset.univ fun c : Dev nD => (toks c : sProp 𝕄)) ⊢ bigSep Finset.univ fun c : Dev nD => payToks c := by
  have hB : (bigSep Finset.univ fun c : Dev nD => bigSep Finset.univ fun e : Fin 3 => (dutyTok ER (barCell c) 0 e : sProp 𝕄))
      = bigSep Finset.univ fun c : Dev nD => bigSep Finset.univ fun e : Fin 3 => dutyTok ER (barCell (sh c (e.val + 1))) 0 e := by
    rw [bigSep_univ_comm, bigSep_congr (fun (e : Fin 3) _ => bigSep_univ_equiv (shE e) (fun c : Dev nD => (dutyTok ER (barCell c) 0 e : sProp 𝕄))), bigSep_univ_comm]
    rfl
  have hR : (bigSep Finset.univ fun c : Dev nD => bigSep Finset.univ fun hj : Fin 4 × Fin 3 => (dutyTok ER (recvCell c hj.1 hj.2) 0 0 : sProp 𝕄))
      = bigSep Finset.univ fun c : Dev nD => bigSep Finset.univ fun he : Fin 4 × Fin 3 => dutyTok ER (recvCell (sh c (he.2.val + 1)) he.1 ⟨2 - he.2.val, by omega⟩) 0 0 := by
    rw [bigSep_univ_comm, bigSep_univ_equiv flipE,
      bigSep_congr (fun (he : Fin 4 × Fin 3) _ => bigSep_univ_equiv (shE he.2) (fun c : Dev nD => (dutyTok ER (recvCell c (flipE he).1 (flipE he).2) 0 0 : sProp 𝕄))), bigSep_univ_comm]
    rfl
  unfold toks payToks
  rw [bigSep_sep', bigSep_sep', bigSep_sep', bigSep_sep', hB, hR]
  iintro ⟨H1, H2, H3⟩
  sl_close

theorem ghost_intro (K : Dev nD × Fin 25 → ℕ) (c : Dev nD) : iprop(records m K ∗ positions c ∗ payToks c) ⊢ G' m c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 25 => iprop(∃ κ : ℕ, cellInv ER (ringRd m) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (ringRd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    sl_close

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, HzS, HzV⟩
  isplitr; · iempintro
  isplitl [HzS HzV]
  · isplitl [HzS] <;> iassumption
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj 0
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_in (c : Dev nD) (w : Fin cfg0.W) (hw : (cfg0.win w).isOut = false) : finalA m ρ c w = m ((cfg0.win w).arr.view.loc (c : Thread nD τ)) :=
  (dats (F := F) m ρ 0 c).arrAt_in w hw _
theorem finalA_arg0 (c : Dev nD) : finalA m ρ c 0 = m ((c : Thread nD τ).loc main_arg0) := finalA_in m ρ c 0 rfl
theorem finalA_arg1 (c : Dev nD) : finalA m ρ c 1 = m ((c : Thread nD τ).loc main_arg1) := finalA_in m ρ c 1 rfl
theorem finalA_arg2 (c : Dev nD) : finalA m ρ c 2 = m ((c : Thread nD τ).loc main_arg2) := finalA_in m ρ c 2 rfl
theorem finalA_arg3 (c : Dev nD) : finalA m ρ c 3 = m ((c : Thread nD τ).loc main_arg3) := finalA_in m ρ c 3 rfl

theorem cut_out (X : (cc0_stg4_0 : Ref sig .tc).ty.Contents (Elt F)) : (cfg0.win 4).cut (cfg0.grid.coords t0_0) X = X := rfl
theorem after_out (c : Dev nD) : (dats (F := F) m ρ 0 c).after 4 t0_0 = outBlk m c := by dsimp only [dats]

theorem flushed_out (c : Dev nD) : (dats (F := F) m ρ 0 c).flushed 4 t0_0 = outBlk m c := by
  show (cfg0.win 4).cut (cfg0.grid.coords t0_0) ((dats (F := F) m ρ 0 c).after 4 t0_0) = _
  rw [after_out]; exact cut_out _

theorem finalA_out (c : Dev nD) : finalA m ρ c 4 = outBlk m c := by
  have hz : (fun a => (win0_4.index t0_0) a * (main_v1 : Ref sig .tc).ty.shape.size a) = fun _ => 0 :=
    funext fun a => by fin_cases a <;> decide
  have hw := fun f w => Memref.write_access_unit_zero_univ (Elt F) main_v1 hz (fun a => by fin_cases a <;> decide) f w
  have h1 : finalA m ρ c 4 = (dats (F := F) m ρ 0 c).arrAt 4 ((t0_0 : Fin cfg0.N).val + 1) := rfl
  rw [h1, Dat.arrAt_succ, flush0_4, if_pos rfl, flushed_out]
  exact hw _ _

theorem run_post (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outBlk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c 4).trans (finalA_out m ρ c), (h c 0).trans (finalA_arg0 m ρ c),
      (h c 1).trans (finalA_arg1 m ρ c), (h c 2).trans (finalA_arg2 m ρ c), (h c 3).trans (finalA_arg3 m ρ c)⟩)
    (run_main m ρ hbody)

end Cert.KernelIdeal.Coll

end
-- ==== Proof.KernelIdeal.Side.lean ====
import proofs.«900763_g7700000000000764_dist_diff_adaln_cshard_i_b2_s2048_c512_v7x_i4_bf16_1_alg».proof.Proof.KernelIdeal.Steps2
import proofs.«900763_g7700000000000764_dist_diff_adaln_cshard_i_b2_s2048_c512_v7x_i4_bf16_1_alg».proof.Proof.KernelIdeal.Launch

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem dev4_eq (c : Dev nD) : (⟨k0_dev4 c, k0_dev4_lt c⟩ : Dev nD) = sh c ((0 : Fin 3).val + 1) := by revert c; decide +kernel
theorem dev5_eq (c : Dev nD) : (⟨k0_dev5 c, k0_dev5_lt c⟩ : Dev nD) = sh c ((1 : Fin 3).val + 1) := by revert c; decide +kernel
theorem dev6_eq (c : Dev nD) : (⟨k0_dev6 c, k0_dev6_lt c⟩ : Dev nD) = sh c ((2 : Fin 3).val + 1) := by revert c; decide +kernel
theorem dev7_eq (c : Dev nD) : (⟨k0_dev7 c, k0_dev7_lt c⟩ : Dev nD) = sh c ((0 : Fin 3).val + 1) := by revert c; decide +kernel
theorem dev8_eq (c : Dev nD) : (⟨k0_dev8 c, k0_dev8_lt c⟩ : Dev nD) = sh c ((1 : Fin 3).val + 1) := by revert c; decide +kernel
theorem dev9_eq (c : Dev nD) : (⟨k0_dev9 c, k0_dev9_lt c⟩ : Dev nD) = sh c ((2 : Fin 3).val + 1) := by revert c; decide +kernel
theorem dev10_eq (c : Dev nD) : (⟨k0_dev10 c, k0_dev10_lt c⟩ : Dev nD) = sh c ((0 : Fin 3).val + 1) := by revert c; decide +kernel
theorem dev11_eq (c : Dev nD) : (⟨k0_dev11 c, k0_dev11_lt c⟩ : Dev nD) = sh c ((1 : Fin 3).val + 1) := by revert c; decide +kernel
theorem dev12_eq (c : Dev nD) : (⟨k0_dev12 c, k0_dev12_lt c⟩ : Dev nD) = sh c ((2 : Fin 3).val + 1) := by revert c; decide +kernel
theorem dev13_eq (c : Dev nD) : (⟨k0_dev13 c, k0_dev13_lt c⟩ : Dev nD) = sh c ((0 : Fin 3).val + 1) := by revert c; decide +kernel
theorem dev14_eq (c : Dev nD) : (⟨k0_dev14 c, k0_dev14_lt c⟩ : Dev nD) = sh c ((1 : Fin 3).val + 1) := by revert c; decide +kernel
theorem dev15_eq (c : Dev nD) : (⟨k0_dev15 c, k0_dev15_lt c⟩ : Dev nD) = sh c ((2 : Fin 3).val + 1) := by revert c; decide +kernel

theorem bigSep_fin4x3 (Φ : Fin 4 × Fin 3 → sProp 𝕄) :
    bigSep Finset.univ Φ = iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2)) :=
  bigSep_univ_eq_bigSepL [(0, 0), (0, 1), (0, 2), (1, 0), (1, 1), (1, 2), (2, 0), (2, 1), (2, 2), (3, 0), (3, 1), (3, 2)] (by decide) (by decide) Φ

end Cert.KernelIdeal.Coll
end
-- ==== Proof.KernelIdeal.Pieces.lean ====
import proofs.«900763_g7700000000000764_dist_diff_adaln_cshard_i_b2_s2048_c512_v7x_i4_bf16_1_alg».proof.Proof.KernelIdeal.Sched

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem ownSl_set (h : Fin 4) : (ownSl h).view.set = (ownRect h).set := by
  simp only [Memref.view_squeeze, Memref.view_slice, Memref.view_whole, View.set_reshape, View.set_slice_whole]

theorem commSl_set (h : Fin 4) (j : Fin 3) : (commSl h j).view.set = (slotRect h j).set := by
  simp only [Memref.view_squeeze, Memref.view_slice, Memref.view_whole, View.set_reshape, View.set_slice_whole]

theorem own_sep : ∀ h h' : Fin 4, h ≠ h' →
    (![h.val, 0, 0] : Fin 3 → Nat) 0 + S1x4x512.size 0 ≤ (![h'.val, 0, 0] : Fin 3 → Nat) 0
      ∨ (![h'.val, 0, 0] : Fin 3 → Nat) 0 + S1x4x512.size 0 ≤ (![h.val, 0, 0] : Fin 3 → Nat) 0 := by decide
theorem slot_sep0 : ∀ (h h' : Fin 4) (j j' : Fin 3), h ≠ h' →
    (![h.val, j.val, 0, 0] : Fin 4 → Nat) 0 + S1x1x4x512.size 0 ≤ (![h'.val, j'.val, 0, 0] : Fin 4 → Nat) 0
      ∨ (![h'.val, j'.val, 0, 0] : Fin 4 → Nat) 0 + S1x1x4x512.size 0 ≤ (![h.val, j.val, 0, 0] : Fin 4 → Nat) 0 := by decide
theorem slot_sep1 : ∀ (h h' : Fin 4) (j j' : Fin 3), j ≠ j' →
    (![h.val, j.val, 0, 0] : Fin 4 → Nat) 1 + S1x1x4x512.size 1 ≤ (![h'.val, j'.val, 0, 0] : Fin 4 → Nat) 1
      ∨ (![h'.val, j'.val, 0, 0] : Fin 4 → Nat) 1 + S1x1x4x512.size 1 ≤ (![h.val, j.val, 0, 0] : Fin 4 → Nat) 1 := by decide

theorem ownRect_disjoint {h h' : Fin 4} (hne : h ≠ h') : Disjoint (ownRect h).set (ownRect h').set :=
  Rect.unit_disjoint 0 (own_sep h h' hne)

theorem slotRect_disjoint {h h' : Fin 4} {j j' : Fin 3} (hne : (h, j) ≠ (h', j')) :
    Disjoint (slotRect h j).set (slotRect h' j').set := by
  by_cases hh : h = h'
  · have hj : j ≠ j' := fun e => hne (by rw [hh, e])
    exact Rect.unit_disjoint 1 (slot_sep1 h h' j j' hj)
  · exact Rect.unit_disjoint 0 (slot_sep0 h h' j j' hh)

theorem ownRect_cover (i : S4x4x512.Idx) : ∃ h : Fin 4, i ∈ (ownRect h).set := by
  refine ⟨i 0, ?_⟩
  rw [Rect.mem_set_unit]
  intro a
  fin_cases a
  · exact ⟨le_rfl, Nat.lt_succ_self _⟩
  · exact ⟨Nat.zero_le _, by have := (i 1).isLt; simpa using this⟩
  · exact ⟨Nat.zero_le _, by have := (i 2).isLt; simpa using this⟩

theorem slotRect_cover (i : S4x3x4x512.Idx) : ∃ hj : Fin 4 × Fin 3, i ∈ (slotRect hj.1 hj.2).set := by
  refine ⟨(i 0, i 1), ?_⟩
  rw [Rect.mem_set_unit]
  intro a
  fin_cases a
  · exact ⟨le_rfl, Nat.lt_succ_self _⟩
  · exact ⟨le_rfl, Nat.lt_succ_self _⟩
  · exact ⟨Nat.zero_le _, by have := (i 2).isLt; simpa using this⟩
  · exact ⟨Nat.zero_le _, by have := (i 3).isLt; simpa using this⟩

theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]
  rfl

abbrev ownK (c : Dev nD) (h : Fin 4) : Finset (Idx ((c : Thread nD τ).loc cc0_scratch0)) := (ownSl h).view.set

abbrev commK (c : Dev nD) (jh : Fin 3 × Fin 4) : Finset (Idx ((c : Thread nD τ).loc cc0_scratch1)) := (commSl jh.2 jh.1).view.set

theorem ownK_disjoint (c : Dev nD) : ∀ t ∈ (Finset.univ : Finset (Fin 4)), ∀ t' ∈ (Finset.univ : Finset (Fin 4)), t ≠ t' →
    Disjoint (ownK c t) (ownK c t') := fun t _ t' _ hne => by
  unfold ownK; rw [ownSl_set, ownSl_set]; exact ownRect_disjoint hne

theorem commK_disjoint (c : Dev nD) : ∀ t ∈ (Finset.univ : Finset (Fin 3 × Fin 4)), ∀ t' ∈ (Finset.univ : Finset (Fin 3 × Fin 4)), t ≠ t' →
    Disjoint (commK c t) (commK c t') := fun t _ t' _ hne => by
  unfold commK; rw [commSl_set, commSl_set]
  exact slotRect_disjoint fun e => hne (Prod.ext (congrArg Prod.snd e) (congrArg Prod.fst e))

theorem ownK_cover (c : Dev nD) : (Finset.univ : Finset (Fin 4)).biUnion (ownK c) = Finset.univ := by
  ext i
  simp only [Finset.mem_biUnion, Finset.mem_univ, true_and, iff_true]
  obtain ⟨h, hh⟩ := ownRect_cover i
  exact ⟨h, by unfold ownK; rw [ownSl_set]; exact hh⟩

theorem commK_cover (c : Dev nD) : (Finset.univ : Finset (Fin 3 × Fin 4)).biUnion (commK c) = Finset.univ := by
  ext i
  simp only [Finset.mem_biUnion, Finset.mem_univ, true_and, iff_true]
  obtain ⟨hj, hh⟩ := slotRect_cover i
  exact ⟨(hj.2, hj.1), by unfold commK; rw [commSl_set]; exact hh⟩

theorem own_split_eq (c : Dev nD) (q : PosShare TreeShare) (f : Buf (Elt F) ((c : Thread nD τ).loc cc0_scratch0)) :
    ((((c : Thread nD τ).loc cc0_scratch0) ↦{q} f : sProp 𝕄))
      = iprop(ownPts c 0 q f ∗ ownPts c 1 q f ∗ ownPts c 2 q f ∗ ownPts c 3 q f) := by
  have h : ((((c : Thread nD τ).loc cc0_scratch0) ↦[(Finset.univ : Finset (Fin 4)).biUnion (ownK c)]{q} f : sProp 𝕄))
      = bigSep Finset.univ fun h : Fin 4 => ownPts c h q f := pointsTo_biUnion _ _ (ownK_disjoint c)
  rw [ownK_cover, bigSep_fin_four] at h
  exact h

theorem own_split (c : Dev nD) (q : PosShare TreeShare) (f : Buf (Elt F) ((c : Thread nD τ).loc cc0_scratch0)) :
    ((((c : Thread nD τ).loc cc0_scratch0) ↦{q} f : sProp 𝕄))
      ⊢ iprop(ownPts c 0 q f ∗ ownPts c 1 q f ∗ ownPts c 2 q f ∗ ownPts c 3 q f) :=
  Entails.of_eq (own_split_eq c q f)

theorem own_join (c : Dev nD) (q : PosShare TreeShare) (f0 f1 f2 f3 : Buf (Elt F) ((c : Thread nD τ).loc cc0_scratch0)) :
    iprop(ownPts c 0 q f0 ∗ ownPts c 1 q f1 ∗ ownPts c 2 q f2 ∗ ownPts c 3 q f3)
      ⊢ (iprop(∃ f, ((c : Thread nD τ).loc cc0_scratch0) ↦{q} f) : sProp 𝕄) := by
  have hj := pointsTo_biUnion_join (Ix := Unit) (Name := ℕ) (U := UU) (Lvl := ℕ) (ℓ := (c : Thread nD τ).loc cc0_scratch0) (q := q)
    (Finset.univ : Finset (Fin 4)) (ownK c) ![f0, f1, f2, f3] f0 (ownK_disjoint c)
  rw [ownK_cover, bigSep_fin_four] at hj
  refine hj.trans ?_
  iintro ⟨%g, -, H⟩; iexists g; iexact H

theorem comm_split_eq (c : Dev nD) (q : PosShare TreeShare) (f : Buf (Elt F) ((c : Thread nD τ).loc cc0_scratch1)) :
    ((((c : Thread nD τ).loc cc0_scratch1) ↦{q} f : sProp 𝕄))
      = iprop((((commSl 0 0).view.loc (c : Thread nD τ) ↦[(commSl 0 0).view.set]{q} f) ∗ ((commSl 1 0).view.loc (c : Thread nD τ) ↦[(commSl 1 0).view.set]{q} f)
            ∗ ((commSl 2 0).view.loc (c : Thread nD τ) ↦[(commSl 2 0).view.set]{q} f) ∗ ((commSl 3 0).view.loc (c : Thread nD τ) ↦[(commSl 3 0).view.set]{q} f))
        ∗ (((commSl 0 1).view.loc (c : Thread nD τ) ↦[(commSl 0 1).view.set]{q} f) ∗ ((commSl 1 1).view.loc (c : Thread nD τ) ↦[(commSl 1 1).view.set]{q} f)
            ∗ ((commSl 2 1).view.loc (c : Thread nD τ) ↦[(commSl 2 1).view.set]{q} f) ∗ ((commSl 3 1).view.loc (c : Thread nD τ) ↦[(commSl 3 1).view.set]{q} f))
        ∗ (((commSl 0 2).view.loc (c : Thread nD τ) ↦[(commSl 0 2).view.set]{q} f) ∗ ((commSl 1 2).view.loc (c : Thread nD τ) ↦[(commSl 1 2).view.set]{q} f)
            ∗ ((commSl 2 2).view.loc (c : Thread nD τ) ↦[(commSl 2 2).view.set]{q} f) ∗ ((commSl 3 2).view.loc (c : Thread nD τ) ↦[(commSl 3 2).view.set]{q} f))) := by
  have h : ((((c : Thread nD τ).loc cc0_scratch1) ↦[(Finset.univ : Finset (Fin 3 × Fin 4)).biUnion (commK c)]{q} f : sProp 𝕄))
      = bigSep Finset.univ fun jh : Fin 3 × Fin 4 => ((c : Thread nD τ).loc cc0_scratch1) ↦[commK c jh]{q} f := pointsTo_biUnion _ _ (commK_disjoint c)
  rw [commK_cover, bigSep_univ_prod, bigSep_fin3] at h
  simp only [bigSep_fin_four] at h
  exact h

theorem comm_split (c : Dev nD) (f : Buf (Elt F) ((c : Thread nD τ).loc cc0_scratch1)) :
    ((((c : Thread nD τ).loc cc0_scratch1) ↦{fullShare} f : sProp 𝕄))
      ⊢ iprop((slotPts c 0 0 f ∗ slotPts c 1 0 f ∗ slotPts c 2 0 f ∗ slotPts c 3 0 f)
        ∗ (slotPts c 0 1 f ∗ slotPts c 1 1 f ∗ slotPts c 2 1 f ∗ slotPts c 3 1 f)
        ∗ (slotPts c 0 2 f ∗ slotPts c 1 2 f ∗ slotPts c 2 2 f ∗ slotPts c 3 2 f)) :=
  Entails.of_eq (comm_split_eq c fullShare f)

theorem comm_join (c : Dev nD) (g : Fin 4 → Fin 3 → Buf (Elt F) ((c : Thread nD τ).loc cc0_scratch1)) :
    iprop((slotPts c 0 0 (g 0 0) ∗ slotPts c 1 0 (g 1 0) ∗ slotPts c 2 0 (g 2 0) ∗ slotPts c 3 0 (g 3 0))
        ∗ (slotPts c 0 1 (g 0 1) ∗ slotPts c 1 1 (g 1 1) ∗ slotPts c 2 1 (g 2 1) ∗ slotPts c 3 1 (g 3 1))
        ∗ (slotPts c 0 2 (g 0 2) ∗ slotPts c 1 2 (g 1 2) ∗ slotPts c 2 2 (g 2 2) ∗ slotPts c 3 2 (g 3 2)))
      ⊢ (iprop(∃ f, ((c : Thread nD τ).loc cc0_scratch1) ↦{fullShare} f) : sProp 𝕄) := by
  have hj := pointsTo_biUnion_join (Ix := Unit) (Name := ℕ) (U := UU) (Lvl := ℕ) (ℓ := (c : Thread nD τ).loc cc0_scratch1) (q := fullShare)
    (Finset.univ : Finset (Fin 3 × Fin 4)) (commK c) (fun jh => g jh.2 jh.1) (g 0 0) (commK_disjoint c)
  rw [commK_cover, bigSep_univ_prod, bigSep_fin3] at hj
  simp only [bigSep_fin_four] at hj
  refine hj.trans ?_
  iintro ⟨%g', -, H⟩; iexists g'; iexact H

theorem pts_quarters {ℓ : Loc nD τ sig} (I : Finset (Idx ℓ)) (q : PosShare TreeShare) (f : Buf (Elt F) ℓ) :
    (ℓ ↦[I]{q} f : sProp 𝕄)
      ⊢ iprop((ℓ ↦[I]{q.left.left} f) ∗ (ℓ ↦[I]{q.left.right} f) ∗ (ℓ ↦[I]{q.right.left} f) ∗ ℓ ↦[I]{q.right.right} f) := by
  iintro H
  ihave ⟨Hl, Hr⟩ := (pointsTo_share (PosShare.mem_left_op_right q)).1 $$ H
  ihave ⟨Hll, Hlr⟩ := (pointsTo_share (PosShare.mem_left_op_right q.left)).1 $$ Hl
  ihave ⟨Hrl, Hrr⟩ := (pointsTo_share (PosShare.mem_left_op_right q.right)).1 $$ Hr
  sl_close

theorem pts_quarters_join {ℓ : Loc nD τ sig} (I : Finset (Idx ℓ)) (q : PosShare TreeShare) (f : Buf (Elt F) ℓ) :
    iprop((ℓ ↦[I]{q.left.left} f) ∗ (ℓ ↦[I]{q.left.right} f) ∗ (ℓ ↦[I]{q.right.left} f) ∗ ℓ ↦[I]{q.right.right} f)
      ⊢ (ℓ ↦[I]{q} f : sProp 𝕄) := by
  iintro ⟨Hll, Hlr, Hrl, Hrr⟩
  iapply (pointsTo_share (PosShare.mem_left_op_right q)).2
  isplitl [Hll Hlr]
  · iapply (pointsTo_share (PosShare.mem_left_op_right q.left)).2
    sl_close
  · iapply (pointsTo_share (PosShare.mem_left_op_right q.right)).2
    sl_close

theorem pts_agree_congr {ℓ : Loc nD τ sig} (I : Finset (Idx ℓ)) (q₁ q₂ : PosShare TreeShare) (f g : Buf (Elt F) ℓ) :
    iprop((ℓ ↦[I]{q₁} f) ∗ ℓ ↦[I]{q₂} g) ⊢ (iprop((ℓ ↦[I]{q₁} g) ∗ ℓ ↦[I]{q₂} g) : sProp 𝕄) := by
  refine pure_elim _ pointsTo_agree fun hag => ?_
  rw [pointsTo_congr (q := q₁) (f := f) (g := g) (fun i hi => (hag i (Finset.mem_inter.mpr ⟨hi, hi⟩)).1)]

theorem qLent_zero : qLent 0 = fullShare.left.left := rfl
theorem qLent_one : qLent 1 = fullShare.left.right := rfl
theorem qLent_two : qLent 2 = fullShare.right.left := rfl

theorem own_quarters (c : Dev nD) (h : Fin 4) (f : Buf (Elt F) ((ownSl h).view.loc (c : Thread nD τ))) :
    (ownPts c h fullShare f : sProp 𝕄)
      ⊢ iprop(ownPts c h (qLent 0) f ∗ ownPts c h (qLent 1) f ∗ ownPts c h (qLent 2) f ∗ ownPts c h qKept f) :=
  pts_quarters _ fullShare f

-- Four holders of one table, each at its own contents, agree on it, so the kept quarter's contents serve for the whole share.
theorem own_quarters_join' (c : Dev nD) (h : Fin 4) (f0 f1 f2 f3 : Buf (Elt F) ((ownSl h).view.loc (c : Thread nD τ))) :
    iprop(ownPts c h (qLent 0) f0 ∗ ownPts c h (qLent 1) f1 ∗ ownPts c h (qLent 2) f2 ∗ ownPts c h qKept f3)
      ⊢ (ownPts c h fullShare f3 : sProp 𝕄) := by
  unfold ownPts
  rw [qLent_zero, qLent_one, qLent_two]
  iintro ⟨H0, H1, H2, H3⟩
  ihave ⟨H0, H3⟩ := (pts_agree_congr (F := F) (ownSl h).view.set fullShare.left.left qKept f0 f3) $$ [H0 H3]
  · sl_close
  ihave ⟨H1, H3⟩ := (pts_agree_congr (F := F) (ownSl h).view.set fullShare.left.right qKept f1 f3) $$ [H1 H3]
  · sl_close
  ihave ⟨H2, H3⟩ := (pts_agree_congr (F := F) (ownSl h).view.set fullShare.right.left qKept f2 f3) $$ [H2 H3]
  · sl_close
  iapply (pts_quarters_join (F := F) (ownSl h).view.set fullShare f3)
  sl_close

variable (m : (ℓ : Loc nD τ sig) → Buf (Elt F) ℓ)

theorem ownHeld_quarters (c : Dev nD) (h : Fin 4) :
    (ownHeld m c h fullShare : sProp 𝕄)
      ⊢ iprop(ownHeld m c h (qLent 0) ∗ ownHeld m c h (qLent 1) ∗ ownHeld m c h (qLent 2) ∗ ownHeld m c h qKept) := by
  unfold ownHeld
  iintro ⟨%f, %hf, H⟩
  ihave ⟨H0, H1, H2, H3⟩ := (own_quarters c h f) $$ H
  isplitl [H0]; · iexists f; isplitr; · ipureintro; exact hf
                  iexact H0
  isplitl [H1]; · iexists f; isplitr; · ipureintro; exact hf
                  iexact H1
  isplitl [H2]; · iexists f; isplitr; · ipureintro; exact hf
                  iexact H2
  iexists f; isplitr; · ipureintro; exact hf
  iexact H3

theorem ownHeld_join (c : Dev nD) (h : Fin 4) :
    iprop(ownHeld m c h (qLent 0) ∗ ownHeld m c h (qLent 1) ∗ ownHeld m c h (qLent 2) ∗ ownHeld m c h qKept)
      ⊢ (ownHeld m c h fullShare : sProp 𝕄) := by
  unfold ownHeld
  iintro ⟨⟨%f0, -, H0⟩, ⟨%f1, -, H1⟩, ⟨%f2, -, H2⟩, ⟨%f3, %hf3, H3⟩⟩
  iexists f3
  isplitr; · ipureintro; exact hf3
  iapply (own_quarters_join' c h f0 f1 f2 f3)
  sl_close

theorem own_stored (c : Dev nD) (h : Fin 4)
    (f : Buf (Elt F) ((c : Thread nD τ).loc cc0_scratch0)) (w : (ownRect h).shape.Idx → Elt F .f32) :
    (ownM : Memref sig .tc .vmem S4x4x512 .f32).view.readAt (Elt F) (ownRect h).toLoadRect
      (((ownM : Memref sig .tc .vmem S4x4x512 .f32).access (ownRect h)).write (Elt F) f w Finset.univ) = w :=
  View.read_write_univ (v := (ownM : Memref sig .tc .vmem S4x4x512 .f32).access (ownRect h)) f w

theorem landed_read_of (c s : Dev nD) (h : Fin 4) (j : Fin 3) (hs : sh c (j.val + 1) = s)
    (fs : Buf (Elt F) ((ownSl h).view.loc (s : Thread nD τ)))
    (hfs : (ownM : Memref sig .tc .vmem S4x4x512 .f32).view.readAt (Elt F) (ownRect h).toLoadRect fs = ownV m s h)
    (fd : Buf (Elt F) ((commSl h j).view.loc (c : Thread nD τ))) :
    (commM : Memref sig .tc .vmem S4x3x4x512 .f32).view.readAt (Elt F) (slotRect h j).toLoadRect
      ((commSl h j).view.write (Elt F) fd ((ownSl h).view.read (Elt F) fs) Finset.univ) = commV m c h j := by
  subst hs
  have hr : (ownSl h).view.read (Elt F) fs = shapeCast S4x512 (ownV m (sh c (j.val + 1)) h) shapeCasts_S1x4x512_S4x512 := by
    rw [← hfs]; rfl
  rw [hr]
  show ((commM : Memref sig .tc .vmem S4x3x4x512 .f32).view.slice (slotRect h j)).read (Elt F)
    ((((commM : Memref sig .tc .vmem S4x3x4x512 .f32).view.slice (slotRect h j)).reshape S4x512 squeezes_S1x1x4x512_S4x512.numel_eq).write (Elt F) fd _ Finset.univ) = _
  rw [View.write_reshape_univ, View.read_write_univ]
  funext x
  unfold commV shapeCast
  rw [Shape.reshapeEquiv_symm]

abbrev slotAt (d : Fin 3) : Fin 3 := ⟨2 - d.val, by omega⟩

theorem sh_back (c : Dev nD) (d : Fin 3) : sh (sh c (d.val + 1)) ((slotAt d).val + 1) = c := by
  rw [sh_sh, show d.val + 1 + ((slotAt d).val + 1) = 4 from by have := d.isLt; show d.val + 1 + (2 - d.val + 1) = 4; omega]
  exact sh_four c

theorem landing (c : Dev nD) (h : Fin 4) (d : Fin 3)
    (fs : Buf (Elt F) ((ownSl h).view.loc (c : Thread nD τ)))
    (fd : Buf (Elt F) ((commSl h (slotAt d)).view.loc ((sh c (d.val + 1) : Dev nD) : Thread nD τ)))
    (hfs : (ownM : Memref sig .tc .vmem S4x4x512 .f32).view.readAt (Elt F) (ownRect h).toLoadRect fs = ownV m c h) :
    (commM : Memref sig .tc .vmem S4x3x4x512 .f32).view.readAt (Elt F) (slotRect h (slotAt d)).toLoadRect
      ((commSl h (slotAt d)).view.write (Elt F) fd ((ownSl h).view.read (Elt F) fs) Finset.univ)
        = commV m (sh c (d.val + 1)) h (slotAt d) :=
  landed_read_of m (sh c (d.val + 1)) c h (slotAt d) (sh_back c d) fs hfs fd

theorem setOn_whole {κ : Kind} (b : Ref sig κ) (M : Finset b.ty.shape.Idx) : (View.whole b : View sig κ _ _ _).setOn M = M :=
  Finset.map_refl

theorem own_load_sub (h : Fin 4) :
    (ownM : Memref sig .tc .vmem S4x4x512 .f32).view.setOn (ownRect h).toLoadRect.set ⊆ (ownSl h).view.set := by
  rw [ownSl_set]; exact (setOn_whole _ _).subset

theorem slot_load_sub (h : Fin 4) (j : Fin 3) :
    (commM : Memref sig .tc .vmem S4x3x4x512 .f32).view.setOn (slotRect h j).toLoadRect.set ⊆ (commSl h j).view.set := by
  rw [commSl_set]; exact (setOn_whole _ _).subset

theorem own_store_sub (h : Fin 4) :
    ((ownM : Memref sig .tc .vmem S4x4x512 .f32).access (ownRect h)).setOn Finset.univ ⊆ (ownSl h).view.set := by
  rw [ownSl_set, View.setOn_univ, View.set_slice_whole]

theorem wp_load_own (c : Dev nD) (h : Fin 4) (q : PosShare TreeShare) (f : Buf (Elt F) ((ownSl h).view.loc (c : Thread nD τ)))
    {hl : (ownM : Memref sig .tc .vmem S4x4x512 .f32).view.LoadsAt (ownRect h).toLoadRect}
    {α : Type} {Q : α → sProp 𝕄} {k : Vec F S1x4x512 .f32 → Prog (TpuEff nD τ sig (Elt F) Λ₀ .tc) α} :
    (ownPts c h q f : sProp 𝕄)
      ⊢ iprop((ownPts c h q f -∗ wp frame (wpE (defs₀ (F := F)) 𝒱₀ (c : Thread nD τ) none) Set.univ
            (k ((ownM : Memref sig .tc .vmem S4x4x512 .f32).view.readAt (Elt F) (ownRect h).toLoadRect f)) Q)
        -∗ wp frame (wpE (defs₀ (F := F)) 𝒱₀ (c : Thread nD τ) none) Set.univ (.op (.load ownM (ownRect h).toLoadRect hl) k) Q) := by
  unfold ownPts
  exact wp_load 𝒱₀ (c : Thread nD τ) none Set.univ (m := ownM) (r := (ownRect h).toLoadRect) (own_load_sub h)

theorem wp_load_ownHeld (c : Dev nD) (h : Fin 4) (q : PosShare TreeShare)
    {hl : (ownM : Memref sig .tc .vmem S4x4x512 .f32).view.LoadsAt (ownRect h).toLoadRect}
    {α : Type} {Q : α → sProp 𝕄} {k : Vec F S1x4x512 .f32 → Prog (TpuEff nD τ sig (Elt F) Λ₀ .tc) α} :
    (ownHeld m c h q : sProp 𝕄)
      ⊢ iprop((ownHeld m c h q -∗ wp frame (wpE (defs₀ (F := F)) 𝒱₀ (c : Thread nD τ) none) Set.univ (k (ownV m c h)) Q)
        -∗ wp frame (wpE (defs₀ (F := F)) 𝒱₀ (c : Thread nD τ) none) Set.univ (.op (.load ownM (ownRect h).toLoadRect hl) k) Q) := by
  unfold ownHeld
  iintro ⟨%f, %hf, H⟩ Hk
  iapply (wp_load_own c h q f) $$ H
  iintro H
  rw [hf]
  iapply Hk
  iexists f
  isplitr; · ipureintro; exact hf
  iexact H

theorem wp_load_slot (c : Dev nD) (h : Fin 4) (j : Fin 3) (g : Buf (Elt F) ((commSl h j).view.loc (c : Thread nD τ)))
    {hl : (commM : Memref sig .tc .vmem S4x3x4x512 .f32).view.LoadsAt (slotRect h j).toLoadRect}
    {α : Type} {Q : α → sProp 𝕄} {k : Vec F S1x1x4x512 .f32 → Prog (TpuEff nD τ sig (Elt F) Λ₀ .tc) α} :
    (slotPts c h j g : sProp 𝕄)
      ⊢ iprop((slotPts c h j g -∗ wp frame (wpE (defs₀ (F := F)) 𝒱₀ (c : Thread nD τ) none) Set.univ
            (k ((commM : Memref sig .tc .vmem S4x3x4x512 .f32).view.readAt (Elt F) (slotRect h j).toLoadRect g)) Q)
        -∗ wp frame (wpE (defs₀ (F := F)) 𝒱₀ (c : Thread nD τ) none) Set.univ (.op (.load commM (slotRect h j).toLoadRect hl) k) Q) := by
  unfold slotPts
  exact wp_load 𝒱₀ (c : Thread nD τ) none Set.univ (m := commM) (r := (slotRect h j).toLoadRect) (slot_load_sub h j)

theorem wp_load_landed (c : Dev nD) (h : Fin 4) (j : Fin 3)
    {hl : (commM : Memref sig .tc .vmem S4x3x4x512 .f32).view.LoadsAt (slotRect h j).toLoadRect}
    {α : Type} {Q : α → sProp 𝕄} {k : Vec F S1x1x4x512 .f32 → Prog (TpuEff nD τ sig (Elt F) Λ₀ .tc) α} :
    (slotLanded m c h j : sProp 𝕄)
      ⊢ iprop((slotLanded m c h j -∗ wp frame (wpE (defs₀ (F := F)) 𝒱₀ (c : Thread nD τ) none) Set.univ (k (commV m c h j)) Q)
        -∗ wp frame (wpE (defs₀ (F := F)) 𝒱₀ (c : Thread nD τ) none) Set.univ (.op (.load commM (slotRect h j).toLoadRect hl) k) Q) := by
  unfold slotLanded
  iintro ⟨%g, %hg, H⟩ Hk
  iapply (wp_load_slot c h j g) $$ H
  iintro H
  rw [hg]
  iapply Hk
  iexists g
  isplitr; · ipureintro; exact hg
  iexact H

theorem wp_store_own_raw (c : Dev nD) (h : Fin 4) (f : Buf (Elt F) ((ownSl h).view.loc (c : Thread nD τ))) (w : FVec F S1x4x512 .f32)
    {hx : ((ownM : Memref sig .tc .vmem S4x4x512 .f32).access (ownRect h)).Stores Finset.univ}
    {hm : (Finset.univ : Finset (ownRect h).shape.Idx) = Finset.univ ∨ ∀ a, (ownRect h).stride a = 1}
    {α : Type} {Q : α → sProp 𝕄} {k : PUnit → Prog (TpuEff nD τ sig (Elt F) Λ₀ .tc) α} :
    (ownPts c h fullShare f : sProp 𝕄)
      ⊢ iprop((ownPts c h fullShare (((ownM : Memref sig .tc .vmem S4x4x512 .f32).access (ownRect h)).write (Elt F) f w Finset.univ)
            -∗ wp frame (wpE (defs₀ (F := F)) 𝒱₀ (c : Thread nD τ) none) Set.univ (k ⟨⟩) Q)
        -∗ wp frame (wpE (defs₀ (F := F)) 𝒱₀ (c : Thread nD τ) none) Set.univ (.op (.store ownM (ownRect h) w Finset.univ hx hm) k) Q) := by
  unfold ownPts
  exact wp_store 𝒱₀ (c : Thread nD τ) none Set.univ (m := ownM) (r := ownRect h) (Mk := Finset.univ) (own_store_sub h)

theorem wp_store_own (c : Dev nD) (h : Fin 4) (f : Buf (Elt F) ((ownSl h).view.loc (c : Thread nD τ))) (w : FVec F S1x4x512 .f32)
    {hx : ((ownM : Memref sig .tc .vmem S4x4x512 .f32).access (ownRect h)).Stores Finset.univ}
    {hm : (Finset.univ : Finset (ownRect h).shape.Idx) = Finset.univ ∨ ∀ a, (ownRect h).stride a = 1}
    {α : Type} {Q : α → sProp 𝕄} {k : PUnit → Prog (TpuEff nD τ sig (Elt F) Λ₀ .tc) α} :
    (ownPts c h fullShare f : sProp 𝕄)
      ⊢ iprop(((∃ f', ⌜(ownM : Memref sig .tc .vmem S4x4x512 .f32).view.readAt (Elt F) (ownRect h).toLoadRect f' = w⌝ ∗ ownPts c h fullShare f')
            -∗ wp frame (wpE (defs₀ (F := F)) 𝒱₀ (c : Thread nD τ) none) Set.univ (k ⟨⟩) Q)
        -∗ wp frame (wpE (defs₀ (F := F)) 𝒱₀ (c : Thread nD τ) none) Set.univ (.op (.store ownM (ownRect h) w Finset.univ hx hm) k) Q) := by
  iintro H Hk
  iapply (wp_store_own_raw c h f w) $$ H
  iintro H
  iapply Hk
  iexists _
  isplitr; · ipureintro; exact own_stored c h f w
  iexact H

theorem wp_store_ownHeld (c : Dev nD) (h : Fin 4) (f : Buf (Elt F) ((ownSl h).view.loc (c : Thread nD τ)))
    {hx : ((ownM : Memref sig .tc .vmem S4x4x512 .f32).access (ownRect h)).Stores Finset.univ}
    {hm : (Finset.univ : Finset (ownRect h).shape.Idx) = Finset.univ ∨ ∀ a, (ownRect h).stride a = 1}
    {α : Type} {Q : α → sProp 𝕄} {k : PUnit → Prog (TpuEff nD τ sig (Elt F) Λ₀ .tc) α} :
    (ownPts c h fullShare f : sProp 𝕄)
      ⊢ iprop((ownHeld m c h fullShare -∗ wp frame (wpE (defs₀ (F := F)) 𝒱₀ (c : Thread nD τ) none) Set.univ (k ⟨⟩) Q)
        -∗ wp frame (wpE (defs₀ (F := F)) 𝒱₀ (c : Thread nD τ) none) Set.univ (.op (.store ownM (ownRect h) (ownV m c h) Finset.univ hx hm) k) Q) :=
  wp_store_own c h f (ownV m c h)

theorem slotFree_of_landed (c : Dev nD) (h : Fin 4) (j : Fin 3) : (slotLanded m c h j : sProp 𝕄) ⊢ slotFree c h j := by
  unfold slotLanded slotFree; iintro ⟨%g, -, H⟩; iexists g; iexact H

theorem comm_join12 (c : Dev nD) (g00 g10 g20 g30 g01 g11 g21 g31 g02 g12 g22 g32 : Buf (Elt F) ((c : Thread nD τ).loc cc0_scratch1)) :
    iprop((slotPts c 0 0 g00 ∗ slotPts c 1 0 g10 ∗ slotPts c 2 0 g20 ∗ slotPts c 3 0 g30)
        ∗ (slotPts c 0 1 g01 ∗ slotPts c 1 1 g11 ∗ slotPts c 2 1 g21 ∗ slotPts c 3 1 g31)
        ∗ (slotPts c 0 2 g02 ∗ slotPts c 1 2 g12 ∗ slotPts c 2 2 g22 ∗ slotPts c 3 2 g32))
      ⊢ (iprop(∃ f, ((c : Thread nD τ).loc cc0_scratch1) ↦{fullShare} f) : sProp 𝕄) :=
  comm_join c (fun h j => ![![g00, g01, g02], ![g10, g11, g12], ![g20, g21, g22], ![g30, g31, g32]] h j)

theorem comm_join_free (c : Dev nD) :
    iprop((slotFree c 0 0 ∗ slotFree c 1 0 ∗ slotFree c 2 0 ∗ slotFree c 3 0)
        ∗ (slotFree c 0 1 ∗ slotFree c 1 1 ∗ slotFree c 2 1 ∗ slotFree c 3 1)
        ∗ (slotFree c 0 2 ∗ slotFree c 1 2 ∗ slotFree c 2 2 ∗ slotFree c 3 2))
      ⊢ (iprop(∃ f : Buf (Elt F) ((c : Thread nD τ).loc cc0_scratch1), ((c : Thread nD τ).loc cc0_scratch1) ↦{fullShare} f) : sProp 𝕄) := by
  unfold slotFree
  iintro ⟨⟨⟨%g00, H00⟩, ⟨%g10, H10⟩, ⟨%g20, H20⟩, ⟨%g30, H30⟩⟩, ⟨⟨%g01, H01⟩, ⟨%g11, H11⟩, ⟨%g21, H21⟩, ⟨%g31, H31⟩⟩,
    ⟨⟨%g02, H02⟩, ⟨%g12, H12⟩, ⟨%g22, H22⟩, ⟨%g32, H32⟩⟩⟩
  iapply (comm_join12 c g00 g10 g20 g30 g01 g11 g21 g31 g02 g12 g22 g32)
  isplitl [H00 H10 H20 H30]
  · sl_close
  isplitl [H01 H11 H21 H31]
  · sl_close
  · sl_close

theorem own_join_held (c : Dev nD) :
    iprop(ownHeld m c 0 fullShare ∗ ownHeld m c 1 fullShare ∗ ownHeld m c 2 fullShare ∗ ownHeld m c 3 fullShare)
      ⊢ (iprop(∃ f : Buf (Elt F) ((c : Thread nD τ).loc cc0_scratch0), ((c : Thread nD τ).loc cc0_scratch0) ↦{fullShare} f) : sProp 𝕄) := by
  unfold ownHeld
  iintro ⟨⟨%f0, -, H0⟩, ⟨%f1, -, H1⟩, ⟨%f2, -, H2⟩, ⟨%f3, -, H3⟩⟩
  iapply (own_join c fullShare f0 f1 f2 f3)
  sl_close

end Cert.KernelIdeal.Coll
end
-- ==== Proof.KernelIdeal.PartsCommon.lean ====
import proofs.«900763_g7700000000000764_dist_diff_adaln_cshard_i_b2_s2048_c512_v7x_i4_bf16_1_alg».proof.Proof.KernelIdeal.Side
import proofs.«900763_g7700000000000764_dist_diff_adaln_cshard_i_b2_s2048_c512_v7x_i4_bf16_1_alg».proof.Proof.KernelIdeal.Launch
import proofs.«900763_g7700000000000764_dist_diff_adaln_cshard_i_b2_s2048_c512_v7x_i4_bf16_1_alg».proof.Proof.KernelIdeal.Pieces

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem positions_flat' (c : Dev nD) : (positions c : sProp 𝕄) = iprop(atPos ER (barCell c) 0 ∅ 0
    ∗ (atPos ER (sendCell c 0 0) 0 ∅ 0 ∗ atPos ER (sendCell c 0 1) 0 ∅ 0 ∗ atPos ER (sendCell c 0 2) 0 ∅ 0 ∗ atPos ER (sendCell c 1 0) 0 ∅ 0 ∗ atPos ER (sendCell c 1 1) 0 ∅ 0 ∗ atPos ER (sendCell c 1 2) 0 ∅ 0 ∗ atPos ER (sendCell c 2 0) 0 ∅ 0 ∗ atPos ER (sendCell c 2 1) 0 ∅ 0 ∗ atPos ER (sendCell c 2 2) 0 ∅ 0 ∗ atPos ER (sendCell c 3 0) 0 ∅ 0 ∗ atPos ER (sendCell c 3 1) 0 ∅ 0 ∗ atPos ER (sendCell c 3 2) 0 ∅ 0)
    ∗ (atPos ER (recvCell c 0 0) 0 ∅ 0 ∗ atPos ER (recvCell c 0 1) 0 ∅ 0 ∗ atPos ER (recvCell c 0 2) 0 ∅ 0 ∗ atPos ER (recvCell c 1 0) 0 ∅ 0 ∗ atPos ER (recvCell c 1 1) 0 ∅ 0 ∗ atPos ER (recvCell c 1 2) 0 ∅ 0 ∗ atPos ER (recvCell c 2 0) 0 ∅ 0 ∗ atPos ER (recvCell c 2 1) 0 ∅ 0 ∗ atPos ER (recvCell c 2 2) 0 ∅ 0 ∗ atPos ER (recvCell c 3 0) 0 ∅ 0 ∗ atPos ER (recvCell c 3 1) 0 ∅ 0 ∗ atPos ER (recvCell c 3 2) 0 ∅ 0)) := by
  unfold positions
  rw [bigSep_cells25 c (fun g => atPos ER g 0 ∅ 0), bigSep_fin4x3, bigSep_fin4x3]

theorem payToks_flat' (c : Dev nD) : (payToks c : sProp 𝕄) = iprop((dutyTok ER (barCell (sh c ((0 : Fin 3).val + 1))) 0 0 ∗ dutyTok ER (barCell (sh c ((1 : Fin 3).val + 1))) 0 1 ∗ dutyTok ER (barCell (sh c ((2 : Fin 3).val + 1))) 0 2)
    ∗ (dutyTok ER (recvCell (sh c ((0 : Fin 3).val + 1)) 0 (slotOf 0)) 0 0 ∗ dutyTok ER (recvCell (sh c ((1 : Fin 3).val + 1)) 0 (slotOf 1)) 0 0 ∗ dutyTok ER (recvCell (sh c ((2 : Fin 3).val + 1)) 0 (slotOf 2)) 0 0 ∗ dutyTok ER (recvCell (sh c ((0 : Fin 3).val + 1)) 1 (slotOf 0)) 0 0 ∗ dutyTok ER (recvCell (sh c ((1 : Fin 3).val + 1)) 1 (slotOf 1)) 0 0 ∗ dutyTok ER (recvCell (sh c ((2 : Fin 3).val + 1)) 1 (slotOf 2)) 0 0 ∗ dutyTok ER (recvCell (sh c ((0 : Fin 3).val + 1)) 2 (slotOf 0)) 0 0 ∗ dutyTok ER (recvCell (sh c ((1 : Fin 3).val + 1)) 2 (slotOf 1)) 0 0 ∗ dutyTok ER (recvCell (sh c ((2 : Fin 3).val + 1)) 2 (slotOf 2)) 0 0 ∗ dutyTok ER (recvCell (sh c ((0 : Fin 3).val + 1)) 3 (slotOf 0)) 0 0 ∗ dutyTok ER (recvCell (sh c ((1 : Fin 3).val + 1)) 3 (slotOf 1)) 0 0 ∗ dutyTok ER (recvCell (sh c ((2 : Fin 3).val + 1)) 3 (slotOf 2)) 0 0)
    ∗ (dutyTok ER (sendCell c 0 0) 0 0 ∗ dutyTok ER (sendCell c 0 1) 0 0 ∗ dutyTok ER (sendCell c 0 2) 0 0 ∗ dutyTok ER (sendCell c 1 0) 0 0 ∗ dutyTok ER (sendCell c 1 1) 0 0 ∗ dutyTok ER (sendCell c 1 2) 0 0 ∗ dutyTok ER (sendCell c 2 0) 0 0 ∗ dutyTok ER (sendCell c 2 1) 0 0 ∗ dutyTok ER (sendCell c 2 2) 0 0 ∗ dutyTok ER (sendCell c 3 0) 0 0 ∗ dutyTok ER (sendCell c 3 1) 0 0 ∗ dutyTok ER (sendCell c 3 2) 0 0)) := by
  unfold payToks
  rw [bigSep_fin3, bigSep_fin4x3, bigSep_fin4x3]

theorem creds_flat' (c : Dev nD) : (bigSep Finset.univ fun hj : Fin 4 × Fin 3 => (cred (tallyAt (recvCell c hj.1 hj.2) () N) : sProp 𝕄))
    = iprop(cred (tallyAt (recvCell c 0 0) () N) ∗ cred (tallyAt (recvCell c 0 1) () N) ∗ cred (tallyAt (recvCell c 0 2) () N) ∗ cred (tallyAt (recvCell c 1 0) () N) ∗ cred (tallyAt (recvCell c 1 1) () N) ∗ cred (tallyAt (recvCell c 1 2) () N) ∗ cred (tallyAt (recvCell c 2 0) () N) ∗ cred (tallyAt (recvCell c 2 1) () N) ∗ cred (tallyAt (recvCell c 2 2) () N) ∗ cred (tallyAt (recvCell c 3 0) () N) ∗ cred (tallyAt (recvCell c 3 1) () N) ∗ cred (tallyAt (recvCell c 3 2) () N)) := by
  rw [bigSep_fin4x3]

def kS (h : Fin 4) (e : Fin 3) : Fin 25 := ⟨1 + 3 * h.val + e.val, by omega⟩
def kR (h : Fin 4) (j : Fin 3) : Fin 25 := ⟨13 + 3 * h.val + j.val, by omega⟩
theorem csem_S : ∀ (h : Fin 4) (e : Fin 3), csem (kS h e) = .dma (sendSem h e) := by decide
theorem csem_R : ∀ (h : Fin 4) (j : Fin 3), csem (kR h j) = .dma (recvSem h j) := by decide
theorem kcell_S (c : Dev nD) (h : Fin 4) (e : Fin 3) : kcell (c, kS h e) = sendCell c h e := by
  show ((c : Thread nD τ), csem (kS h e)) = _; rw [csem_S]
theorem kcell_R (c : Dev nD) (h : Fin 4) (j : Fin 3) : kcell (c, kR h j) = recvCell c h j := by
  show ((c : Thread nD τ), csem (kR h j)) = _; rw [csem_R]

section Steps
variable (K : Dev nD × Fin 25 → ℕ)

theorem inv_B (c : Dev nD) : records m K ⊢ cellInv ER (ringRd m) (K (c, 0)) (barCell c) := inv_at m K (c, 0)
theorem inv_S (c : Dev nD) (h : Fin 4) (e : Fin 3) : records m K ⊢ cellInv ER (ringRd m) (K (c, kS h e)) (sendCell c h e) := by
  rw [← kcell_S]; exact inv_at m K (c, kS h e)
theorem inv_R (c : Dev nD) (h : Fin 4) (j : Fin 3) : records m K ⊢ cellInv ER (ringRd m) (K (c, kR h j)) (recvCell c h j) := by
  rw [← kcell_R]; exact inv_at m K (c, kR h j)
theorem reached_B (c : Dev nD) : records m K ⊢ reached ER (barCell c) 0 := reached_at m K (c, 0)
theorem reached_S (c : Dev nD) (h : Fin 4) (e : Fin 3) : records m K ⊢ reached ER (sendCell c h e) 0 := by
  rw [← kcell_S]; exact reached_at m K (c, kS h e)
theorem reached_R (c : Dev nD) (h : Fin 4) (j : Fin 3) : records m K ⊢ reached ER (recvCell c h j) 0 := by
  rw [← kcell_R]; exact reached_at m K (c, kR h j)

theorem sh_back' : ∀ (c : Dev nD) (e : Fin 3), sh (sh c (e.val + 1)) (3 - e.val) = c := by decide

theorem wp_sig (c n : Dev nD) (e : Fin 3) (hn : n = sh c (e.val + 1)) (a : ℕ) (ha : a = 1) {α : Type} {Q : α → sProp 𝕄}
    {k : PUnit.{1} → Prog (TpuEff nD τ sig (Elt F) Λ₀ (c : Thread nD τ).2) α}
    (O : CellTallies nD τ sig Unit) (W : Waits sig Unit) :
    iprop(records m K ∗ owes (c : Thread nD τ) (O + tallyAt (barCell (sh c (e.val + 1))) () 1) W
        ∗ dutyTok ER (barCell (sh c (e.val + 1))) 0 e
        ∗ slotFree c 0 e ∗ slotFree c 1 e ∗ slotFree c 2 e ∗ slotFree c 3 e)
      ⊢ iprop((owes (c : Thread nD τ) O W -∗ wp frame (wpE (defs₀ (F := F)) 𝒱₀ c none) Set.univ (k ⟨⟩) Q)
          -∗ wp frame (wpE (defs₀ (F := F)) 𝒱₀ c none) Set.univ (.op (.semSignal (n : Thread nD τ) barS a) k) Q) := by
  subst hn ha
  iintro ⟨#Hrec, HO, Htok, Hs0, Hs1, Hs2, Hs3⟩ Hk
  iapply (Rounds.wp_signal 𝒱₀ ER (ringRd m) (c : Thread nD τ) none (dst := (sh c (e.val + 1) : Thread nD τ)) (sem := barS)
      (κ := K (sh c (e.val + 1), 0)) (r := 0) (d := e)
      (by rw [duties_bar]; exact Finset.mem_univ _) (amount_bar m (sh c (e.val + 1)) e) () O rfl) $$ [HO Htok Hs0 Hs1 Hs2 Hs3]
  · isplitr
    · iapply (inv_B m K (sh c (e.val + 1))); iexact Hrec
    isplitl [HO]; · iexact HO
    isplitl [Htok]; · iexact Htok
    isplitl [Hs0 Hs1 Hs2 Hs3]
    · rw [payload_bar]; unfold barPay; rw [sh_back' c e]
      isplitl [Hs0]
      · isplitl [Hs0]; · iexact Hs0
        iapply (reached_R m K c 0 e); iexact Hrec
      isplitl [Hs1]
      · isplitl [Hs1]; · iexact Hs1
        iapply (reached_R m K c 1 e); iexact Hrec
      isplitl [Hs2]
      · isplitl [Hs2]; · iexact Hs2
        iapply (reached_R m K c 2 e); iexact Hrec
      · isplitl [Hs3]; · iexact Hs3
        iapply (reached_R m K c 3 e); iexact Hrec
    · iapply (reached_B m K (sh c (e.val + 1))); iexact Hrec
  · iexact Hk

theorem sh_rev' : ∀ (c : Dev nD) (d : Fin 3), sh c (3 - (slotOf d).val) = sh c (d.val + 1) := by decide

theorem barPay_open' (c : Dev nD) (d : Fin 3) : (barPay c (slotOf d) : sProp 𝕄)
    ⊢ iprop((∃ g, slotPts (sh c (d.val + 1)) 0 (slotOf d) g) ∗ (∃ g, slotPts (sh c (d.val + 1)) 1 (slotOf d) g)
        ∗ (∃ g, slotPts (sh c (d.val + 1)) 2 (slotOf d) g) ∗ (∃ g, slotPts (sh c (d.val + 1)) 3 (slotOf d) g)) := by
  unfold barPay slotFree; rw [sh_rev' c d]
  iintro ⟨⟨H0, -⟩, ⟨H1, -⟩, ⟨H2, -⟩, ⟨H3, -⟩⟩
  isplitl [H0]; · iexact H0
  isplitl [H1]; · iexact H1
  isplitl [H2]; · iexact H2
  iexact H3

theorem wp_send_held' (c n : Dev nD) (h : Fin 4) (d : Fin 3) (hn : n = sh c (d.val + 1))
    {hsc : (commSl h (slotOf d) : Memref sig (Dev.tc n : Thread nD τ).2.kind .vmem S4x512 .f32).view.ref.isScScratch = false}
    {hsrc : (ownSl h : Memref sig .tc .vmem S4x512 .f32).view.WordExact} {hdst : (commSl h (slotOf d) : Memref sig .tc .vmem S4x512 .f32).view.WordExact}
    {hsem : DmaTarget.Typed .vmem (.dma (recvSem h (slotOf d))) (.remote (Dev.tc n : Thread nD τ) (commSl h (slotOf d) : Memref sig .tc .vmem S4x512 .f32) (.dma (sendSem h d)) hsc)}
    {α : Type} {Q : α → sProp 𝕄} {k : PUnit → Prog (TpuEff nD τ sig (Elt F) Λ₀ .tc) α}
    (fd : Buf (Elt F) ((commSl h (slotOf d) : Memref sig .tc .vmem S4x512 .f32).view.loc (sh c (d.val + 1) : Thread nD τ)))
    (O : CellTallies nD τ sig Unit) (W : Waits sig Unit) :
    iprop(records m K ∗ ownHeld m c h (qLent d) ∗ slotPts (sh c (d.val + 1)) h (slotOf d) fd
        ∗ owes (c : Thread nD τ) (O + tallyAt (recvCell (sh c (d.val + 1)) h (slotOf d)) () N) W
        ∗ dutyTok ER (sendCell c h d) 0 0 ∗ dutyTok ER (recvCell (sh c (d.val + 1)) h (slotOf d)) 0 0)
      ⊢ iprop(((cred (tallyAt (sendCell c h d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownSl h) (.remote (Dev.tc n : Thread nD τ) (commSl h (slotOf d)) (.dma (sendSem h d)) hsc) (.dma (recvSem h (slotOf d))) hsrc hdst hsem) k) Q) := by
  iintro ⟨#Hrec, Hh, Hq, HO, HtS, HtR⟩
  unfold ownHeld
  icases Hh with ⟨%fs, %hfs, Hown⟩
  iapply (wp_send_slot m (K (c, kS h d)) (K (sh c (d.val + 1), kR h (slotOf d))) c n h d hn fs hfs fd (landing m c h d fs fd hfs) O W) $$ [Hown Hq HO HtS HtR]
  isplitr; · iapply (inv_S m K c h d); iexact Hrec
  isplitr; · iapply (inv_R m K (sh c (d.val + 1)) h (slotOf d)); iexact Hrec
  isplitl [Hown]; · iexact Hown
  isplitl [Hq]; · iexact Hq
  isplitl [HO]; · iexact HO
  isplitl [HtS]; · iexact HtS
  isplitr; · iapply (reached_S m K c h d); iexact Hrec
  isplitl [HtR]; · iexact HtR
  iapply (reached_R m K (sh c (d.val + 1)) h (slotOf d)); iexact Hrec

theorem barPay_open_0 (c : Dev nD) : (barPay c 0 : sProp 𝕄)
    ⊢ iprop((∃ g, slotPts (sh c ((2 : Fin 3).val + 1)) 0 (slotOf 2) g) ∗ (∃ g, slotPts (sh c ((2 : Fin 3).val + 1)) 1 (slotOf 2) g)
        ∗ (∃ g, slotPts (sh c ((2 : Fin 3).val + 1)) 2 (slotOf 2) g) ∗ (∃ g, slotPts (sh c ((2 : Fin 3).val + 1)) 3 (slotOf 2) g)) := barPay_open' c 2
theorem barPay_open_1 (c : Dev nD) : (barPay c 1 : sProp 𝕄)
    ⊢ iprop((∃ g, slotPts (sh c ((1 : Fin 3).val + 1)) 0 (slotOf 1) g) ∗ (∃ g, slotPts (sh c ((1 : Fin 3).val + 1)) 1 (slotOf 1) g)
        ∗ (∃ g, slotPts (sh c ((1 : Fin 3).val + 1)) 2 (slotOf 1) g) ∗ (∃ g, slotPts (sh c ((1 : Fin 3).val + 1)) 3 (slotOf 1) g)) := barPay_open' c 1
theorem barPay_open_2 (c : Dev nD) : (barPay c 2 : sProp 𝕄)
    ⊢ iprop((∃ g, slotPts (sh c ((0 : Fin 3).val + 1)) 0 (slotOf 0) g) ∗ (∃ g, slotPts (sh c ((0 : Fin 3).val + 1)) 1 (slotOf 0) g)
        ∗ (∃ g, slotPts (sh c ((0 : Fin 3).val + 1)) 2 (slotOf 0) g) ∗ (∃ g, slotPts (sh c ((0 : Fin 3).val + 1)) 3 (slotOf 0) g)) := barPay_open' c 0

theorem wp_ret_bind' {α β : Type} (c : Dev nD) (a : α) (k : α → Prog (TpuEff nD τ sig (Elt F) Λ₀ .tc) β) (Q : β → sProp 𝕄) :
    wp frame (wpE (defs₀ (F := F)) 𝒱₀ c none) Set.univ (k a) Q
      ⊢ wp frame (wpE (defs₀ (F := F)) 𝒱₀ c none) Set.univ ((Prog.ret a).bind k) Q := .rfl

end Steps

end Cert.KernelIdeal.Coll

end
-- ==== Proof.KernelIdeal.PartsA.lean ====
import proofs.«900763_g7700000000000764_dist_diff_adaln_cshard_i_b2_s2048_c512_v7x_i4_bf16_1_alg».proof.Proof.KernelIdeal.PartsCommon

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 25 → ℕ)

theorem part1_spec (c : Dev nD)  (W : Waits sig Unit) (g0 : Buf (Elt F) ((c : Thread nD τ).loc cc0_scratch1)) :
    iprop(records m K ∗ levAts L lv ∗ (owes (c : Thread nD τ) (owedFor ((acts c).drop 0)) W)
        ∗ (dutyTok ER (barCell (sh c ((0 : Fin 3).val + 1))) 0 0)
        ∗ (slotPts c 0 0 g0)
        ∗ (slotPts c 1 0 g0)
        ∗ (slotPts c 2 0 g0)
        ∗ (slotPts c 3 0 g0)
        ∗ (dutyTok ER (barCell (sh c ((1 : Fin 3).val + 1))) 0 1)
        ∗ (slotPts c 0 1 g0)
        ∗ (slotPts c 1 1 g0)
        ∗ (slotPts c 2 1 g0)
        ∗ (slotPts c 3 1 g0))
      ⊢ wp frame (wpE (defs₀ (F := F)) 𝒱₀ c none) Set.univ
          (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 )
          (fun r => iprop((⌜r.1 = c⌝ ∗ ⌜r.2.2.1 = (SemArray.scalar (sig.barrier 0 rfl) : Sems sig S_)⌝)
            ∗ (owes (c : Thread nD τ) (owedFor ((acts c).drop 2)) W))) := by
  rw [k0_part1_eq_skeleton]; unfold k0_part1_skel
  iintro ⟨#Hrec, #Hlev, HO, HtB0, Hs00, Hs10, Hs20, Hs30, HtB1, Hs01, Hs11, Hs21, Hs31⟩
  sl_exec
  iapply (wp_sig m K c _ 0 (dev1_eq c) _ rfl (owedFor ((acts c).drop 1)) W) $$ [HO HtB0 Hs00 Hs10 Hs20 Hs30]
  · sl_close
  iintro HO
  sl_exec
  iapply (wp_sig m K c _ 1 (dev2_eq c) _ rfl (owedFor ((acts c).drop 2)) W) $$ [HO HtB1 Hs01 Hs11 Hs21 Hs31]
  · sl_close
  iintro HO
  sl_exec
  sl_step
  sl_close

theorem part2_spec (c : Dev nD) (d0 : Dev nD) (hd0 : d0 = c) (v3 : Sems sig S_) (hv3 : v3 = (SemArray.scalar (sig.barrier 0 rfl) : Sems sig S_)) (v2 v30 c4 : BitVec 32) (v31 : BitVec 1) (W : Waits sig Unit) (g0 : Buf (Elt F) ((c : Thread nD τ).loc cc0_scratch1)) (f0 : Buf (Elt F) ((c : Thread nD τ).loc cc0_scratch0)) :
    iprop(records m K ∗ levAts L lv ∗ (owes (c : Thread nD τ) (owedFor ((acts c).drop 2)) W)
        ∗ (dutyTok ER (barCell (sh c ((2 : Fin 3).val + 1))) 0 2)
        ∗ (slotPts c 0 2 g0)
        ∗ (slotPts c 1 2 g0)
        ∗ (slotPts c 2 2 g0)
        ∗ (slotPts c 3 2 g0)
        ∗ (cred (tallyAt (barCell c) () 3))
        ∗ (atPos ER (barCell c) 0 ∅ 0)
        ∗ ((xM : Memref sig .tc .vmem S2x2048x512 .f32).view.loc (c : Thread nD τ) ↦{fullShare} xstg m c)
        ∗ (ownPts c 0 fullShare f0))
      ⊢ wp frame (wpE (defs₀ (F := F)) 𝒱₀ c none) Set.univ
          (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v3 v30 c4 v31)
          (fun r => iprop((owes (c : Thread nD τ) (owedFor ((acts c).drop 3)) (insert (SemLoc.reg barS, ()) W))
            ∗ (∃ q, slotPts (sh c ((0 : Fin 3).val + 1)) 0 (slotOf 0) q)
            ∗ (∃ q, slotPts (sh c ((1 : Fin 3).val + 1)) 0 (slotOf 1) q)
            ∗ (∃ q, slotPts (sh c ((2 : Fin 3).val + 1)) 0 (slotOf 2) q)
            ∗ (∃ q, slotPts (sh c ((0 : Fin 3).val + 1)) 1 (slotOf 0) q)
            ∗ (∃ q, slotPts (sh c ((1 : Fin 3).val + 1)) 1 (slotOf 1) q)
            ∗ (∃ q, slotPts (sh c ((2 : Fin 3).val + 1)) 1 (slotOf 2) q)
            ∗ (∃ q, slotPts (sh c ((0 : Fin 3).val + 1)) 2 (slotOf 0) q)
            ∗ (∃ q, slotPts (sh c ((1 : Fin 3).val + 1)) 2 (slotOf 1) q)
            ∗ (∃ q, slotPts (sh c ((2 : Fin 3).val + 1)) 2 (slotOf 2) q)
            ∗ (∃ q, slotPts (sh c ((0 : Fin 3).val + 1)) 3 (slotOf 0) q)
            ∗ (∃ q, slotPts (sh c ((1 : Fin 3).val + 1)) 3 (slotOf 1) q)
            ∗ (∃ q, slotPts (sh c ((2 : Fin 3).val + 1)) 3 (slotOf 2) q)
            ∗ ((xM : Memref sig .tc .vmem S2x2048x512 .f32).view.loc (c : Thread nD τ) ↦{fullShare} xstg m c)
            ∗ (ownHeld m c 0 (qLent 0))
            ∗ (ownHeld m c 0 (qLent 1))
            ∗ (ownHeld m c 0 (qLent 2))
            ∗ (ownHeld m c 0 qKept))) := by
  subst d0 hv3
  rw [k0_part2_eq_skeleton]; unfold k0_part2_skel
  iintro ⟨#Hrec, #Hlev, HO, HtB2, Hs02, Hs12, Hs22, Hs32, HcB, HpB, Hx, Ho0⟩
  sl_exec
  iapply (wp_sig m K c _ 2 (dev3_eq c) _ rfl (owedFor ((acts c).drop 3)) W) $$ [HO HtB2 Hs02 Hs12 Hs22 Hs32]
  · sl_close
  iintro HO
  sl_exec
  iapply (wp_wait_bar m c (inv_B m K c) (hw_bar c) W) $$ [HcB HO HpB]
  · sl_close
  iintro ⟨HO, Hb0, Hb1, Hb2⟩
  ihave Hp2 := (barPay_open_0 c) $$ Hb0
  icases Hp2 with ⟨⟨%q02, Hq02⟩, ⟨%q12, Hq12⟩, ⟨%q22, Hq22⟩, ⟨%q32, Hq32⟩⟩
  ihave Hp1 := (barPay_open_1 c) $$ Hb1
  icases Hp1 with ⟨⟨%q01, Hq01⟩, ⟨%q11, Hq11⟩, ⟨%q21, Hq21⟩, ⟨%q31, Hq31⟩⟩
  ihave Hp0 := (barPay_open_2 c) $$ Hb2
  icases Hp0 with ⟨⟨%q00, Hq00⟩, ⟨%q10, Hq10⟩, ⟨%q20, Hq20⟩, ⟨%q30, Hq30⟩⟩
  sl_exec
  iapply (wp_load_own c 0 fullShare f0) $$ Ho0
  iintro Ho0
  iapply (wp_store_ownHeld m c 0 f0) $$ Ho0
  iintro Hh0
  ihave Hh0q := (ownHeld_quarters m c 0) $$ Hh0
  icases Hh0q with ⟨Hh00, Hh01, Hh02, Hh0k⟩
  iapply (wp_ret_bind' c _ _ _)
  sl_exec
  sl_step
  sl_close

theorem part3_spec (c : Dev nD) (d0 : Dev nD) (hd0 : d0 = c) (v2 v58 v64 : BitVec 32) (v63 : BitVec 1) (W : Waits sig Unit) (q00 : Buf (Elt F) ((commSl 0 (slotOf 0) : Memref sig .tc .vmem S4x512 .f32).view.loc (sh c ((0 : Fin 3).val + 1) : Thread nD τ))) :
    iprop(records m K ∗ levAts L lv ∗ (owes (c : Thread nD τ) (owedFor ((acts c).drop 3)) W)
        ∗ (ownHeld m c 0 (qLent 0))
        ∗ (slotPts (sh c ((0 : Fin 3).val + 1)) 0 (slotOf 0) q00)
        ∗ (dutyTok ER (sendCell c 0 0) 0 0)
        ∗ (dutyTok ER (recvCell (sh c ((0 : Fin 3).val + 1)) 0 (slotOf 0)) 0 0))
      ⊢ wp frame (wpE (defs₀ (F := F)) 𝒱₀ c none) Set.univ
          (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v58 v63 v64)
          (fun r => iprop((owes (c : Thread nD τ) (owedFor ((acts c).drop 4)) W)
            ∗ (cred (tallyAt (sendCell c 0 0) () N)))) := by
  subst d0
  rw [k0_part3_eq_skeleton]; unfold k0_part3_skel
  iintro ⟨#Hrec, #Hlev, HO, Hh00, Hq00, HtS00, HtR00⟩
  sl_exec
  iapply (wp_send_held' m K c _ 0 0 (dev4_eq c) q00 (owedFor ((acts c).drop 4)) _) $$ [Hh00 Hq00 HO HtS00 HtR00]
  · sl_close
  iintro ⟨HcS00, HO⟩
  sl_exec
  sl_step
  sl_close

theorem part4_spec (c : Dev nD) (d0 : Dev nD) (hd0 : d0 = c) (v2 : BitVec 32) (W : Waits sig Unit) (q01 : Buf (Elt F) ((commSl 0 (slotOf 1) : Memref sig .tc .vmem S4x512 .f32).view.loc (sh c ((1 : Fin 3).val + 1) : Thread nD τ))) (q02 : Buf (Elt F) ((commSl 0 (slotOf 2) : Memref sig .tc .vmem S4x512 .f32).view.loc (sh c ((2 : Fin 3).val + 1) : Thread nD τ))) :
    iprop(records m K ∗ levAts L lv ∗ (owes (c : Thread nD τ) (owedFor ((acts c).drop 4)) W)
        ∗ (ownHeld m c 0 (qLent 1))
        ∗ (slotPts (sh c ((1 : Fin 3).val + 1)) 0 (slotOf 1) q01)
        ∗ (dutyTok ER (sendCell c 0 1) 0 0)
        ∗ (dutyTok ER (recvCell (sh c ((1 : Fin 3).val + 1)) 0 (slotOf 1)) 0 0)
        ∗ (ownHeld m c 0 (qLent 2))
        ∗ (slotPts (sh c ((2 : Fin 3).val + 1)) 0 (slotOf 2) q02)
        ∗ (dutyTok ER (sendCell c 0 2) 0 0)
        ∗ (dutyTok ER (recvCell (sh c ((2 : Fin 3).val + 1)) 0 (slotOf 2)) 0 0)
        ∗ ((xM : Memref sig .tc .vmem S2x2048x512 .f32).view.loc (c : Thread nD τ) ↦{fullShare} xstg m c))
      ⊢ wp frame (wpE (defs₀ (F := F)) 𝒱₀ c none) Set.univ
          (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2)
          (fun r => iprop((⌜r.2.1 = k0_pay3 (xrow m c 1)⌝ ∗ ⌜r.2.2 = k0_pay4 (xrow m c 1)⌝)
            ∗ (owes (c : Thread nD τ) (owedFor ((acts c).drop 6)) W)
            ∗ (cred (tallyAt (sendCell c 0 1) () N))
            ∗ (cred (tallyAt (sendCell c 0 2) () N))
            ∗ ((xM : Memref sig .tc .vmem S2x2048x512 .f32).view.loc (c : Thread nD τ) ↦{fullShare} xstg m c))) := by
  subst d0
  rw [k0_part4_eq_skeleton]; unfold k0_part4_skel
  iintro ⟨#Hrec, #Hlev, HO, Hh01, Hq01, HtS01, HtR01, Hh02, Hq02, HtS02, HtR02, Hx⟩
  sl_exec
  iapply (wp_send_held' m K c _ 0 1 (dev5_eq c) q01 (owedFor ((acts c).drop 5)) _) $$ [Hh01 Hq01 HO HtS01 HtR01]
  · sl_close
  iintro ⟨HcS01, HO⟩
  sl_exec
  iapply (wp_send_held' m K c _ 0 2 (dev6_eq c) q02 (owedFor ((acts c).drop 6)) _) $$ [Hh02 Hq02 HO HtS02 HtR02]
  · sl_close
  iintro ⟨HcS02, HO⟩
  sl_exec
  sl_step
  sl_close

theorem part5_spec (c : Dev nD) (d0 : Dev nD) (hd0 : d0 = c) (v2 : BitVec 32) (v122 : FVec F S2x512 .f32) (v124 : FVec F S2x512x512 .f32) (h122 : v122 = k0_pay3 (xrow m c 1)) (h124 : v124 = k0_pay4 (xrow m c 1)) (W : Waits sig Unit) (f0 : Buf (Elt F) ((c : Thread nD τ).loc cc0_scratch0)) (q10 : Buf (Elt F) ((commSl 1 (slotOf 0) : Memref sig .tc .vmem S4x512 .f32).view.loc (sh c ((0 : Fin 3).val + 1) : Thread nD τ))) :
    iprop(records m K ∗ levAts L lv ∗ (ownPts c 1 fullShare f0)
        ∗ (owes (c : Thread nD τ) (owedFor ((acts c).drop 6)) W)
        ∗ (slotPts (sh c ((0 : Fin 3).val + 1)) 1 (slotOf 0) q10)
        ∗ (dutyTok ER (sendCell c 1 0) 0 0)
        ∗ (dutyTok ER (recvCell (sh c ((0 : Fin 3).val + 1)) 1 (slotOf 0)) 0 0))
      ⊢ wp frame (wpE (defs₀ (F := F)) 𝒱₀ c none) Set.univ
          (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v122 v124)
          (fun r => iprop((ownHeld m c 1 (qLent 1))
            ∗ (ownHeld m c 1 (qLent 2))
            ∗ (ownHeld m c 1 qKept)
            ∗ (owes (c : Thread nD τ) (owedFor ((acts c).drop 7)) W)
            ∗ (cred (tallyAt (sendCell c 1 0) () N)))) := by
  subst d0 h122 h124
  rw [k0_part5_eq_skeleton]; unfold k0_part5_skel
  iintro ⟨#Hrec, #Hlev, Ho1, HO, Hq10, HtS10, HtR10⟩
  iapply (wp_load_own c 1 fullShare f0) $$ Ho1
  iintro Ho1
  iapply (wp_store_ownHeld m c 1 f0) $$ Ho1
  iintro Hh1
  ihave Hh1q := (ownHeld_quarters m c 1) $$ Hh1
  icases Hh1q with ⟨Hh10, Hh11, Hh12, Hh1k⟩
  iapply (wp_ret_bind' c _ _ _)
  sl_exec
  iapply (wp_send_held' m K c _ 1 0 (dev7_eq c) q10 (owedFor ((acts c).drop 7)) _) $$ [Hh10 Hq10 HO HtS10 HtR10]
  · sl_close
  iintro ⟨HcS10, HO⟩
  sl_exec
  sl_step
  sl_close

theorem part6_spec (c : Dev nD) (d0 : Dev nD) (hd0 : d0 = c) (v2 v153 v154 : BitVec 32) (W : Waits sig Unit) (q11 : Buf (Elt F) ((commSl 1 (slotOf 1) : Memref sig .tc .vmem S4x512 .f32).view.loc (sh c ((1 : Fin 3).val + 1) : Thread nD τ))) :
    iprop(records m K ∗ levAts L lv ∗ (owes (c : Thread nD τ) (owedFor ((acts c).drop 7)) W)
        ∗ (ownHeld m c 1 (qLent 1))
        ∗ (slotPts (sh c ((1 : Fin 3).val + 1)) 1 (slotOf 1) q11)
        ∗ (dutyTok ER (sendCell c 1 1) 0 0)
        ∗ (dutyTok ER (recvCell (sh c ((1 : Fin 3).val + 1)) 1 (slotOf 1)) 0 0))
      ⊢ wp frame (wpE (defs₀ (F := F)) 𝒱₀ c none) Set.univ
          (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v153 v154)
          (fun r => iprop((owes (c : Thread nD τ) (owedFor ((acts c).drop 8)) W)
            ∗ (cred (tallyAt (sendCell c 1 1) () N)))) := by
  subst d0
  rw [k0_part6_eq_skeleton]; unfold k0_part6_skel
  iintro ⟨#Hrec, #Hlev, HO, Hh11, Hq11, HtS11, HtR11⟩
  sl_exec
  iapply (wp_send_held' m K c _ 1 1 (dev8_eq c) q11 (owedFor ((acts c).drop 8)) _) $$ [Hh11 Hq11 HO HtS11 HtR11]
  · sl_close
  iintro ⟨HcS11, HO⟩
  sl_exec
  sl_step
  sl_close

end Parts

end Cert.KernelIdeal.Coll

end
-- ==== Proof.KernelIdeal.PartsB.lean ====
import proofs.«900763_g7700000000000764_dist_diff_adaln_cshard_i_b2_s2048_c512_v7x_i4_bf16_1_alg».proof.Proof.KernelIdeal.PartsCommon

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 25 → ℕ)

theorem part7_spec (c : Dev nD) (d0 : Dev nD) (hd0 : d0 = c) (v2 v182 c1 : BitVec 32) (W : Waits sig Unit) (f0 : Buf (Elt F) ((c : Thread nD τ).loc cc0_scratch0)) (q12 : Buf (Elt F) ((commSl 1 (slotOf 2) : Memref sig .tc .vmem S4x512 .f32).view.loc (sh c ((2 : Fin 3).val + 1) : Thread nD τ))) :
    iprop(records m K ∗ levAts L lv ∗ (owes (c : Thread nD τ) (owedFor ((acts c).drop 8)) W)
        ∗ (ownHeld m c 1 (qLent 2))
        ∗ (slotPts (sh c ((2 : Fin 3).val + 1)) 1 (slotOf 2) q12)
        ∗ (dutyTok ER (sendCell c 1 2) 0 0)
        ∗ (dutyTok ER (recvCell (sh c ((2 : Fin 3).val + 1)) 1 (slotOf 2)) 0 0)
        ∗ ((xM : Memref sig .tc .vmem S2x2048x512 .f32).view.loc (c : Thread nD τ) ↦{fullShare} xstg m c)
        ∗ (ownPts c 2 fullShare f0))
      ⊢ wp frame (wpE (defs₀ (F := F)) 𝒱₀ c none) Set.univ
          (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v182 c1)
          (fun r => iprop((owes (c : Thread nD τ) (owedFor ((acts c).drop 9)) W)
            ∗ (cred (tallyAt (sendCell c 1 2) () N))
            ∗ ((xM : Memref sig .tc .vmem S2x2048x512 .f32).view.loc (c : Thread nD τ) ↦{fullShare} xstg m c)
            ∗ (ownHeld m c 2 (qLent 0))
            ∗ (ownHeld m c 2 (qLent 1))
            ∗ (ownHeld m c 2 (qLent 2))
            ∗ (ownHeld m c 2 qKept))) := by
  subst d0
  rw [k0_part7_eq_skeleton]; unfold k0_part7_skel
  iintro ⟨#Hrec, #Hlev, HO, Hh12, Hq12, HtS12, HtR12, Hx, Ho2⟩
  sl_exec
  iapply (wp_send_held' m K c _ 1 2 (dev9_eq c) q12 (owedFor ((acts c).drop 9)) _) $$ [Hh12 Hq12 HO HtS12 HtR12]
  · sl_close
  iintro ⟨HcS12, HO⟩
  sl_exec
  iapply (wp_load_own c 2 fullShare f0) $$ Ho2
  iintro Ho2
  iapply (wp_store_ownHeld m c 2 f0) $$ Ho2
  iintro Hh2
  ihave Hh2q := (ownHeld_quarters m c 2) $$ Hh2
  icases Hh2q with ⟨Hh20, Hh21, Hh22, Hh2k⟩
  iapply (wp_ret_bind' c _ _ _)
  sl_exec
  sl_step
  sl_close

theorem part8_spec (c : Dev nD) (d0 : Dev nD) (hd0 : d0 = c) (v2 v215 : BitVec 32) (W : Waits sig Unit) (q20 : Buf (Elt F) ((commSl 2 (slotOf 0) : Memref sig .tc .vmem S4x512 .f32).view.loc (sh c ((0 : Fin 3).val + 1) : Thread nD τ))) :
    iprop(records m K ∗ levAts L lv ∗ (owes (c : Thread nD τ) (owedFor ((acts c).drop 9)) W)
        ∗ (ownHeld m c 2 (qLent 0))
        ∗ (slotPts (sh c ((0 : Fin 3).val + 1)) 2 (slotOf 0) q20)
        ∗ (dutyTok ER (sendCell c 2 0) 0 0)
        ∗ (dutyTok ER (recvCell (sh c ((0 : Fin 3).val + 1)) 2 (slotOf 0)) 0 0))
      ⊢ wp frame (wpE (defs₀ (F := F)) 𝒱₀ c none) Set.univ
          (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v215)
          (fun r => iprop((owes (c : Thread nD τ) (owedFor ((acts c).drop 10)) W)
            ∗ (cred (tallyAt (sendCell c 2 0) () N)))) := by
  subst d0
  rw [k0_part8_eq_skeleton]; unfold k0_part8_skel
  iintro ⟨#Hrec, #Hlev, HO, Hh20, Hq20, HtS20, HtR20⟩
  sl_exec
  iapply (wp_send_held' m K c _ 2 0 (dev10_eq c) q20 (owedFor ((acts c).drop 10)) _) $$ [Hh20 Hq20 HO HtS20 HtR20]
  · sl_close
  iintro ⟨HcS20, HO⟩
  sl_exec
  sl_step
  sl_close

theorem part9_spec (c : Dev nD) (d0 : Dev nD) (hd0 : d0 = c) (v2 : BitVec 32) (W : Waits sig Unit) (q21 : Buf (Elt F) ((commSl 2 (slotOf 1) : Memref sig .tc .vmem S4x512 .f32).view.loc (sh c ((1 : Fin 3).val + 1) : Thread nD τ))) (q22 : Buf (Elt F) ((commSl 2 (slotOf 2) : Memref sig .tc .vmem S4x512 .f32).view.loc (sh c ((2 : Fin 3).val + 1) : Thread nD τ))) :
    iprop(records m K ∗ levAts L lv ∗ (owes (c : Thread nD τ) (owedFor ((acts c).drop 10)) W)
        ∗ (ownHeld m c 2 (qLent 1))
        ∗ (slotPts (sh c ((1 : Fin 3).val + 1)) 2 (slotOf 1) q21)
        ∗ (dutyTok ER (sendCell c 2 1) 0 0)
        ∗ (dutyTok ER (recvCell (sh c ((1 : Fin 3).val + 1)) 2 (slotOf 1)) 0 0)
        ∗ (ownHeld m c 2 (qLent 2))
        ∗ (slotPts (sh c ((2 : Fin 3).val + 1)) 2 (slotOf 2) q22)
        ∗ (dutyTok ER (sendCell c 2 2) 0 0)
        ∗ (dutyTok ER (recvCell (sh c ((2 : Fin 3).val + 1)) 2 (slotOf 2)) 0 0)
        ∗ ((xM : Memref sig .tc .vmem S2x2048x512 .f32).view.loc (c : Thread nD τ) ↦{fullShare} xstg m c))
      ⊢ wp frame (wpE (defs₀ (F := F)) 𝒱₀ c none) Set.univ
          (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2)
          (fun r => iprop((⌜r.2 = k0_pay7 (xrow m c 3)⌝)
            ∗ (owes (c : Thread nD τ) (owedFor ((acts c).drop 12)) W)
            ∗ (cred (tallyAt (sendCell c 2 1) () N))
            ∗ (cred (tallyAt (sendCell c 2 2) () N))
            ∗ ((xM : Memref sig .tc .vmem S2x2048x512 .f32).view.loc (c : Thread nD τ) ↦{fullShare} xstg m c))) := by
  subst d0
  rw [k0_part9_eq_skeleton]; unfold k0_part9_skel
  iintro ⟨#Hrec, #Hlev, HO, Hh21, Hq21, HtS21, HtR21, Hh22, Hq22, HtS22, HtR22, Hx⟩
  sl_exec
  iapply (wp_send_held' m K c _ 2 1 (dev11_eq c) q21 (owedFor ((acts c).drop 11)) _) $$ [Hh21 Hq21 HO HtS21 HtR21]
  · sl_close
  iintro ⟨HcS21, HO⟩
  sl_exec
  iapply (wp_send_held' m K c _ 2 2 (dev12_eq c) q22 (owedFor ((acts c).drop 12)) _) $$ [Hh22 Hq22 HO HtS22 HtR22]
  · sl_close
  iintro ⟨HcS22, HO⟩
  sl_exec
  sl_step
  sl_close

theorem part10_spec (c : Dev nD) (d0 : Dev nD) (hd0 : d0 = c) (v2 : BitVec 32) (v276 : FVec F S4x512 .f32) (h276 : v276 = k0_pay7 (xrow m c 3)) (W : Waits sig Unit) (f0 : Buf (Elt F) ((c : Thread nD τ).loc cc0_scratch0)) (q30 : Buf (Elt F) ((commSl 3 (slotOf 0) : Memref sig .tc .vmem S4x512 .f32).view.loc (sh c ((0 : Fin 3).val + 1) : Thread nD τ))) :
    iprop(records m K ∗ levAts L lv ∗ (ownPts c 3 fullShare f0)
        ∗ (owes (c : Thread nD τ) (owedFor ((acts c).drop 12)) W)
        ∗ (slotPts (sh c ((0 : Fin 3).val + 1)) 3 (slotOf 0) q30)
        ∗ (dutyTok ER (sendCell c 3 0) 0 0)
        ∗ (dutyTok ER (recvCell (sh c ((0 : Fin 3).val + 1)) 3 (slotOf 0)) 0 0))
      ⊢ wp frame (wpE (defs₀ (F := F)) 𝒱₀ c none) Set.univ
          (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v276)
          (fun r => iprop((ownHeld m c 3 (qLent 1))
            ∗ (ownHeld m c 3 (qLent 2))
            ∗ (ownHeld m c 3 qKept)
            ∗ (owes (c : Thread nD τ) (owedFor ((acts c).drop 13)) W)
            ∗ (cred (tallyAt (sendCell c 3 0) () N)))) := by
  subst d0 h276
  rw [k0_part10_eq_skeleton]; unfold k0_part10_skel
  iintro ⟨#Hrec, #Hlev, Ho3, HO, Hq30, HtS30, HtR30⟩
  iapply (wp_load_own c 3 fullShare f0) $$ Ho3
  iintro Ho3
  iapply (wp_store_ownHeld m c 3 f0) $$ Ho3
  iintro Hh3
  ihave Hh3q := (ownHeld_quarters m c 3) $$ Hh3
  icases Hh3q with ⟨Hh30, Hh31, Hh32, Hh3k⟩
  iapply (wp_ret_bind' c _ _ _)
  sl_exec
  iapply (wp_send_held' m K c _ 3 0 (dev13_eq c) q30 (owedFor ((acts c).drop 13)) _) $$ [Hh30 Hq30 HO HtS30 HtR30]
  · sl_close
  iintro ⟨HcS30, HO⟩
  sl_exec
  sl_step
  sl_close

theorem part11_spec (c : Dev nD) (d0 : Dev nD) (hd0 : d0 = c) (v2 v303 v304 : BitVec 32) (v305 v306 v307 : BitVec 1) (W : Waits sig Unit) (q31 : Buf (Elt F) ((commSl 3 (slotOf 1) : Memref sig .tc .vmem S4x512 .f32).view.loc (sh c ((1 : Fin 3).val + 1) : Thread nD τ))) :
    iprop(records m K ∗ levAts L lv ∗ (owes (c : Thread nD τ) (owedFor ((acts c).drop 13)) W)
        ∗ (ownHeld m c 3 (qLent 1))
        ∗ (slotPts (sh c ((1 : Fin 3).val + 1)) 3 (slotOf 1) q31)
        ∗ (dutyTok ER (sendCell c 3 1) 0 0)
        ∗ (dutyTok ER (recvCell (sh c ((1 : Fin 3).val + 1)) 3 (slotOf 1)) 0 0))
      ⊢ wp frame (wpE (defs₀ (F := F)) 𝒱₀ c none) Set.univ
          (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v303 v304 v305 v306 v307)
          (fun r => iprop((owes (c : Thread nD τ) (owedFor ((acts c).drop 14)) W)
            ∗ (cred (tallyAt (sendCell c 3 1) () N)))) := by
  subst d0
  rw [k0_part11_eq_skeleton]; unfold k0_part11_skel
  iintro ⟨#Hrec, #Hlev, HO, Hh31, Hq31, HtS31, HtR31⟩
  sl_exec
  iapply (wp_send_held' m K c _ 3 1 (dev14_eq c) q31 (owedFor ((acts c).drop 14)) _) $$ [Hh31 Hq31 HO HtS31 HtR31]
  · sl_close
  iintro ⟨HcS31, HO⟩
  sl_exec
  sl_step
  sl_close

theorem part12_spec (c : Dev nD) (d0 : Dev nD) (hd0 : d0 = c) (v65 : BitVec 32) (W : Waits sig Unit) (q32 : Buf (Elt F) ((commSl 3 (slotOf 2) : Memref sig .tc .vmem S4x512 .f32).view.loc (sh c ((2 : Fin 3).val + 1) : Thread nD τ))) :
    iprop(records m K ∗ levAts L lv ∗ (owes (c : Thread nD τ) (owedFor ((acts c).drop 14)) W)
        ∗ (ownHeld m c 3 (qLent 2))
        ∗ (slotPts (sh c ((2 : Fin 3).val + 1)) 3 (slotOf 2) q32)
        ∗ (dutyTok ER (sendCell c 3 2) 0 0)
        ∗ (dutyTok ER (recvCell (sh c ((2 : Fin 3).val + 1)) 3 (slotOf 2)) 0 0)
        ∗ ((tM : Memref sig .tc .vmem S2x128 .f32).view.loc (c : Thread nD τ) ↦{fullShare} tstg m c)
        ∗ ((wsM : Memref sig .tc .vmem S128x512 .f32).view.loc (c : Thread nD τ) ↦{fullShare} wsstg m c)
        ∗ ((wshM : Memref sig .tc .vmem S128x512 .f32).view.loc (c : Thread nD τ) ↦{fullShare} wshstg m c)
        ∗ (cred (tallyAt (recvCell c 0 2) () N))
        ∗ (atPos ER (recvCell c 0 2) 0 ∅ 0))
      ⊢ wp frame (wpE (defs₀ (F := F)) 𝒱₀ c none) Set.univ
          (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v65)
          (fun r => iprop((⌜r.1 = scV m c⌝ ∗ ⌜r.2 = shV m c⌝)
            ∗ (owes (c : Thread nD τ) (owedFor ((acts c).drop 15)) (insert (SemLoc.dma (recvSem 0 2), ()) W))
            ∗ (cred (tallyAt (sendCell c 3 2) () N))
            ∗ ((tM : Memref sig .tc .vmem S2x128 .f32).view.loc (c : Thread nD τ) ↦{fullShare} tstg m c)
            ∗ ((wsM : Memref sig .tc .vmem S128x512 .f32).view.loc (c : Thread nD τ) ↦{fullShare} wsstg m c)
            ∗ ((wshM : Memref sig .tc .vmem S128x512 .f32).view.loc (c : Thread nD τ) ↦{fullShare} wshstg m c)
            ∗ (atPos ER (recvCell c 0 2) 1 ∅ 0)
            ∗ (slotLanded m c 0 2))) := by
  subst d0
  rw [k0_part12_eq_skeleton]; unfold k0_part12_skel
  iintro ⟨#Hrec, #Hlev, HO, Hh32, Hq32, HtS32, HtR32, Ht, Hws, Hwsh, HcR02, HpR02⟩
  sl_exec
  iapply (wp_send_held' m K c _ 3 2 (dev15_eq c) q32 (owedFor ((acts c).drop 15)) _) $$ [Hh32 Hq32 HO HtS32 HtR32]
  · sl_close
  iintro ⟨HcS32, HO⟩
  sl_exec
  iapply (wp_wait_recv m c 0 2 (inv_R m K c 0 2) (hw_recv c 0 2) _) $$ [HcR02 HO HpR02]
  · sl_close
  iintro ⟨HO, HpR02, HL02⟩
  sl_exec
  sl_step
  sl_close

end Parts

end Cert.KernelIdeal.Coll

end
-- ==== Proof.KernelIdeal.PartsC.lean ====
import proofs.«900763_g7700000000000764_dist_diff_adaln_cshard_i_b2_s2048_c512_v7x_i4_bf16_1_alg».proof.Proof.KernelIdeal.PartsCommon

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 25 → ℕ)

theorem part13_spec (c : Dev nD) (v86 v107 : BitVec 32) (W : Waits sig Unit)  :
    iprop(records m K ∗ levAts L lv ∗ (owes (c : Thread nD τ) (owedFor ((acts c).drop 15)) W)
        ∗ (cred (tallyAt (recvCell c 0 1) () N))
        ∗ (atPos ER (recvCell c 0 1) 0 ∅ 0)
        ∗ (cred (tallyAt (recvCell c 0 0) () N))
        ∗ (atPos ER (recvCell c 0 0) 0 ∅ 0)
        ∗ (ownHeld m c 0 qKept))
      ⊢ wp frame (wpE (defs₀ (F := F)) 𝒱₀ c none) Set.univ
          (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v86 v107)
          (fun r => iprop((⌜r = k0_pay12 (ownV m c 0) (commV m c 0 0) (commV m c 0 1)⌝)
            ∗ (owes (c : Thread nD τ) (owedFor ((acts c).drop 15)) (insert (SemLoc.dma (recvSem 0 0), ()) (insert (SemLoc.dma (recvSem 0 1), ()) W)))
            ∗ (atPos ER (recvCell c 0 1) 1 ∅ 0)
            ∗ (slotLanded m c 0 1)
            ∗ (atPos ER (recvCell c 0 0) 1 ∅ 0)
            ∗ (slotLanded m c 0 0)
            ∗ (ownHeld m c 0 qKept))) := by
  rw [k0_part13_eq_skeleton]; unfold k0_part13_skel
  iintro ⟨#Hrec, #Hlev, HO, HcR01, HpR01, HcR00, HpR00, Hh0k⟩
  sl_exec
  iapply (wp_wait_recv m c 0 1 (inv_R m K c 0 1) (hw_recv c 0 1) _) $$ [HcR01 HO HpR01]
  · sl_close
  iintro ⟨HO, HpR01, HL01⟩
  sl_exec
  iapply (wp_wait_recv m c 0 0 (inv_R m K c 0 0) (hw_recv c 0 0) _) $$ [HcR00 HO HpR00]
  · sl_close
  iintro ⟨HO, HpR00, HL00⟩
  iapply (wp_load_ownHeld m c 0 qKept) $$ Hh0k
  iintro Hh0k
  iapply (wp_load_landed m c 0 0) $$ HL00
  iintro HL00
  iapply (wp_load_landed m c 0 1) $$ HL01
  iintro HL01
  iapply (wp_ret_bind' c _ _ _)
  sl_step
  sl_close

theorem part14_spec (c : Dev nD) (v140 : BitVec 32) (v354 v356 : FVec F S2x1x512 .bf16) (h354 : v354 = scV m c) (h356 : v356 = shV m c) (v388 : FVec F S4x512 .f32) (h388 : v388 = k0_pay12 (ownV m c 0) (commV m c 0 0) (commV m c 0 1))  (o : Buf (Elt F) ((c : Thread nD τ).loc cc0_stg4_0)) :
    iprop(records m K ∗ levAts L lv ∗ (slotLanded m c 0 2)
        ∗ ((xM : Memref sig .tc .vmem S2x2048x512 .f32).view.loc (c : Thread nD τ) ↦{fullShare} xstg m c)
        ∗ ((oM : Memref sig .tc .vmem S2x2048x512 .bf16).view.loc (c : Thread nD τ) ↦{fullShare} o))
      ⊢ wp frame (wpE (defs₀ (F := F)) 𝒱₀ c none) Set.univ
          (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v140 v354 v356 v388)
          (fun r => iprop((slotLanded m c 0 2)
            ∗ ((xM : Memref sig .tc .vmem S2x2048x512 .f32).view.loc (c : Thread nD τ) ↦{fullShare} xstg m c)
            ∗ ((oM : Memref sig .tc .vmem S2x2048x512 .bf16).view.loc (c : Thread nD τ) ↦{fullShare} (((oM : Memref sig .tc .vmem S2x2048x512 .bf16).access (Rect.unit (s := S2x2048x512) ![0, 0, 0] S2x512x512.size inb_S2x2048x512_S2x512x512_0_0_0)).write (Elt F) o (outV m c 0) Finset.univ)))) := by
  subst h354 h356 h388
  rw [k0_part14_eq_skeleton]; unfold k0_part14_skel
  iintro ⟨#Hrec, #Hlev, HL02, Hx, Hout⟩
  iapply (wp_load_landed m c 0 2) $$ HL02
  iintro HL02
  iapply (wp_ret_bind' c _ _ _)
  sl_exec
  sl_step
  sl_close

theorem part15_spec (c : Dev nD) (v161 v182 : BitVec 32) (W : Waits sig Unit)  :
    iprop(records m K ∗ levAts L lv ∗ (owes (c : Thread nD τ) (owedFor ((acts c).drop 15)) W)
        ∗ (cred (tallyAt (recvCell c 1 2) () N))
        ∗ (atPos ER (recvCell c 1 2) 0 ∅ 0)
        ∗ (cred (tallyAt (recvCell c 1 1) () N))
        ∗ (atPos ER (recvCell c 1 1) 0 ∅ 0)
        ∗ (cred (tallyAt (recvCell c 1 0) () N))
        ∗ (atPos ER (recvCell c 1 0) 0 ∅ 0)
        ∗ (ownHeld m c 1 qKept))
      ⊢ wp frame (wpE (defs₀ (F := F)) 𝒱₀ c none) Set.univ
          (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v161 v182)
          (fun r => iprop((⌜r = k0_pay14 (ownV m c 1) (commV m c 1 0)⌝)
            ∗ (owes (c : Thread nD τ) (owedFor ((acts c).drop 15)) (insert (SemLoc.dma (recvSem 1 0), ()) (insert (SemLoc.dma (recvSem 1 1), ()) (insert (SemLoc.dma (recvSem 1 2), ()) W))))
            ∗ (atPos ER (recvCell c 1 2) 1 ∅ 0)
            ∗ (slotLanded m c 1 2)
            ∗ (atPos ER (recvCell c 1 1) 1 ∅ 0)
            ∗ (slotLanded m c 1 1)
            ∗ (atPos ER (recvCell c 1 0) 1 ∅ 0)
            ∗ (slotLanded m c 1 0)
            ∗ (ownHeld m c 1 qKept))) := by
  rw [k0_part15_eq_skeleton]; unfold k0_part15_skel
  iintro ⟨#Hrec, #Hlev, HO, HcR12, HpR12, HcR11, HpR11, HcR10, HpR10, Hh1k⟩
  sl_exec
  iapply (wp_wait_recv m c 1 2 (inv_R m K c 1 2) (hw_recv c 1 2) _) $$ [HcR12 HO HpR12]
  · sl_close
  iintro ⟨HO, HpR12, HL12⟩
  sl_exec
  iapply (wp_wait_recv m c 1 1 (inv_R m K c 1 1) (hw_recv c 1 1) _) $$ [HcR11 HO HpR11]
  · sl_close
  iintro ⟨HO, HpR11, HL11⟩
  sl_exec
  iapply (wp_wait_recv m c 1 0 (inv_R m K c 1 0) (hw_recv c 1 0) _) $$ [HcR10 HO HpR10]
  · sl_close
  iintro ⟨HO, HpR10, HL10⟩
  iapply (wp_load_ownHeld m c 1 qKept) $$ Hh1k
  iintro Hh1k
  iapply (wp_load_landed m c 1 0) $$ HL10
  iintro HL10
  iapply (wp_ret_bind' c _ _ _)
  sl_step
  sl_close

theorem part16_spec (c : Dev nD) (v215 : BitVec 32) (v354 v356 : FVec F S2x1x512 .bf16) (h354 : v354 = scV m c) (h356 : v356 = shV m c) (v447 : FVec F S4x512 .f32) (h447 : v447 = k0_pay14 (ownV m c 1) (commV m c 1 0))  (o : Buf (Elt F) ((c : Thread nD τ).loc cc0_stg4_0)) :
    iprop(records m K ∗ levAts L lv ∗ (slotLanded m c 1 1)
        ∗ (slotLanded m c 1 2)
        ∗ ((xM : Memref sig .tc .vmem S2x2048x512 .f32).view.loc (c : Thread nD τ) ↦{fullShare} xstg m c)
        ∗ ((oM : Memref sig .tc .vmem S2x2048x512 .bf16).view.loc (c : Thread nD τ) ↦{fullShare} o))
      ⊢ wp frame (wpE (defs₀ (F := F)) 𝒱₀ c none) Set.univ
          (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v215 v354 v356 v447)
          (fun r => iprop((slotLanded m c 1 1)
            ∗ (slotLanded m c 1 2)
            ∗ ((xM : Memref sig .tc .vmem S2x2048x512 .f32).view.loc (c : Thread nD τ) ↦{fullShare} xstg m c)
            ∗ ((oM : Memref sig .tc .vmem S2x2048x512 .bf16).view.loc (c : Thread nD τ) ↦{fullShare} (((oM : Memref sig .tc .vmem S2x2048x512 .bf16).access (Rect.unit (s := S2x2048x512) ![0, 512, 0] S2x512x512.size inb_S2x2048x512_S2x512x512_0_512_0)).write (Elt F) o (outV m c 1) Finset.univ)))) := by
  subst h354 h356 h447
  rw [k0_part16_eq_skeleton]; unfold k0_part16_skel
  iintro ⟨#Hrec, #Hlev, HL11, HL12, Hx, Hout⟩
  iapply (wp_load_landed m c 1 1) $$ HL11
  iintro HL11
  iapply (wp_load_landed m c 1 2) $$ HL12
  iintro HL12
  iapply (wp_ret_bind' c _ _ _)
  sl_exec
  sl_step
  sl_close

theorem part17_spec (c : Dev nD) (v236 v257 v481 : BitVec 32) (W : Waits sig Unit)  :
    iprop(records m K ∗ levAts L lv ∗ (owes (c : Thread nD τ) (owedFor ((acts c).drop 15)) W)
        ∗ (cred (tallyAt (recvCell c 2 2) () N))
        ∗ (atPos ER (recvCell c 2 2) 0 ∅ 0)
        ∗ (cred (tallyAt (recvCell c 2 1) () N))
        ∗ (atPos ER (recvCell c 2 1) 0 ∅ 0)
        ∗ (cred (tallyAt (recvCell c 2 0) () N))
        ∗ (atPos ER (recvCell c 2 0) 0 ∅ 0))
      ⊢ wp frame (wpE (defs₀ (F := F)) 𝒱₀ c none) Set.univ
          (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v236 v257 v481)
          (fun r => iprop((owes (c : Thread nD τ) (owedFor ((acts c).drop 15)) (insert (SemLoc.dma (recvSem 2 0), ()) (insert (SemLoc.dma (recvSem 2 1), ()) (insert (SemLoc.dma (recvSem 2 2), ()) W))))
            ∗ (atPos ER (recvCell c 2 2) 1 ∅ 0)
            ∗ (slotLanded m c 2 2)
            ∗ (atPos ER (recvCell c 2 1) 1 ∅ 0)
            ∗ (slotLanded m c 2 1)
            ∗ (atPos ER (recvCell c 2 0) 1 ∅ 0)
            ∗ (slotLanded m c 2 0))) := by
  rw [k0_part17_eq_skeleton]; unfold k0_part17_skel
  iintro ⟨#Hrec, #Hlev, HO, HcR22, HpR22, HcR21, HpR21, HcR20, HpR20⟩
  sl_exec
  iapply (wp_wait_recv m c 2 2 (inv_R m K c 2 2) (hw_recv c 2 2) _) $$ [HcR22 HO HpR22]
  · sl_close
  iintro ⟨HO, HpR22, HL22⟩
  sl_exec
  iapply (wp_wait_recv m c 2 1 (inv_R m K c 2 1) (hw_recv c 2 1) _) $$ [HcR21 HO HpR21]
  · sl_close
  iintro ⟨HO, HpR21, HL21⟩
  sl_exec
  iapply (wp_wait_recv m c 2 0 (inv_R m K c 2 0) (hw_recv c 2 0) _) $$ [HcR20 HO HpR20]
  · sl_close
  iintro ⟨HO, HpR20, HL20⟩
  sl_exec
  sl_step
  sl_close

theorem part18_spec (c : Dev nD) (v354 v356 : FVec F S2x1x512 .bf16) (h354 : v354 = scV m c) (h356 : v356 = shV m c)  (o : Buf (Elt F) ((c : Thread nD τ).loc cc0_stg4_0)) :
    iprop(records m K ∗ levAts L lv ∗ (ownHeld m c 2 qKept)
        ∗ (slotLanded m c 2 0)
        ∗ (slotLanded m c 2 1)
        ∗ (slotLanded m c 2 2)
        ∗ ((xM : Memref sig .tc .vmem S2x2048x512 .f32).view.loc (c : Thread nD τ) ↦{fullShare} xstg m c)
        ∗ ((oM : Memref sig .tc .vmem S2x2048x512 .bf16).view.loc (c : Thread nD τ) ↦{fullShare} o))
      ⊢ wp frame (wpE (defs₀ (F := F)) 𝒱₀ c none) Set.univ
          (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v354 v356)
          (fun r => iprop((ownHeld m c 2 qKept)
            ∗ (slotLanded m c 2 0)
            ∗ (slotLanded m c 2 1)
            ∗ (slotLanded m c 2 2)
            ∗ ((xM : Memref sig .tc .vmem S2x2048x512 .f32).view.loc (c : Thread nD τ) ↦{fullShare} xstg m c)
            ∗ ((oM : Memref sig .tc .vmem S2x2048x512 .bf16).view.loc (c : Thread nD τ) ↦{fullShare} (((oM : Memref sig .tc .vmem S2x2048x512 .bf16).access (Rect.unit (s := S2x2048x512) ![0, 1024, 0] S2x512x512.size inb_S2x2048x512_S2x512x512_0_1024_0)).write (Elt F) o (outV m c 2) Finset.univ)))) := by
  subst h354 h356
  rw [k0_part18_eq_skeleton]; unfold k0_part18_skel
  iintro ⟨#Hrec, #Hlev, Hh2k, HL20, HL21, HL22, Hx, Hout⟩
  iapply (wp_load_ownHeld m c 2 qKept) $$ Hh2k
  iintro Hh2k
  iapply (wp_load_landed m c 2 0) $$ HL20
  iintro HL20
  iapply (wp_load_landed m c 2 1) $$ HL21
  iintro HL21
  iapply (wp_load_landed m c 2 2) $$ HL22
  iintro HL22
  iapply (wp_ret_bind' c _ _ _)
  sl_exec
  sl_step
  sl_close

end Parts

end Cert.KernelIdeal.Coll

end
-- ==== Proof.KernelIdeal.PartsD.lean ====
import proofs.«900763_g7700000000000764_dist_diff_adaln_cshard_i_b2_s2048_c512_v7x_i4_bf16_1_alg».proof.Proof.KernelIdeal.PartsCommon

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 25 → ℕ)

theorem part19_spec (c : Dev nD) (v290 v311 v332 : BitVec 32) (W : Waits sig Unit)  :
    iprop(records m K ∗ levAts L lv ∗ (owes (c : Thread nD τ) (owedFor ((acts c).drop 15)) W)
        ∗ (cred (tallyAt (recvCell c 3 2) () N))
        ∗ (atPos ER (recvCell c 3 2) 0 ∅ 0)
        ∗ (cred (tallyAt (recvCell c 3 1) () N))
        ∗ (atPos ER (recvCell c 3 1) 0 ∅ 0))
      ⊢ wp frame (wpE (defs₀ (F := F)) 𝒱₀ c none) Set.univ
          (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v290 v311 v332)
          (fun r => iprop((owes (c : Thread nD τ) (owedFor ((acts c).drop 15)) (insert (SemLoc.dma (recvSem 3 1), ()) (insert (SemLoc.dma (recvSem 3 2), ()) W)))
            ∗ (atPos ER (recvCell c 3 2) 1 ∅ 0)
            ∗ (slotLanded m c 3 2)
            ∗ (atPos ER (recvCell c 3 1) 1 ∅ 0)
            ∗ (slotLanded m c 3 1))) := by
  rw [k0_part19_eq_skeleton]; unfold k0_part19_skel
  iintro ⟨#Hrec, #Hlev, HO, HcR32, HpR32, HcR31, HpR31⟩
  sl_exec
  iapply (wp_wait_recv m c 3 2 (inv_R m K c 3 2) (hw_recv c 3 2) _) $$ [HcR32 HO HpR32]
  · sl_close
  iintro ⟨HO, HpR32, HL32⟩
  sl_exec
  iapply (wp_wait_recv m c 3 1 (inv_R m K c 3 1) (hw_recv c 3 1) _) $$ [HcR31 HO HpR31]
  · sl_close
  iintro ⟨HO, HpR31, HL31⟩
  sl_exec
  sl_step
  sl_close

theorem part20_spec (c : Dev nD)  (W : Waits sig Unit)  :
    iprop(records m K ∗ levAts L lv ∗ (owes (c : Thread nD τ) (owedFor ((acts c).drop 15)) W)
        ∗ (cred (tallyAt (recvCell c 3 0) () N))
        ∗ (atPos ER (recvCell c 3 0) 0 ∅ 0)
        ∗ (ownHeld m c 3 qKept)
        ∗ (slotLanded m c 3 1)
        ∗ (slotLanded m c 3 2)
        ∗ ((xM : Memref sig .tc .vmem S2x2048x512 .f32).view.loc (c : Thread nD τ) ↦{fullShare} xstg m c))
      ⊢ wp frame (wpE (defs₀ (F := F)) 𝒱₀ c none) Set.univ
          (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 )
          (fun r => iprop((⌜r = k0_pay17 (ownV m c 3) (commV m c 3 0) (commV m c 3 1) (commV m c 3 2) (xrow m c 3)⌝)
            ∗ (owes (c : Thread nD τ) (owedFor ((acts c).drop 15)) (insert (SemLoc.dma (recvSem 3 0), ()) W))
            ∗ (atPos ER (recvCell c 3 0) 1 ∅ 0)
            ∗ (slotLanded m c 3 0)
            ∗ (ownHeld m c 3 qKept)
            ∗ (slotLanded m c 3 1)
            ∗ (slotLanded m c 3 2)
            ∗ ((xM : Memref sig .tc .vmem S2x2048x512 .f32).view.loc (c : Thread nD τ) ↦{fullShare} xstg m c))) := by
  rw [k0_part20_eq_skeleton]; unfold k0_part20_skel
  iintro ⟨#Hrec, #Hlev, HO, HcR30, HpR30, Hh3k, HL31, HL32, Hx⟩
  sl_exec
  iapply (wp_wait_recv m c 3 0 (inv_R m K c 3 0) (hw_recv c 3 0) _) $$ [HcR30 HO HpR30]
  · sl_close
  iintro ⟨HO, HpR30, HL30⟩
  iapply (wp_load_ownHeld m c 3 qKept) $$ Hh3k
  iintro Hh3k
  iapply (wp_load_landed m c 3 0) $$ HL30
  iintro HL30
  iapply (wp_load_landed m c 3 1) $$ HL31
  iintro HL31
  iapply (wp_load_landed m c 3 2) $$ HL32
  iintro HL32
  iapply (wp_ret_bind' c _ _ _)
  sl_exec
  sl_step
  sl_close

theorem part21_spec (c : Dev nD) (v354 v356 : FVec F S2x1x512 .bf16) (h354 : v354 = scV m c) (h356 : v356 = shV m c) (v599 : FVec F S2x512x512 .bf16) (h599 : v599 = k0_pay17 (ownV m c 3) (commV m c 3 0) (commV m c 3 1) (commV m c 3 2) (xrow m c 3)) (W : Waits sig Unit) (o : Buf (Elt F) ((c : Thread nD τ).loc cc0_stg4_0)) :
    iprop(records m K ∗ levAts L lv ∗ ((oM : Memref sig .tc .vmem S2x2048x512 .bf16).view.loc (c : Thread nD τ) ↦{fullShare} o)
        ∗ (owes (c : Thread nD τ) (owedFor ((acts c).drop 15)) W)
        ∗ (cred (tallyAt (sendCell c 0 0) () N))
        ∗ (atPos ER (sendCell c 0 0) 0 ∅ 0)
        ∗ (cred (tallyAt (sendCell c 0 1) () N))
        ∗ (atPos ER (sendCell c 0 1) 0 ∅ 0))
      ⊢ wp frame (wpE (defs₀ (F := F)) 𝒱₀ c none) Set.univ
          (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v354 v356 v599)
          (fun r => iprop(((oM : Memref sig .tc .vmem S2x2048x512 .bf16).view.loc (c : Thread nD τ) ↦{fullShare} (((oM : Memref sig .tc .vmem S2x2048x512 .bf16).access (Rect.unit (s := S2x2048x512) ![0, 1536, 0] S2x512x512.size inb_S2x2048x512_S2x512x512_0_1536_0)).write (Elt F) o (outV m c 3) Finset.univ))
            ∗ (owes (c : Thread nD τ) (owedFor ((acts c).drop 15)) (insert (SemLoc.dma (sendSem 0 1), ()) (insert (SemLoc.dma (sendSem 0 0), ()) W)))
            ∗ (atPos ER (sendCell c 0 0) 1 ∅ 0)
            ∗ (ownHeld m c 0 (qLent 0))
            ∗ (atPos ER (sendCell c 0 1) 1 ∅ 0)
            ∗ (ownHeld m c 0 (qLent 1)))) := by
  subst h354 h356 h599
  rw [k0_part21_eq_skeleton]; unfold k0_part21_skel
  iintro ⟨#Hrec, #Hlev, Hout, HO, HcS00, HpS00, HcS01, HpS01⟩
  sl_exec
  iapply (wp_wait_send m c 0 0 (inv_S m K c 0 0) (hw_send c 0 0) _) $$ [HcS00 HO HpS00]
  · sl_close
  iintro ⟨HO, HpS00, Hh00⟩
  sl_exec
  iapply (wp_wait_send m c 0 1 (inv_S m K c 0 1) (hw_send c 0 1) _) $$ [HcS01 HO HpS01]
  · sl_close
  iintro ⟨HO, HpS01, Hh01⟩
  sl_exec
  sl_step
  sl_close

theorem part22_spec (c : Dev nD)  (W : Waits sig Unit)  :
    iprop(records m K ∗ levAts L lv ∗ (owes (c : Thread nD τ) (owedFor ((acts c).drop 15)) W)
        ∗ (cred (tallyAt (sendCell c 0 2) () N))
        ∗ (atPos ER (sendCell c 0 2) 0 ∅ 0)
        ∗ (cred (tallyAt (sendCell c 1 0) () N))
        ∗ (atPos ER (sendCell c 1 0) 0 ∅ 0)
        ∗ (cred (tallyAt (sendCell c 1 1) () N))
        ∗ (atPos ER (sendCell c 1 1) 0 ∅ 0))
      ⊢ wp frame (wpE (defs₀ (F := F)) 𝒱₀ c none) Set.univ
          (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 )
          (fun r => iprop((owes (c : Thread nD τ) (owedFor ((acts c).drop 15)) (insert (SemLoc.dma (sendSem 1 1), ()) (insert (SemLoc.dma (sendSem 1 0), ()) (insert (SemLoc.dma (sendSem 0 2), ()) W))))
            ∗ (atPos ER (sendCell c 0 2) 1 ∅ 0)
            ∗ (ownHeld m c 0 (qLent 2))
            ∗ (atPos ER (sendCell c 1 0) 1 ∅ 0)
            ∗ (ownHeld m c 1 (qLent 0))
            ∗ (atPos ER (sendCell c 1 1) 1 ∅ 0)
            ∗ (ownHeld m c 1 (qLent 1)))) := by
  rw [k0_part22_eq_skeleton]; unfold k0_part22_skel
  iintro ⟨#Hrec, #Hlev, HO, HcS02, HpS02, HcS10, HpS10, HcS11, HpS11⟩
  sl_exec
  iapply (wp_wait_send m c 0 2 (inv_S m K c 0 2) (hw_send c 0 2) _) $$ [HcS02 HO HpS02]
  · sl_close
  iintro ⟨HO, HpS02, Hh02⟩
  sl_exec
  iapply (wp_wait_send m c 1 0 (inv_S m K c 1 0) (hw_send c 1 0) _) $$ [HcS10 HO HpS10]
  · sl_close
  iintro ⟨HO, HpS10, Hh10⟩
  sl_exec
  iapply (wp_wait_send m c 1 1 (inv_S m K c 1 1) (hw_send c 1 1) _) $$ [HcS11 HO HpS11]
  · sl_close
  iintro ⟨HO, HpS11, Hh11⟩
  sl_exec
  sl_step
  sl_close

theorem part23_spec (c : Dev nD)  (W : Waits sig Unit)  :
    iprop(records m K ∗ levAts L lv ∗ (owes (c : Thread nD τ) (owedFor ((acts c).drop 15)) W)
        ∗ (cred (tallyAt (sendCell c 1 2) () N))
        ∗ (atPos ER (sendCell c 1 2) 0 ∅ 0)
        ∗ (cred (tallyAt (sendCell c 2 0) () N))
        ∗ (atPos ER (sendCell c 2 0) 0 ∅ 0)
        ∗ (cred (tallyAt (sendCell c 2 1) () N))
        ∗ (atPos ER (sendCell c 2 1) 0 ∅ 0)
        ∗ (cred (tallyAt (sendCell c 2 2) () N))
        ∗ (atPos ER (sendCell c 2 2) 0 ∅ 0))
      ⊢ wp frame (wpE (defs₀ (F := F)) 𝒱₀ c none) Set.univ
          (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 )
          (fun r => iprop((owes (c : Thread nD τ) (owedFor ((acts c).drop 15)) (insert (SemLoc.dma (sendSem 2 2), ()) (insert (SemLoc.dma (sendSem 2 1), ()) (insert (SemLoc.dma (sendSem 2 0), ()) (insert (SemLoc.dma (sendSem 1 2), ()) W)))))
            ∗ (atPos ER (sendCell c 1 2) 1 ∅ 0)
            ∗ (ownHeld m c 1 (qLent 2))
            ∗ (atPos ER (sendCell c 2 0) 1 ∅ 0)
            ∗ (ownHeld m c 2 (qLent 0))
            ∗ (atPos ER (sendCell c 2 1) 1 ∅ 0)
            ∗ (ownHeld m c 2 (qLent 1))
            ∗ (atPos ER (sendCell c 2 2) 1 ∅ 0)
            ∗ (ownHeld m c 2 (qLent 2)))) := by
  rw [k0_part23_eq_skeleton]; unfold k0_part23_skel
  iintro ⟨#Hrec, #Hlev, HO, HcS12, HpS12, HcS20, HpS20, HcS21, HpS21, HcS22, HpS22⟩
  sl_exec
  iapply (wp_wait_send m c 1 2 (inv_S m K c 1 2) (hw_send c 1 2) _) $$ [HcS12 HO HpS12]
  · sl_close
  iintro ⟨HO, HpS12, Hh12⟩
  sl_exec
  iapply (wp_wait_send m c 2 0 (inv_S m K c 2 0) (hw_send c 2 0) _) $$ [HcS20 HO HpS20]
  · sl_close
  iintro ⟨HO, HpS20, Hh20⟩
  sl_exec
  iapply (wp_wait_send m c 2 1 (inv_S m K c 2 1) (hw_send c 2 1) _) $$ [HcS21 HO HpS21]
  · sl_close
  iintro ⟨HO, HpS21, Hh21⟩
  sl_exec
  iapply (wp_wait_send m c 2 2 (inv_S m K c 2 2) (hw_send c 2 2) _) $$ [HcS22 HO HpS22]
  · sl_close
  iintro ⟨HO, HpS22, Hh22⟩
  sl_exec
  sl_step
  sl_close

end Parts

end Cert.KernelIdeal.Coll

end
-- ==== Proof.KernelIdeal.Exit.lean ====
import proofs.«900763_g7700000000000764_dist_diff_adaln_cshard_i_b2_s2048_c512_v7x_i4_bf16_1_alg».proof.Proof.KernelIdeal.Side
import proofs.«900763_g7700000000000764_dist_diff_adaln_cshard_i_b2_s2048_c512_v7x_i4_bf16_1_alg».proof.Proof.KernelIdeal.Pieces

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem own_exit (c : Dev nD) :
    iprop((ownHeld m c 0 (qLent 0) ∗ ownHeld m c 0 (qLent 1) ∗ ownHeld m c 0 (qLent 2) ∗ ownHeld m c 0 qKept)
        ∗ (ownHeld m c 1 (qLent 0) ∗ ownHeld m c 1 (qLent 1) ∗ ownHeld m c 1 (qLent 2) ∗ ownHeld m c 1 qKept)
        ∗ (ownHeld m c 2 (qLent 0) ∗ ownHeld m c 2 (qLent 1) ∗ ownHeld m c 2 (qLent 2) ∗ ownHeld m c 2 qKept)
        ∗ (ownHeld m c 3 (qLent 0) ∗ ownHeld m c 3 (qLent 1) ∗ ownHeld m c 3 (qLent 2) ∗ ownHeld m c 3 qKept))
      ⊢ (iprop(∃ f : Buf (Elt F) ((c : Thread nD τ).loc cc0_scratch0), ((c : Thread nD τ).loc cc0_scratch0) ↦{fullShare} f) : sProp 𝕄) := by
  iintro ⟨⟨A00, A01, A02, A0K⟩, ⟨A10, A11, A12, A1K⟩, ⟨A20, A21, A22, A2K⟩, ⟨A30, A31, A32, A3K⟩⟩
  ihave H0 := (ownHeld_join m c 0) $$ [A00 A01 A02 A0K]
  · sl_close
  ihave H1 := (ownHeld_join m c 1) $$ [A10 A11 A12 A1K]
  · sl_close
  ihave H2 := (ownHeld_join m c 2) $$ [A20 A21 A22 A2K]
  · sl_close
  ihave H3 := (ownHeld_join m c 3) $$ [A30 A31 A32 A3K]
  · sl_close
  iapply (own_join_held m c)
  sl_close

theorem comm_exit (c : Dev nD) :
    iprop(slotLanded m c 0 0 ∗ slotLanded m c 0 1 ∗ slotLanded m c 0 2 ∗ slotLanded m c 1 0 ∗ slotLanded m c 1 1 ∗ slotLanded m c 1 2 ∗ slotLanded m c 2 0 ∗ slotLanded m c 2 1 ∗ slotLanded m c 2 2 ∗ slotLanded m c 3 0 ∗ slotLanded m c 3 1 ∗ slotLanded m c 3 2)
      ⊢ (iprop(∃ f : Buf (Elt F) ((c : Thread nD τ).loc cc0_scratch1), ((c : Thread nD τ).loc cc0_scratch1) ↦{fullShare} f) : sProp 𝕄) := by
  iintro ⟨L00, L01, L02, L10, L11, L12, L20, L21, L22, L30, L31, L32⟩
  ihave L00 := (slotFree_of_landed m c 0 0) $$ L00
  ihave L01 := (slotFree_of_landed m c 0 1) $$ L01
  ihave L02 := (slotFree_of_landed m c 0 2) $$ L02
  ihave L10 := (slotFree_of_landed m c 1 0) $$ L10
  ihave L11 := (slotFree_of_landed m c 1 1) $$ L11
  ihave L12 := (slotFree_of_landed m c 1 2) $$ L12
  ihave L20 := (slotFree_of_landed m c 2 0) $$ L20
  ihave L21 := (slotFree_of_landed m c 2 1) $$ L21
  ihave L22 := (slotFree_of_landed m c 2 2) $$ L22
  ihave L30 := (slotFree_of_landed m c 3 0) $$ L30
  ihave L31 := (slotFree_of_landed m c 3 1) $$ L31
  ihave L32 := (slotFree_of_landed m c 3 2) $$ L32
  iapply (comm_join_free c)
  isplitl [L00 L10 L20 L30]
  · sl_close
  isplitl [L01 L11 L21 L31]
  · sl_close
  sl_close

-- Every cell of the family is past its one round, so its invariant closes it at zero; the record is persistent, so it serves each cell, and the updates of the family combine into one.
theorem cells_close {R : sProp 𝕄} [BI.Persistent R] (cell : Fin 4 → Fin 3 → GSem nD τ sig) (κ : Fin 4 → Fin 3 → ℕ)
    (h : ∀ a b, R ⊢ cellInv ER (ringRd m) (κ a b) (cell a b)) :
    iprop(R ∗ bigSep Finset.univ fun p : Fin 4 × Fin 3 => atPos ER (cell p.1 p.2) 1 ∅ 0)
      ⊢ (iprop(|={Set.univ}=> bigSep Finset.univ fun p : Fin 4 × Fin 3 => semVal (cell p.1 p.2) 0) : sProp 𝕄) := by
  refine (sep_mono_left (bigSep_intro_persistent (S := Finset.univ) (Φ := fun p : Fin 4 × Fin 3 => cellInv ER (ringRd m) (κ p.1 p.2) (cell p.1 p.2)) fun p _ => h p.1 p.2)).trans ?_
  rw [← bigSep_sep']
  exact (bigSep_mono fun p _ => Rounds.cell_close ER (ringRd m) (Set.mem_univ _) (fun hu => hu) (R := 1) (duties_later m _)).trans (bigSep_fupd _ _)

theorem exit_phi1 {R : sProp 𝕄} [BI.Persistent R] (c : Dev nD) (κS κR : Fin 4 → Fin 3 → ℕ)
    (hS : ∀ (h : Fin 4) (e : Fin 3), R ⊢ cellInv ER (ringRd m) (κS h e) (sendCell c h e))
    (hR : ∀ (h : Fin 4) (j : Fin 3), R ⊢ cellInv ER (ringRd m) (κR h j) (recvCell c h j)) :
    iprop(R
        ∗ ((ownHeld m c 0 (qLent 0) ∗ ownHeld m c 0 (qLent 1) ∗ ownHeld m c 0 (qLent 2) ∗ ownHeld m c 0 qKept)
          ∗ (ownHeld m c 1 (qLent 0) ∗ ownHeld m c 1 (qLent 1) ∗ ownHeld m c 1 (qLent 2) ∗ ownHeld m c 1 qKept)
          ∗ (ownHeld m c 2 (qLent 0) ∗ ownHeld m c 2 (qLent 1) ∗ ownHeld m c 2 (qLent 2) ∗ ownHeld m c 2 qKept)
          ∗ (ownHeld m c 3 (qLent 0) ∗ ownHeld m c 3 (qLent 1) ∗ ownHeld m c 3 (qLent 2) ∗ ownHeld m c 3 qKept))
        ∗ (slotLanded m c 0 0 ∗ slotLanded m c 0 1 ∗ slotLanded m c 0 2 ∗ slotLanded m c 1 0 ∗ slotLanded m c 1 1 ∗ slotLanded m c 1 2 ∗ slotLanded m c 2 0 ∗ slotLanded m c 2 1 ∗ slotLanded m c 2 2 ∗ slotLanded m c 3 0 ∗ slotLanded m c 3 1 ∗ slotLanded m c 3 2)
        ∗ (atPos ER (sendCell c 0 0) 1 ∅ 0 ∗ atPos ER (sendCell c 0 1) 1 ∅ 0 ∗ atPos ER (sendCell c 0 2) 1 ∅ 0 ∗ atPos ER (sendCell c 1 0) 1 ∅ 0 ∗ atPos ER (sendCell c 1 1) 1 ∅ 0 ∗ atPos ER (sendCell c 1 2) 1 ∅ 0 ∗ atPos ER (sendCell c 2 0) 1 ∅ 0 ∗ atPos ER (sendCell c 2 1) 1 ∅ 0 ∗ atPos ER (sendCell c 2 2) 1 ∅ 0 ∗ atPos ER (sendCell c 3 0) 1 ∅ 0 ∗ atPos ER (sendCell c 3 1) 1 ∅ 0 ∗ atPos ER (sendCell c 3 2) 1 ∅ 0)
        ∗ (atPos ER (recvCell c 0 0) 1 ∅ 0 ∗ atPos ER (recvCell c 0 1) 1 ∅ 0 ∗ atPos ER (recvCell c 0 2) 1 ∅ 0 ∗ atPos ER (recvCell c 1 0) 1 ∅ 0 ∗ atPos ER (recvCell c 1 1) 1 ∅ 0 ∗ atPos ER (recvCell c 1 2) 1 ∅ 0 ∗ atPos ER (recvCell c 2 0) 1 ∅ 0 ∗ atPos ER (recvCell c 2 1) 1 ∅ 0 ∗ atPos ER (recvCell c 2 2) 1 ∅ 0 ∗ atPos ER (recvCell c 3 0) 1 ∅ 0 ∗ atPos ER (recvCell c 3 1) 1 ∅ 0 ∗ atPos ER (recvCell c 3 2) 1 ∅ 0))
      ⊢ (iprop(|={Set.univ}=> Φ₁ c) : sProp 𝕄) := by
  iintro ⟨#HR, HOWN, HLAND, HATS, HATR⟩
  ihave Hown := (own_exit m c) $$ HOWN
  ihave Hcomm := (comm_exit m c) $$ HLAND
  imod (cells_close m (sendCell c) κS hS) $$ [HATS] with HZS
  · isplitr; · iexact HR
    rw [bigSep_fin4x3]; iexact HATS
  imod (cells_close m (recvCell c) κR hR) $$ [HATR] with HZR
  · isplitr; · iexact HR
    rw [bigSep_fin4x3]; iexact HATR
  imodintro
  unfold Φ₁
  isplitl [Hown]; · iexact Hown
  isplitl [Hcomm]; · iexact Hcomm
  isplitl [HZS]; · iexact HZS
  iexact HZR

end Cert.KernelIdeal.Coll
end
-- ==== Proof.KernelIdeal.OutBlock.lean ====
import proofs.«900763_g7700000000000764_dist_diff_adaln_cshard_i_b2_s2048_c512_v7x_i4_bf16_1_alg».proof.Proof.KernelIdeal.Sched
import Idealize.ShloMosaic.Lib.Pipeline.FrameBody
import Idealize.ShloMosaic.Lib.Pipeline.Value
import Idealize.ShloMosaic.Lib.Writes

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem mem_xRect (h : Fin 4) (y : S2x2048x512.Idx) (hlo : 512 * h.val ≤ (y 1).val) (hhi : (y 1).val < 512 * h.val + 512) :
    y ∈ (xRect h).set := by
  have h0 : (y 0).val < 2 := (y 0).isLt
  have h2 : (y 2).val < 512 := (y 2).isLt
  rw [Rect.mem_set_unit]
  intro a
  match a with
  | ⟨0, _⟩ => exact ⟨Nat.zero_le _, by show (y 0).val < 0 + 2; omega⟩
  | ⟨1, _⟩ => exact ⟨hlo, hhi⟩
  | ⟨2, _⟩ => exact ⟨Nat.zero_le _, by show (y 2).val < 0 + 512; omega⟩

theorem out_cover (c : Dev nD) (y : S2x2048x512.Idx) :
    ∃ p ∈ ([⟨xRect 3, outV m c 3⟩, ⟨xRect 2, outV m c 2⟩, ⟨xRect 1, outV m c 1⟩, ⟨xRect 0, outV m c 0⟩] :
      List (View.Piece (Elt F) S2x2048x512 .bf16)), y ∈ p.1.set := by
  have h1 : (y 1).val < 2048 := (y 1).isLt
  rcases (by omega : (y 1).val < 512 ∨ (512 ≤ (y 1).val ∧ (y 1).val < 1024) ∨ (1024 ≤ (y 1).val ∧ (y 1).val < 1536)
      ∨ 1536 ≤ (y 1).val) with h | h | h | h
  · exact ⟨⟨xRect 0, outV m c 0⟩, by simp, mem_xRect 0 y (by show 512 * 0 ≤ _; omega) (by show _ < 512 * 0 + 512; omega)⟩
  · exact ⟨⟨xRect 1, outV m c 1⟩, by simp, mem_xRect 1 y (by show 512 * 1 ≤ _; omega) (by show _ < 512 * 1 + 512; omega)⟩
  · exact ⟨⟨xRect 2, outV m c 2⟩, by simp, mem_xRect 2 y (by show 512 * 2 ≤ _; omega) (by show _ < 512 * 2 + 512; omega)⟩
  · exact ⟨⟨xRect 3, outV m c 3⟩, by simp, mem_xRect 3 y (by show 512 * 3 ≤ _; omega) (by show _ < 512 * 3 + 512; omega)⟩

abbrev outPieces (c : Dev nD) : List (View.Piece (Elt F) S2x2048x512 .bf16) :=
  [⟨xRect 3, outV m c 3⟩, ⟨xRect 2, outV m c 2⟩, ⟨xRect 1, outV m c 1⟩, ⟨xRect 0, outV m c 0⟩]

theorem writes_out (c : Dev nD) (o0 : Buf (Elt F) ((c : Thread nD τ).loc cc0_stg4_0)) :
    (oM : Memref sig .tc .vmem S2x2048x512 .bf16).view.writes (Elt F) o0
        [⟨xRect 3, outV m c 3⟩, ⟨xRect 2, outV m c 2⟩, ⟨xRect 1, outV m c 1⟩, ⟨xRect 0, outV m c 0⟩]
      = outBlk m c := by
  have h := View.read_writes_eq_canon (Val := Elt F) (oM : Memref sig .tc .vmem S2x2048x512 .bf16).view o0
    (outPieces m c) (out_cover m c)
  rw [View.read_whole] at h
  exact h

theorem stores_out (c : Dev nD) (o0 : Buf (Elt F) ((c : Thread nD τ).loc cc0_stg4_0)) :
    ((oM : Memref sig .tc .vmem S2x2048x512 .bf16).access (xRect 3) : View sig .tc _ _ _).write (Elt F)
      (((oM : Memref sig .tc .vmem S2x2048x512 .bf16).access (xRect 2) : View sig .tc _ _ _).write (Elt F)
        (((oM : Memref sig .tc .vmem S2x2048x512 .bf16).access (xRect 1) : View sig .tc _ _ _).write (Elt F)
          (((oM : Memref sig .tc .vmem S2x2048x512 .bf16).access (xRect 0) : View sig .tc _ _ _).write (Elt F) o0
            (outV m c 0) Finset.univ)
          (outV m c 1) Finset.univ)
        (outV m c 2) Finset.univ)
      (outV m c 3) Finset.univ
      = outBlk m c :=
  writes_out m c o0

theorem stores_out_lit (c : Dev nD) (o0 : Buf (Elt F) ((c : Thread nD τ).loc cc0_stg4_0)) :
    ((oM : Memref sig .tc .vmem S2x2048x512 .bf16).access
        (Rect.unit (s := S2x2048x512) ![0, 1536, 0] S2x512x512.size inb_S2x2048x512_S2x512x512_0_1536_0) : View sig .tc _ _ _).write (Elt F)
      (((oM : Memref sig .tc .vmem S2x2048x512 .bf16).access
          (Rect.unit (s := S2x2048x512) ![0, 1024, 0] S2x512x512.size inb_S2x2048x512_S2x512x512_0_1024_0) : View sig .tc _ _ _).write (Elt F)
        (((oM : Memref sig .tc .vmem S2x2048x512 .bf16).access
            (Rect.unit (s := S2x2048x512) ![0, 512, 0] S2x512x512.size inb_S2x2048x512_S2x512x512_0_512_0) : View sig .tc _ _ _).write (Elt F)
          (((oM : Memref sig .tc .vmem S2x2048x512 .bf16).access
              (Rect.unit (s := S2x2048x512) ![0, 0, 0] S2x512x512.size inb_S2x2048x512_S2x512x512_0_0_0) : View sig .tc _ _ _).write (Elt F) o0
            (outV m c 0) Finset.univ)
          (outV m c 1) Finset.univ)
        (outV m c 2) Finset.univ)
      (outV m c 3) Finset.univ
      = outBlk m c :=
  stores_out m c o0

end Cert.KernelIdeal.Coll

end
-- ==== Proof.KernelIdeal.Body.lean ====
import proofs.«900763_g7700000000000764_dist_diff_adaln_cshard_i_b2_s2048_c512_v7x_i4_bf16_1_alg».proof.Proof.KernelIdeal.PartsA
import proofs.«900763_g7700000000000764_dist_diff_adaln_cshard_i_b2_s2048_c512_v7x_i4_bf16_1_alg».proof.Proof.KernelIdeal.PartsB
import proofs.«900763_g7700000000000764_dist_diff_adaln_cshard_i_b2_s2048_c512_v7x_i4_bf16_1_alg».proof.Proof.KernelIdeal.PartsC
import proofs.«900763_g7700000000000764_dist_diff_adaln_cshard_i_b2_s2048_c512_v7x_i4_bf16_1_alg».proof.Proof.KernelIdeal.PartsD
import proofs.«900763_g7700000000000764_dist_diff_adaln_cshard_i_b2_s2048_c512_v7x_i4_bf16_1_alg».proof.Proof.KernelIdeal.Exit
import proofs.«900763_g7700000000000764_dist_diff_adaln_cshard_i_b2_s2048_c512_v7x_i4_bf16_1_alg».proof.Proof.KernelIdeal.OutBlock

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 25 → ℕ)

theorem cfg0_N : cfg0.N = 1 := by decide
def t₀ : Fin cfg0.N := ⟨0, by rw [cfg0_N]; decide⟩

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((records m K ∗ positions c ∗ payToks c ∗ cred (tallyAt (barCell c) () 3)
        ∗ (bigSep Finset.univ fun hj : Fin 4 × Fin 3 => cred (tallyAt (recvCell c hj.1 hj.2) () N)) ∗ levAts L lv
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ∗ (dats m ρ 0 c).owesAt () t₀.castSucc
      ∗ stg c cc0_stg0_0 (xstg m c) ∗ stg c cc0_stg1_0 (tstg m c) ∗ stg c cc0_stg2_0 (wsstg m c) ∗ stg c cc0_stg3_0 (wshstg m c)
      ∗ (∃ g : Buf (Elt F) ((c : Thread nD τ).loc cc0_stg4_0), ((c : Thread nD τ).loc cc0_stg4_0) ↦{fullShare} g))

def bodyPost (c : Dev nD) : sProp 𝕄 :=
  iprop(Φ₁ c ∗ (dats m ρ 0 c).owesAt () t₀.succ
    ∗ stg c cc0_stg0_0 (xstg m c) ∗ stg c cc0_stg1_0 (tstg m c) ∗ stg c cc0_stg2_0 (wsstg m c) ∗ stg c cc0_stg3_0 (wshstg m c)
    ∗ stg c cc0_stg4_0 (outBlk m c))

theorem finish (c : Dev nD) (Kt : PUnit → sProp 𝕄) (Wf : Waits sig Unit) (o0 : Buf (Elt F) ((c : Thread nD τ).loc cc0_stg4_0)) :
    iprop(records m K ∗ (((ownHeld m c 0 (qLent 0) ∗ ownHeld m c 0 (qLent 1) ∗ ownHeld m c 0 (qLent 2) ∗ ownHeld m c 0 qKept) ∗ (ownHeld m c 1 (qLent 0) ∗ ownHeld m c 1 (qLent 1) ∗ ownHeld m c 1 (qLent 2) ∗ ownHeld m c 1 qKept) ∗ (ownHeld m c 2 (qLent 0) ∗ ownHeld m c 2 (qLent 1) ∗ ownHeld m c 2 (qLent 2) ∗ ownHeld m c 2 qKept) ∗ (ownHeld m c 3 (qLent 0) ∗ ownHeld m c 3 (qLent 1) ∗ ownHeld m c 3 (qLent 2) ∗ ownHeld m c 3 qKept)))
        ∗ (slotLanded m c 0 0 ∗ slotLanded m c 0 1 ∗ slotLanded m c 0 2 ∗ slotLanded m c 1 0 ∗ slotLanded m c 1 1 ∗ slotLanded m c 1 2 ∗ slotLanded m c 2 0 ∗ slotLanded m c 2 1 ∗ slotLanded m c 2 2 ∗ slotLanded m c 3 0 ∗ slotLanded m c 3 1 ∗ slotLanded m c 3 2)
        ∗ (atPos ER (sendCell c 0 0) 1 ∅ 0 ∗ atPos ER (sendCell c 0 1) 1 ∅ 0 ∗ atPos ER (sendCell c 0 2) 1 ∅ 0 ∗ atPos ER (sendCell c 1 0) 1 ∅ 0 ∗ atPos ER (sendCell c 1 1) 1 ∅ 0 ∗ atPos ER (sendCell c 1 2) 1 ∅ 0 ∗ atPos ER (sendCell c 2 0) 1 ∅ 0 ∗ atPos ER (sendCell c 2 1) 1 ∅ 0 ∗ atPos ER (sendCell c 2 2) 1 ∅ 0 ∗ atPos ER (sendCell c 3 0) 1 ∅ 0 ∗ atPos ER (sendCell c 3 1) 1 ∅ 0 ∗ atPos ER (sendCell c 3 2) 1 ∅ 0)
        ∗ (atPos ER (recvCell c 0 0) 1 ∅ 0 ∗ atPos ER (recvCell c 0 1) 1 ∅ 0 ∗ atPos ER (recvCell c 0 2) 1 ∅ 0 ∗ atPos ER (recvCell c 1 0) 1 ∅ 0 ∗ atPos ER (recvCell c 1 1) 1 ∅ 0 ∗ atPos ER (recvCell c 1 2) 1 ∅ 0 ∗ atPos ER (recvCell c 2 0) 1 ∅ 0 ∗ atPos ER (recvCell c 2 1) 1 ∅ 0 ∗ atPos ER (recvCell c 2 2) 1 ∅ 0 ∗ atPos ER (recvCell c 3 0) 1 ∅ 0 ∗ atPos ER (recvCell c 3 1) 1 ∅ 0 ∗ atPos ER (recvCell c 3 2) 1 ∅ 0)
        ∗ owes (c : Thread nD τ) (owedFor ((acts c).drop 15)) Wf
        ∗ ((xM : Memref sig .tc .vmem S2x2048x512 .f32).view.loc (c : Thread nD τ) ↦{fullShare} xstg m c) ∗ ((tM : Memref sig .tc .vmem S2x128 .f32).view.loc (c : Thread nD τ) ↦{fullShare} tstg m c) ∗ ((wsM : Memref sig .tc .vmem S128x512 .f32).view.loc (c : Thread nD τ) ↦{fullShare} wsstg m c) ∗ ((wshM : Memref sig .tc .vmem S128x512 .f32).view.loc (c : Thread nD τ) ↦{fullShare} wshstg m c)
        ∗ ((oM : Memref sig .tc .vmem S2x2048x512 .bf16).view.loc (c : Thread nD τ) ↦{fullShare} (((oM : Memref sig .tc .vmem S2x2048x512 .bf16).access (Rect.unit (s := S2x2048x512) ![0, 1536, 0] S2x512x512.size inb_S2x2048x512_S2x512x512_0_1536_0)).write (Elt F) (((oM : Memref sig .tc .vmem S2x2048x512 .bf16).access (Rect.unit (s := S2x2048x512) ![0, 1024, 0] S2x512x512.size inb_S2x2048x512_S2x512x512_0_1024_0)).write (Elt F) (((oM : Memref sig .tc .vmem S2x2048x512 .bf16).access (Rect.unit (s := S2x2048x512) ![0, 512, 0] S2x512x512.size inb_S2x2048x512_S2x512x512_0_512_0)).write (Elt F) (((oM : Memref sig .tc .vmem S2x2048x512 .bf16).access (Rect.unit (s := S2x2048x512) ![0, 0, 0] S2x512x512.size inb_S2x2048x512_S2x512x512_0_0_0)).write (Elt F) o0 (outV m c 0) Finset.univ) (outV m c 1) Finset.univ) (outV m c 2) Finset.univ) (outV m c 3) Finset.univ))
        ∗ (bodyPost m ρ c -∗ Kt ⟨⟩))
      ⊢ wp frame (wpE (defs₀ (F := F)) 𝒱₀ c none) Set.univ (Prog.ret PUnit.unit) Kt := by
  iintro ⟨#Hrec, Hown, Hland, HpS, HpR, HO, Hx, Ht, Hws, Hwsh, Hout, Hk⟩
  imod (exit_phi1 m c (fun h e => K (c, kS h e)) (fun h j => K (c, kR h j)) (inv_S m K c) (inv_R m K c)) $$ [Hown Hland HpS HpR] with HΦ
  · isplitr; · iexact Hrec
    isplitl [Hown]; · iexact Hown
    isplitl [Hland]; · iexact Hland
    isplitl [HpS]; · iexact HpS
    iexact HpR
  iapply (le_wp_ret _ _)
  iapply Hk
  unfold bodyPost
  isplitl [HΦ]; · iexact HΦ
  isplitl [HO]
  · unfold Dat.owesAt Pipeline.owesWithin
    iexists Wf
    isplitr; · (ipureintro; exact fun _ _ => Or.inl trivial)
    iexact HO
  isplitl [Hx]
  · sl_close
  isplitl [Ht]
  · sl_close
  isplitl [Hws]
  · sl_close
  isplitl [Hwsh]
  · sl_close
  iexists _
  isplitr; · (ipureintro; exact stores_out_lit m c o0)
  iexact Hout

theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _) cc0_scratch2 cc0_scratch3) Kt := by
  unfold bodyPre
  rw [positions_flat', payToks_flat', creds_flat']
  iintro ⟨⟨⟨#Hrec, ⟨HpB, ⟨HpS00, HpS01, HpS02, HpS10, HpS11, HpS12, HpS20, HpS21, HpS22, HpS30, HpS31, HpS32⟩, ⟨HpR00, HpR01, HpR02, HpR10, HpR11, HpR12, HpR20, HpR21, HpR22, HpR30, HpR31, HpR32⟩⟩, ⟨⟨HtB0, HtB1, HtB2⟩, ⟨HtR00, HtR01, HtR02, HtR10, HtR11, HtR12, HtR20, HtR21, HtR22, HtR30, HtR31, HtR32⟩, ⟨HtS00, HtS01, HtS02, HtS10, HtS11, HtS12, HtS20, HtS21, HtS22, HtS30, HtS31, HtS32⟩⟩, HcB, ⟨HcR00, HcR01, HcR02, HcR10, HcR11, HcR12, HcR20, HcR21, HcR22, HcR30, HcR31, HcR32⟩, #Hlev, ⟨%f0, Hown⟩, ⟨%g0, Hcomm⟩⟩, Ho, ⟨%x0, %hx0, Hx⟩, ⟨%x1, %hx1, Ht⟩, ⟨%x2, %hx2, Hws⟩, ⟨%x3, %hx3, Hwsh⟩, ⟨%o0, Hout⟩⟩, Hk⟩
  subst hx0 hx1 hx2 hx3
  unfold Dat.owesAt Pipeline.owesWithin
  icases Ho with ⟨%W, %hW, HO⟩
  rw [show (dats m ρ 0 c).owed t₀.castSucc = O₀ c from rfl]
  ihave Hown4 := (own_split c fullShare f0) $$ Hown
  icases Hown4 with ⟨Ho0, Ho1, Ho2, Ho3⟩
  ihave Hc12 := (comm_split c g0) $$ Hcomm
  icases Hc12 with ⟨⟨Hs00, Hs10, Hs20, Hs30⟩, ⟨Hs01, Hs11, Hs21, Hs31⟩, ⟨Hs02, Hs12, Hs22, Hs32⟩⟩
  have hc1 := part1_spec m K c
  have hc2 := part2_spec m K c
  have hc3 := part3_spec m K c
  have hc4 := part4_spec m K c
  have hc5 := part5_spec m K c
  have hc6 := part6_spec m K c
  have hc7 := part7_spec m K c
  have hc8 := part8_spec m K c
  have hc9 := part9_spec m K c
  have hc10 := part10_spec m K c
  have hc11 := part11_spec m K c
  have hc12 := part12_spec m K c
  have hc13 := part13_spec m K c
  have hc14 := part14_spec m K c
  have hc15 := part15_spec m K c
  have hc16 := part16_spec m K c
  have hc17 := part17_spec m K c
  have hc18 := part18_spec m K c
  have hc19 := part19_spec m K c
  have hc20 := part20_spec m K c
  have hc21 := part21_spec m K c
  have hc22 := part22_spec m K c
  have hc23 := part23_spec m K c
  sl_exec
  iapply (wp_wait_send m c 3 0 (inv_S m K c 3 0) (hw_send c 3 0) _) $$ [Hk0_part10_7 Hk0_part23_0 HpS30]
  · sl_close
  iintro ⟨HO, HpS30, Hh30⟩
  sl_exec
  iapply (wp_wait_send m c 3 1 (inv_S m K c 3 1) (hw_send c 3 1) _) $$ [Hk0_part11_1 HO HpS31]
  · sl_close
  iintro ⟨HO, HpS31, Hh31⟩
  sl_exec
  iapply (wp_wait_send m c 3 2 (inv_S m K c 3 2) (hw_send c 3 2) _) $$ [Hk0_part12_3 HO HpS32]
  · sl_close
  iintro ⟨HO, HpS32, Hh32⟩
  sl_exec
  iapply (finish m ρ K c Kt _ o0)
  sl_close

end Body

theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem body_obligation (c : Dev nD) : BodyObligation (dats (F := F) m ρ 0 c) (defs₀ (F := F)) 𝒱₀ () Set.univ := fun t => by
  rw [fin_N t]
  rw [bigSep_W0, bigSep_W0]
  simp only [owns_whole_eq]
  have ha0 : (dats (F := F) m ρ 0 c).after 0 t₀ = xstg m c := by dsimp only [dats]
  have ha1 : (dats (F := F) m ρ 0 c).after 1 t₀ = tstg m c := by dsimp only [dats]
  have ha2 : (dats (F := F) m ρ 0 c).after 2 t₀ = wsstg m c := by dsimp only [dats]
  have ha3 : (dats (F := F) m ρ 0 c).after 3 t₀ = wshstg m c := by dsimp only [dats]
  have ha4 : (dats (F := F) m ρ 0 c).after 4 t₀ = outBlk m c := by dsimp only [dats]
  have hb0 : ∀ d, (dats (F := F) m ρ 0 c).before 0 t₀ d = xstg m c := fun d => by
    unfold Dat.before; rw [if_pos (fetch0_0 t₀)]; rfl
  have hb1 : ∀ d, (dats (F := F) m ρ 0 c).before 1 t₀ d = tstg m c := fun d => by
    unfold Dat.before; rw [if_pos (fetch0_1 t₀)]; rfl
  have hb2 : ∀ d, (dats (F := F) m ρ 0 c).before 2 t₀ d = wsstg m c := fun d => by
    unfold Dat.before; rw [if_pos (fetch0_2 t₀)]; rfl
  have hb3 : ∀ d, (dats (F := F) m ρ 0 c).before 3 t₀ d = wshstg m c := fun d => by
    unfold Dat.before; rw [if_pos (fetch0_3 t₀)]; rfl
  simp only [ha0, ha1, ha2, ha3, ha4, hb0, hb1, hb2, hb3]
  rw [show (dats (F := F) m ρ 0 c).Φ t₀.castSucc = Φ₀ m c from rfl, show (dats (F := F) m ρ 0 c).Φ t₀.succ = Φ₁ c from rfl]
  unfold Φ₀ start
  iintro ⟨⟨⟨⟨%K, Hg⟩, Hc3, HcR, Hlev⟩, Hs0, Hs1⟩, Ho, ⟨%d0, H0⟩, ⟨%d1, H1⟩, ⟨%d2, H2⟩, ⟨%d3, H3⟩, ⟨%d4, %g, -, H4⟩⟩
  iapply (sound_body m ρ K c _)
  unfold bodyPre bodyPost ghost
  isplitr []
  · isplitl [Hg Hc3 HcR Hlev Hs0 Hs1]
    · icases Hg with ⟨Hrec, Hpos, Htok⟩
      isplitl [Hrec]; · iexact Hrec
      isplitl [Hpos]; · iexact Hpos
      isplitl [Htok]; · iexact Htok
      isplitl [Hc3]; · iexact Hc3
      isplitl [HcR]; · iexact HcR
      isplitl [Hlev]; · iexact Hlev
      isplitl [Hs0]; · iexact Hs0
      iexact Hs1
    isplitl [Ho]; · iexact Ho
    isplitl [H0]; · iexact H0
    isplitl [H1]; · iexact H1
    isplitl [H2]; · iexact H2
    isplitl [H3]; · iexact H3
    iexists g; iexact H4
  · iintro H; iexact H

end Cert.KernelIdeal.Coll

end
-- ==== Proof.Kernel.Sched.lean ====
import proofs.«900763_g7700000000000764_dist_diff_adaln_cshard_i_b2_s2048_c512_v7x_i4_bf16_1_alg».proof.Proof.Gen.Kernel
import proofs.«900763_g7700000000000764_dist_diff_adaln_cshard_i_b2_s2048_c512_v7x_i4_bf16_1_alg».proof.Proof.Gen.Kernel.Skeleton
import proofs.«900763_g7700000000000764_dist_diff_adaln_cshard_i_b2_s2048_c512_v7x_i4_bf16_1_alg».proof.Proof.Gen.Kernel.Launch
import proofs.«900763_g7700000000000764_dist_diff_adaln_cshard_i_b2_s2048_c512_v7x_i4_bf16_1_alg».proof.Proof.Gen.Kernel.Points
import Idealize.ShloMosaic.Lib.Pipeline.Launch
import Idealize.ShloMosaic.Lib.Pipeline.Kit
import Idealize.ShloMosaic.Lib.Pipeline.FrameBody
import Idealize.ShloMosaic.Lib.Pipeline.Value
import Idealize.ShloMosaic.Lib.Tactic

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

def sh (c : Dev nD) (d : ℕ) : Dev nD := ⟨(c.val + d) % 4, Nat.mod_lt _ (by decide)⟩

theorem sh_sh (c : Dev nD) (a b : ℕ) : sh (sh c a) b = sh c (a + b) := by
  apply Fin.ext; show ((c.val + a) % 4 + b) % 4 = (c.val + (a + b)) % 4; omega
theorem sh_four (c : Dev nD) : sh c 4 = c := by revert c; decide
theorem dev1_eq (c : Dev nD) : (⟨k0_dev1 c, k0_dev1_lt c⟩ : Dev nD) = sh c 1 := by revert c; decide +kernel
theorem dev2_eq (c : Dev nD) : (⟨k0_dev2 c, k0_dev2_lt c⟩ : Dev nD) = sh c 2 := by revert c; decide +kernel
theorem dev3_eq (c : Dev nD) : (⟨k0_dev3 c, k0_dev3_lt c⟩ : Dev nD) = sh c 3 := by revert c; decide +kernel

abbrev xM : Memref sig .tc .vmem S2x2048x512 .f32 := Memref.whole cc0_stg0_0
abbrev tM : Memref sig .tc .vmem S2x128 .f32 := Memref.whole cc0_stg1_0
abbrev wsM : Memref sig .tc .vmem S128x512 .f32 := Memref.whole cc0_stg2_0
abbrev wshM : Memref sig .tc .vmem S128x512 .f32 := Memref.whole cc0_stg3_0
abbrev oM : Memref sig .tc .vmem S2x2048x512 .bf16 := Memref.whole cc0_stg4_0

abbrev ownM : Memref sig .tc .vmem S4x4x512 .f32 := Memref.whole cc0_scratch0

abbrev commM : Memref sig .tc .vmem S4x3x4x512 .f32 := Memref.whole cc0_scratch1

theorem x_inb : ∀ (h : Fin 4) a, (![0, 512 * h.val, 0] : Fin 3 → Nat) a + S2x512x512.size a ≤ S2x2048x512.size a := by decide
theorem own_inb : ∀ (h : Fin 4) a, (![h.val, 0, 0] : Fin 3 → Nat) a + S1x4x512.size a ≤ S4x4x512.size a := by decide
theorem slot_inb : ∀ (h : Fin 4) (j : Fin 3) a, (![h.val, j.val, 0, 0] : Fin 4 → Nat) a + S1x1x4x512.size a ≤ S4x3x4x512.size a := by decide
theorem sem_inb : ∀ (h : Fin 4) (j : Fin 3) a, (![h.val, j.val] : Fin 2 → Nat) a + S1x1.size a ≤ S4x3.size a := by decide

abbrev xRect (h : Fin 4) : Rect S2x2048x512 := Rect.unit (s := S2x2048x512) ![0, 512 * h.val, 0] S2x512x512.size (x_inb h)

abbrev ownRect (h : Fin 4) : Rect S4x4x512 := Rect.unit (s := S4x4x512) ![h.val, 0, 0] S1x4x512.size (own_inb h)

abbrev slotRect (h : Fin 4) (j : Fin 3) : Rect S4x3x4x512 := Rect.unit (s := S4x3x4x512) ![h.val, j.val, 0, 0] S1x1x4x512.size (slot_inb h j)

abbrev ownSl (h : Fin 4) : Memref sig .tc .vmem S4x512 .f32 :=
  (ownM.slice (ownRect h) (fun _ => rfl)).squeeze S4x512 squeezes_S1x4x512_S4x512

abbrev commSl (h : Fin 4) (j : Fin 3) : Memref sig .tc .vmem S4x512 .f32 :=
  (commM.slice (slotRect h j) (fun _ => rfl)).squeeze S4x512 squeezes_S1x1x4x512_S4x512

abbrev barS : Sem sig := (SemArray.scalar (sig.barrier 0 rfl) : Sems sig S_).sem

abbrev sendSem (h : Fin 4) (e : Fin 3) : DmaSem sig :=
  ((cc0_scratch2.slice (Rect.unit (s := S4x3) ![h.val, e.val] S1x1.size (sem_inb h e))).squeeze S_ squeezes_S1x1_S_).sem

abbrev recvSem (h : Fin 4) (j : Fin 3) : DmaSem sig :=
  ((cc0_scratch3.slice (Rect.unit (s := S4x3) ![h.val, j.val] S1x1.size (sem_inb h j))).squeeze S_ squeezes_S1x1_S_).sem

theorem sendSem_val (h : Fin 4) (e : Fin 3) : (sendSem h e).val = 5 + 3 * h.val + e.val := by revert h e; decide
theorem recvSem_val (h : Fin 4) (j : Fin 3) : (recvSem h j).val = 17 + 3 * h.val + j.val := by revert h j; decide

abbrev barCell (c : Dev nD) : GSem nD τ sig := ((c : Thread nD τ), .reg barS)
abbrev sendCell (c : Dev nD) (h : Fin 4) (e : Fin 3) : GSem nD τ sig := ((c : Thread nD τ), .dma (sendSem h e))
abbrev recvCell (c : Dev nD) (h : Fin 4) (j : Fin 3) : GSem nD τ sig := ((c : Thread nD τ), .dma (recvSem h j))

abbrev N : ℕ := (commSl 0 0).view.dmaCredit
theorem N_pos : 0 < N := View.dmaCredit_pos _ (by decide)

def xstg (c : Dev nD) : (cc0_stg0_0 : Ref sig .tc).ty.Contents (Elt F) :=
  (win0_0.blk (0 : Fin 1)).view.read (Elt F) (m ((c : Thread nD τ).loc main_arg0))
def tstg (c : Dev nD) : (cc0_stg1_0 : Ref sig .tc).ty.Contents (Elt F) :=
  (win0_1.blk (0 : Fin 1)).view.read (Elt F) (m ((c : Thread nD τ).loc main_arg1))
def wsstg (c : Dev nD) : (cc0_stg2_0 : Ref sig .tc).ty.Contents (Elt F) :=
  (win0_2.blk (0 : Fin 1)).view.read (Elt F) (m ((c : Thread nD τ).loc main_arg2))
def wshstg (c : Dev nD) : (cc0_stg3_0 : Ref sig .tc).ty.Contents (Elt F) :=
  (win0_3.blk (0 : Fin 1)).view.read (Elt F) (m ((c : Thread nD τ).loc main_arg3))

def xrow (c : Dev nD) (h : Fin 4) : Vec F S2x512x512 .f32 :=
  (xM : Memref sig .tc .vmem S2x2048x512 .f32).view.readAt (Elt F) (xRect h).toLoadRect (xstg m c)

def ownV (c : Dev nD) : Fin 4 → FVec F S1x4x512 .f32
  | ⟨0, _⟩ => k0_pay1 (xrow m c 0)
  | ⟨1, _⟩ => k0_pay5 (k0_pay3 (xrow m c 1)) (k0_pay4 (xrow m c 1))
  | ⟨2, _⟩ => k0_pay6 (xrow m c 2)
  | ⟨3, _⟩ => k0_pay8 (k0_pay7 (xrow m c 3))
  | ⟨_ + 4, hh⟩ => absurd hh (by omega)

theorem shapeCasts_S4x512_S1x1x4x512 : S4x512.ShapeCasts S1x1x4x512 := by decide

def commV (c : Dev nD) (h : Fin 4) (j : Fin 3) : Vec F S1x1x4x512 .f32 :=
  shapeCast S1x1x4x512 (shapeCast S4x512 (ownV m (sh c (j.val + 1)) h) shapeCasts_S1x4x512_S4x512) shapeCasts_S4x512_S1x1x4x512

def slotPts (c : Dev nD) (h : Fin 4) (j : Fin 3) (g : Buf (Elt F) ((commSl h j).view.loc (c : Thread nD τ))) : sProp 𝕄 :=
  (commSl h j).view.loc (c : Thread nD τ) ↦[(commSl h j).view.set]{fullShare} g

def slotFree (c : Dev nD) (h : Fin 4) (j : Fin 3) : sProp 𝕄 := iprop(∃ g, slotPts c h j g)

def slotLanded (c : Dev nD) (h : Fin 4) (j : Fin 3) : sProp 𝕄 :=
  iprop(∃ g, ⌜(commM : Memref sig .tc .vmem S4x3x4x512 .f32).view.readAt (Elt F) (slotRect h j).toLoadRect g = commV m c h j⌝ ∗ slotPts c h j g)

def ownPts (c : Dev nD) (h : Fin 4) (q : PosShare TreeShare) (f : Buf (Elt F) ((ownSl h).view.loc (c : Thread nD τ))) : sProp 𝕄 :=
  (ownSl h).view.loc (c : Thread nD τ) ↦[(ownSl h).view.set]{q} f

def ownHeld (c : Dev nD) (h : Fin 4) (q : PosShare TreeShare) : sProp 𝕄 :=
  iprop(∃ f, ⌜(ownM : Memref sig .tc .vmem S4x4x512 .f32).view.readAt (Elt F) (ownRect h).toLoadRect f = ownV m c h⌝ ∗ ownPts c h q f)

def qLent : Fin 3 → PosShare TreeShare
  | ⟨0, _⟩ => fullShare.left.left
  | ⟨1, _⟩ => fullShare.left.right
  | ⟨2, _⟩ => fullShare.right.left
  | ⟨_ + 3, hj⟩ => absurd hj (by omega)
abbrev qKept : PosShare TreeShare := fullShare.right.right

def barPay (c : Dev nD) (e : Fin 3) : sProp 𝕄 :=
  iprop((slotFree (sh c (3 - e.val)) 0 e ∗ reached ER (recvCell (sh c (3 - e.val)) 0 e) 0)
    ∗ (slotFree (sh c (3 - e.val)) 1 e ∗ reached ER (recvCell (sh c (3 - e.val)) 1 e) 0)
    ∗ (slotFree (sh c (3 - e.val)) 2 e ∗ reached ER (recvCell (sh c (3 - e.val)) 2 e) 0)
    ∗ (slotFree (sh c (3 - e.val)) 3 e ∗ reached ER (recvCell (sh c (3 - e.val)) 3 e) 0))

def sendPay (c : Dev nD) (h : Fin 4) (e : Fin 3) : sProp 𝕄 := ownHeld m c h (qLent e)
def recvPay (c : Dev nD) (h : Fin 4) (j : Fin 3) : sProp 𝕄 := slotLanded m c h j

def dmaPay (c : Dev nD) (n : ℕ) : sProp 𝕄 :=
  if h1 : 5 ≤ n ∧ n < 17 then sendPay m c ⟨(n - 5) / 3, by omega⟩ ⟨(n - 5) % 3, Nat.mod_lt _ (by decide)⟩
  else if h2 : 17 ≤ n ∧ n < 29 then recvPay m c ⟨(n - 17) / 3, by omega⟩ ⟨(n - 17) % 3, Nat.mod_lt _ (by decide)⟩
  else iprop(emp)

def ringRd : Rounds.Schedule (GSem nD τ sig) (Fin 3) 𝕄 where
  duties g r := if r = 0 then (match g.2 with | .reg _ => Finset.univ | .dma s => if 5 ≤ s.val then {0} else ∅) else ∅
  unitless _ := False
  amount g _ _ := match g.2 with | .reg _ => 1 | .dma _ => N
  payload g _ d := match g.2 with | .reg _ => barPay g.1.1 d | .dma s => dmaPay m g.1.1 s.val
  amount_pos g _ _ _ := by
    cases hg : g.2 with
    | reg s => simp only [hg]; exact Nat.one_pos
    | dma s => simp only [hg]; exact N_pos

def tload (c : Dev nD) : Vec F S2x128 .f32 :=
  (tM : Memref sig .tc .vmem S2x128 .f32).view.readAt (Elt F) (Rect.unit (s := S2x128) ![0, 0] S2x128.size inb_S2x128_S2x128_0_0).toLoadRect (tstg m c)
def wsload (c : Dev nD) : Vec F S128x512 .f32 :=
  (wsM : Memref sig .tc .vmem S128x512 .f32).view.readAt (Elt F) (Rect.unit (s := S128x512) ![0, 0] S128x512.size inb_S128x512_S128x512_0_0).toLoadRect (wsstg m c)
def wshload (c : Dev nD) : Vec F S128x512 .f32 :=
  (wshM : Memref sig .tc .vmem S128x512 .f32).view.readAt (Elt F) (Rect.unit (s := S128x512) ![0, 0] S128x512.size inb_S128x512_S128x512_0_0).toLoadRect (wshstg m c)

def scV (c : Dev nD) : FVec F S2x1x512 .bf16 := k0_pay10 (tload m c) (wsload m c)
def shV (c : Dev nD) : FVec F S2x1x512 .bf16 := k0_pay11 (tload m c) (wshload m c)

def outV (c : Dev nD) : Fin 4 → FVec F S2x512x512 .bf16
  | ⟨0, _⟩ => k0_pay13 (scV m c) (shV m c) (k0_pay12 (ownV m c 0) (commV m c 0 0) (commV m c 0 1)) (commV m c 0 2) (xrow m c 0)
  | ⟨1, _⟩ => k0_pay15 (scV m c) (shV m c) (k0_pay14 (ownV m c 1) (commV m c 1 0)) (commV m c 1 1) (commV m c 1 2) (xrow m c 1)
  | ⟨2, _⟩ => k0_pay16 (scV m c) (shV m c) (ownV m c 2) (commV m c 2 0) (commV m c 2 1) (commV m c 2 2) (xrow m c 2)
  | ⟨3, _⟩ => k0_pay18 (scV m c) (shV m c) (k0_pay17 (ownV m c 3) (commV m c 3 0) (commV m c 3 1) (commV m c 3 2) (xrow m c 3))
  | ⟨_ + 4, hh⟩ => absurd hh (by omega)

def outBlk (c : Dev nD) : (cc0_stg4_0 : Ref sig .tc).ty.Contents (Elt F) :=
  View.canon [⟨xRect 3, outV m c 3⟩, ⟨xRect 2, outV m c 2⟩, ⟨xRect 1, outV m c 1⟩, ⟨xRect 0, outV m c 0⟩]

def acts (c : Dev nD) : List (GSem nD τ sig × ℕ) :=
  [(barCell (sh c 1), 1), (barCell (sh c 2), 1), (barCell (sh c 3), 1),
   (recvCell (sh c 1) 0 2, N), (recvCell (sh c 2) 0 1, N), (recvCell (sh c 3) 0 0, N),
   (recvCell (sh c 1) 1 2, N), (recvCell (sh c 2) 1 1, N), (recvCell (sh c 3) 1 0, N),
   (recvCell (sh c 1) 2 2, N), (recvCell (sh c 2) 2 1, N), (recvCell (sh c 3) 2 0, N),
   (recvCell (sh c 1) 3 2, N), (recvCell (sh c 2) 3 1, N), (recvCell (sh c 3) 3 0, N)]

def owedFor : List (GSem nD τ sig × ℕ) → CellTallies nD τ sig Unit
  | [] => 0
  | a :: l => owedFor l + tallyAt a.1 () a.2
def O₀ (c : Dev nD) : CellTallies nD τ sig Unit := owedFor (acts c)

def L (g : GSem nD τ sig) : Finset Unit := if g.1.2 = .tc then {()} else ∅

def lv (g : GSem nD τ sig) (_ : Unit) : ℕ := match g.2 with | .reg _ => 1 | .dma s => if 17 ≤ s.val then 2 else 0

abbrev csem (k : Fin 25) : SemLoc sig := if k.val = 0 then .reg barS else .dma ⟨k.val + 4, by have := k.isLt; show k.val + 4 < 29; omega⟩
abbrev kcell (ck : Dev nD × Fin 25) : GSem nD τ sig := ((ck.1 : Thread nD τ), csem ck.2)

def records (K : Dev nD × Fin 25 → ℕ) : sProp 𝕄 :=
  iprop((bigSep Finset.univ fun ck : Dev nD × Fin 25 => cellInv ER (ringRd m) (K ck) (kcell ck))
    ∗ bigSep Finset.univ fun ck : Dev nD × Fin 25 => reached ER (kcell ck) 0)

def payToks (c : Dev nD) : sProp 𝕄 :=
  iprop((bigSep Finset.univ fun e : Fin 3 => dutyTok ER (barCell (sh c (e.val + 1))) 0 e)
    ∗ (bigSep Finset.univ fun he : Fin 4 × Fin 3 => dutyTok ER (recvCell (sh c (he.2.val + 1)) he.1 ⟨2 - he.2.val, by omega⟩) 0 0)
    ∗ (bigSep Finset.univ fun he : Fin 4 × Fin 3 => dutyTok ER (sendCell c he.1 he.2) 0 0))

def positions (c : Dev nD) : sProp 𝕄 := bigSep Finset.univ fun k : Fin 25 => atPos ER (kcell (c, k)) 0 ∅ 0

def ghost (K : Dev nD × Fin 25 → ℕ) (c : Dev nD) : sProp 𝕄 := iprop(records m K ∗ positions c ∗ payToks c)

def start (c : Dev nD) : sProp 𝕄 :=
  iprop((∃ K, ghost m K c) ∗ cred (tallyAt (barCell c) () 3)
    ∗ (bigSep Finset.univ fun hj : Fin 4 × Fin 3 => cred (tallyAt (recvCell c hj.1 hj.2) () N)) ∗ levAts L lv)

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun he : Fin 4 × Fin 3 => semVal (sendCell c he.1 he.2) 0)
    ∗ (bigSep Finset.univ fun hj : Fin 4 × Fin 3 => semVal (recvCell c hj.1 hj.2) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => tstg m c
    | ⟨2, _⟩ => wsstg m c
    | ⟨3, _⟩ => wshstg m c
    | ⟨4, _⟩ => outBlk m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem bigSep_fin3 (Φ : Fin 3 → sProp 𝕄) : bigSep Finset.univ Φ = iprop(Φ 0 ∗ Φ 1 ∗ Φ 2) := bigSep_univ_eq_bigSepL [0, 1, 2] (by decide) (by decide) Φ

end Cert.Kernel.Coll

end
-- ==== Proof.Kernel.SchedLemmas.lean ====
import proofs.«900763_g7700000000000764_dist_diff_adaln_cshard_i_b2_s2048_c512_v7x_i4_bf16_1_alg».proof.Proof.Kernel.Sched

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance slotPts_storable (c : Dev nD) (h : Fin 4) (j : Fin 3) (g) : BI.Storable (upEmb : UEmb _ 𝕄) (slotPts (F := F) c h j g) := by
  unfold slotPts; infer_instance
instance slotFree_storable (c : Dev nD) (h : Fin 4) (j : Fin 3) : BI.Storable (upEmb : UEmb _ 𝕄) (slotFree (F := F) c h j) := by
  unfold slotFree; infer_instance
instance slotLanded_storable (c : Dev nD) (h : Fin 4) (j : Fin 3) : BI.Storable (upEmb : UEmb _ 𝕄) (slotLanded (F := F) m c h j) := by
  unfold slotLanded; infer_instance
instance ownPts_storable (c : Dev nD) (h : Fin 4) (q : PosShare TreeShare) (f) : BI.Storable (upEmb : UEmb _ 𝕄) (ownPts (F := F) c h q f) := by
  unfold ownPts; infer_instance
instance ownHeld_storable (c : Dev nD) (h : Fin 4) (q : PosShare TreeShare) : BI.Storable (upEmb : UEmb _ 𝕄) (ownHeld (F := F) m c h q) := by
  unfold ownHeld; infer_instance
instance barPay_storable (c : Dev nD) (e : Fin 3) : BI.Storable (upEmb : UEmb _ 𝕄) (barPay (F := F) c e) := by
  unfold barPay; infer_instance
instance dmaPay_storable (c : Dev nD) (n : ℕ) : BI.Storable (upEmb : UEmb _ 𝕄) (dmaPay (F := F) m c n) := by
  unfold dmaPay sendPay recvPay; (repeat' split) <;> infer_instance

instance ringRd_payload_storable (g : GSem nD τ sig) (r : ℕ) (d : Fin 3) :
    BI.Storable (upEmb : UEmb _ 𝕄) ((ringRd (F := F) m).payload g r d) := by
  show BI.Storable upEmb (match g.2 with | .reg _ => barPay g.1.1 d | .dma s => dmaPay m g.1.1 s.val)
  split <;> infer_instance

section Sched
variable (c : Dev nD)

theorem duties_bar : (ringRd (F := F) m).duties (barCell c) 0 = Finset.univ := rfl
theorem duties_send (h : Fin 4) (e : Fin 3) : (ringRd (F := F) m).duties (sendCell c h e) 0 = {0} := by
  show (if (0 : ℕ) = 0 then (if 5 ≤ (sendSem h e).val then ({0} : Finset (Fin 3)) else ∅) else ∅) = {0}
  rw [if_pos rfl, if_pos (by rw [sendSem_val]; omega)]
theorem duties_recv (h : Fin 4) (j : Fin 3) : (ringRd (F := F) m).duties (recvCell c h j) 0 = {0} := by
  show (if (0 : ℕ) = 0 then (if 5 ≤ (recvSem h j).val then ({0} : Finset (Fin 3)) else ∅) else ∅) = {0}
  rw [if_pos rfl, if_pos (by rw [recvSem_val]; omega)]
theorem duties_later (g : GSem nD τ sig) : ∀ r, 1 ≤ r → (ringRd (F := F) m).duties g r = ∅ :=
  fun r hr => by dsimp only [ringRd]; rw [if_neg fun h => by omega]

theorem amount_bar (d : Fin 3) : (ringRd (F := F) m).amount (barCell c) 0 d = 1 := rfl
theorem amount_send (h : Fin 4) (e : Fin 3) (d : Fin 3) : (ringRd (F := F) m).amount (sendCell c h e) 0 d = N := rfl
theorem amount_recv (h : Fin 4) (j : Fin 3) (d : Fin 3) : (ringRd (F := F) m).amount (recvCell c h j) 0 d = N := rfl

theorem expect_bar : (ringRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send (h : Fin 4) (e : Fin 3) : (ringRd (F := F) m).expect (sendCell c h e) 0 = N := by
  unfold Schedule.expect Schedule.amountOf; rw [duties_send, Finset.sum_singleton, amount_send]
theorem expect_recv (h : Fin 4) (j : Fin 3) : (ringRd (F := F) m).expect (recvCell c h j) 0 = N := by
  unfold Schedule.expect Schedule.amountOf; rw [duties_recv, Finset.sum_singleton, amount_recv]

theorem payload_bar (e : Fin 3) : (ringRd (F := F) m).payload (barCell c) 0 e = barPay c e := rfl

theorem dmaPay_send (h : Fin 4) (e : Fin 3) : dmaPay (F := F) m c (5 + 3 * h.val + e.val) = sendPay m c h e := by
  have hh := h.isLt; have he := e.isLt
  unfold dmaPay
  rw [dif_pos (by omega)]
  congr 1 <;> apply Fin.ext <;> simp only [] <;> omega
theorem dmaPay_recv (h : Fin 4) (j : Fin 3) : dmaPay (F := F) m c (17 + 3 * h.val + j.val) = recvPay m c h j := by
  have hh := h.isLt; have hj := j.isLt
  unfold dmaPay
  rw [dif_neg (by omega), dif_pos (by omega)]
  congr 1 <;> apply Fin.ext <;> simp only [] <;> omega

theorem payload_send (h : Fin 4) (e : Fin 3) (d : Fin 3) : (ringRd (F := F) m).payload (sendCell c h e) 0 d = sendPay m c h e := by
  show dmaPay m c (sendSem h e).val = sendPay m c h e
  rw [sendSem_val, dmaPay_send]
theorem payload_recv (h : Fin 4) (j : Fin 3) (d : Fin 3) : (ringRd (F := F) m).payload (recvCell c h j) 0 d = recvPay m c h j := by
  show dmaPay m c (recvSem h j).val = recvPay m c h j
  rw [recvSem_val, dmaPay_recv]

theorem rest_bar : bigSep ((ringRd (F := F) m).duties (barCell c) 0 \ ∅) (fun d => (ringRd (F := F) m).payload (barCell c) 0 d) = iprop(barPay c 0 ∗ barPay c 1 ∗ barPay c 2) := by
  rw [Finset.sdiff_empty, duties_bar, bigSep_fin3]
  rfl
theorem rest_send (h : Fin 4) (e : Fin 3) : bigSep ((ringRd (F := F) m).duties (sendCell c h e) 0 \ ∅) (fun d => (ringRd (F := F) m).payload (sendCell c h e) 0 d) = sendPay m c h e := by
  rw [Finset.sdiff_empty, duties_send, bigSep_singleton, payload_send]
theorem rest_recv (h : Fin 4) (j : Fin 3) : bigSep ((ringRd (F := F) m).duties (recvCell c h j) 0 \ ∅) (fun d => (ringRd (F := F) m).payload (recvCell c h j) 0 d) = recvPay m c h j := by
  rw [Finset.sdiff_empty, duties_recv, bigSep_singleton, payload_recv]

end Sched

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {h h' : Fin 4} {j j' : Fin 3} : Iff (recvCell a h j = recvCell b h' j') (a = b ∧ h = h' ∧ j = j') := by
  constructor
  · intro e
    have e1 : a = b := Fin.ext (congrArg (fun g : GSem nD τ sig => g.1.1.val) e)
    have e2 : (recvSem h j).val = (recvSem h' j').val := by
      have e3 : (SemLoc.dma (recvSem h j) : SemLoc sig) = .dma (recvSem h' j') := congrArg Prod.snd e
      injection e3 with e4; rw [e4]
    rw [recvSem_val, recvSem_val] at e2
    exact ⟨e1, Fin.ext (by omega), Fin.ext (by omega)⟩
  · rintro ⟨rfl, rfl, rfl⟩; rfl
theorem recv_ne_bar {a b : Dev nD} {h : Fin 4} {j : Fin 3} : recvCell a h j ≠ barCell b := fun e => by cases (congrArg Prod.snd e)

theorem tally_bar_bar (a c : Dev nD) (k : ℕ) : (tallyAt (barCell a) () k : CellTallies nD τ sig Unit) (barCell c) () = if a = c then k else 0 := by
  rw [tallyAt_apply]
  by_cases h : a = c
  · subst h; rw [if_pos ⟨rfl, rfl⟩, if_pos rfl]
  · rw [if_neg (fun h' => h (bar_eq_iff.mp h'.1).symm), if_neg h]
theorem tally_recv_bar (a c : Dev nD) (h : Fin 4) (j : Fin 3) (k : ℕ) : (tallyAt (recvCell a h j) () k : CellTallies nD τ sig Unit) (barCell c) () = 0 := by
  rw [tallyAt_ne_cell (fun e => recv_ne_bar e.symm)]; rfl
theorem tally_bar_recv (a c : Dev nD) (h : Fin 4) (j : Fin 3) (k : ℕ) : (tallyAt (barCell a) () k : CellTallies nD τ sig Unit) (recvCell c h j) () = 0 := by
  rw [tallyAt_ne_cell recv_ne_bar]; rfl
theorem tally_recv_recv (a c : Dev nD) (h' h : Fin 4) (j' j : Fin 3) (k : ℕ) :
    (tallyAt (recvCell a h' j') () k : CellTallies nD τ sig Unit) (recvCell c h j) () = if a = c ∧ h' = h ∧ j' = j then k else 0 := by
  rw [tallyAt_apply]
  by_cases hh : a = c ∧ h' = h ∧ j' = j
  · obtain ⟨rfl, rfl, rfl⟩ := hh; rw [if_pos ⟨rfl, rfl⟩, if_pos ⟨rfl, rfl, rfl⟩]
  · rw [if_neg (fun e => hh (by obtain ⟨e1, e2, e3⟩ := recv_eq_iff.mp e.1; exact ⟨e1.symm, e2.symm, e3.symm⟩)), if_neg hh]

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) : lv (barCell d) () = 1 := rfl
theorem lv_recv (d : Dev nD) (h : Fin 4) (j : Fin 3) : lv (recvCell d h j) () = 2 := by
  show (if 17 ≤ (recvSem h j).val then 2 else 0) = 2
  rw [recvSem_val, if_pos (by omega)]
theorem lv_stage (c : Dev nD) (q : DmaSem sig) (hq : q.val < 5) : lv ((c : Thread nD τ), .dma q) () = 0 := by
  show (if 17 ≤ q.val then 2 else 0) = 0
  rw [if_neg (by omega)]

theorem owedFor_pos : ∀ (l : List (GSem nD τ sig × ℕ)) {g : GSem nD τ sig} {u : Unit}, 0 < owedFor l g u → ∃ a ∈ l, a.1 = g
  | [], g, u, h => absurd h (Nat.lt_irrefl 0)
  | a :: l, g, u, h => by
    rcases Pipeline.add_pos_cases (D₁ := owedFor l) (D₂ := tallyAt a.1 () a.2) h with h1 | h2
    · obtain ⟨b, hb, hbg⟩ := owedFor_pos l h1
      exact ⟨b, List.mem_cons_of_mem _ hb, hbg⟩
    · rw [tallyAt_apply] at h2
      by_cases hh : g = a.1 ∧ u = ()
      · exact ⟨a, List.mem_cons_self, hh.1.symm⟩
      · rw [if_neg hh] at h2; exact absurd h2 (Nat.lt_irrefl 0)

theorem acts_cells (c : Dev nD) : ∀ a ∈ acts c, (∃ d, a.1 = barCell d) ∨ (∃ d h j, a.1 = recvCell d h j) := by
  intro a ha
  simp only [acts, List.mem_cons, List.not_mem_nil, or_false] at ha
  rcases ha with rfl | rfl | rfl | rfl | rfl | rfl | rfl | rfl | rfl | rfl | rfl | rfl | rfl | rfl | rfl
  all_goals first | exact .inl ⟨_, rfl⟩ | exact .inr ⟨_, _, _, rfl⟩

theorem acts_drop_cells (c : Dev nD) : ∀ a ∈ (acts c).drop 3, ∃ d h j, a.1 = recvCell d h j := by
  intro a ha
  simp only [acts, List.drop_succ_cons, List.drop_zero, List.mem_cons, List.not_mem_nil, or_false] at ha
  rcases ha with rfl | rfl | rfl | rfl | rfl | rfl | rfl | rfl | rfl | rfl | rfl | rfl
  all_goals exact ⟨_, _, _, rfl⟩

theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    obtain ⟨a, ha, rfl⟩ := owedFor_pos (acts c) hg
    cases u
    rw [lv_stage c q hq]
    rcases acts_cells c a ha with ⟨d, hd⟩ | ⟨d, h, j, hd⟩
    · rw [hd, L_tc, lv_bar]; exact ⟨Finset.mem_singleton_self _, by decide⟩
    · rw [hd, L_tc, lv_recv]; exact ⟨Finset.mem_singleton_self _, by decide⟩
  · rw [MayWait_zero]; iintro -; iempintro

theorem mayWait_bar (c : Dev nD) :
    (levAts L lv : sProp 𝕄) ⊢ MayWait (c : Thread nD τ) (.reg barS) () (owedFor ((acts c).drop 3)) := by
  refine Pipeline.mayWait_of_levAts (by rw [L_tc]; exact Finset.mem_singleton_self _) fun g u hg => ?_
  obtain ⟨a, ha, rfl⟩ := owedFor_pos _ hg
  cases u
  obtain ⟨d, h, j, hd⟩ := acts_drop_cells c a ha
  rw [hd, L_tc, lv_recv, lv_bar c]
  exact ⟨Finset.mem_singleton_self _, by decide⟩

theorem owed_bar (d c : Dev nD) : O₀ d (barCell c) () = if d ≠ c then 1 else 0 := by
  have key : ((if sh d 3 = c then 1 else 0) + (if sh d 2 = c then 1 else 0) + (if sh d 1 = c then 1 else 0) : ℕ) = if d ≠ c then 1 else 0 := by
    revert d c; decide
  rw [← key]
  simp only [O₀, acts, owedFor, Pi.add_apply, Finsupp.add_apply, tally_bar_bar, tally_recv_bar, Pi.zero_apply, Finsupp.zero_apply, Nat.add_zero, Nat.zero_add]

theorem owed_recv (d c : Dev nD) (h : Fin 4) (j : Fin 3) : O₀ d (recvCell c h j) () = if d = sh c (j.val + 1) then N else 0 := by
  have key : ((if sh d 3 = c ∧ 3 = h ∧ 0 = j then 1 else 0) + (if sh d 2 = c ∧ 3 = h ∧ 1 = j then 1 else 0) + (if sh d 1 = c ∧ 3 = h ∧ 2 = j then 1 else 0)
      + (if sh d 3 = c ∧ 2 = h ∧ 0 = j then 1 else 0) + (if sh d 2 = c ∧ 2 = h ∧ 1 = j then 1 else 0) + (if sh d 1 = c ∧ 2 = h ∧ 2 = j then 1 else 0)
      + (if sh d 3 = c ∧ 1 = h ∧ 0 = j then 1 else 0) + (if sh d 2 = c ∧ 1 = h ∧ 1 = j then 1 else 0) + (if sh d 1 = c ∧ 1 = h ∧ 2 = j then 1 else 0)
      + (if sh d 3 = c ∧ 0 = h ∧ 0 = j then 1 else 0) + (if sh d 2 = c ∧ 0 = h ∧ 1 = j then 1 else 0) + (if sh d 1 = c ∧ 0 = h ∧ 2 = j then 1 else 0) : ℕ)
      = if d = sh c (j.val + 1) then 1 else 0 := by
    revert d c h j; decide
  have key' := congrArg (fun k : ℕ => N * k) key
  simp only [mul_add, mul_ite, mul_one, mul_zero] at key'
  rw [← key']
  simp only [O₀, acts, owedFor, Pi.add_apply, Finsupp.add_apply, tally_bar_recv, tally_recv_recv, Pi.zero_apply, Finsupp.zero_apply, Nat.add_zero, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (h : Fin 4) (j : Fin 3) :
    tallyOn (recvCell c h j) (launchCredit (Pipeline.owing O₀) 0 (recvCell c h j)) = (tallyAt (recvCell c h j) () N : CellTallies nD τ sig Unit) := by
  unfold tallyAt; refine congrArg _ (Finsupp.ext fun u => ?_); cases u
  rw [Pipeline.launchCredit_owing, Finsupp.single_eq_same, Finset.sum_congr rfl fun d _ => owed_recv d c h j,
    Finset.sum_ite_eq' Finset.univ (sh c (j.val + 1)) fun _ => N, if_pos (Finset.mem_univ _)]

theorem recvLoc_injective : Function.Injective (fun hj : Fin 4 × Fin 3 => (SemLoc.dma (recvSem hj.1 hj.2) : SemLoc sig)) := by
  intro a b e
  have e1 : (recvSem a.1 a.2).val = (recvSem b.1 b.2).val := by injection e with e'; rw [e']
  rw [recvSem_val, recvSem_val] at e1
  have ha := a.2.isLt; have hb := b.2.isLt
  exact Prod.ext (Fin.ext (by omega)) (Fin.ext (by omega))

theorem creds (c : Dev nD) :
    (Pipeline.launchCred O₀ c : sProp 𝕄) ⊢ iprop(cred (tallyAt (barCell c) () 3)
      ∗ bigSep Finset.univ fun hj : Fin 4 × Fin 3 => cred (tallyAt (recvCell c hj.1 hj.2) () N)) := by
  unfold Pipeline.launchCred
  rw [bigSep_univ_at _ (SemLoc.reg barS), launch_bar]
  refine sep_mono_right ?_
  refine (bigSep_subset (t := Finset.univ.map ⟨_, recvLoc_injective⟩) (fun s hs => ?_)).trans ?_
  · obtain ⟨hj, _, rfl⟩ := Finset.mem_map.mp hs
    exact Finset.mem_erase.mpr ⟨(fun e => by cases e), Finset.mem_univ _⟩
  · rw [bigSep_map]
    refine bigSep_mono fun hj _ => ?_
    rw [← launch_recv]
    exact .refl _

end Cert.Kernel.Coll

end
-- ==== Proof.Kernel.Steps.lean ====
import proofs.«900763_g7700000000000764_dist_diff_adaln_cshard_i_b2_s2048_c512_v7x_i4_bf16_1_alg».proof.Proof.Kernel.Sched
import proofs.«900763_g7700000000000764_dist_diff_adaln_cshard_i_b2_s2048_c512_v7x_i4_bf16_1_alg».proof.Proof.Kernel.SchedLemmas

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev slotOf (d : Fin 3) : Fin 3 := ⟨2 - d.val, by omega⟩

theorem wp_send_slot (κ₁ κ₂ : ℕ) (c n : Dev nD) (h : Fin 4) (d : Fin 3) (hn : n = sh c (d.val + 1))
    {hsc : (commSl h (slotOf d) : Memref sig (Dev.tc n : Thread nD τ).2.kind .vmem S4x512 .f32).view.ref.isScScratch = false}
    {hsrc : (ownSl h : Memref sig .tc .vmem S4x512 .f32).view.WordExact} {hdst : (commSl h (slotOf d) : Memref sig .tc .vmem S4x512 .f32).view.WordExact}
    {hsem : DmaTarget.Typed .vmem (.dma (recvSem h (slotOf d))) (.remote (Dev.tc n : Thread nD τ) (commSl h (slotOf d) : Memref sig .tc .vmem S4x512 .f32) (.dma (sendSem h d)) hsc)}
    {α : Type} {Q : α → sProp 𝕄} {k : PUnit → Prog (TpuEff nD τ sig (Elt F) Λ₀ .tc) α}
    (fs : Buf (Elt F) ((ownSl h : Memref sig .tc .vmem S4x512 .f32).view.loc (c : Thread nD τ)))
    (hfs : (ownM : Memref sig .tc .vmem S4x4x512 .f32).view.readAt (Elt F) (ownRect h).toLoadRect fs = ownV m c h)
    (fd : Buf (Elt F) ((commSl h (slotOf d) : Memref sig .tc .vmem S4x512 .f32).view.loc (sh c (d.val + 1) : Thread nD τ)))
    (hland : (commM : Memref sig .tc .vmem S4x3x4x512 .f32).view.readAt (Elt F) (slotRect h (slotOf d)).toLoadRect
        ((commSl h (slotOf d) : Memref sig .tc .vmem S4x512 .f32).view.write (Elt F) fd ((ownSl h : Memref sig .tc .vmem S4x512 .f32).view.read (Elt F) fs) Finset.univ)
      = commV m (sh c (d.val + 1)) h (slotOf d))
    (O : CellTallies nD τ sig Unit) (W : Waits sig Unit) :
    iprop(cellInv ER (ringRd m) κ₁ (sendCell c h d) ∗ cellInv ER (ringRd m) κ₂ (recvCell (sh c (d.val + 1)) h (slotOf d))
        ∗ ownPts c h (qLent d) fs ∗ slotPts (sh c (d.val + 1)) h (slotOf d) fd
        ∗ owes (c : Thread nD τ) (O + tallyAt (recvCell (sh c (d.val + 1)) h (slotOf d)) () N) W
        ∗ dutyTok ER (sendCell c h d) 0 0 ∗ reached ER (sendCell c h d) 0
        ∗ dutyTok ER (recvCell (sh c (d.val + 1)) h (slotOf d)) 0 0 ∗ reached ER (recvCell (sh c (d.val + 1)) h (slotOf d)) 0)
      ⊢ iprop(((cred (tallyAt (sendCell c h d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownSl h) (.remote (Dev.tc n : Thread nD τ) (commSl h (slotOf d)) (.dma (sendSem h d)) hsc) (.dma (recvSem h (slotOf d))) hsrc hdst hsem) k) Q) := by
  subst hn
  unfold ownPts slotPts
  exact Rounds.wp_send_pointsTo 𝒱₀ ER (ringRd m) (c : Thread nD τ) none (κ₁ := κ₁) (κ₂ := κ₂)
    (r₁ := 0) (r₂ := 0) (d₁ := 0) (d₂ := 0) (fd := fd) (q := qLent d)
    (by rw [duties_send]; exact Finset.mem_singleton_self _) (by rw [duties_recv]; exact Finset.mem_singleton_self _)
    () () N rfl (amount_send m c h d 0) (amount_recv m (sh c (d.val + 1)) h (slotOf d) 0) O rfl (W := W)
    (by
      rw [payload_send]; unfold sendPay ownHeld ownPts
      iintro H; iexists fs; isplitr; · (ipureintro; exact hfs)
      iexact H)
    (by
      rw [payload_recv]; unfold recvPay slotLanded slotPts
      iintro H; iexists _; isplitr; · (ipureintro; exact hland)
      iexact H)

end Cert.Kernel.Coll
end
-- ==== Proof.Kernel.Steps2.lean ====
import proofs.«900763_g7700000000000764_dist_diff_adaln_cshard_i_b2_s2048_c512_v7x_i4_bf16_1_alg».proof.Proof.Kernel.Steps

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem hw_bar (c : Dev nD) (Kk : PUnit → sProp 𝕄) :
    wpE (defs₀ (F := F)) 𝒱₀ (c : Thread nD τ) none Set.univ (.semWait barS 3) Kk = waitSpec (c : Thread nD τ) Set.univ (.reg barS) 3 Kk := rfl
theorem hw_recv (c : Dev nD) (h : Fin 4) (j : Fin 3) {src : Memref sig .tc .vmem S4x512 .f32} {hsrc : src.view.WordExact}
    {hdst : (commSl h j : Memref sig .tc .vmem S4x512 .f32).view.WordExact} (Kk : PUnit → sProp 𝕄) :
    wpE (defs₀ (F := F)) 𝒱₀ (c : Thread nD τ) none Set.univ (.waitDma2 (recvSem h j) src (commSl h j) hsrc hdst) Kk
      = waitSpec (c : Thread nD τ) Set.univ (.dma (recvSem h j)) N Kk := rfl
theorem hw_send (c : Dev nD) (h : Fin 4) (e : Fin 3) {src : Memref sig .tc .vmem S4x512 .f32} {hsrc : src.view.WordExact}
    {hdst : (ownSl h : Memref sig .tc .vmem S4x512 .f32).view.WordExact} (Kk : PUnit → sProp 𝕄) :
    wpE (defs₀ (F := F)) 𝒱₀ (c : Thread nD τ) none Set.univ (.waitDma2 (sendSem h e) src (ownSl h) hsrc hdst) Kk
      = waitSpec (c : Thread nD τ) Set.univ (.dma (sendSem h e)) N Kk := rfl

theorem wp_wait_bar {R : sProp 𝕄} {κ : ℕ} (c : Dev nD) (hinv : R ⊢ cellInv ER (ringRd m) κ (barCell c))
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.reg barS) 3 Kk)
    {α : Type} {Q : α → sProp 𝕄} {k : PUnit → Prog (TpuEff nD τ sig (Elt F) Λ₀ .tc) α} (W : Waits sig Unit) :
    iprop(R ∗ cred (tallyAt (barCell c) () 3) ∗ owes (c : Thread nD τ) (owedFor ((acts c).drop 3)) W
        ∗ levAts L lv ∗ atPos ER (barCell c) 0 ∅ 0)
      ⊢ iprop(((owes (c : Thread nD τ) (owedFor ((acts c).drop 3)) (insert (.reg barS, ()) W) ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h := Rounds.wp_wait_rest_token (defs := defs₀ (F := F)) 𝒱₀ ER (ringRd m) (c : Thread nD τ) none (w := w) (sm := .reg barS) (k' := 3)
    (Es := Set.univ) (κ := κ) hw (Set.mem_univ _) (k := k) (Q := Q) ()
    (O := owedFor ((acts c).drop 3)) (W := W) (R := 0) (m := 0) (T := ∅) (by rw [expect_bar])
  rw [rest_bar] at h
  iintro ⟨HR, Hc, HO, Hlev, Hat⟩ Hk
  iapply h $$ [HR Hc HO Hlev Hat]
  · isplitl [HR]; · (iapply hinv; iexact HR)
    isplitl [Hc]; · iexact Hc
    isplitl [HO]; · iexact HO
    isplitl [Hlev]; · (iapply (mayWait_bar c); iexact Hlev)
    iexact Hat
  iintro ⟨HO, -, -, Hpay⟩
  iapply Hk
  isplitl [HO]; · iexact HO
  iexact Hpay

theorem wp_wait_recv {R : sProp 𝕄} {κ : ℕ} (c : Dev nD) (h : Fin 4) (j : Fin 3) (hinv : R ⊢ cellInv ER (ringRd m) κ (recvCell c h j))
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (recvSem h j)) N Kk)
    {α : Type} {Q : α → sProp 𝕄} {k : PUnit → Prog (TpuEff nD τ sig (Elt F) Λ₀ .tc) α} (W : Waits sig Unit) :
    iprop(R ∗ cred (tallyAt (recvCell c h j) () N) ∗ owes (c : Thread nD τ) 0 W ∗ atPos ER (recvCell c h j) 0 ∅ 0)
      ⊢ iprop(((owes (c : Thread nD τ) 0 (insert (.dma (recvSem h j), ()) W) ∗ atPos ER (recvCell c h j) 1 ∅ 0 ∗ slotLanded m c h j)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h' := Rounds.wp_wait_rest_token (defs := defs₀ (F := F)) 𝒱₀ ER (ringRd m) (c : Thread nD τ) none (w := w) (sm := .dma (recvSem h j)) (k' := N)
    (Es := Set.univ) (κ := κ) hw (Set.mem_univ _) (k := k) (Q := Q) ()
    (O := 0) (W := W) (R := 0) (m := 0) (T := ∅) (by rw [expect_recv, Nat.zero_add])
  rw [rest_recv, MayWait_zero] at h'
  unfold recvPay at h'
  iintro ⟨HR, Hc, HO, Hat⟩ Hk
  iapply h' $$ [HR Hc HO Hat]
  · isplitl [HR]; · (iapply hinv; iexact HR)
    isplitl [Hc]; · iexact Hc
    isplitl [HO]; · iexact HO
    isplitr; · iempintro
    iexact Hat
  iintro ⟨HO, Hat, -, Hpay⟩
  iapply Hk
  sl_close

theorem wp_wait_send {R : sProp 𝕄} {κ : ℕ} (c : Dev nD) (h : Fin 4) (e : Fin 3) (hinv : R ⊢ cellInv ER (ringRd m) κ (sendCell c h e))
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ (.dma (sendSem h e)) N Kk)
    {α : Type} {Q : α → sProp 𝕄} {k : PUnit → Prog (TpuEff nD τ sig (Elt F) Λ₀ .tc) α} (W : Waits sig Unit) :
    iprop(R ∗ cred (tallyAt (sendCell c h e) () N) ∗ owes (c : Thread nD τ) 0 W ∗ atPos ER (sendCell c h e) 0 ∅ 0)
      ⊢ iprop(((owes (c : Thread nD τ) 0 (insert (.dma (sendSem h e), ()) W) ∗ atPos ER (sendCell c h e) 1 ∅ 0 ∗ ownHeld m c h (qLent e))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have h' := Rounds.wp_wait_rest_token (defs := defs₀ (F := F)) 𝒱₀ ER (ringRd m) (c : Thread nD τ) none (w := w) (sm := .dma (sendSem h e)) (k' := N)
    (Es := Set.univ) (κ := κ) hw (Set.mem_univ _) (k := k) (Q := Q) ()
    (O := 0) (W := W) (R := 0) (m := 0) (T := ∅) (by rw [expect_send, Nat.zero_add])
  rw [rest_send, MayWait_zero] at h'
  unfold sendPay at h'
  iintro ⟨HR, Hc, HO, Hat⟩ Hk
  iapply h' $$ [HR Hc HO Hat]
  · isplitl [HR]; · (iapply hinv; iexact HR)
    isplitl [Hc]; · iexact Hc
    isplitl [HO]; · iexact HO
    isplitr; · iempintro
    iexact Hat
  iintro ⟨HO, Hat, -, Hpay⟩
  iapply Hk
  sl_close

end Cert.Kernel.Coll
end
-- ==== Proof.Kernel.Launch.lean ====
import proofs.«900763_g7700000000000764_dist_diff_adaln_cshard_i_b2_s2048_c512_v7x_i4_bf16_1_alg».proof.Proof.Kernel.Sched
import proofs.«900763_g7700000000000764_dist_diff_adaln_cshard_i_b2_s2048_c512_v7x_i4_bf16_1_alg».proof.Proof.Kernel.SchedLemmas

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev OIx : Type := (Fin 4 × Fin 3) ⊕ (Fin 4 × Fin 3)
abbrev osem : OIx → SemLoc sig
  | .inl he => .dma (sendSem he.1 he.2)
  | .inr hj => .dma (recvSem hj.1 hj.2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 25 → SemLoc sig) := by
  intro k k' h
  by_cases h0 : k.val = 0 <;> by_cases h0' : k'.val = 0
  · exact Fin.ext (h0.trans h0'.symm)
  · exfalso; simp only [csem, if_pos h0, if_neg h0'] at h; cases h
  · exfalso; simp only [csem, if_neg h0, if_pos h0'] at h; cases h
  · simp only [csem, if_neg h0, if_neg h0'] at h
    have := congrArg (fun s : SemLoc sig => match s with | .dma q => q.val | .reg _ => 0) h
    simp only [] at this
    exact Fin.ext (by omega)

theorem kcell_injective : Function.Injective (kcell : Dev nD × Fin 25 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

abbrev CIx : Type := Unit ⊕ OIx
def cellE : CIx ≃ Fin 25 where
  toFun
    | .inl _ => 0
    | .inr (.inl he) => ⟨1 + 3 * he.1.val + he.2.val, by have := he.1.isLt; have := he.2.isLt; omega⟩
    | .inr (.inr hj) => ⟨13 + 3 * hj.1.val + hj.2.val, by have := hj.1.isLt; have := hj.2.isLt; omega⟩
  invFun k :=
    if h0 : k.val = 0 then .inl ()
    else if h1 : k.val < 13 then .inr (.inl (⟨(k.val - 1) / 3, by omega⟩, ⟨(k.val - 1) % 3, Nat.mod_lt _ (by decide)⟩))
    else .inr (.inr (⟨(k.val - 13) / 3, by have := k.isLt; omega⟩, ⟨(k.val - 13) % 3, Nat.mod_lt _ (by decide)⟩))
  left_inv := by decide
  right_inv := by decide

theorem csem_send (h : Fin 4) (e : Fin 3) : csem (cellE (.inr (.inl (h, e)))) = .dma (sendSem h e) := by revert h e; decide
theorem csem_recv (h : Fin 4) (j : Fin 3) : csem (cellE (.inr (.inr (h, j)))) = .dma (recvSem h j) := by revert h j; decide
theorem bigSep_cells25 (c : Dev nD) (Φ : GSem nD τ sig → sProp 𝕄) :
    (bigSep Finset.univ fun k : Fin 25 => Φ (kcell (c, k)))
      = iprop(Φ (barCell c) ∗ (bigSep Finset.univ fun he : Fin 4 × Fin 3 => Φ (sendCell c he.1 he.2))
          ∗ bigSep Finset.univ fun hj : Fin 4 × Fin 3 => Φ (recvCell c hj.1 hj.2)) := by
  have h1 : ∀ he : Fin 4 × Fin 3, Φ (kcell (c, cellE (.inr (.inl he)))) = Φ (sendCell c he.1 he.2) := fun he => by
    show Φ ((c : Thread nD τ), csem (cellE (.inr (.inl he)))) = _; rw [csem_send]
  have h2 : ∀ hj : Fin 4 × Fin 3, Φ (kcell (c, cellE (.inr (.inr hj)))) = Φ (recvCell c hj.1 hj.2) := fun hj => by
    show Φ ((c : Thread nD τ), csem (cellE (.inr (.inr hj)))) = _; rw [csem_recv]
  rw [bigSep_univ_equiv cellE (fun k : Fin 25 => Φ (kcell (c, k))), bigSep_univ_sum, bigSep_univ_sum,
    bigSep_univ_of_subsingleton (), bigSep_congr (fun he _ => h1 he), bigSep_congr (fun hj _ => h2 hj)]
  rfl

abbrev TIx : Type := Fin 3 ⊕ OIx
abbrev tokOf (cj : Dev nD × TIx) : GSem nD τ sig × ℕ × Fin 3 := match cj.2 with
  | .inl e => (barCell cj.1, 0, e)
  | .inr (.inl he) => (sendCell cj.1 he.1 he.2, 0, 0)
  | .inr (.inr hj) => (recvCell cj.1 hj.1 hj.2, 0, 0)

theorem tokOf_injective : Function.Injective (tokOf : Dev nD × TIx → GSem nD τ sig × ℕ × Fin 3) := by
  rintro ⟨c, j⟩ ⟨c', j'⟩ heq
  have h1 : c = c' := by
    have := congrArg (fun x : GSem nD τ sig × ℕ × Fin 3 => x.1.1.1) heq
    rcases j with e | he | hj <;> rcases j' with e' | he' | hj' <;> exact this
  subst h1
  have hs := congrArg (fun x : GSem nD τ sig × ℕ × Fin 3 => x.1.2) heq
  have hd := congrArg (fun x : GSem nD τ sig × ℕ × Fin 3 => x.2.2) heq
  have key : j = j' := by
    rcases j with e | ⟨h, e⟩ | ⟨h, e⟩ <;> rcases j' with e' | ⟨h', e'⟩ | ⟨h', e'⟩ <;> simp only [tokOf] at hs hd
    · rw [hd]
    · cases hs
    · cases hs
    · cases hs
    · have hv := congrArg (fun s : SemLoc sig => match s with | .dma q => q.val | .reg _ => 0) hs
      simp only [sendSem_val] at hv
      have := h.isLt; have := e.isLt; have := h'.isLt; have := e'.isLt
      have h3 : h = h' := Fin.ext (by omega)
      have h4 : e = e' := Fin.ext (by omega)
      rw [h3, h4]
    · have hv := congrArg (fun s : SemLoc sig => match s with | .dma q => q.val | .reg _ => 0) hs
      simp only [sendSem_val, recvSem_val] at hv
      have := h.isLt; have := e.isLt; have := h'.isLt; have := e'.isLt
      omega
    · cases hs
    · have hv := congrArg (fun s : SemLoc sig => match s with | .dma q => q.val | .reg _ => 0) hs
      simp only [sendSem_val, recvSem_val] at hv
      have := h.isLt; have := e.isLt; have := h'.isLt; have := e'.isLt
      omega
    · have hv := congrArg (fun s : SemLoc sig => match s with | .dma q => q.val | .reg _ => 0) hs
      simp only [recvSem_val] at hv
      have := h.isLt; have := e.isLt; have := h'.isLt; have := e'.isLt
      have h3 : h = h' := Fin.ext (by omega)
      have h4 : e = e' := Fin.ext (by omega)
      rw [h3, h4]
  rw [key]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

def toks (c : Dev nD) : sProp 𝕄 :=
  iprop((bigSep Finset.univ fun e : Fin 3 => dutyTok ER (barCell c) 0 e)
    ∗ (bigSep Finset.univ fun he : Fin 4 × Fin 3 => dutyTok ER (sendCell c he.1 he.2) 0 0)
    ∗ (bigSep Finset.univ fun hj : Fin 4 × Fin 3 => dutyTok ER (recvCell c hj.1 hj.2) 0 0))

def G (c : Dev nD) : sProp 𝕄 :=
  iprop((bigSep Finset.univ fun k : Fin 25 => roundState ER (ringRd m) (kcell (c, k)) 0)
    ∗ (bigSep Finset.univ fun k : Fin 25 => iprop(atPos ER (kcell (c, k)) 0 ∅ 0 ∗ reached ER (kcell (c, k)) 0)) ∗ toks c)

def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun he : Fin 4 × Fin 3 => semVal (sendCell c he.1 he.2) 0)
        ∗ bigSep Finset.univ fun hj : Fin 4 × Fin 3 => semVal (recvCell c hj.1 hj.2) 0) := by
  unfold Pipeline.ownSems0; rw [bigSep_univ_sum]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, bigSep_cells25 c (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 25 => iprop(∃ κ : ℕ, cellInv ER (ringRd m) κ (kcell (c, k))))
          ∗ (bigSep Finset.univ fun k : Fin 25 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (ringRd m) (kcell (c, k)) 0)
      ⊢ (|={Set.univ}=> bigSep Finset.univ fun k : Fin 25 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  sl_close

instance records_persistent (K : Dev nD × Fin 25 → ℕ) : BI.Persistent (records m K) := by unfold records; infer_instance

theorem inv_at (K : Dev nD × Fin 25 → ℕ) (ck : Dev nD × Fin 25) : records m K ⊢ cellInv ER (ringRd m) (K ck) (kcell ck) := by
  unfold records; exact BI.sep_and.trans (and_elimL.trans (bigSep_elim (Finset.mem_univ ck)))
theorem reached_at (K : Dev nD × Fin 25 → ℕ) (ck : Dev nD × Fin 25) : records m K ⊢ reached ER (kcell ck) 0 := by
  unfold records; exact BI.sep_and.trans (and_elimR.trans (bigSep_elim (Finset.mem_univ ck)))

def shE (e : Fin 3) : Dev nD ≃ Dev nD where
  toFun c := sh c (e.val + 1)
  invFun c := sh c (3 - e.val)
  left_inv := by revert e; decide
  right_inv := by revert e; decide

def flipE : Fin 4 × Fin 3 ≃ Fin 4 × Fin 3 where
  toFun he := (he.1, ⟨2 - he.2.val, by omega⟩)
  invFun he := (he.1, ⟨2 - he.2.val, by omega⟩)
  left_inv := by decide
  right_inv := by decide

theorem toks_around : (bigSep Finset.univ fun c : Dev nD => (toks c : sProp 𝕄)) ⊢ bigSep Finset.univ fun c : Dev nD => payToks c := by
  have hB : (bigSep Finset.univ fun c : Dev nD => bigSep Finset.univ fun e : Fin 3 => (dutyTok ER (barCell c) 0 e : sProp 𝕄))
      = bigSep Finset.univ fun c : Dev nD => bigSep Finset.univ fun e : Fin 3 => dutyTok ER (barCell (sh c (e.val + 1))) 0 e := by
    rw [bigSep_univ_comm, bigSep_congr (fun (e : Fin 3) _ => bigSep_univ_equiv (shE e) (fun c : Dev nD => (dutyTok ER (barCell c) 0 e : sProp 𝕄))), bigSep_univ_comm]
    rfl
  have hR : (bigSep Finset.univ fun c : Dev nD => bigSep Finset.univ fun hj : Fin 4 × Fin 3 => (dutyTok ER (recvCell c hj.1 hj.2) 0 0 : sProp 𝕄))
      = bigSep Finset.univ fun c : Dev nD => bigSep Finset.univ fun he : Fin 4 × Fin 3 => dutyTok ER (recvCell (sh c (he.2.val + 1)) he.1 ⟨2 - he.2.val, by omega⟩) 0 0 := by
    rw [bigSep_univ_comm, bigSep_univ_equiv flipE,
      bigSep_congr (fun (he : Fin 4 × Fin 3) _ => bigSep_univ_equiv (shE he.2) (fun c : Dev nD => (dutyTok ER (recvCell c (flipE he).1 (flipE he).2) 0 0 : sProp 𝕄))), bigSep_univ_comm]
    rfl
  unfold toks payToks
  rw [bigSep_sep', bigSep_sep', bigSep_sep', bigSep_sep', hB, hR]
  iintro ⟨H1, H2, H3⟩
  sl_close

theorem ghost_intro (K : Dev nD × Fin 25 → ℕ) (c : Dev nD) : iprop(records m K ∗ positions c ∗ payToks c) ⊢ G' m c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 25 => iprop(∃ κ : ℕ, cellInv ER (ringRd m) κ (kcell (c, k))))
          ∗ (bigSep Finset.univ fun k : Fin 25 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 25 => iprop(∃ κ : ℕ, cellInv ER (ringRd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, #HR⟩, Htok⟩
  ihave HK := (BI.bigSep_exists_pi Finset.univ (fun (ck : Dev nD × Fin 25) (κ : ℕ) => (cellInv ER (ringRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    sl_close

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, HzS, HzV⟩
  isplitr; · iempintro
  isplitl [HzS HzV]
  · isplitl [HzS] <;> iassumption
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj 0
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_in (c : Dev nD) (w : Fin cfg0.W) (hw : (cfg0.win w).isOut = false) : finalA m ρ c w = m ((cfg0.win w).arr.view.loc (c : Thread nD τ)) :=
  (dats (F := F) m ρ 0 c).arrAt_in w hw _
theorem finalA_arg0 (c : Dev nD) : finalA m ρ c 0 = m ((c : Thread nD τ).loc main_arg0) := finalA_in m ρ c 0 rfl
theorem finalA_arg1 (c : Dev nD) : finalA m ρ c 1 = m ((c : Thread nD τ).loc main_arg1) := finalA_in m ρ c 1 rfl
theorem finalA_arg2 (c : Dev nD) : finalA m ρ c 2 = m ((c : Thread nD τ).loc main_arg2) := finalA_in m ρ c 2 rfl
theorem finalA_arg3 (c : Dev nD) : finalA m ρ c 3 = m ((c : Thread nD τ).loc main_arg3) := finalA_in m ρ c 3 rfl

theorem cut_out (X : (cc0_stg4_0 : Ref sig .tc).ty.Contents (Elt F)) : (cfg0.win 4).cut (cfg0.grid.coords t0_0) X = X := rfl
theorem after_out (c : Dev nD) : (dats (F := F) m ρ 0 c).after 4 t0_0 = outBlk m c := by dsimp only [dats]

theorem flushed_out (c : Dev nD) : (dats (F := F) m ρ 0 c).flushed 4 t0_0 = outBlk m c := by
  show (cfg0.win 4).cut (cfg0.grid.coords t0_0) ((dats (F := F) m ρ 0 c).after 4 t0_0) = _
  rw [after_out]; exact cut_out _

theorem finalA_out (c : Dev nD) : finalA m ρ c 4 = outBlk m c := by
  have hz : (fun a => (win0_4.index t0_0) a * (main_v1 : Ref sig .tc).ty.shape.size a) = fun _ => 0 :=
    funext fun a => by fin_cases a <;> decide
  have hw := fun f w => Memref.write_access_unit_zero_univ (Elt F) main_v1 hz (fun a => by fin_cases a <;> decide) f w
  have h1 : finalA m ρ c 4 = (dats (F := F) m ρ 0 c).arrAt 4 ((t0_0 : Fin cfg0.N).val + 1) := rfl
  rw [h1, Dat.arrAt_succ, flush0_4, if_pos rfl, flushed_out]
  exact hw _ _

theorem run_post (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outBlk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c 4).trans (finalA_out m ρ c), (h c 0).trans (finalA_arg0 m ρ c),
      (h c 1).trans (finalA_arg1 m ρ c), (h c 2).trans (finalA_arg2 m ρ c), (h c 3).trans (finalA_arg3 m ρ c)⟩)
    (run_main m ρ hbody)

end Cert.Kernel.Coll

end
-- ==== Proof.Kernel.Side.lean ====
import proofs.«900763_g7700000000000764_dist_diff_adaln_cshard_i_b2_s2048_c512_v7x_i4_bf16_1_alg».proof.Proof.Kernel.Steps2
import proofs.«900763_g7700000000000764_dist_diff_adaln_cshard_i_b2_s2048_c512_v7x_i4_bf16_1_alg».proof.Proof.Kernel.Launch

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem dev4_eq (c : Dev nD) : (⟨k0_dev4 c, k0_dev4_lt c⟩ : Dev nD) = sh c ((0 : Fin 3).val + 1) := by revert c; decide +kernel
theorem dev5_eq (c : Dev nD) : (⟨k0_dev5 c, k0_dev5_lt c⟩ : Dev nD) = sh c ((1 : Fin 3).val + 1) := by revert c; decide +kernel
theorem dev6_eq (c : Dev nD) : (⟨k0_dev6 c, k0_dev6_lt c⟩ : Dev nD) = sh c ((2 : Fin 3).val + 1) := by revert c; decide +kernel
theorem dev7_eq (c : Dev nD) : (⟨k0_dev7 c, k0_dev7_lt c⟩ : Dev nD) = sh c ((0 : Fin 3).val + 1) := by revert c; decide +kernel
theorem dev8_eq (c : Dev nD) : (⟨k0_dev8 c, k0_dev8_lt c⟩ : Dev nD) = sh c ((1 : Fin 3).val + 1) := by revert c; decide +kernel
theorem dev9_eq (c : Dev nD) : (⟨k0_dev9 c, k0_dev9_lt c⟩ : Dev nD) = sh c ((2 : Fin 3).val + 1) := by revert c; decide +kernel
theorem dev10_eq (c : Dev nD) : (⟨k0_dev10 c, k0_dev10_lt c⟩ : Dev nD) = sh c ((0 : Fin 3).val + 1) := by revert c; decide +kernel
theorem dev11_eq (c : Dev nD) : (⟨k0_dev11 c, k0_dev11_lt c⟩ : Dev nD) = sh c ((1 : Fin 3).val + 1) := by revert c; decide +kernel
theorem dev12_eq (c : Dev nD) : (⟨k0_dev12 c, k0_dev12_lt c⟩ : Dev nD) = sh c ((2 : Fin 3).val + 1) := by revert c; decide +kernel
theorem dev13_eq (c : Dev nD) : (⟨k0_dev13 c, k0_dev13_lt c⟩ : Dev nD) = sh c ((0 : Fin 3).val + 1) := by revert c; decide +kernel
theorem dev14_eq (c : Dev nD) : (⟨k0_dev14 c, k0_dev14_lt c⟩ : Dev nD) = sh c ((1 : Fin 3).val + 1) := by revert c; decide +kernel
theorem dev15_eq (c : Dev nD) : (⟨k0_dev15 c, k0_dev15_lt c⟩ : Dev nD) = sh c ((2 : Fin 3).val + 1) := by revert c; decide +kernel

theorem bigSep_fin4x3 (Φ : Fin 4 × Fin 3 → sProp 𝕄) :
    bigSep Finset.univ Φ = iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2)) :=
  bigSep_univ_eq_bigSepL [(0, 0), (0, 1), (0, 2), (1, 0), (1, 1), (1, 2), (2, 0), (2, 1), (2, 2), (3, 0), (3, 1), (3, 2)] (by decide) (by decide) Φ

end Cert.Kernel.Coll
end
-- ==== Proof.Kernel.Pieces.lean ====
import proofs.«900763_g7700000000000764_dist_diff_adaln_cshard_i_b2_s2048_c512_v7x_i4_bf16_1_alg».proof.Proof.Kernel.Sched

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem ownSl_set (h : Fin 4) : (ownSl h).view.set = (ownRect h).set := by
  simp only [Memref.view_squeeze, Memref.view_slice, Memref.view_whole, View.set_reshape, View.set_slice_whole]

theorem commSl_set (h : Fin 4) (j : Fin 3) : (commSl h j).view.set = (slotRect h j).set := by
  simp only [Memref.view_squeeze, Memref.view_slice, Memref.view_whole, View.set_reshape, View.set_slice_whole]

theorem own_sep : ∀ h h' : Fin 4, h ≠ h' →
    (![h.val, 0, 0] : Fin 3 → Nat) 0 + S1x4x512.size 0 ≤ (![h'.val, 0, 0] : Fin 3 → Nat) 0
      ∨ (![h'.val, 0, 0] : Fin 3 → Nat) 0 + S1x4x512.size 0 ≤ (![h.val, 0, 0] : Fin 3 → Nat) 0 := by decide
theorem slot_sep0 : ∀ (h h' : Fin 4) (j j' : Fin 3), h ≠ h' →
    (![h.val, j.val, 0, 0] : Fin 4 → Nat) 0 + S1x1x4x512.size 0 ≤ (![h'.val, j'.val, 0, 0] : Fin 4 → Nat) 0
      ∨ (![h'.val, j'.val, 0, 0] : Fin 4 → Nat) 0 + S1x1x4x512.size 0 ≤ (![h.val, j.val, 0, 0] : Fin 4 → Nat) 0 := by decide
theorem slot_sep1 : ∀ (h h' : Fin 4) (j j' : Fin 3), j ≠ j' →
    (![h.val, j.val, 0, 0] : Fin 4 → Nat) 1 + S1x1x4x512.size 1 ≤ (![h'.val, j'.val, 0, 0] : Fin 4 → Nat) 1
      ∨ (![h'.val, j'.val, 0, 0] : Fin 4 → Nat) 1 + S1x1x4x512.size 1 ≤ (![h.val, j.val, 0, 0] : Fin 4 → Nat) 1 := by decide

theorem ownRect_disjoint {h h' : Fin 4} (hne : h ≠ h') : Disjoint (ownRect h).set (ownRect h').set :=
  Rect.unit_disjoint 0 (own_sep h h' hne)

theorem slotRect_disjoint {h h' : Fin 4} {j j' : Fin 3} (hne : (h, j) ≠ (h', j')) :
    Disjoint (slotRect h j).set (slotRect h' j').set := by
  by_cases hh : h = h'
  · have hj : j ≠ j' := fun e => hne (by rw [hh, e])
    exact Rect.unit_disjoint 1 (slot_sep1 h h' j j' hj)
  · exact Rect.unit_disjoint 0 (slot_sep0 h h' j j' hh)

theorem ownRect_cover (i : S4x4x512.Idx) : ∃ h : Fin 4, i ∈ (ownRect h).set := by
  refine ⟨i 0, ?_⟩
  rw [Rect.mem_set_unit]
  intro a
  fin_cases a
  · exact ⟨le_rfl, Nat.lt_succ_self _⟩
  · exact ⟨Nat.zero_le _, by have := (i 1).isLt; simpa using this⟩
  · exact ⟨Nat.zero_le _, by have := (i 2).isLt; simpa using this⟩

theorem slotRect_cover (i : S4x3x4x512.Idx) : ∃ hj : Fin 4 × Fin 3, i ∈ (slotRect hj.1 hj.2).set := by
  refine ⟨(i 0, i 1), ?_⟩
  rw [Rect.mem_set_unit]
  intro a
  fin_cases a
  · exact ⟨le_rfl, Nat.lt_succ_self _⟩
  · exact ⟨le_rfl, Nat.lt_succ_self _⟩
  · exact ⟨Nat.zero_le _, by have := (i 2).isLt; simpa using this⟩
  · exact ⟨Nat.zero_le _, by have := (i 3).isLt; simpa using this⟩

theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]
  rfl

abbrev ownK (c : Dev nD) (h : Fin 4) : Finset (Idx ((c : Thread nD τ).loc cc0_scratch0)) := (ownSl h).view.set

abbrev commK (c : Dev nD) (jh : Fin 3 × Fin 4) : Finset (Idx ((c : Thread nD τ).loc cc0_scratch1)) := (commSl jh.2 jh.1).view.set

theorem ownK_disjoint (c : Dev nD) : ∀ t ∈ (Finset.univ : Finset (Fin 4)), ∀ t' ∈ (Finset.univ : Finset (Fin 4)), t ≠ t' →
    Disjoint (ownK c t) (ownK c t') := fun t _ t' _ hne => by
  unfold ownK; rw [ownSl_set, ownSl_set]; exact ownRect_disjoint hne

theorem commK_disjoint (c : Dev nD) : ∀ t ∈ (Finset.univ : Finset (Fin 3 × Fin 4)), ∀ t' ∈ (Finset.univ : Finset (Fin 3 × Fin 4)), t ≠ t' →
    Disjoint (commK c t) (commK c t') := fun t _ t' _ hne => by
  unfold commK; rw [commSl_set, commSl_set]
  exact slotRect_disjoint fun e => hne (Prod.ext (congrArg Prod.snd e) (congrArg Prod.fst e))

theorem ownK_cover (c : Dev nD) : (Finset.univ : Finset (Fin 4)).biUnion (ownK c) = Finset.univ := by
  ext i
  simp only [Finset.mem_biUnion, Finset.mem_univ, true_and, iff_true]
  obtain ⟨h, hh⟩ := ownRect_cover i
  exact ⟨h, by unfold ownK; rw [ownSl_set]; exact hh⟩

theorem commK_cover (c : Dev nD) : (Finset.univ : Finset (Fin 3 × Fin 4)).biUnion (commK c) = Finset.univ := by
  ext i
  simp only [Finset.mem_biUnion, Finset.mem_univ, true_and, iff_true]
  obtain ⟨hj, hh⟩ := slotRect_cover i
  exact ⟨(hj.2, hj.1), by unfold commK; rw [commSl_set]; exact hh⟩

theorem own_split_eq (c : Dev nD) (q : PosShare TreeShare) (f : Buf (Elt F) ((c : Thread nD τ).loc cc0_scratch0)) :
    ((((c : Thread nD τ).loc cc0_scratch0) ↦{q} f : sProp 𝕄))
      = iprop(ownPts c 0 q f ∗ ownPts c 1 q f ∗ ownPts c 2 q f ∗ ownPts c 3 q f) := by
  have h : ((((c : Thread nD τ).loc cc0_scratch0) ↦[(Finset.univ : Finset (Fin 4)).biUnion (ownK c)]{q} f : sProp 𝕄))
      = bigSep Finset.univ fun h : Fin 4 => ownPts c h q f := pointsTo_biUnion _ _ (ownK_disjoint c)
  rw [ownK_cover, bigSep_fin_four] at h
  exact h

theorem own_split (c : Dev nD) (q : PosShare TreeShare) (f : Buf (Elt F) ((c : Thread nD τ).loc cc0_scratch0)) :
    ((((c : Thread nD τ).loc cc0_scratch0) ↦{q} f : sProp 𝕄))
      ⊢ iprop(ownPts c 0 q f ∗ ownPts c 1 q f ∗ ownPts c 2 q f ∗ ownPts c 3 q f) :=
  Entails.of_eq (own_split_eq c q f)

theorem own_join (c : Dev nD) (q : PosShare TreeShare) (f0 f1 f2 f3 : Buf (Elt F) ((c : Thread nD τ).loc cc0_scratch0)) :
    iprop(ownPts c 0 q f0 ∗ ownPts c 1 q f1 ∗ ownPts c 2 q f2 ∗ ownPts c 3 q f3)
      ⊢ (iprop(∃ f, ((c : Thread nD τ).loc cc0_scratch0) ↦{q} f) : sProp 𝕄) := by
  have hj := pointsTo_biUnion_join (Ix := Unit) (Name := ℕ) (U := UU) (Lvl := ℕ) (ℓ := (c : Thread nD τ).loc cc0_scratch0) (q := q)
    (Finset.univ : Finset (Fin 4)) (ownK c) ![f0, f1, f2, f3] f0 (ownK_disjoint c)
  rw [ownK_cover, bigSep_fin_four] at hj
  refine hj.trans ?_
  iintro ⟨%g, -, H⟩; iexists g; iexact H

theorem comm_split_eq (c : Dev nD) (q : PosShare TreeShare) (f : Buf (Elt F) ((c : Thread nD τ).loc cc0_scratch1)) :
    ((((c : Thread nD τ).loc cc0_scratch1) ↦{q} f : sProp 𝕄))
      = iprop((((commSl 0 0).view.loc (c : Thread nD τ) ↦[(commSl 0 0).view.set]{q} f) ∗ ((commSl 1 0).view.loc (c : Thread nD τ) ↦[(commSl 1 0).view.set]{q} f)
            ∗ ((commSl 2 0).view.loc (c : Thread nD τ) ↦[(commSl 2 0).view.set]{q} f) ∗ ((commSl 3 0).view.loc (c : Thread nD τ) ↦[(commSl 3 0).view.set]{q} f))
        ∗ (((commSl 0 1).view.loc (c : Thread nD τ) ↦[(commSl 0 1).view.set]{q} f) ∗ ((commSl 1 1).view.loc (c : Thread nD τ) ↦[(commSl 1 1).view.set]{q} f)
            ∗ ((commSl 2 1).view.loc (c : Thread nD τ) ↦[(commSl 2 1).view.set]{q} f) ∗ ((commSl 3 1).view.loc (c : Thread nD τ) ↦[(commSl 3 1).view.set]{q} f))
        ∗ (((commSl 0 2).view.loc (c : Thread nD τ) ↦[(commSl 0 2).view.set]{q} f) ∗ ((commSl 1 2).view.loc (c : Thread nD τ) ↦[(commSl 1 2).view.set]{q} f)
            ∗ ((commSl 2 2).view.loc (c : Thread nD τ) ↦[(commSl 2 2).view.set]{q} f) ∗ ((commSl 3 2).view.loc (c : Thread nD τ) ↦[(commSl 3 2).view.set]{q} f))) := by
  have h : ((((c : Thread nD τ).loc cc0_scratch1) ↦[(Finset.univ : Finset (Fin 3 × Fin 4)).biUnion (commK c)]{q} f : sProp 𝕄))
      = bigSep Finset.univ fun jh : Fin 3 × Fin 4 => ((c : Thread nD τ).loc cc0_scratch1) ↦[commK c jh]{q} f := pointsTo_biUnion _ _ (commK_disjoint c)
  rw [commK_cover, bigSep_univ_prod, bigSep_fin3] at h
  simp only [bigSep_fin_four] at h
  exact h

theorem comm_split (c : Dev nD) (f : Buf (Elt F) ((c : Thread nD τ).loc cc0_scratch1)) :
    ((((c : Thread nD τ).loc cc0_scratch1) ↦{fullShare} f : sProp 𝕄))
      ⊢ iprop((slotPts c 0 0 f ∗ slotPts c 1 0 f ∗ slotPts c 2 0 f ∗ slotPts c 3 0 f)
        ∗ (slotPts c 0 1 f ∗ slotPts c 1 1 f ∗ slotPts c 2 1 f ∗ slotPts c 3 1 f)
        ∗ (slotPts c 0 2 f ∗ slotPts c 1 2 f ∗ slotPts c 2 2 f ∗ slotPts c 3 2 f)) :=
  Entails.of_eq (comm_split_eq c fullShare f)

theorem comm_join (c : Dev nD) (g : Fin 4 → Fin 3 → Buf (Elt F) ((c : Thread nD τ).loc cc0_scratch1)) :
    iprop((slotPts c 0 0 (g 0 0) ∗ slotPts c 1 0 (g 1 0) ∗ slotPts c 2 0 (g 2 0) ∗ slotPts c 3 0 (g 3 0))
        ∗ (slotPts c 0 1 (g 0 1) ∗ slotPts c 1 1 (g 1 1) ∗ slotPts c 2 1 (g 2 1) ∗ slotPts c 3 1 (g 3 1))
        ∗ (slotPts c 0 2 (g 0 2) ∗ slotPts c 1 2 (g 1 2) ∗ slotPts c 2 2 (g 2 2) ∗ slotPts c 3 2 (g 3 2)))
      ⊢ (iprop(∃ f, ((c : Thread nD τ).loc cc0_scratch1) ↦{fullShare} f) : sProp 𝕄) := by
  have hj := pointsTo_biUnion_join (Ix := Unit) (Name := ℕ) (U := UU) (Lvl := ℕ) (ℓ := (c : Thread nD τ).loc cc0_scratch1) (q := fullShare)
    (Finset.univ : Finset (Fin 3 × Fin 4)) (commK c) (fun jh => g jh.2 jh.1) (g 0 0) (commK_disjoint c)
  rw [commK_cover, bigSep_univ_prod, bigSep_fin3] at hj
  simp only [bigSep_fin_four] at hj
  refine hj.trans ?_
  iintro ⟨%g', -, H⟩; iexists g'; iexact H

theorem pts_quarters {ℓ : Loc nD τ sig} (I : Finset (Idx ℓ)) (q : PosShare TreeShare) (f : Buf (Elt F) ℓ) :
    (ℓ ↦[I]{q} f : sProp 𝕄)
      ⊢ iprop((ℓ ↦[I]{q.left.left} f) ∗ (ℓ ↦[I]{q.left.right} f) ∗ (ℓ ↦[I]{q.right.left} f) ∗ ℓ ↦[I]{q.right.right} f) := by
  iintro H
  ihave ⟨Hl, Hr⟩ := (pointsTo_share (PosShare.mem_left_op_right q)).1 $$ H
  ihave ⟨Hll, Hlr⟩ := (pointsTo_share (PosShare.mem_left_op_right q.left)).1 $$ Hl
  ihave ⟨Hrl, Hrr⟩ := (pointsTo_share (PosShare.mem_left_op_right q.right)).1 $$ Hr
  sl_close

theorem pts_quarters_join {ℓ : Loc nD τ sig} (I : Finset (Idx ℓ)) (q : PosShare TreeShare) (f : Buf (Elt F) ℓ) :
    iprop((ℓ ↦[I]{q.left.left} f) ∗ (ℓ ↦[I]{q.left.right} f) ∗ (ℓ ↦[I]{q.right.left} f) ∗ ℓ ↦[I]{q.right.right} f)
      ⊢ (ℓ ↦[I]{q} f : sProp 𝕄) := by
  iintro ⟨Hll, Hlr, Hrl, Hrr⟩
  iapply (pointsTo_share (PosShare.mem_left_op_right q)).2
  isplitl [Hll Hlr]
  · iapply (pointsTo_share (PosShare.mem_left_op_right q.left)).2
    sl_close
  · iapply (pointsTo_share (PosShare.mem_left_op_right q.right)).2
    sl_close

theorem pts_agree_congr {ℓ : Loc nD τ sig} (I : Finset (Idx ℓ)) (q₁ q₂ : PosShare TreeShare) (f g : Buf (Elt F) ℓ) :
    iprop((ℓ ↦[I]{q₁} f) ∗ ℓ ↦[I]{q₂} g) ⊢ (iprop((ℓ ↦[I]{q₁} g) ∗ ℓ ↦[I]{q₂} g) : sProp 𝕄) := by
  refine pure_elim _ pointsTo_agree fun hag => ?_
  rw [pointsTo_congr (q := q₁) (f := f) (g := g) (fun i hi => (hag i (Finset.mem_inter.mpr ⟨hi, hi⟩)).1)]

theorem qLent_zero : qLent 0 = fullShare.left.left := rfl
theorem qLent_one : qLent 1 = fullShare.left.right := rfl
theorem qLent_two : qLent 2 = fullShare.right.left := rfl

theorem own_quarters (c : Dev nD) (h : Fin 4) (f : Buf (Elt F) ((ownSl h).view.loc (c : Thread nD τ))) :
    (ownPts c h fullShare f : sProp 𝕄)
      ⊢ iprop(ownPts c h (qLent 0) f ∗ ownPts c h (qLent 1) f ∗ ownPts c h (qLent 2) f ∗ ownPts c h qKept f) :=
  pts_quarters _ fullShare f

-- Four holders of one table, each at its own contents, agree on it, so the kept quarter's contents serve for the whole share.
theorem own_quarters_join' (c : Dev nD) (h : Fin 4) (f0 f1 f2 f3 : Buf (Elt F) ((ownSl h).view.loc (c : Thread nD τ))) :
    iprop(ownPts c h (qLent 0) f0 ∗ ownPts c h (qLent 1) f1 ∗ ownPts c h (qLent 2) f2 ∗ ownPts c h qKept f3)
      ⊢ (ownPts c h fullShare f3 : sProp 𝕄) := by
  unfold ownPts
  rw [qLent_zero, qLent_one, qLent_two]
  iintro ⟨H0, H1, H2, H3⟩
  ihave ⟨H0, H3⟩ := (pts_agree_congr (F := F) (ownSl h).view.set fullShare.left.left qKept f0 f3) $$ [H0 H3]
  · sl_close
  ihave ⟨H1, H3⟩ := (pts_agree_congr (F := F) (ownSl h).view.set fullShare.left.right qKept f1 f3) $$ [H1 H3]
  · sl_close
  ihave ⟨H2, H3⟩ := (pts_agree_congr (F := F) (ownSl h).view.set fullShare.right.left qKept f2 f3) $$ [H2 H3]
  · sl_close
  iapply (pts_quarters_join (F := F) (ownSl h).view.set fullShare f3)
  sl_close

variable (m : (ℓ : Loc nD τ sig) → Buf (Elt F) ℓ)

theorem ownHeld_quarters (c : Dev nD) (h : Fin 4) :
    (ownHeld m c h fullShare : sProp 𝕄)
      ⊢ iprop(ownHeld m c h (qLent 0) ∗ ownHeld m c h (qLent 1) ∗ ownHeld m c h (qLent 2) ∗ ownHeld m c h qKept) := by
  unfold ownHeld
  iintro ⟨%f, %hf, H⟩
  ihave ⟨H0, H1, H2, H3⟩ := (own_quarters c h f) $$ H
  isplitl [H0]; · iexists f; isplitr; · ipureintro; exact hf
                  iexact H0
  isplitl [H1]; · iexists f; isplitr; · ipureintro; exact hf
                  iexact H1
  isplitl [H2]; · iexists f; isplitr; · ipureintro; exact hf
                  iexact H2
  iexists f; isplitr; · ipureintro; exact hf
  iexact H3

theorem ownHeld_join (c : Dev nD) (h : Fin 4) :
    iprop(ownHeld m c h (qLent 0) ∗ ownHeld m c h (qLent 1) ∗ ownHeld m c h (qLent 2) ∗ ownHeld m c h qKept)
      ⊢ (ownHeld m c h fullShare : sProp 𝕄) := by
  unfold ownHeld
  iintro ⟨⟨%f0, -, H0⟩, ⟨%f1, -, H1⟩, ⟨%f2, -, H2⟩, ⟨%f3, %hf3, H3⟩⟩
  iexists f3
  isplitr; · ipureintro; exact hf3
  iapply (own_quarters_join' c h f0 f1 f2 f3)
  sl_close

theorem own_stored (c : Dev nD) (h : Fin 4)
    (f : Buf (Elt F) ((c : Thread nD τ).loc cc0_scratch0)) (w : (ownRect h).shape.Idx → Elt F .f32) :
    (ownM : Memref sig .tc .vmem S4x4x512 .f32).view.readAt (Elt F) (ownRect h).toLoadRect
      (((ownM : Memref sig .tc .vmem S4x4x512 .f32).access (ownRect h)).write (Elt F) f w Finset.univ) = w :=
  View.read_write_univ (v := (ownM : Memref sig .tc .vmem S4x4x512 .f32).access (ownRect h)) f w

theorem landed_read_of (c s : Dev nD) (h : Fin 4) (j : Fin 3) (hs : sh c (j.val + 1) = s)
    (fs : Buf (Elt F) ((ownSl h).view.loc (s : Thread nD τ)))
    (hfs : (ownM : Memref sig .tc .vmem S4x4x512 .f32).view.readAt (Elt F) (ownRect h).toLoadRect fs = ownV m s h)
    (fd : Buf (Elt F) ((commSl h j).view.loc (c : Thread nD τ))) :
    (commM : Memref sig .tc .vmem S4x3x4x512 .f32).view.readAt (Elt F) (slotRect h j).toLoadRect
      ((commSl h j).view.write (Elt F) fd ((ownSl h).view.read (Elt F) fs) Finset.univ) = commV m c h j := by
  subst hs
  have hr : (ownSl h).view.read (Elt F) fs = shapeCast S4x512 (ownV m (sh c (j.val + 1)) h) shapeCasts_S1x4x512_S4x512 := by
    rw [← hfs]; rfl
  rw [hr]
  show ((commM : Memref sig .tc .vmem S4x3x4x512 .f32).view.slice (slotRect h j)).read (Elt F)
    ((((commM : Memref sig .tc .vmem S4x3x4x512 .f32).view.slice (slotRect h j)).reshape S4x512 squeezes_S1x1x4x512_S4x512.numel_eq).write (Elt F) fd _ Finset.univ) = _
  rw [View.write_reshape_univ, View.read_write_univ]
  funext x
  unfold commV shapeCast
  rw [Shape.reshapeEquiv_symm]

abbrev slotAt (d : Fin 3) : Fin 3 := ⟨2 - d.val, by omega⟩

theorem sh_back (c : Dev nD) (d : Fin 3) : sh (sh c (d.val + 1)) ((slotAt d).val + 1) = c := by
  rw [sh_sh, show d.val + 1 + ((slotAt d).val + 1) = 4 from by have := d.isLt; show d.val + 1 + (2 - d.val + 1) = 4; omega]
  exact sh_four c

theorem landing (c : Dev nD) (h : Fin 4) (d : Fin 3)
    (fs : Buf (Elt F) ((ownSl h).view.loc (c : Thread nD τ)))
    (fd : Buf (Elt F) ((commSl h (slotAt d)).view.loc ((sh c (d.val + 1) : Dev nD) : Thread nD τ)))
    (hfs : (ownM : Memref sig .tc .vmem S4x4x512 .f32).view.readAt (Elt F) (ownRect h).toLoadRect fs = ownV m c h) :
    (commM : Memref sig .tc .vmem S4x3x4x512 .f32).view.readAt (Elt F) (slotRect h (slotAt d)).toLoadRect
      ((commSl h (slotAt d)).view.write (Elt F) fd ((ownSl h).view.read (Elt F) fs) Finset.univ)
        = commV m (sh c (d.val + 1)) h (slotAt d) :=
  landed_read_of m (sh c (d.val + 1)) c h (slotAt d) (sh_back c d) fs hfs fd

theorem setOn_whole {κ : Kind} (b : Ref sig κ) (M : Finset b.ty.shape.Idx) : (View.whole b : View sig κ _ _ _).setOn M = M :=
  Finset.map_refl

theorem own_load_sub (h : Fin 4) :
    (ownM : Memref sig .tc .vmem S4x4x512 .f32).view.setOn (ownRect h).toLoadRect.set ⊆ (ownSl h).view.set := by
  rw [ownSl_set]; exact (setOn_whole _ _).subset

theorem slot_load_sub (h : Fin 4) (j : Fin 3) :
    (commM : Memref sig .tc .vmem S4x3x4x512 .f32).view.setOn (slotRect h j).toLoadRect.set ⊆ (commSl h j).view.set := by
  rw [commSl_set]; exact (setOn_whole _ _).subset

theorem own_store_sub (h : Fin 4) :
    ((ownM : Memref sig .tc .vmem S4x4x512 .f32).access (ownRect h)).setOn Finset.univ ⊆ (ownSl h).view.set := by
  rw [ownSl_set, View.setOn_univ, View.set_slice_whole]

theorem wp_load_own (c : Dev nD) (h : Fin 4) (q : PosShare TreeShare) (f : Buf (Elt F) ((ownSl h).view.loc (c : Thread nD τ)))
    {hl : (ownM : Memref sig .tc .vmem S4x4x512 .f32).view.LoadsAt (ownRect h).toLoadRect}
    {α : Type} {Q : α → sProp 𝕄} {k : Vec F S1x4x512 .f32 → Prog (TpuEff nD τ sig (Elt F) Λ₀ .tc) α} :
    (ownPts c h q f : sProp 𝕄)
      ⊢ iprop((ownPts c h q f -∗ wp frame (wpE (defs₀ (F := F)) 𝒱₀ (c : Thread nD τ) none) Set.univ
            (k ((ownM : Memref sig .tc .vmem S4x4x512 .f32).view.readAt (Elt F) (ownRect h).toLoadRect f)) Q)
        -∗ wp frame (wpE (defs₀ (F := F)) 𝒱₀ (c : Thread nD τ) none) Set.univ (.op (.load ownM (ownRect h).toLoadRect hl) k) Q) := by
  unfold ownPts
  exact wp_load 𝒱₀ (c : Thread nD τ) none Set.univ (m := ownM) (r := (ownRect h).toLoadRect) (own_load_sub h)

theorem wp_load_ownHeld (c : Dev nD) (h : Fin 4) (q : PosShare TreeShare)
    {hl : (ownM : Memref sig .tc .vmem S4x4x512 .f32).view.LoadsAt (ownRect h).toLoadRect}
    {α : Type} {Q : α → sProp 𝕄} {k : Vec F S1x4x512 .f32 → Prog (TpuEff nD τ sig (Elt F) Λ₀ .tc) α} :
    (ownHeld m c h q : sProp 𝕄)
      ⊢ iprop((ownHeld m c h q -∗ wp frame (wpE (defs₀ (F := F)) 𝒱₀ (c : Thread nD τ) none) Set.univ (k (ownV m c h)) Q)
        -∗ wp frame (wpE (defs₀ (F := F)) 𝒱₀ (c : Thread nD τ) none) Set.univ (.op (.load ownM (ownRect h).toLoadRect hl) k) Q) := by
  unfold ownHeld
  iintro ⟨%f, %hf, H⟩ Hk
  iapply (wp_load_own c h q f) $$ H
  iintro H
  rw [hf]
  iapply Hk
  iexists f
  isplitr; · ipureintro; exact hf
  iexact H

theorem wp_load_slot (c : Dev nD) (h : Fin 4) (j : Fin 3) (g : Buf (Elt F) ((commSl h j).view.loc (c : Thread nD τ)))
    {hl : (commM : Memref sig .tc .vmem S4x3x4x512 .f32).view.LoadsAt (slotRect h j).toLoadRect}
    {α : Type} {Q : α → sProp 𝕄} {k : Vec F S1x1x4x512 .f32 → Prog (TpuEff nD τ sig (Elt F) Λ₀ .tc) α} :
    (slotPts c h j g : sProp 𝕄)
      ⊢ iprop((slotPts c h j g -∗ wp frame (wpE (defs₀ (F := F)) 𝒱₀ (c : Thread nD τ) none) Set.univ
            (k ((commM : Memref sig .tc .vmem S4x3x4x512 .f32).view.readAt (Elt F) (slotRect h j).toLoadRect g)) Q)
        -∗ wp frame (wpE (defs₀ (F := F)) 𝒱₀ (c : Thread nD τ) none) Set.univ (.op (.load commM (slotRect h j).toLoadRect hl) k) Q) := by
  unfold slotPts
  exact wp_load 𝒱₀ (c : Thread nD τ) none Set.univ (m := commM) (r := (slotRect h j).toLoadRect) (slot_load_sub h j)

theorem wp_load_landed (c : Dev nD) (h : Fin 4) (j : Fin 3)
    {hl : (commM : Memref sig .tc .vmem S4x3x4x512 .f32).view.LoadsAt (slotRect h j).toLoadRect}
    {α : Type} {Q : α → sProp 𝕄} {k : Vec F S1x1x4x512 .f32 → Prog (TpuEff nD τ sig (Elt F) Λ₀ .tc) α} :
    (slotLanded m c h j : sProp 𝕄)
      ⊢ iprop((slotLanded m c h j -∗ wp frame (wpE (defs₀ (F := F)) 𝒱₀ (c : Thread nD τ) none) Set.univ (k (commV m c h j)) Q)
        -∗ wp frame (wpE (defs₀ (F := F)) 𝒱₀ (c : Thread nD τ) none) Set.univ (.op (.load commM (slotRect h j).toLoadRect hl) k) Q) := by
  unfold slotLanded
  iintro ⟨%g, %hg, H⟩ Hk
  iapply (wp_load_slot c h j g) $$ H
  iintro H
  rw [hg]
  iapply Hk
  iexists g
  isplitr; · ipureintro; exact hg
  iexact H

theorem wp_store_own_raw (c : Dev nD) (h : Fin 4) (f : Buf (Elt F) ((ownSl h).view.loc (c : Thread nD τ))) (w : FVec F S1x4x512 .f32)
    {hx : ((ownM : Memref sig .tc .vmem S4x4x512 .f32).access (ownRect h)).Stores Finset.univ}
    {hm : (Finset.univ : Finset (ownRect h).shape.Idx) = Finset.univ ∨ ∀ a, (ownRect h).stride a = 1}
    {α : Type} {Q : α → sProp 𝕄} {k : PUnit → Prog (TpuEff nD τ sig (Elt F) Λ₀ .tc) α} :
    (ownPts c h fullShare f : sProp 𝕄)
      ⊢ iprop((ownPts c h fullShare (((ownM : Memref sig .tc .vmem S4x4x512 .f32).access (ownRect h)).write (Elt F) f w Finset.univ)
            -∗ wp frame (wpE (defs₀ (F := F)) 𝒱₀ (c : Thread nD τ) none) Set.univ (k ⟨⟩) Q)
        -∗ wp frame (wpE (defs₀ (F := F)) 𝒱₀ (c : Thread nD τ) none) Set.univ (.op (.store ownM (ownRect h) w Finset.univ hx hm) k) Q) := by
  unfold ownPts
  exact wp_store 𝒱₀ (c : Thread nD τ) none Set.univ (m := ownM) (r := ownRect h) (Mk := Finset.univ) (own_store_sub h)

theorem wp_store_own (c : Dev nD) (h : Fin 4) (f : Buf (Elt F) ((ownSl h).view.loc (c : Thread nD τ))) (w : FVec F S1x4x512 .f32)
    {hx : ((ownM : Memref sig .tc .vmem S4x4x512 .f32).access (ownRect h)).Stores Finset.univ}
    {hm : (Finset.univ : Finset (ownRect h).shape.Idx) = Finset.univ ∨ ∀ a, (ownRect h).stride a = 1}
    {α : Type} {Q : α → sProp 𝕄} {k : PUnit → Prog (TpuEff nD τ sig (Elt F) Λ₀ .tc) α} :
    (ownPts c h fullShare f : sProp 𝕄)
      ⊢ iprop(((∃ f', ⌜(ownM : Memref sig .tc .vmem S4x4x512 .f32).view.readAt (Elt F) (ownRect h).toLoadRect f' = w⌝ ∗ ownPts c h fullShare f')
            -∗ wp frame (wpE (defs₀ (F := F)) 𝒱₀ (c : Thread nD τ) none) Set.univ (k ⟨⟩) Q)
        -∗ wp frame (wpE (defs₀ (F := F)) 𝒱₀ (c : Thread nD τ) none) Set.univ (.op (.store ownM (ownRect h) w Finset.univ hx hm) k) Q) := by
  iintro H Hk
  iapply (wp_store_own_raw c h f w) $$ H
  iintro H
  iapply Hk
  iexists _
  isplitr; · ipureintro; exact own_stored c h f w
  iexact H

theorem wp_store_ownHeld (c : Dev nD) (h : Fin 4) (f : Buf (Elt F) ((ownSl h).view.loc (c : Thread nD τ)))
    {hx : ((ownM : Memref sig .tc .vmem S4x4x512 .f32).access (ownRect h)).Stores Finset.univ}
    {hm : (Finset.univ : Finset (ownRect h).shape.Idx) = Finset.univ ∨ ∀ a, (ownRect h).stride a = 1}
    {α : Type} {Q : α → sProp 𝕄} {k : PUnit → Prog (TpuEff nD τ sig (Elt F) Λ₀ .tc) α} :
    (ownPts c h fullShare f : sProp 𝕄)
      ⊢ iprop((ownHeld m c h fullShare -∗ wp frame (wpE (defs₀ (F := F)) 𝒱₀ (c : Thread nD τ) none) Set.univ (k ⟨⟩) Q)
        -∗ wp frame (wpE (defs₀ (F := F)) 𝒱₀ (c : Thread nD τ) none) Set.univ (.op (.store ownM (ownRect h) (ownV m c h) Finset.univ hx hm) k) Q) :=
  wp_store_own c h f (ownV m c h)

theorem slotFree_of_landed (c : Dev nD) (h : Fin 4) (j : Fin 3) : (slotLanded m c h j : sProp 𝕄) ⊢ slotFree c h j := by
  unfold slotLanded slotFree; iintro ⟨%g, -, H⟩; iexists g; iexact H

theorem comm_join12 (c : Dev nD) (g00 g10 g20 g30 g01 g11 g21 g31 g02 g12 g22 g32 : Buf (Elt F) ((c : Thread nD τ).loc cc0_scratch1)) :
    iprop((slotPts c 0 0 g00 ∗ slotPts c 1 0 g10 ∗ slotPts c 2 0 g20 ∗ slotPts c 3 0 g30)
        ∗ (slotPts c 0 1 g01 ∗ slotPts c 1 1 g11 ∗ slotPts c 2 1 g21 ∗ slotPts c 3 1 g31)
        ∗ (slotPts c 0 2 g02 ∗ slotPts c 1 2 g12 ∗ slotPts c 2 2 g22 ∗ slotPts c 3 2 g32))
      ⊢ (iprop(∃ f, ((c : Thread nD τ).loc cc0_scratch1) ↦{fullShare} f) : sProp 𝕄) :=
  comm_join c (fun h j => ![![g00, g01, g02], ![g10, g11, g12], ![g20, g21, g22], ![g30, g31, g32]] h j)

theorem comm_join_free (c : Dev nD) :
    iprop((slotFree c 0 0 ∗ slotFree c 1 0 ∗ slotFree c 2 0 ∗ slotFree c 3 0)
        ∗ (slotFree c 0 1 ∗ slotFree c 1 1 ∗ slotFree c 2 1 ∗ slotFree c 3 1)
        ∗ (slotFree c 0 2 ∗ slotFree c 1 2 ∗ slotFree c 2 2 ∗ slotFree c 3 2))
      ⊢ (iprop(∃ f : Buf (Elt F) ((c : Thread nD τ).loc cc0_scratch1), ((c : Thread nD τ).loc cc0_scratch1) ↦{fullShare} f) : sProp 𝕄) := by
  unfold slotFree
  iintro ⟨⟨⟨%g00, H00⟩, ⟨%g10, H10⟩, ⟨%g20, H20⟩, ⟨%g30, H30⟩⟩, ⟨⟨%g01, H01⟩, ⟨%g11, H11⟩, ⟨%g21, H21⟩, ⟨%g31, H31⟩⟩,
    ⟨⟨%g02, H02⟩, ⟨%g12, H12⟩, ⟨%g22, H22⟩, ⟨%g32, H32⟩⟩⟩
  iapply (comm_join12 c g00 g10 g20 g30 g01 g11 g21 g31 g02 g12 g22 g32)
  isplitl [H00 H10 H20 H30]
  · sl_close
  isplitl [H01 H11 H21 H31]
  · sl_close
  · sl_close

theorem own_join_held (c : Dev nD) :
    iprop(ownHeld m c 0 fullShare ∗ ownHeld m c 1 fullShare ∗ ownHeld m c 2 fullShare ∗ ownHeld m c 3 fullShare)
      ⊢ (iprop(∃ f : Buf (Elt F) ((c : Thread nD τ).loc cc0_scratch0), ((c : Thread nD τ).loc cc0_scratch0) ↦{fullShare} f) : sProp 𝕄) := by
  unfold ownHeld
  iintro ⟨⟨%f0, -, H0⟩, ⟨%f1, -, H1⟩, ⟨%f2, -, H2⟩, ⟨%f3, -, H3⟩⟩
  iapply (own_join c fullShare f0 f1 f2 f3)
  sl_close

end Cert.Kernel.Coll
end
-- ==== Proof.Kernel.PartsCommon.lean ====
import proofs.«900763_g7700000000000764_dist_diff_adaln_cshard_i_b2_s2048_c512_v7x_i4_bf16_1_alg».proof.Proof.Kernel.Side
import proofs.«900763_g7700000000000764_dist_diff_adaln_cshard_i_b2_s2048_c512_v7x_i4_bf16_1_alg».proof.Proof.Kernel.Launch
import proofs.«900763_g7700000000000764_dist_diff_adaln_cshard_i_b2_s2048_c512_v7x_i4_bf16_1_alg».proof.Proof.Kernel.Pieces

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem positions_flat' (c : Dev nD) : (positions c : sProp 𝕄) = iprop(atPos ER (barCell c) 0 ∅ 0
    ∗ (atPos ER (sendCell c 0 0) 0 ∅ 0 ∗ atPos ER (sendCell c 0 1) 0 ∅ 0 ∗ atPos ER (sendCell c 0 2) 0 ∅ 0 ∗ atPos ER (sendCell c 1 0) 0 ∅ 0 ∗ atPos ER (sendCell c 1 1) 0 ∅ 0 ∗ atPos ER (sendCell c 1 2) 0 ∅ 0 ∗ atPos ER (sendCell c 2 0) 0 ∅ 0 ∗ atPos ER (sendCell c 2 1) 0 ∅ 0 ∗ atPos ER (sendCell c 2 2) 0 ∅ 0 ∗ atPos ER (sendCell c 3 0) 0 ∅ 0 ∗ atPos ER (sendCell c 3 1) 0 ∅ 0 ∗ atPos ER (sendCell c 3 2) 0 ∅ 0)
    ∗ (atPos ER (recvCell c 0 0) 0 ∅ 0 ∗ atPos ER (recvCell c 0 1) 0 ∅ 0 ∗ atPos ER (recvCell c 0 2) 0 ∅ 0 ∗ atPos ER (recvCell c 1 0) 0 ∅ 0 ∗ atPos ER (recvCell c 1 1) 0 ∅ 0 ∗ atPos ER (recvCell c 1 2) 0 ∅ 0 ∗ atPos ER (recvCell c 2 0) 0 ∅ 0 ∗ atPos ER (recvCell c 2 1) 0 ∅ 0 ∗ atPos ER (recvCell c 2 2) 0 ∅ 0 ∗ atPos ER (recvCell c 3 0) 0 ∅ 0 ∗ atPos ER (recvCell c 3 1) 0 ∅ 0 ∗ atPos ER (recvCell c 3 2) 0 ∅ 0)) := by
  unfold positions
  rw [bigSep_cells25 c (fun g => atPos ER g 0 ∅ 0), bigSep_fin4x3, bigSep_fin4x3]

theorem payToks_flat' (c : Dev nD) : (payToks c : sProp 𝕄) = iprop((dutyTok ER (barCell (sh c ((0 : Fin 3).val + 1))) 0 0 ∗ dutyTok ER (barCell (sh c ((1 : Fin 3).val + 1))) 0 1 ∗ dutyTok ER (barCell (sh c ((2 : Fin 3).val + 1))) 0 2)
    ∗ (dutyTok ER (recvCell (sh c ((0 : Fin 3).val + 1)) 0 (slotOf 0)) 0 0 ∗ dutyTok ER (recvCell (sh c ((1 : Fin 3).val + 1)) 0 (slotOf 1)) 0 0 ∗ dutyTok ER (recvCell (sh c ((2 : Fin 3).val + 1)) 0 (slotOf 2)) 0 0 ∗ dutyTok ER (recvCell (sh c ((0 : Fin 3).val + 1)) 1 (slotOf 0)) 0 0 ∗ dutyTok ER (recvCell (sh c ((1 : Fin 3).val + 1)) 1 (slotOf 1)) 0 0 ∗ dutyTok ER (recvCell (sh c ((2 : Fin 3).val + 1)) 1 (slotOf 2)) 0 0 ∗ dutyTok ER (recvCell (sh c ((0 : Fin 3).val + 1)) 2 (slotOf 0)) 0 0 ∗ dutyTok ER (recvCell (sh c ((1 : Fin 3).val + 1)) 2 (slotOf 1)) 0 0 ∗ dutyTok ER (recvCell (sh c ((2 : Fin 3).val + 1)) 2 (slotOf 2)) 0 0 ∗ dutyTok ER (recvCell (sh c ((0 : Fin 3).val + 1)) 3 (slotOf 0)) 0 0 ∗ dutyTok ER (recvCell (sh c ((1 : Fin 3).val + 1)) 3 (slotOf 1)) 0 0 ∗ dutyTok ER (recvCell (sh c ((2 : Fin 3).val + 1)) 3 (slotOf 2)) 0 0)
    ∗ (dutyTok ER (sendCell c 0 0) 0 0 ∗ dutyTok ER (sendCell c 0 1) 0 0 ∗ dutyTok ER (sendCell c 0 2) 0 0 ∗ dutyTok ER (sendCell c 1 0) 0 0 ∗ dutyTok ER (sendCell c 1 1) 0 0 ∗ dutyTok ER (sendCell c 1 2) 0 0 ∗ dutyTok ER (sendCell c 2 0) 0 0 ∗ dutyTok ER (sendCell c 2 1) 0 0 ∗ dutyTok ER (sendCell c 2 2) 0 0 ∗ dutyTok ER (sendCell c 3 0) 0 0 ∗ dutyTok ER (sendCell c 3 1) 0 0 ∗ dutyTok ER (sendCell c 3 2) 0 0)) := by
  unfold payToks
  rw [bigSep_fin3, bigSep_fin4x3, bigSep_fin4x3]

theorem creds_flat' (c : Dev nD) : (bigSep Finset.univ fun hj : Fin 4 × Fin 3 => (cred (tallyAt (recvCell c hj.1 hj.2) () N) : sProp 𝕄))
    = iprop(cred (tallyAt (recvCell c 0 0) () N) ∗ cred (tallyAt (recvCell c 0 1) () N) ∗ cred (tallyAt (recvCell c 0 2) () N) ∗ cred (tallyAt (recvCell c 1 0) () N) ∗ cred (tallyAt (recvCell c 1 1) () N) ∗ cred (tallyAt (recvCell c 1 2) () N) ∗ cred (tallyAt (recvCell c 2 0) () N) ∗ cred (tallyAt (recvCell c 2 1) () N) ∗ cred (tallyAt (recvCell c 2 2) () N) ∗ cred (tallyAt (recvCell c 3 0) () N) ∗ cred (tallyAt (recvCell c 3 1) () N) ∗ cred (tallyAt (recvCell c 3 2) () N)) := by
  rw [bigSep_fin4x3]

def kS (h : Fin 4) (e : Fin 3) : Fin 25 := ⟨1 + 3 * h.val + e.val, by omega⟩
def kR (h : Fin 4) (j : Fin 3) : Fin 25 := ⟨13 + 3 * h.val + j.val, by omega⟩
theorem csem_S : ∀ (h : Fin 4) (e : Fin 3), csem (kS h e) = .dma (sendSem h e) := by decide
theorem csem_R : ∀ (h : Fin 4) (j : Fin 3), csem (kR h j) = .dma (recvSem h j) := by decide
theorem kcell_S (c : Dev nD) (h : Fin 4) (e : Fin 3) : kcell (c, kS h e) = sendCell c h e := by
  show ((c : Thread nD τ), csem (kS h e)) = _; rw [csem_S]
theorem kcell_R (c : Dev nD) (h : Fin 4) (j : Fin 3) : kcell (c, kR h j) = recvCell c h j := by
  show ((c : Thread nD τ), csem (kR h j)) = _; rw [csem_R]

section Steps
variable (K : Dev nD × Fin 25 → ℕ)

theorem inv_B (c : Dev nD) : records m K ⊢ cellInv ER (ringRd m) (K (c, 0)) (barCell c) := inv_at m K (c, 0)
theorem inv_S (c : Dev nD) (h : Fin 4) (e : Fin 3) : records m K ⊢ cellInv ER (ringRd m) (K (c, kS h e)) (sendCell c h e) := by
  rw [← kcell_S]; exact inv_at m K (c, kS h e)
theorem inv_R (c : Dev nD) (h : Fin 4) (j : Fin 3) : records m K ⊢ cellInv ER (ringRd m) (K (c, kR h j)) (recvCell c h j) := by
  rw [← kcell_R]; exact inv_at m K (c, kR h j)
theorem reached_B (c : Dev nD) : records m K ⊢ reached ER (barCell c) 0 := reached_at m K (c, 0)
theorem reached_S (c : Dev nD) (h : Fin 4) (e : Fin 3) : records m K ⊢ reached ER (sendCell c h e) 0 := by
  rw [← kcell_S]; exact reached_at m K (c, kS h e)
theorem reached_R (c : Dev nD) (h : Fin 4) (j : Fin 3) : records m K ⊢ reached ER (recvCell c h j) 0 := by
  rw [← kcell_R]; exact reached_at m K (c, kR h j)

theorem sh_back' : ∀ (c : Dev nD) (e : Fin 3), sh (sh c (e.val + 1)) (3 - e.val) = c := by decide

theorem wp_sig (c n : Dev nD) (e : Fin 3) (hn : n = sh c (e.val + 1)) (a : ℕ) (ha : a = 1) {α : Type} {Q : α → sProp 𝕄}
    {k : PUnit.{1} → Prog (TpuEff nD τ sig (Elt F) Λ₀ (c : Thread nD τ).2) α}
    (O : CellTallies nD τ sig Unit) (W : Waits sig Unit) :
    iprop(records m K ∗ owes (c : Thread nD τ) (O + tallyAt (barCell (sh c (e.val + 1))) () 1) W
        ∗ dutyTok ER (barCell (sh c (e.val + 1))) 0 e
        ∗ slotFree c 0 e ∗ slotFree c 1 e ∗ slotFree c 2 e ∗ slotFree c 3 e)
      ⊢ iprop((owes (c : Thread nD τ) O W -∗ wp frame (wpE (defs₀ (F := F)) 𝒱₀ c none) Set.univ (k ⟨⟩) Q)
          -∗ wp frame (wpE (defs₀ (F := F)) 𝒱₀ c none) Set.univ (.op (.semSignal (n : Thread nD τ) barS a) k) Q) := by
  subst hn ha
  iintro ⟨#Hrec, HO, Htok, Hs0, Hs1, Hs2, Hs3⟩ Hk
  iapply (Rounds.wp_signal 𝒱₀ ER (ringRd m) (c : Thread nD τ) none (dst := (sh c (e.val + 1) : Thread nD τ)) (sem := barS)
      (κ := K (sh c (e.val + 1), 0)) (r := 0) (d := e)
      (by rw [duties_bar]; exact Finset.mem_univ _) (amount_bar m (sh c (e.val + 1)) e) () O rfl) $$ [HO Htok Hs0 Hs1 Hs2 Hs3]
  · isplitr
    · iapply (inv_B m K (sh c (e.val + 1))); iexact Hrec
    isplitl [HO]; · iexact HO
    isplitl [Htok]; · iexact Htok
    isplitl [Hs0 Hs1 Hs2 Hs3]
    · rw [payload_bar]; unfold barPay; rw [sh_back' c e]
      isplitl [Hs0]
      · isplitl [Hs0]; · iexact Hs0
        iapply (reached_R m K c 0 e); iexact Hrec
      isplitl [Hs1]
      · isplitl [Hs1]; · iexact Hs1
        iapply (reached_R m K c 1 e); iexact Hrec
      isplitl [Hs2]
      · isplitl [Hs2]; · iexact Hs2
        iapply (reached_R m K c 2 e); iexact Hrec
      · isplitl [Hs3]; · iexact Hs3
        iapply (reached_R m K c 3 e); iexact Hrec
    · iapply (reached_B m K (sh c (e.val + 1))); iexact Hrec
  · iexact Hk

theorem sh_rev' : ∀ (c : Dev nD) (d : Fin 3), sh c (3 - (slotOf d).val) = sh c (d.val + 1) := by decide

theorem barPay_open' (c : Dev nD) (d : Fin 3) : (barPay c (slotOf d) : sProp 𝕄)
    ⊢ iprop((∃ g, slotPts (sh c (d.val + 1)) 0 (slotOf d) g) ∗ (∃ g, slotPts (sh c (d.val + 1)) 1 (slotOf d) g)
        ∗ (∃ g, slotPts (sh c (d.val + 1)) 2 (slotOf d) g) ∗ (∃ g, slotPts (sh c (d.val + 1)) 3 (slotOf d) g)) := by
  unfold barPay slotFree; rw [sh_rev' c d]
  iintro ⟨⟨H0, -⟩, ⟨H1, -⟩, ⟨H2, -⟩, ⟨H3, -⟩⟩
  isplitl [H0]; · iexact H0
  isplitl [H1]; · iexact H1
  isplitl [H2]; · iexact H2
  iexact H3

theorem wp_send_held' (c n : Dev nD) (h : Fin 4) (d : Fin 3) (hn : n = sh c (d.val + 1))
    {hsc : (commSl h (slotOf d) : Memref sig (Dev.tc n : Thread nD τ).2.kind .vmem S4x512 .f32).view.ref.isScScratch = false}
    {hsrc : (ownSl h : Memref sig .tc .vmem S4x512 .f32).view.WordExact} {hdst : (commSl h (slotOf d) : Memref sig .tc .vmem S4x512 .f32).view.WordExact}
    {hsem : DmaTarget.Typed .vmem (.dma (recvSem h (slotOf d))) (.remote (Dev.tc n : Thread nD τ) (commSl h (slotOf d) : Memref sig .tc .vmem S4x512 .f32) (.dma (sendSem h d)) hsc)}
    {α : Type} {Q : α → sProp 𝕄} {k : PUnit → Prog (TpuEff nD τ sig (Elt F) Λ₀ .tc) α}
    (fd : Buf (Elt F) ((commSl h (slotOf d) : Memref sig .tc .vmem S4x512 .f32).view.loc (sh c (d.val + 1) : Thread nD τ)))
    (O : CellTallies nD τ sig Unit) (W : Waits sig Unit) :
    iprop(records m K ∗ ownHeld m c h (qLent d) ∗ slotPts (sh c (d.val + 1)) h (slotOf d) fd
        ∗ owes (c : Thread nD τ) (O + tallyAt (recvCell (sh c (d.val + 1)) h (slotOf d)) () N) W
        ∗ dutyTok ER (sendCell c h d) 0 0 ∗ dutyTok ER (recvCell (sh c (d.val + 1)) h (slotOf d)) 0 0)
      ⊢ iprop(((cred (tallyAt (sendCell c h d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ownSl h) (.remote (Dev.tc n : Thread nD τ) (commSl h (slotOf d)) (.dma (sendSem h d)) hsc) (.dma (recvSem h (slotOf d))) hsrc hdst hsem) k) Q) := by
  iintro ⟨#Hrec, Hh, Hq, HO, HtS, HtR⟩
  unfold ownHeld
  icases Hh with ⟨%fs, %hfs, Hown⟩
  iapply (wp_send_slot m (K (c, kS h d)) (K (sh c (d.val + 1), kR h (slotOf d))) c n h d hn fs hfs fd (landing m c h d fs fd hfs) O W) $$ [Hown Hq HO HtS HtR]
  isplitr; · iapply (inv_S m K c h d); iexact Hrec
  isplitr; · iapply (inv_R m K (sh c (d.val + 1)) h (slotOf d)); iexact Hrec
  isplitl [Hown]; · iexact Hown
  isplitl [Hq]; · iexact Hq
  isplitl [HO]; · iexact HO
  isplitl [HtS]; · iexact HtS
  isplitr; · iapply (reached_S m K c h d); iexact Hrec
  isplitl [HtR]; · iexact HtR
  iapply (reached_R m K (sh c (d.val + 1)) h (slotOf d)); iexact Hrec

theorem barPay_open_0 (c : Dev nD) : (barPay c 0 : sProp 𝕄)
    ⊢ iprop((∃ g, slotPts (sh c ((2 : Fin 3).val + 1)) 0 (slotOf 2) g) ∗ (∃ g, slotPts (sh c ((2 : Fin 3).val + 1)) 1 (slotOf 2) g)
        ∗ (∃ g, slotPts (sh c ((2 : Fin 3).val + 1)) 2 (slotOf 2) g) ∗ (∃ g, slotPts (sh c ((2 : Fin 3).val + 1)) 3 (slotOf 2) g)) := barPay_open' c 2
theorem barPay_open_1 (c : Dev nD) : (barPay c 1 : sProp 𝕄)
    ⊢ iprop((∃ g, slotPts (sh c ((1 : Fin 3).val + 1)) 0 (slotOf 1) g) ∗ (∃ g, slotPts (sh c ((1 : Fin 3).val + 1)) 1 (slotOf 1) g)
        ∗ (∃ g, slotPts (sh c ((1 : Fin 3).val + 1)) 2 (slotOf 1) g) ∗ (∃ g, slotPts (sh c ((1 : Fin 3).val + 1)) 3 (slotOf 1) g)) := barPay_open' c 1
theorem barPay_open_2 (c : Dev nD) : (barPay c 2 : sProp 𝕄)
    ⊢ iprop((∃ g, slotPts (sh c ((0 : Fin 3).val + 1)) 0 (slotOf 0) g) ∗ (∃ g, slotPts (sh c ((0 : Fin 3).val + 1)) 1 (slotOf 0) g)
        ∗ (∃ g, slotPts (sh c ((0 : Fin 3).val + 1)) 2 (slotOf 0) g) ∗ (∃ g, slotPts (sh c ((0 : Fin 3).val + 1)) 3 (slotOf 0) g)) := barPay_open' c 0

theorem wp_ret_bind' {α β : Type} (c : Dev nD) (a : α) (k : α → Prog (TpuEff nD τ sig (Elt F) Λ₀ .tc) β) (Q : β → sProp 𝕄) :
    wp frame (wpE (defs₀ (F := F)) 𝒱₀ c none) Set.univ (k a) Q
      ⊢ wp frame (wpE (defs₀ (F := F)) 𝒱₀ c none) Set.univ ((Prog.ret a).bind k) Q := .rfl

end Steps

end Cert.Kernel.Coll

end
-- ==== Proof.Kernel.PartsA.lean ====
import proofs.«900763_g7700000000000764_dist_diff_adaln_cshard_i_b2_s2048_c512_v7x_i4_bf16_1_alg».proof.Proof.Kernel.PartsCommon

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 25 → ℕ)

theorem part1_spec (c : Dev nD)  (W : Waits sig Unit) (g0 : Buf (Elt F) ((c : Thread nD τ).loc cc0_scratch1)) :
    iprop(records m K ∗ levAts L lv ∗ (owes (c : Thread nD τ) (owedFor ((acts c).drop 0)) W)
        ∗ (dutyTok ER (barCell (sh c ((0 : Fin 3).val + 1))) 0 0)
        ∗ (slotPts c 0 0 g0)
        ∗ (slotPts c 1 0 g0)
        ∗ (slotPts c 2 0 g0)
        ∗ (slotPts c 3 0 g0)
        ∗ (dutyTok ER (barCell (sh c ((1 : Fin 3).val + 1))) 0 1)
        ∗ (slotPts c 0 1 g0)
        ∗ (slotPts c 1 1 g0)
        ∗ (slotPts c 2 1 g0)
        ∗ (slotPts c 3 1 g0))
      ⊢ wp frame (wpE (defs₀ (F := F)) 𝒱₀ c none) Set.univ
          (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 )
          (fun r => iprop((⌜r.1 = c⌝ ∗ ⌜r.2.2.1 = (SemArray.scalar (sig.barrier 0 rfl) : Sems sig S_)⌝)
            ∗ (owes (c : Thread nD τ) (owedFor ((acts c).drop 2)) W))) := by
  rw [k0_part1_eq_skeleton]; unfold k0_part1_skel
  iintro ⟨#Hrec, #Hlev, HO, HtB0, Hs00, Hs10, Hs20, Hs30, HtB1, Hs01, Hs11, Hs21, Hs31⟩
  sl_exec
  iapply (wp_sig m K c _ 0 (dev1_eq c) _ rfl (owedFor ((acts c).drop 1)) W) $$ [HO HtB0 Hs00 Hs10 Hs20 Hs30]
  · sl_close
  iintro HO
  sl_exec
  iapply (wp_sig m K c _ 1 (dev2_eq c) _ rfl (owedFor ((acts c).drop 2)) W) $$ [HO HtB1 Hs01 Hs11 Hs21 Hs31]
  · sl_close
  iintro HO
  sl_exec
  sl_step
  sl_close

theorem part2_spec (c : Dev nD) (d0 : Dev nD) (hd0 : d0 = c) (v3 : Sems sig S_) (hv3 : v3 = (SemArray.scalar (sig.barrier 0 rfl) : Sems sig S_)) (v2 v30 c4 : BitVec 32) (v31 : BitVec 1) (W : Waits sig Unit) (g0 : Buf (Elt F) ((c : Thread nD τ).loc cc0_scratch1)) (f0 : Buf (Elt F) ((c : Thread nD τ).loc cc0_scratch0)) :
    iprop(records m K ∗ levAts L lv ∗ (owes (c : Thread nD τ) (owedFor ((acts c).drop 2)) W)
        ∗ (dutyTok ER (barCell (sh c ((2 : Fin 3).val + 1))) 0 2)
        ∗ (slotPts c 0 2 g0)
        ∗ (slotPts c 1 2 g0)
        ∗ (slotPts c 2 2 g0)
        ∗ (slotPts c 3 2 g0)
        ∗ (cred (tallyAt (barCell c) () 3))
        ∗ (atPos ER (barCell c) 0 ∅ 0)
        ∗ ((xM : Memref sig .tc .vmem S2x2048x512 .f32).view.loc (c : Thread nD τ) ↦{fullShare} xstg m c)
        ∗ (ownPts c 0 fullShare f0))
      ⊢ wp frame (wpE (defs₀ (F := F)) 𝒱₀ c none) Set.univ
          (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v3 v30 c4 v31)
          (fun r => iprop((owes (c : Thread nD τ) (owedFor ((acts c).drop 3)) (insert (SemLoc.reg barS, ()) W))
            ∗ (∃ q, slotPts (sh c ((0 : Fin 3).val + 1)) 0 (slotOf 0) q)
            ∗ (∃ q, slotPts (sh c ((1 : Fin 3).val + 1)) 0 (slotOf 1) q)
            ∗ (∃ q, slotPts (sh c ((2 : Fin 3).val + 1)) 0 (slotOf 2) q)
            ∗ (∃ q, slotPts (sh c ((0 : Fin 3).val + 1)) 1 (slotOf 0) q)
            ∗ (∃ q, slotPts (sh c ((1 : Fin 3).val + 1)) 1 (slotOf 1) q)
            ∗ (∃ q, slotPts (sh c ((2 : Fin 3).val + 1)) 1 (slotOf 2) q)
            ∗ (∃ q, slotPts (sh c ((0 : Fin 3).val + 1)) 2 (slotOf 0) q)
            ∗ (∃ q, slotPts (sh c ((1 : Fin 3).val + 1)) 2 (slotOf 1) q)
            ∗ (∃ q, slotPts (sh c ((2 : Fin 3).val + 1)) 2 (slotOf 2) q)
            ∗ (∃ q, slotPts (sh c ((0 : Fin 3).val + 1)) 3 (slotOf 0) q)
            ∗ (∃ q, slotPts (sh c ((1 : Fin 3).val + 1)) 3 (slotOf 1) q)
            ∗ (∃ q, slotPts (sh c ((2 : Fin 3).val + 1)) 3 (slotOf 2) q)
            ∗ ((xM : Memref sig .tc .vmem S2x2048x512 .f32).view.loc (c : Thread nD τ) ↦{fullShare} xstg m c)
            ∗ (ownHeld m c 0 (qLent 0))
            ∗ (ownHeld m c 0 (qLent 1))
            ∗ (ownHeld m c 0 (qLent 2))
            ∗ (ownHeld m c 0 qKept))) := by
  subst d0 hv3
  rw [k0_part2_eq_skeleton]; unfold k0_part2_skel
  iintro ⟨#Hrec, #Hlev, HO, HtB2, Hs02, Hs12, Hs22, Hs32, HcB, HpB, Hx, Ho0⟩
  sl_exec
  iapply (wp_sig m K c _ 2 (dev3_eq c) _ rfl (owedFor ((acts c).drop 3)) W) $$ [HO HtB2 Hs02 Hs12 Hs22 Hs32]
  · sl_close
  iintro HO
  sl_exec
  iapply (wp_wait_bar m c (inv_B m K c) (hw_bar c) W) $$ [HcB HO HpB]
  · sl_close
  iintro ⟨HO, Hb0, Hb1, Hb2⟩
  ihave Hp2 := (barPay_open_0 c) $$ Hb0
  icases Hp2 with ⟨⟨%q02, Hq02⟩, ⟨%q12, Hq12⟩, ⟨%q22, Hq22⟩, ⟨%q32, Hq32⟩⟩
  ihave Hp1 := (barPay_open_1 c) $$ Hb1
  icases Hp1 with ⟨⟨%q01, Hq01⟩, ⟨%q11, Hq11⟩, ⟨%q21, Hq21⟩, ⟨%q31, Hq31⟩⟩
  ihave Hp0 := (barPay_open_2 c) $$ Hb2
  icases Hp0 with ⟨⟨%q00, Hq00⟩, ⟨%q10, Hq10⟩, ⟨%q20, Hq20⟩, ⟨%q30, Hq30⟩⟩
  sl_exec
  iapply (wp_load_own c 0 fullShare f0) $$ Ho0
  iintro Ho0
  iapply (wp_store_ownHeld m c 0 f0) $$ Ho0
  iintro Hh0
  ihave Hh0q := (ownHeld_quarters m c 0) $$ Hh0
  icases Hh0q with ⟨Hh00, Hh01, Hh02, Hh0k⟩
  iapply (wp_ret_bind' c _ _ _)
  sl_exec
  sl_step
  sl_close

theorem part3_spec (c : Dev nD) (d0 : Dev nD) (hd0 : d0 = c) (v2 v58 v64 : BitVec 32) (v63 : BitVec 1) (W : Waits sig Unit) (q00 : Buf (Elt F) ((commSl 0 (slotOf 0) : Memref sig .tc .vmem S4x512 .f32).view.loc (sh c ((0 : Fin 3).val + 1) : Thread nD τ))) :
    iprop(records m K ∗ levAts L lv ∗ (owes (c : Thread nD τ) (owedFor ((acts c).drop 3)) W)
        ∗ (ownHeld m c 0 (qLent 0))
        ∗ (slotPts (sh c ((0 : Fin 3).val + 1)) 0 (slotOf 0) q00)
        ∗ (dutyTok ER (sendCell c 0 0) 0 0)
        ∗ (dutyTok ER (recvCell (sh c ((0 : Fin 3).val + 1)) 0 (slotOf 0)) 0 0))
      ⊢ wp frame (wpE (defs₀ (F := F)) 𝒱₀ c none) Set.univ
          (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v58 v63 v64)
          (fun r => iprop((owes (c : Thread nD τ) (owedFor ((acts c).drop 4)) W)
            ∗ (cred (tallyAt (sendCell c 0 0) () N)))) := by
  subst d0
  rw [k0_part3_eq_skeleton]; unfold k0_part3_skel
  iintro ⟨#Hrec, #Hlev, HO, Hh00, Hq00, HtS00, HtR00⟩
  sl_exec
  iapply (wp_send_held' m K c _ 0 0 (dev4_eq c) q00 (owedFor ((acts c).drop 4)) _) $$ [Hh00 Hq00 HO HtS00 HtR00]
  · sl_close
  iintro ⟨HcS00, HO⟩
  sl_exec
  sl_step
  sl_close

theorem part4_spec (c : Dev nD) (d0 : Dev nD) (hd0 : d0 = c) (v2 : BitVec 32) (W : Waits sig Unit) (q01 : Buf (Elt F) ((commSl 0 (slotOf 1) : Memref sig .tc .vmem S4x512 .f32).view.loc (sh c ((1 : Fin 3).val + 1) : Thread nD τ))) (q02 : Buf (Elt F) ((commSl 0 (slotOf 2) : Memref sig .tc .vmem S4x512 .f32).view.loc (sh c ((2 : Fin 3).val + 1) : Thread nD τ))) :
    iprop(records m K ∗ levAts L lv ∗ (owes (c : Thread nD τ) (owedFor ((acts c).drop 4)) W)
        ∗ (ownHeld m c 0 (qLent 1))
        ∗ (slotPts (sh c ((1 : Fin 3).val + 1)) 0 (slotOf 1) q01)
        ∗ (dutyTok ER (sendCell c 0 1) 0 0)
        ∗ (dutyTok ER (recvCell (sh c ((1 : Fin 3).val + 1)) 0 (slotOf 1)) 0 0)
        ∗ (ownHeld m c 0 (qLent 2))
        ∗ (slotPts (sh c ((2 : Fin 3).val + 1)) 0 (slotOf 2) q02)
        ∗ (dutyTok ER (sendCell c 0 2) 0 0)
        ∗ (dutyTok ER (recvCell (sh c ((2 : Fin 3).val + 1)) 0 (slotOf 2)) 0 0)
        ∗ ((xM : Memref sig .tc .vmem S2x2048x512 .f32).view.loc (c : Thread nD τ) ↦{fullShare} xstg m c))
      ⊢ wp frame (wpE (defs₀ (F := F)) 𝒱₀ c none) Set.univ
          (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2)
          (fun r => iprop((⌜r.2.1 = k0_pay3 (xrow m c 1)⌝ ∗ ⌜r.2.2 = k0_pay4 (xrow m c 1)⌝)
            ∗ (owes (c : Thread nD τ) (owedFor ((acts c).drop 6)) W)
            ∗ (cred (tallyAt (sendCell c 0 1) () N))
            ∗ (cred (tallyAt (sendCell c 0 2) () N))
            ∗ ((xM : Memref sig .tc .vmem S2x2048x512 .f32).view.loc (c : Thread nD τ) ↦{fullShare} xstg m c))) := by
  subst d0
  rw [k0_part4_eq_skeleton]; unfold k0_part4_skel
  iintro ⟨#Hrec, #Hlev, HO, Hh01, Hq01, HtS01, HtR01, Hh02, Hq02, HtS02, HtR02, Hx⟩
  sl_exec
  iapply (wp_send_held' m K c _ 0 1 (dev5_eq c) q01 (owedFor ((acts c).drop 5)) _) $$ [Hh01 Hq01 HO HtS01 HtR01]
  · sl_close
  iintro ⟨HcS01, HO⟩
  sl_exec
  iapply (wp_send_held' m K c _ 0 2 (dev6_eq c) q02 (owedFor ((acts c).drop 6)) _) $$ [Hh02 Hq02 HO HtS02 HtR02]
  · sl_close
  iintro ⟨HcS02, HO⟩
  sl_exec
  sl_step
  sl_close

theorem part5_spec (c : Dev nD) (d0 : Dev nD) (hd0 : d0 = c) (v2 : BitVec 32) (v122 : FVec F S2x512 .f32) (v124 : FVec F S2x512x512 .f32) (h122 : v122 = k0_pay3 (xrow m c 1)) (h124 : v124 = k0_pay4 (xrow m c 1)) (W : Waits sig Unit) (f0 : Buf (Elt F) ((c : Thread nD τ).loc cc0_scratch0)) (q10 : Buf (Elt F) ((commSl 1 (slotOf 0) : Memref sig .tc .vmem S4x512 .f32).view.loc (sh c ((0 : Fin 3).val + 1) : Thread nD τ))) :
    iprop(records m K ∗ levAts L lv ∗ (ownPts c 1 fullShare f0)
        ∗ (owes (c : Thread nD τ) (owedFor ((acts c).drop 6)) W)
        ∗ (slotPts (sh c ((0 : Fin 3).val + 1)) 1 (slotOf 0) q10)
        ∗ (dutyTok ER (sendCell c 1 0) 0 0)
        ∗ (dutyTok ER (recvCell (sh c ((0 : Fin 3).val + 1)) 1 (slotOf 0)) 0 0))
      ⊢ wp frame (wpE (defs₀ (F := F)) 𝒱₀ c none) Set.univ
          (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v122 v124)
          (fun r => iprop((ownHeld m c 1 (qLent 1))
            ∗ (ownHeld m c 1 (qLent 2))
            ∗ (ownHeld m c 1 qKept)
            ∗ (owes (c : Thread nD τ) (owedFor ((acts c).drop 7)) W)
            ∗ (cred (tallyAt (sendCell c 1 0) () N)))) := by
  subst d0 h122 h124
  rw [k0_part5_eq_skeleton]; unfold k0_part5_skel
  iintro ⟨#Hrec, #Hlev, Ho1, HO, Hq10, HtS10, HtR10⟩
  iapply (wp_load_own c 1 fullShare f0) $$ Ho1
  iintro Ho1
  iapply (wp_store_ownHeld m c 1 f0) $$ Ho1
  iintro Hh1
  ihave Hh1q := (ownHeld_quarters m c 1) $$ Hh1
  icases Hh1q with ⟨Hh10, Hh11, Hh12, Hh1k⟩
  iapply (wp_ret_bind' c _ _ _)
  sl_exec
  iapply (wp_send_held' m K c _ 1 0 (dev7_eq c) q10 (owedFor ((acts c).drop 7)) _) $$ [Hh10 Hq10 HO HtS10 HtR10]
  · sl_close
  iintro ⟨HcS10, HO⟩
  sl_exec
  sl_step
  sl_close

theorem part6_spec (c : Dev nD) (d0 : Dev nD) (hd0 : d0 = c) (v2 v153 v154 : BitVec 32) (W : Waits sig Unit) (q11 : Buf (Elt F) ((commSl 1 (slotOf 1) : Memref sig .tc .vmem S4x512 .f32).view.loc (sh c ((1 : Fin 3).val + 1) : Thread nD τ))) :
    iprop(records m K ∗ levAts L lv ∗ (owes (c : Thread nD τ) (owedFor ((acts c).drop 7)) W)
        ∗ (ownHeld m c 1 (qLent 1))
        ∗ (slotPts (sh c ((1 : Fin 3).val + 1)) 1 (slotOf 1) q11)
        ∗ (dutyTok ER (sendCell c 1 1) 0 0)
        ∗ (dutyTok ER (recvCell (sh c ((1 : Fin 3).val + 1)) 1 (slotOf 1)) 0 0))
      ⊢ wp frame (wpE (defs₀ (F := F)) 𝒱₀ c none) Set.univ
          (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v153 v154)
          (fun r => iprop((owes (c : Thread nD τ) (owedFor ((acts c).drop 8)) W)
            ∗ (cred (tallyAt (sendCell c 1 1) () N)))) := by
  subst d0
  rw [k0_part6_eq_skeleton]; unfold k0_part6_skel
  iintro ⟨#Hrec, #Hlev, HO, Hh11, Hq11, HtS11, HtR11⟩
  sl_exec
  iapply (wp_send_held' m K c _ 1 1 (dev8_eq c) q11 (owedFor ((acts c).drop 8)) _) $$ [Hh11 Hq11 HO HtS11 HtR11]
  · sl_close
  iintro ⟨HcS11, HO⟩
  sl_exec
  sl_step
  sl_close

end Parts

end Cert.Kernel.Coll

end
-- ==== Proof.Kernel.PartsB.lean ====
import proofs.«900763_g7700000000000764_dist_diff_adaln_cshard_i_b2_s2048_c512_v7x_i4_bf16_1_alg».proof.Proof.Kernel.PartsCommon

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 25 → ℕ)

theorem part7_spec (c : Dev nD) (d0 : Dev nD) (hd0 : d0 = c) (v2 v182 c1 : BitVec 32) (W : Waits sig Unit) (f0 : Buf (Elt F) ((c : Thread nD τ).loc cc0_scratch0)) (q12 : Buf (Elt F) ((commSl 1 (slotOf 2) : Memref sig .tc .vmem S4x512 .f32).view.loc (sh c ((2 : Fin 3).val + 1) : Thread nD τ))) :
    iprop(records m K ∗ levAts L lv ∗ (owes (c : Thread nD τ) (owedFor ((acts c).drop 8)) W)
        ∗ (ownHeld m c 1 (qLent 2))
        ∗ (slotPts (sh c ((2 : Fin 3).val + 1)) 1 (slotOf 2) q12)
        ∗ (dutyTok ER (sendCell c 1 2) 0 0)
        ∗ (dutyTok ER (recvCell (sh c ((2 : Fin 3).val + 1)) 1 (slotOf 2)) 0 0)
        ∗ ((xM : Memref sig .tc .vmem S2x2048x512 .f32).view.loc (c : Thread nD τ) ↦{fullShare} xstg m c)
        ∗ (ownPts c 2 fullShare f0))
      ⊢ wp frame (wpE (defs₀ (F := F)) 𝒱₀ c none) Set.univ
          (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v182 c1)
          (fun r => iprop((owes (c : Thread nD τ) (owedFor ((acts c).drop 9)) W)
            ∗ (cred (tallyAt (sendCell c 1 2) () N))
            ∗ ((xM : Memref sig .tc .vmem S2x2048x512 .f32).view.loc (c : Thread nD τ) ↦{fullShare} xstg m c)
            ∗ (ownHeld m c 2 (qLent 0))
            ∗ (ownHeld m c 2 (qLent 1))
            ∗ (ownHeld m c 2 (qLent 2))
            ∗ (ownHeld m c 2 qKept))) := by
  subst d0
  rw [k0_part7_eq_skeleton]; unfold k0_part7_skel
  iintro ⟨#Hrec, #Hlev, HO, Hh12, Hq12, HtS12, HtR12, Hx, Ho2⟩
  sl_exec
  iapply (wp_send_held' m K c _ 1 2 (dev9_eq c) q12 (owedFor ((acts c).drop 9)) _) $$ [Hh12 Hq12 HO HtS12 HtR12]
  · sl_close
  iintro ⟨HcS12, HO⟩
  sl_exec
  iapply (wp_load_own c 2 fullShare f0) $$ Ho2
  iintro Ho2
  iapply (wp_store_ownHeld m c 2 f0) $$ Ho2
  iintro Hh2
  ihave Hh2q := (ownHeld_quarters m c 2) $$ Hh2
  icases Hh2q with ⟨Hh20, Hh21, Hh22, Hh2k⟩
  iapply (wp_ret_bind' c _ _ _)
  sl_exec
  sl_step
  sl_close

theorem part8_spec (c : Dev nD) (d0 : Dev nD) (hd0 : d0 = c) (v2 v215 : BitVec 32) (W : Waits sig Unit) (q20 : Buf (Elt F) ((commSl 2 (slotOf 0) : Memref sig .tc .vmem S4x512 .f32).view.loc (sh c ((0 : Fin 3).val + 1) : Thread nD τ))) :
    iprop(records m K ∗ levAts L lv ∗ (owes (c : Thread nD τ) (owedFor ((acts c).drop 9)) W)
        ∗ (ownHeld m c 2 (qLent 0))
        ∗ (slotPts (sh c ((0 : Fin 3).val + 1)) 2 (slotOf 0) q20)
        ∗ (dutyTok ER (sendCell c 2 0) 0 0)
        ∗ (dutyTok ER (recvCell (sh c ((0 : Fin 3).val + 1)) 2 (slotOf 0)) 0 0))
      ⊢ wp frame (wpE (defs₀ (F := F)) 𝒱₀ c none) Set.univ
          (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v215)
          (fun r => iprop((owes (c : Thread nD τ) (owedFor ((acts c).drop 10)) W)
            ∗ (cred (tallyAt (sendCell c 2 0) () N)))) := by
  subst d0
  rw [k0_part8_eq_skeleton]; unfold k0_part8_skel
  iintro ⟨#Hrec, #Hlev, HO, Hh20, Hq20, HtS20, HtR20⟩
  sl_exec
  iapply (wp_send_held' m K c _ 2 0 (dev10_eq c) q20 (owedFor ((acts c).drop 10)) _) $$ [Hh20 Hq20 HO HtS20 HtR20]
  · sl_close
  iintro ⟨HcS20, HO⟩
  sl_exec
  sl_step
  sl_close

theorem part9_spec (c : Dev nD) (d0 : Dev nD) (hd0 : d0 = c) (v2 : BitVec 32) (W : Waits sig Unit) (q21 : Buf (Elt F) ((commSl 2 (slotOf 1) : Memref sig .tc .vmem S4x512 .f32).view.loc (sh c ((1 : Fin 3).val + 1) : Thread nD τ))) (q22 : Buf (Elt F) ((commSl 2 (slotOf 2) : Memref sig .tc .vmem S4x512 .f32).view.loc (sh c ((2 : Fin 3).val + 1) : Thread nD τ))) :
    iprop(records m K ∗ levAts L lv ∗ (owes (c : Thread nD τ) (owedFor ((acts c).drop 10)) W)
        ∗ (ownHeld m c 2 (qLent 1))
        ∗ (slotPts (sh c ((1 : Fin 3).val + 1)) 2 (slotOf 1) q21)
        ∗ (dutyTok ER (sendCell c 2 1) 0 0)
        ∗ (dutyTok ER (recvCell (sh c ((1 : Fin 3).val + 1)) 2 (slotOf 1)) 0 0)
        ∗ (ownHeld m c 2 (qLent 2))
        ∗ (slotPts (sh c ((2 : Fin 3).val + 1)) 2 (slotOf 2) q22)
        ∗ (dutyTok ER (sendCell c 2 2) 0 0)
        ∗ (dutyTok ER (recvCell (sh c ((2 : Fin 3).val + 1)) 2 (slotOf 2)) 0 0)
        ∗ ((xM : Memref sig .tc .vmem S2x2048x512 .f32).view.loc (c : Thread nD τ) ↦{fullShare} xstg m c))
      ⊢ wp frame (wpE (defs₀ (F := F)) 𝒱₀ c none) Set.univ
          (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2)
          (fun r => iprop((⌜r.2 = k0_pay7 (xrow m c 3)⌝)
            ∗ (owes (c : Thread nD τ) (owedFor ((acts c).drop 12)) W)
            ∗ (cred (tallyAt (sendCell c 2 1) () N))
            ∗ (cred (tallyAt (sendCell c 2 2) () N))
            ∗ ((xM : Memref sig .tc .vmem S2x2048x512 .f32).view.loc (c : Thread nD τ) ↦{fullShare} xstg m c))) := by
  subst d0
  rw [k0_part9_eq_skeleton]; unfold k0_part9_skel
  iintro ⟨#Hrec, #Hlev, HO, Hh21, Hq21, HtS21, HtR21, Hh22, Hq22, HtS22, HtR22, Hx⟩
  sl_exec
  iapply (wp_send_held' m K c _ 2 1 (dev11_eq c) q21 (owedFor ((acts c).drop 11)) _) $$ [Hh21 Hq21 HO HtS21 HtR21]
  · sl_close
  iintro ⟨HcS21, HO⟩
  sl_exec
  iapply (wp_send_held' m K c _ 2 2 (dev12_eq c) q22 (owedFor ((acts c).drop 12)) _) $$ [Hh22 Hq22 HO HtS22 HtR22]
  · sl_close
  iintro ⟨HcS22, HO⟩
  sl_exec
  sl_step
  sl_close

theorem part10_spec (c : Dev nD) (d0 : Dev nD) (hd0 : d0 = c) (v2 : BitVec 32) (v276 : FVec F S4x512 .f32) (h276 : v276 = k0_pay7 (xrow m c 3)) (W : Waits sig Unit) (f0 : Buf (Elt F) ((c : Thread nD τ).loc cc0_scratch0)) (q30 : Buf (Elt F) ((commSl 3 (slotOf 0) : Memref sig .tc .vmem S4x512 .f32).view.loc (sh c ((0 : Fin 3).val + 1) : Thread nD τ))) :
    iprop(records m K ∗ levAts L lv ∗ (ownPts c 3 fullShare f0)
        ∗ (owes (c : Thread nD τ) (owedFor ((acts c).drop 12)) W)
        ∗ (slotPts (sh c ((0 : Fin 3).val + 1)) 3 (slotOf 0) q30)
        ∗ (dutyTok ER (sendCell c 3 0) 0 0)
        ∗ (dutyTok ER (recvCell (sh c ((0 : Fin 3).val + 1)) 3 (slotOf 0)) 0 0))
      ⊢ wp frame (wpE (defs₀ (F := F)) 𝒱₀ c none) Set.univ
          (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v276)
          (fun r => iprop((ownHeld m c 3 (qLent 1))
            ∗ (ownHeld m c 3 (qLent 2))
            ∗ (ownHeld m c 3 qKept)
            ∗ (owes (c : Thread nD τ) (owedFor ((acts c).drop 13)) W)
            ∗ (cred (tallyAt (sendCell c 3 0) () N)))) := by
  subst d0 h276
  rw [k0_part10_eq_skeleton]; unfold k0_part10_skel
  iintro ⟨#Hrec, #Hlev, Ho3, HO, Hq30, HtS30, HtR30⟩
  iapply (wp_load_own c 3 fullShare f0) $$ Ho3
  iintro Ho3
  iapply (wp_store_ownHeld m c 3 f0) $$ Ho3
  iintro Hh3
  ihave Hh3q := (ownHeld_quarters m c 3) $$ Hh3
  icases Hh3q with ⟨Hh30, Hh31, Hh32, Hh3k⟩
  iapply (wp_ret_bind' c _ _ _)
  sl_exec
  iapply (wp_send_held' m K c _ 3 0 (dev13_eq c) q30 (owedFor ((acts c).drop 13)) _) $$ [Hh30 Hq30 HO HtS30 HtR30]
  · sl_close
  iintro ⟨HcS30, HO⟩
  sl_exec
  sl_step
  sl_close

theorem part11_spec (c : Dev nD) (d0 : Dev nD) (hd0 : d0 = c) (v2 v303 v304 : BitVec 32) (v305 v306 v307 : BitVec 1) (W : Waits sig Unit) (q31 : Buf (Elt F) ((commSl 3 (slotOf 1) : Memref sig .tc .vmem S4x512 .f32).view.loc (sh c ((1 : Fin 3).val + 1) : Thread nD τ))) :
    iprop(records m K ∗ levAts L lv ∗ (owes (c : Thread nD τ) (owedFor ((acts c).drop 13)) W)
        ∗ (ownHeld m c 3 (qLent 1))
        ∗ (slotPts (sh c ((1 : Fin 3).val + 1)) 3 (slotOf 1) q31)
        ∗ (dutyTok ER (sendCell c 3 1) 0 0)
        ∗ (dutyTok ER (recvCell (sh c ((1 : Fin 3).val + 1)) 3 (slotOf 1)) 0 0))
      ⊢ wp frame (wpE (defs₀ (F := F)) 𝒱₀ c none) Set.univ
          (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v2 v303 v304 v305 v306 v307)
          (fun r => iprop((owes (c : Thread nD τ) (owedFor ((acts c).drop 14)) W)
            ∗ (cred (tallyAt (sendCell c 3 1) () N)))) := by
  subst d0
  rw [k0_part11_eq_skeleton]; unfold k0_part11_skel
  iintro ⟨#Hrec, #Hlev, HO, Hh31, Hq31, HtS31, HtR31⟩
  sl_exec
  iapply (wp_send_held' m K c _ 3 1 (dev14_eq c) q31 (owedFor ((acts c).drop 14)) _) $$ [Hh31 Hq31 HO HtS31 HtR31]
  · sl_close
  iintro ⟨HcS31, HO⟩
  sl_exec
  sl_step
  sl_close

theorem part12_spec (c : Dev nD) (d0 : Dev nD) (hd0 : d0 = c) (v65 : BitVec 32) (W : Waits sig Unit) (q32 : Buf (Elt F) ((commSl 3 (slotOf 2) : Memref sig .tc .vmem S4x512 .f32).view.loc (sh c ((2 : Fin 3).val + 1) : Thread nD τ))) :
    iprop(records m K ∗ levAts L lv ∗ (owes (c : Thread nD τ) (owedFor ((acts c).drop 14)) W)
        ∗ (ownHeld m c 3 (qLent 2))
        ∗ (slotPts (sh c ((2 : Fin 3).val + 1)) 3 (slotOf 2) q32)
        ∗ (dutyTok ER (sendCell c 3 2) 0 0)
        ∗ (dutyTok ER (recvCell (sh c ((2 : Fin 3).val + 1)) 3 (slotOf 2)) 0 0)
        ∗ ((tM : Memref sig .tc .vmem S2x128 .f32).view.loc (c : Thread nD τ) ↦{fullShare} tstg m c)
        ∗ ((wsM : Memref sig .tc .vmem S128x512 .f32).view.loc (c : Thread nD τ) ↦{fullShare} wsstg m c)
        ∗ ((wshM : Memref sig .tc .vmem S128x512 .f32).view.loc (c : Thread nD τ) ↦{fullShare} wshstg m c)
        ∗ (cred (tallyAt (recvCell c 0 2) () N))
        ∗ (atPos ER (recvCell c 0 2) 0 ∅ 0))
      ⊢ wp frame (wpE (defs₀ (F := F)) 𝒱₀ c none) Set.univ
          (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 d0 v65)
          (fun r => iprop((⌜r.1 = scV m c⌝ ∗ ⌜r.2 = shV m c⌝)
            ∗ (owes (c : Thread nD τ) (owedFor ((acts c).drop 15)) (insert (SemLoc.dma (recvSem 0 2), ()) W))
            ∗ (cred (tallyAt (sendCell c 3 2) () N))
            ∗ ((tM : Memref sig .tc .vmem S2x128 .f32).view.loc (c : Thread nD τ) ↦{fullShare} tstg m c)
            ∗ ((wsM : Memref sig .tc .vmem S128x512 .f32).view.loc (c : Thread nD τ) ↦{fullShare} wsstg m c)
            ∗ ((wshM : Memref sig .tc .vmem S128x512 .f32).view.loc (c : Thread nD τ) ↦{fullShare} wshstg m c)
            ∗ (atPos ER (recvCell c 0 2) 1 ∅ 0)
            ∗ (slotLanded m c 0 2))) := by
  subst d0
  rw [k0_part12_eq_skeleton]; unfold k0_part12_skel
  iintro ⟨#Hrec, #Hlev, HO, Hh32, Hq32, HtS32, HtR32, Ht, Hws, Hwsh, HcR02, HpR02⟩
  sl_exec
  iapply (wp_send_held' m K c _ 3 2 (dev15_eq c) q32 (owedFor ((acts c).drop 15)) _) $$ [Hh32 Hq32 HO HtS32 HtR32]
  · sl_close
  iintro ⟨HcS32, HO⟩
  sl_exec
  iapply (wp_wait_recv m c 0 2 (inv_R m K c 0 2) (hw_recv c 0 2) _) $$ [HcR02 HO HpR02]
  · sl_close
  iintro ⟨HO, HpR02, HL02⟩
  sl_exec
  sl_step
  sl_close

end Parts

end Cert.Kernel.Coll

end
-- ==== Proof.Kernel.PartsC.lean ====
import proofs.«900763_g7700000000000764_dist_diff_adaln_cshard_i_b2_s2048_c512_v7x_i4_bf16_1_alg».proof.Proof.Kernel.PartsCommon

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 25 → ℕ)

theorem part13_spec (c : Dev nD) (v86 v107 : BitVec 32) (W : Waits sig Unit)  :
    iprop(records m K ∗ levAts L lv ∗ (owes (c : Thread nD τ) (owedFor ((acts c).drop 15)) W)
        ∗ (cred (tallyAt (recvCell c 0 1) () N))
        ∗ (atPos ER (recvCell c 0 1) 0 ∅ 0)
        ∗ (cred (tallyAt (recvCell c 0 0) () N))
        ∗ (atPos ER (recvCell c 0 0) 0 ∅ 0)
        ∗ (ownHeld m c 0 qKept))
      ⊢ wp frame (wpE (defs₀ (F := F)) 𝒱₀ c none) Set.univ
          (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v86 v107)
          (fun r => iprop((⌜r = k0_pay12 (ownV m c 0) (commV m c 0 0) (commV m c 0 1)⌝)
            ∗ (owes (c : Thread nD τ) (owedFor ((acts c).drop 15)) (insert (SemLoc.dma (recvSem 0 0), ()) (insert (SemLoc.dma (recvSem 0 1), ()) W)))
            ∗ (atPos ER (recvCell c 0 1) 1 ∅ 0)
            ∗ (slotLanded m c 0 1)
            ∗ (atPos ER (recvCell c 0 0) 1 ∅ 0)
            ∗ (slotLanded m c 0 0)
            ∗ (ownHeld m c 0 qKept))) := by
  rw [k0_part13_eq_skeleton]; unfold k0_part13_skel
  iintro ⟨#Hrec, #Hlev, HO, HcR01, HpR01, HcR00, HpR00, Hh0k⟩
  sl_exec
  iapply (wp_wait_recv m c 0 1 (inv_R m K c 0 1) (hw_recv c 0 1) _) $$ [HcR01 HO HpR01]
  · sl_close
  iintro ⟨HO, HpR01, HL01⟩
  sl_exec
  iapply (wp_wait_recv m c 0 0 (inv_R m K c 0 0) (hw_recv c 0 0) _) $$ [HcR00 HO HpR00]
  · sl_close
  iintro ⟨HO, HpR00, HL00⟩
  iapply (wp_load_ownHeld m c 0 qKept) $$ Hh0k
  iintro Hh0k
  iapply (wp_load_landed m c 0 0) $$ HL00
  iintro HL00
  iapply (wp_load_landed m c 0 1) $$ HL01
  iintro HL01
  iapply (wp_ret_bind' c _ _ _)
  sl_step
  sl_close

theorem part14_spec (c : Dev nD) (v140 : BitVec 32) (v354 v356 : FVec F S2x1x512 .bf16) (h354 : v354 = scV m c) (h356 : v356 = shV m c) (v388 : FVec F S4x512 .f32) (h388 : v388 = k0_pay12 (ownV m c 0) (commV m c 0 0) (commV m c 0 1))  (o : Buf (Elt F) ((c : Thread nD τ).loc cc0_stg4_0)) :
    iprop(records m K ∗ levAts L lv ∗ (slotLanded m c 0 2)
        ∗ ((xM : Memref sig .tc .vmem S2x2048x512 .f32).view.loc (c : Thread nD τ) ↦{fullShare} xstg m c)
        ∗ ((oM : Memref sig .tc .vmem S2x2048x512 .bf16).view.loc (c : Thread nD τ) ↦{fullShare} o))
      ⊢ wp frame (wpE (defs₀ (F := F)) 𝒱₀ c none) Set.univ
          (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v140 v354 v356 v388)
          (fun r => iprop((slotLanded m c 0 2)
            ∗ ((xM : Memref sig .tc .vmem S2x2048x512 .f32).view.loc (c : Thread nD τ) ↦{fullShare} xstg m c)
            ∗ ((oM : Memref sig .tc .vmem S2x2048x512 .bf16).view.loc (c : Thread nD τ) ↦{fullShare} (((oM : Memref sig .tc .vmem S2x2048x512 .bf16).access (Rect.unit (s := S2x2048x512) ![0, 0, 0] S2x512x512.size inb_S2x2048x512_S2x512x512_0_0_0)).write (Elt F) o (outV m c 0) Finset.univ)))) := by
  subst h354 h356 h388
  rw [k0_part14_eq_skeleton]; unfold k0_part14_skel
  iintro ⟨#Hrec, #Hlev, HL02, Hx, Hout⟩
  iapply (wp_load_landed m c 0 2) $$ HL02
  iintro HL02
  iapply (wp_ret_bind' c _ _ _)
  sl_exec
  sl_step
  sl_close

theorem part15_spec (c : Dev nD) (v161 v182 : BitVec 32) (W : Waits sig Unit)  :
    iprop(records m K ∗ levAts L lv ∗ (owes (c : Thread nD τ) (owedFor ((acts c).drop 15)) W)
        ∗ (cred (tallyAt (recvCell c 1 2) () N))
        ∗ (atPos ER (recvCell c 1 2) 0 ∅ 0)
        ∗ (cred (tallyAt (recvCell c 1 1) () N))
        ∗ (atPos ER (recvCell c 1 1) 0 ∅ 0)
        ∗ (cred (tallyAt (recvCell c 1 0) () N))
        ∗ (atPos ER (recvCell c 1 0) 0 ∅ 0)
        ∗ (ownHeld m c 1 qKept))
      ⊢ wp frame (wpE (defs₀ (F := F)) 𝒱₀ c none) Set.univ
          (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v161 v182)
          (fun r => iprop((⌜r = k0_pay14 (ownV m c 1) (commV m c 1 0)⌝)
            ∗ (owes (c : Thread nD τ) (owedFor ((acts c).drop 15)) (insert (SemLoc.dma (recvSem 1 0), ()) (insert (SemLoc.dma (recvSem 1 1), ()) (insert (SemLoc.dma (recvSem 1 2), ()) W))))
            ∗ (atPos ER (recvCell c 1 2) 1 ∅ 0)
            ∗ (slotLanded m c 1 2)
            ∗ (atPos ER (recvCell c 1 1) 1 ∅ 0)
            ∗ (slotLanded m c 1 1)
            ∗ (atPos ER (recvCell c 1 0) 1 ∅ 0)
            ∗ (slotLanded m c 1 0)
            ∗ (ownHeld m c 1 qKept))) := by
  rw [k0_part15_eq_skeleton]; unfold k0_part15_skel
  iintro ⟨#Hrec, #Hlev, HO, HcR12, HpR12, HcR11, HpR11, HcR10, HpR10, Hh1k⟩
  sl_exec
  iapply (wp_wait_recv m c 1 2 (inv_R m K c 1 2) (hw_recv c 1 2) _) $$ [HcR12 HO HpR12]
  · sl_close
  iintro ⟨HO, HpR12, HL12⟩
  sl_exec
  iapply (wp_wait_recv m c 1 1 (inv_R m K c 1 1) (hw_recv c 1 1) _) $$ [HcR11 HO HpR11]
  · sl_close
  iintro ⟨HO, HpR11, HL11⟩
  sl_exec
  iapply (wp_wait_recv m c 1 0 (inv_R m K c 1 0) (hw_recv c 1 0) _) $$ [HcR10 HO HpR10]
  · sl_close
  iintro ⟨HO, HpR10, HL10⟩
  iapply (wp_load_ownHeld m c 1 qKept) $$ Hh1k
  iintro Hh1k
  iapply (wp_load_landed m c 1 0) $$ HL10
  iintro HL10
  iapply (wp_ret_bind' c _ _ _)
  sl_step
  sl_close

theorem part16_spec (c : Dev nD) (v215 : BitVec 32) (v354 v356 : FVec F S2x1x512 .bf16) (h354 : v354 = scV m c) (h356 : v356 = shV m c) (v447 : FVec F S4x512 .f32) (h447 : v447 = k0_pay14 (ownV m c 1) (commV m c 1 0))  (o : Buf (Elt F) ((c : Thread nD τ).loc cc0_stg4_0)) :
    iprop(records m K ∗ levAts L lv ∗ (slotLanded m c 1 1)
        ∗ (slotLanded m c 1 2)
        ∗ ((xM : Memref sig .tc .vmem S2x2048x512 .f32).view.loc (c : Thread nD τ) ↦{fullShare} xstg m c)
        ∗ ((oM : Memref sig .tc .vmem S2x2048x512 .bf16).view.loc (c : Thread nD τ) ↦{fullShare} o))
      ⊢ wp frame (wpE (defs₀ (F := F)) 𝒱₀ c none) Set.univ
          (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v215 v354 v356 v447)
          (fun r => iprop((slotLanded m c 1 1)
            ∗ (slotLanded m c 1 2)
            ∗ ((xM : Memref sig .tc .vmem S2x2048x512 .f32).view.loc (c : Thread nD τ) ↦{fullShare} xstg m c)
            ∗ ((oM : Memref sig .tc .vmem S2x2048x512 .bf16).view.loc (c : Thread nD τ) ↦{fullShare} (((oM : Memref sig .tc .vmem S2x2048x512 .bf16).access (Rect.unit (s := S2x2048x512) ![0, 512, 0] S2x512x512.size inb_S2x2048x512_S2x512x512_0_512_0)).write (Elt F) o (outV m c 1) Finset.univ)))) := by
  subst h354 h356 h447
  rw [k0_part16_eq_skeleton]; unfold k0_part16_skel
  iintro ⟨#Hrec, #Hlev, HL11, HL12, Hx, Hout⟩
  iapply (wp_load_landed m c 1 1) $$ HL11
  iintro HL11
  iapply (wp_load_landed m c 1 2) $$ HL12
  iintro HL12
  iapply (wp_ret_bind' c _ _ _)
  sl_exec
  sl_step
  sl_close

theorem part17_spec (c : Dev nD) (v236 v257 v481 : BitVec 32) (W : Waits sig Unit)  :
    iprop(records m K ∗ levAts L lv ∗ (owes (c : Thread nD τ) (owedFor ((acts c).drop 15)) W)
        ∗ (cred (tallyAt (recvCell c 2 2) () N))
        ∗ (atPos ER (recvCell c 2 2) 0 ∅ 0)
        ∗ (cred (tallyAt (recvCell c 2 1) () N))
        ∗ (atPos ER (recvCell c 2 1) 0 ∅ 0)
        ∗ (cred (tallyAt (recvCell c 2 0) () N))
        ∗ (atPos ER (recvCell c 2 0) 0 ∅ 0))
      ⊢ wp frame (wpE (defs₀ (F := F)) 𝒱₀ c none) Set.univ
          (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v236 v257 v481)
          (fun r => iprop((owes (c : Thread nD τ) (owedFor ((acts c).drop 15)) (insert (SemLoc.dma (recvSem 2 0), ()) (insert (SemLoc.dma (recvSem 2 1), ()) (insert (SemLoc.dma (recvSem 2 2), ()) W))))
            ∗ (atPos ER (recvCell c 2 2) 1 ∅ 0)
            ∗ (slotLanded m c 2 2)
            ∗ (atPos ER (recvCell c 2 1) 1 ∅ 0)
            ∗ (slotLanded m c 2 1)
            ∗ (atPos ER (recvCell c 2 0) 1 ∅ 0)
            ∗ (slotLanded m c 2 0))) := by
  rw [k0_part17_eq_skeleton]; unfold k0_part17_skel
  iintro ⟨#Hrec, #Hlev, HO, HcR22, HpR22, HcR21, HpR21, HcR20, HpR20⟩
  sl_exec
  iapply (wp_wait_recv m c 2 2 (inv_R m K c 2 2) (hw_recv c 2 2) _) $$ [HcR22 HO HpR22]
  · sl_close
  iintro ⟨HO, HpR22, HL22⟩
  sl_exec
  iapply (wp_wait_recv m c 2 1 (inv_R m K c 2 1) (hw_recv c 2 1) _) $$ [HcR21 HO HpR21]
  · sl_close
  iintro ⟨HO, HpR21, HL21⟩
  sl_exec
  iapply (wp_wait_recv m c 2 0 (inv_R m K c 2 0) (hw_recv c 2 0) _) $$ [HcR20 HO HpR20]
  · sl_close
  iintro ⟨HO, HpR20, HL20⟩
  sl_exec
  sl_step
  sl_close

theorem part18_spec (c : Dev nD) (v354 v356 : FVec F S2x1x512 .bf16) (h354 : v354 = scV m c) (h356 : v356 = shV m c)  (o : Buf (Elt F) ((c : Thread nD τ).loc cc0_stg4_0)) :
    iprop(records m K ∗ levAts L lv ∗ (ownHeld m c 2 qKept)
        ∗ (slotLanded m c 2 0)
        ∗ (slotLanded m c 2 1)
        ∗ (slotLanded m c 2 2)
        ∗ ((xM : Memref sig .tc .vmem S2x2048x512 .f32).view.loc (c : Thread nD τ) ↦{fullShare} xstg m c)
        ∗ ((oM : Memref sig .tc .vmem S2x2048x512 .bf16).view.loc (c : Thread nD τ) ↦{fullShare} o))
      ⊢ wp frame (wpE (defs₀ (F := F)) 𝒱₀ c none) Set.univ
          (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v354 v356)
          (fun r => iprop((ownHeld m c 2 qKept)
            ∗ (slotLanded m c 2 0)
            ∗ (slotLanded m c 2 1)
            ∗ (slotLanded m c 2 2)
            ∗ ((xM : Memref sig .tc .vmem S2x2048x512 .f32).view.loc (c : Thread nD τ) ↦{fullShare} xstg m c)
            ∗ ((oM : Memref sig .tc .vmem S2x2048x512 .bf16).view.loc (c : Thread nD τ) ↦{fullShare} (((oM : Memref sig .tc .vmem S2x2048x512 .bf16).access (Rect.unit (s := S2x2048x512) ![0, 1024, 0] S2x512x512.size inb_S2x2048x512_S2x512x512_0_1024_0)).write (Elt F) o (outV m c 2) Finset.univ)))) := by
  subst h354 h356
  rw [k0_part18_eq_skeleton]; unfold k0_part18_skel
  iintro ⟨#Hrec, #Hlev, Hh2k, HL20, HL21, HL22, Hx, Hout⟩
  iapply (wp_load_ownHeld m c 2 qKept) $$ Hh2k
  iintro Hh2k
  iapply (wp_load_landed m c 2 0) $$ HL20
  iintro HL20
  iapply (wp_load_landed m c 2 1) $$ HL21
  iintro HL21
  iapply (wp_load_landed m c 2 2) $$ HL22
  iintro HL22
  iapply (wp_ret_bind' c _ _ _)
  sl_exec
  sl_step
  sl_close

end Parts

end Cert.Kernel.Coll

end
-- ==== Proof.Kernel.PartsD.lean ====
import proofs.«900763_g7700000000000764_dist_diff_adaln_cshard_i_b2_s2048_c512_v7x_i4_bf16_1_alg».proof.Proof.Kernel.PartsCommon

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 25 → ℕ)

theorem part19_spec (c : Dev nD) (v290 v311 v332 : BitVec 32) (W : Waits sig Unit)  :
    iprop(records m K ∗ levAts L lv ∗ (owes (c : Thread nD τ) (owedFor ((acts c).drop 15)) W)
        ∗ (cred (tallyAt (recvCell c 3 2) () N))
        ∗ (atPos ER (recvCell c 3 2) 0 ∅ 0)
        ∗ (cred (tallyAt (recvCell c 3 1) () N))
        ∗ (atPos ER (recvCell c 3 1) 0 ∅ 0))
      ⊢ wp frame (wpE (defs₀ (F := F)) 𝒱₀ c none) Set.univ
          (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v290 v311 v332)
          (fun r => iprop((owes (c : Thread nD τ) (owedFor ((acts c).drop 15)) (insert (SemLoc.dma (recvSem 3 1), ()) (insert (SemLoc.dma (recvSem 3 2), ()) W)))
            ∗ (atPos ER (recvCell c 3 2) 1 ∅ 0)
            ∗ (slotLanded m c 3 2)
            ∗ (atPos ER (recvCell c 3 1) 1 ∅ 0)
            ∗ (slotLanded m c 3 1))) := by
  rw [k0_part19_eq_skeleton]; unfold k0_part19_skel
  iintro ⟨#Hrec, #Hlev, HO, HcR32, HpR32, HcR31, HpR31⟩
  sl_exec
  iapply (wp_wait_recv m c 3 2 (inv_R m K c 3 2) (hw_recv c 3 2) _) $$ [HcR32 HO HpR32]
  · sl_close
  iintro ⟨HO, HpR32, HL32⟩
  sl_exec
  iapply (wp_wait_recv m c 3 1 (inv_R m K c 3 1) (hw_recv c 3 1) _) $$ [HcR31 HO HpR31]
  · sl_close
  iintro ⟨HO, HpR31, HL31⟩
  sl_exec
  sl_step
  sl_close

theorem part20_spec (c : Dev nD)  (W : Waits sig Unit)  :
    iprop(records m K ∗ levAts L lv ∗ (owes (c : Thread nD τ) (owedFor ((acts c).drop 15)) W)
        ∗ (cred (tallyAt (recvCell c 3 0) () N))
        ∗ (atPos ER (recvCell c 3 0) 0 ∅ 0)
        ∗ (ownHeld m c 3 qKept)
        ∗ (slotLanded m c 3 1)
        ∗ (slotLanded m c 3 2)
        ∗ ((xM : Memref sig .tc .vmem S2x2048x512 .f32).view.loc (c : Thread nD τ) ↦{fullShare} xstg m c))
      ⊢ wp frame (wpE (defs₀ (F := F)) 𝒱₀ c none) Set.univ
          (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 )
          (fun r => iprop((⌜r = k0_pay17 (ownV m c 3) (commV m c 3 0) (commV m c 3 1) (commV m c 3 2) (xrow m c 3)⌝)
            ∗ (owes (c : Thread nD τ) (owedFor ((acts c).drop 15)) (insert (SemLoc.dma (recvSem 3 0), ()) W))
            ∗ (atPos ER (recvCell c 3 0) 1 ∅ 0)
            ∗ (slotLanded m c 3 0)
            ∗ (ownHeld m c 3 qKept)
            ∗ (slotLanded m c 3 1)
            ∗ (slotLanded m c 3 2)
            ∗ ((xM : Memref sig .tc .vmem S2x2048x512 .f32).view.loc (c : Thread nD τ) ↦{fullShare} xstg m c))) := by
  rw [k0_part20_eq_skeleton]; unfold k0_part20_skel
  iintro ⟨#Hrec, #Hlev, HO, HcR30, HpR30, Hh3k, HL31, HL32, Hx⟩
  sl_exec
  iapply (wp_wait_recv m c 3 0 (inv_R m K c 3 0) (hw_recv c 3 0) _) $$ [HcR30 HO HpR30]
  · sl_close
  iintro ⟨HO, HpR30, HL30⟩
  iapply (wp_load_ownHeld m c 3 qKept) $$ Hh3k
  iintro Hh3k
  iapply (wp_load_landed m c 3 0) $$ HL30
  iintro HL30
  iapply (wp_load_landed m c 3 1) $$ HL31
  iintro HL31
  iapply (wp_load_landed m c 3 2) $$ HL32
  iintro HL32
  iapply (wp_ret_bind' c _ _ _)
  sl_exec
  sl_step
  sl_close

theorem part21_spec (c : Dev nD) (v354 v356 : FVec F S2x1x512 .bf16) (h354 : v354 = scV m c) (h356 : v356 = shV m c) (v599 : FVec F S2x512x512 .bf16) (h599 : v599 = k0_pay17 (ownV m c 3) (commV m c 3 0) (commV m c 3 1) (commV m c 3 2) (xrow m c 3)) (W : Waits sig Unit) (o : Buf (Elt F) ((c : Thread nD τ).loc cc0_stg4_0)) :
    iprop(records m K ∗ levAts L lv ∗ ((oM : Memref sig .tc .vmem S2x2048x512 .bf16).view.loc (c : Thread nD τ) ↦{fullShare} o)
        ∗ (owes (c : Thread nD τ) (owedFor ((acts c).drop 15)) W)
        ∗ (cred (tallyAt (sendCell c 0 0) () N))
        ∗ (atPos ER (sendCell c 0 0) 0 ∅ 0)
        ∗ (cred (tallyAt (sendCell c 0 1) () N))
        ∗ (atPos ER (sendCell c 0 1) 0 ∅ 0))
      ⊢ wp frame (wpE (defs₀ (F := F)) 𝒱₀ c none) Set.univ
          (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 v354 v356 v599)
          (fun r => iprop(((oM : Memref sig .tc .vmem S2x2048x512 .bf16).view.loc (c : Thread nD τ) ↦{fullShare} (((oM : Memref sig .tc .vmem S2x2048x512 .bf16).access (Rect.unit (s := S2x2048x512) ![0, 1536, 0] S2x512x512.size inb_S2x2048x512_S2x512x512_0_1536_0)).write (Elt F) o (outV m c 3) Finset.univ))
            ∗ (owes (c : Thread nD τ) (owedFor ((acts c).drop 15)) (insert (SemLoc.dma (sendSem 0 1), ()) (insert (SemLoc.dma (sendSem 0 0), ()) W)))
            ∗ (atPos ER (sendCell c 0 0) 1 ∅ 0)
            ∗ (ownHeld m c 0 (qLent 0))
            ∗ (atPos ER (sendCell c 0 1) 1 ∅ 0)
            ∗ (ownHeld m c 0 (qLent 1)))) := by
  subst h354 h356 h599
  rw [k0_part21_eq_skeleton]; unfold k0_part21_skel
  iintro ⟨#Hrec, #Hlev, Hout, HO, HcS00, HpS00, HcS01, HpS01⟩
  sl_exec
  iapply (wp_wait_send m c 0 0 (inv_S m K c 0 0) (hw_send c 0 0) _) $$ [HcS00 HO HpS00]
  · sl_close
  iintro ⟨HO, HpS00, Hh00⟩
  sl_exec
  iapply (wp_wait_send m c 0 1 (inv_S m K c 0 1) (hw_send c 0 1) _) $$ [HcS01 HO HpS01]
  · sl_close
  iintro ⟨HO, HpS01, Hh01⟩
  sl_exec
  sl_step
  sl_close

theorem part22_spec (c : Dev nD)  (W : Waits sig Unit)  :
    iprop(records m K ∗ levAts L lv ∗ (owes (c : Thread nD τ) (owedFor ((acts c).drop 15)) W)
        ∗ (cred (tallyAt (sendCell c 0 2) () N))
        ∗ (atPos ER (sendCell c 0 2) 0 ∅ 0)
        ∗ (cred (tallyAt (sendCell c 1 0) () N))
        ∗ (atPos ER (sendCell c 1 0) 0 ∅ 0)
        ∗ (cred (tallyAt (sendCell c 1 1) () N))
        ∗ (atPos ER (sendCell c 1 1) 0 ∅ 0))
      ⊢ wp frame (wpE (defs₀ (F := F)) 𝒱₀ c none) Set.univ
          (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 )
          (fun r => iprop((owes (c : Thread nD τ) (owedFor ((acts c).drop 15)) (insert (SemLoc.dma (sendSem 1 1), ()) (insert (SemLoc.dma (sendSem 1 0), ()) (insert (SemLoc.dma (sendSem 0 2), ()) W))))
            ∗ (atPos ER (sendCell c 0 2) 1 ∅ 0)
            ∗ (ownHeld m c 0 (qLent 2))
            ∗ (atPos ER (sendCell c 1 0) 1 ∅ 0)
            ∗ (ownHeld m c 1 (qLent 0))
            ∗ (atPos ER (sendCell c 1 1) 1 ∅ 0)
            ∗ (ownHeld m c 1 (qLent 1)))) := by
  rw [k0_part22_eq_skeleton]; unfold k0_part22_skel
  iintro ⟨#Hrec, #Hlev, HO, HcS02, HpS02, HcS10, HpS10, HcS11, HpS11⟩
  sl_exec
  iapply (wp_wait_send m c 0 2 (inv_S m K c 0 2) (hw_send c 0 2) _) $$ [HcS02 HO HpS02]
  · sl_close
  iintro ⟨HO, HpS02, Hh02⟩
  sl_exec
  iapply (wp_wait_send m c 1 0 (inv_S m K c 1 0) (hw_send c 1 0) _) $$ [HcS10 HO HpS10]
  · sl_close
  iintro ⟨HO, HpS10, Hh10⟩
  sl_exec
  iapply (wp_wait_send m c 1 1 (inv_S m K c 1 1) (hw_send c 1 1) _) $$ [HcS11 HO HpS11]
  · sl_close
  iintro ⟨HO, HpS11, Hh11⟩
  sl_exec
  sl_step
  sl_close

theorem part23_spec (c : Dev nD)  (W : Waits sig Unit)  :
    iprop(records m K ∗ levAts L lv ∗ (owes (c : Thread nD τ) (owedFor ((acts c).drop 15)) W)
        ∗ (cred (tallyAt (sendCell c 1 2) () N))
        ∗ (atPos ER (sendCell c 1 2) 0 ∅ 0)
        ∗ (cred (tallyAt (sendCell c 2 0) () N))
        ∗ (atPos ER (sendCell c 2 0) 0 ∅ 0)
        ∗ (cred (tallyAt (sendCell c 2 1) () N))
        ∗ (atPos ER (sendCell c 2 1) 0 ∅ 0)
        ∗ (cred (tallyAt (sendCell c 2 2) () N))
        ∗ (atPos ER (sendCell c 2 2) 0 ∅ 0))
      ⊢ wp frame (wpE (defs₀ (F := F)) 𝒱₀ c none) Set.univ
          (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) cc0_scratch2 cc0_scratch3 )
          (fun r => iprop((owes (c : Thread nD τ) (owedFor ((acts c).drop 15)) (insert (SemLoc.dma (sendSem 2 2), ()) (insert (SemLoc.dma (sendSem 2 1), ()) (insert (SemLoc.dma (sendSem 2 0), ()) (insert (SemLoc.dma (sendSem 1 2), ()) W)))))
            ∗ (atPos ER (sendCell c 1 2) 1 ∅ 0)
            ∗ (ownHeld m c 1 (qLent 2))
            ∗ (atPos ER (sendCell c 2 0) 1 ∅ 0)
            ∗ (ownHeld m c 2 (qLent 0))
            ∗ (atPos ER (sendCell c 2 1) 1 ∅ 0)
            ∗ (ownHeld m c 2 (qLent 1))
            ∗ (atPos ER (sendCell c 2 2) 1 ∅ 0)
            ∗ (ownHeld m c 2 (qLent 2)))) := by
  rw [k0_part23_eq_skeleton]; unfold k0_part23_skel
  iintro ⟨#Hrec, #Hlev, HO, HcS12, HpS12, HcS20, HpS20, HcS21, HpS21, HcS22, HpS22⟩
  sl_exec
  iapply (wp_wait_send m c 1 2 (inv_S m K c 1 2) (hw_send c 1 2) _) $$ [HcS12 HO HpS12]
  · sl_close
  iintro ⟨HO, HpS12, Hh12⟩
  sl_exec
  iapply (wp_wait_send m c 2 0 (inv_S m K c 2 0) (hw_send c 2 0) _) $$ [HcS20 HO HpS20]
  · sl_close
  iintro ⟨HO, HpS20, Hh20⟩
  sl_exec
  iapply (wp_wait_send m c 2 1 (inv_S m K c 2 1) (hw_send c 2 1) _) $$ [HcS21 HO HpS21]
  · sl_close
  iintro ⟨HO, HpS21, Hh21⟩
  sl_exec
  iapply (wp_wait_send m c 2 2 (inv_S m K c 2 2) (hw_send c 2 2) _) $$ [HcS22 HO HpS22]
  · sl_close
  iintro ⟨HO, HpS22, Hh22⟩
  sl_exec
  sl_step
  sl_close

end Parts

end Cert.Kernel.Coll

end
-- ==== Proof.Kernel.Exit.lean ====
import proofs.«900763_g7700000000000764_dist_diff_adaln_cshard_i_b2_s2048_c512_v7x_i4_bf16_1_alg».proof.Proof.Kernel.Side
import proofs.«900763_g7700000000000764_dist_diff_adaln_cshard_i_b2_s2048_c512_v7x_i4_bf16_1_alg».proof.Proof.Kernel.Pieces

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem own_exit (c : Dev nD) :
    iprop((ownHeld m c 0 (qLent 0) ∗ ownHeld m c 0 (qLent 1) ∗ ownHeld m c 0 (qLent 2) ∗ ownHeld m c 0 qKept)
        ∗ (ownHeld m c 1 (qLent 0) ∗ ownHeld m c 1 (qLent 1) ∗ ownHeld m c 1 (qLent 2) ∗ ownHeld m c 1 qKept)
        ∗ (ownHeld m c 2 (qLent 0) ∗ ownHeld m c 2 (qLent 1) ∗ ownHeld m c 2 (qLent 2) ∗ ownHeld m c 2 qKept)
        ∗ (ownHeld m c 3 (qLent 0) ∗ ownHeld m c 3 (qLent 1) ∗ ownHeld m c 3 (qLent 2) ∗ ownHeld m c 3 qKept))
      ⊢ (iprop(∃ f : Buf (Elt F) ((c : Thread nD τ).loc cc0_scratch0), ((c : Thread nD τ).loc cc0_scratch0) ↦{fullShare} f) : sProp 𝕄) := by
  iintro ⟨⟨A00, A01, A02, A0K⟩, ⟨A10, A11, A12, A1K⟩, ⟨A20, A21, A22, A2K⟩, ⟨A30, A31, A32, A3K⟩⟩
  ihave H0 := (ownHeld_join m c 0) $$ [A00 A01 A02 A0K]
  · sl_close
  ihave H1 := (ownHeld_join m c 1) $$ [A10 A11 A12 A1K]
  · sl_close
  ihave H2 := (ownHeld_join m c 2) $$ [A20 A21 A22 A2K]
  · sl_close
  ihave H3 := (ownHeld_join m c 3) $$ [A30 A31 A32 A3K]
  · sl_close
  iapply (own_join_held m c)
  sl_close

theorem comm_exit (c : Dev nD) :
    iprop(slotLanded m c 0 0 ∗ slotLanded m c 0 1 ∗ slotLanded m c 0 2 ∗ slotLanded m c 1 0 ∗ slotLanded m c 1 1 ∗ slotLanded m c 1 2 ∗ slotLanded m c 2 0 ∗ slotLanded m c 2 1 ∗ slotLanded m c 2 2 ∗ slotLanded m c 3 0 ∗ slotLanded m c 3 1 ∗ slotLanded m c 3 2)
      ⊢ (iprop(∃ f : Buf (Elt F) ((c : Thread nD τ).loc cc0_scratch1), ((c : Thread nD τ).loc cc0_scratch1) ↦{fullShare} f) : sProp 𝕄) := by
  iintro ⟨L00, L01, L02, L10, L11, L12, L20, L21, L22, L30, L31, L32⟩
  ihave L00 := (slotFree_of_landed m c 0 0) $$ L00
  ihave L01 := (slotFree_of_landed m c 0 1) $$ L01
  ihave L02 := (slotFree_of_landed m c 0 2) $$ L02
  ihave L10 := (slotFree_of_landed m c 1 0) $$ L10
  ihave L11 := (slotFree_of_landed m c 1 1) $$ L11
  ihave L12 := (slotFree_of_landed m c 1 2) $$ L12
  ihave L20 := (slotFree_of_landed m c 2 0) $$ L20
  ihave L21 := (slotFree_of_landed m c 2 1) $$ L21
  ihave L22 := (slotFree_of_landed m c 2 2) $$ L22
  ihave L30 := (slotFree_of_landed m c 3 0) $$ L30
  ihave L31 := (slotFree_of_landed m c 3 1) $$ L31
  ihave L32 := (slotFree_of_landed m c 3 2) $$ L32
  iapply (comm_join_free c)
  isplitl [L00 L10 L20 L30]
  · sl_close
  isplitl [L01 L11 L21 L31]
  · sl_close
  sl_close

-- Every cell of the family is past its one round, so its invariant closes it at zero; the record is persistent, so it serves each cell, and the updates of the family combine into one.
theorem cells_close {R : sProp 𝕄} [BI.Persistent R] (cell : Fin 4 → Fin 3 → GSem nD τ sig) (κ : Fin 4 → Fin 3 → ℕ)
    (h : ∀ a b, R ⊢ cellInv ER (ringRd m) (κ a b) (cell a b)) :
    iprop(R ∗ bigSep Finset.univ fun p : Fin 4 × Fin 3 => atPos ER (cell p.1 p.2) 1 ∅ 0)
      ⊢ (iprop(|={Set.univ}=> bigSep Finset.univ fun p : Fin 4 × Fin 3 => semVal (cell p.1 p.2) 0) : sProp 𝕄) := by
  refine (sep_mono_left (bigSep_intro_persistent (S := Finset.univ) (Φ := fun p : Fin 4 × Fin 3 => cellInv ER (ringRd m) (κ p.1 p.2) (cell p.1 p.2)) fun p _ => h p.1 p.2)).trans ?_
  rw [← bigSep_sep']
  exact (bigSep_mono fun p _ => Rounds.cell_close ER (ringRd m) (Set.mem_univ _) (fun hu => hu) (R := 1) (duties_later m _)).trans (bigSep_fupd _ _)

theorem exit_phi1 {R : sProp 𝕄} [BI.Persistent R] (c : Dev nD) (κS κR : Fin 4 → Fin 3 → ℕ)
    (hS : ∀ (h : Fin 4) (e : Fin 3), R ⊢ cellInv ER (ringRd m) (κS h e) (sendCell c h e))
    (hR : ∀ (h : Fin 4) (j : Fin 3), R ⊢ cellInv ER (ringRd m) (κR h j) (recvCell c h j)) :
    iprop(R
        ∗ ((ownHeld m c 0 (qLent 0) ∗ ownHeld m c 0 (qLent 1) ∗ ownHeld m c 0 (qLent 2) ∗ ownHeld m c 0 qKept)
          ∗ (ownHeld m c 1 (qLent 0) ∗ ownHeld m c 1 (qLent 1) ∗ ownHeld m c 1 (qLent 2) ∗ ownHeld m c 1 qKept)
          ∗ (ownHeld m c 2 (qLent 0) ∗ ownHeld m c 2 (qLent 1) ∗ ownHeld m c 2 (qLent 2) ∗ ownHeld m c 2 qKept)
          ∗ (ownHeld m c 3 (qLent 0) ∗ ownHeld m c 3 (qLent 1) ∗ ownHeld m c 3 (qLent 2) ∗ ownHeld m c 3 qKept))
        ∗ (slotLanded m c 0 0 ∗ slotLanded m c 0 1 ∗ slotLanded m c 0 2 ∗ slotLanded m c 1 0 ∗ slotLanded m c 1 1 ∗ slotLanded m c 1 2 ∗ slotLanded m c 2 0 ∗ slotLanded m c 2 1 ∗ slotLanded m c 2 2 ∗ slotLanded m c 3 0 ∗ slotLanded m c 3 1 ∗ slotLanded m c 3 2)
        ∗ (atPos ER (sendCell c 0 0) 1 ∅ 0 ∗ atPos ER (sendCell c 0 1) 1 ∅ 0 ∗ atPos ER (sendCell c 0 2) 1 ∅ 0 ∗ atPos ER (sendCell c 1 0) 1 ∅ 0 ∗ atPos ER (sendCell c 1 1) 1 ∅ 0 ∗ atPos ER (sendCell c 1 2) 1 ∅ 0 ∗ atPos ER (sendCell c 2 0) 1 ∅ 0 ∗ atPos ER (sendCell c 2 1) 1 ∅ 0 ∗ atPos ER (sendCell c 2 2) 1 ∅ 0 ∗ atPos ER (sendCell c 3 0) 1 ∅ 0 ∗ atPos ER (sendCell c 3 1) 1 ∅ 0 ∗ atPos ER (sendCell c 3 2) 1 ∅ 0)
        ∗ (atPos ER (recvCell c 0 0) 1 ∅ 0 ∗ atPos ER (recvCell c 0 1) 1 ∅ 0 ∗ atPos ER (recvCell c 0 2) 1 ∅ 0 ∗ atPos ER (recvCell c 1 0) 1 ∅ 0 ∗ atPos ER (recvCell c 1 1) 1 ∅ 0 ∗ atPos ER (recvCell c 1 2) 1 ∅ 0 ∗ atPos ER (recvCell c 2 0) 1 ∅ 0 ∗ atPos ER (recvCell c 2 1) 1 ∅ 0 ∗ atPos ER (recvCell c 2 2) 1 ∅ 0 ∗ atPos ER (recvCell c 3 0) 1 ∅ 0 ∗ atPos ER (recvCell c 3 1) 1 ∅ 0 ∗ atPos ER (recvCell c 3 2) 1 ∅ 0))
      ⊢ (iprop(|={Set.univ}=> Φ₁ c) : sProp 𝕄) := by
  iintro ⟨#HR, HOWN, HLAND, HATS, HATR⟩
  ihave Hown := (own_exit m c) $$ HOWN
  ihave Hcomm := (comm_exit m c) $$ HLAND
  imod (cells_close m (sendCell c) κS hS) $$ [HATS] with HZS
  · isplitr; · iexact HR
    rw [bigSep_fin4x3]; iexact HATS
  imod (cells_close m (recvCell c) κR hR) $$ [HATR] with HZR
  · isplitr; · iexact HR
    rw [bigSep_fin4x3]; iexact HATR
  imodintro
  unfold Φ₁
  isplitl [Hown]; · iexact Hown
  isplitl [Hcomm]; · iexact Hcomm
  isplitl [HZS]; · iexact HZS
  iexact HZR

end Cert.Kernel.Coll
end
-- ==== Proof.Kernel.OutBlock.lean ====
import proofs.«900763_g7700000000000764_dist_diff_adaln_cshard_i_b2_s2048_c512_v7x_i4_bf16_1_alg».proof.Proof.Kernel.Sched
import Idealize.ShloMosaic.Lib.Pipeline.FrameBody
import Idealize.ShloMosaic.Lib.Pipeline.Value
import Idealize.ShloMosaic.Lib.Writes

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem mem_xRect (h : Fin 4) (y : S2x2048x512.Idx) (hlo : 512 * h.val ≤ (y 1).val) (hhi : (y 1).val < 512 * h.val + 512) :
    y ∈ (xRect h).set := by
  have h0 : (y 0).val < 2 := (y 0).isLt
  have h2 : (y 2).val < 512 := (y 2).isLt
  rw [Rect.mem_set_unit]
  intro a
  match a with
  | ⟨0, _⟩ => exact ⟨Nat.zero_le _, by show (y 0).val < 0 + 2; omega⟩
  | ⟨1, _⟩ => exact ⟨hlo, hhi⟩
  | ⟨2, _⟩ => exact ⟨Nat.zero_le _, by show (y 2).val < 0 + 512; omega⟩

theorem out_cover (c : Dev nD) (y : S2x2048x512.Idx) :
    ∃ p ∈ ([⟨xRect 3, outV m c 3⟩, ⟨xRect 2, outV m c 2⟩, ⟨xRect 1, outV m c 1⟩, ⟨xRect 0, outV m c 0⟩] :
      List (View.Piece (Elt F) S2x2048x512 .bf16)), y ∈ p.1.set := by
  have h1 : (y 1).val < 2048 := (y 1).isLt
  rcases (by omega : (y 1).val < 512 ∨ (512 ≤ (y 1).val ∧ (y 1).val < 1024) ∨ (1024 ≤ (y 1).val ∧ (y 1).val < 1536)
      ∨ 1536 ≤ (y 1).val) with h | h | h | h
  · exact ⟨⟨xRect 0, outV m c 0⟩, by simp, mem_xRect 0 y (by show 512 * 0 ≤ _; omega) (by show _ < 512 * 0 + 512; omega)⟩
  · exact ⟨⟨xRect 1, outV m c 1⟩, by simp, mem_xRect 1 y (by show 512 * 1 ≤ _; omega) (by show _ < 512 * 1 + 512; omega)⟩
  · exact ⟨⟨xRect 2, outV m c 2⟩, by simp, mem_xRect 2 y (by show 512 * 2 ≤ _; omega) (by show _ < 512 * 2 + 512; omega)⟩
  · exact ⟨⟨xRect 3, outV m c 3⟩, by simp, mem_xRect 3 y (by show 512 * 3 ≤ _; omega) (by show _ < 512 * 3 + 512; omega)⟩

abbrev outPieces (c : Dev nD) : List (View.Piece (Elt F) S2x2048x512 .bf16) :=
  [⟨xRect 3, outV m c 3⟩, ⟨xRect 2, outV m c 2⟩, ⟨xRect 1, outV m c 1⟩, ⟨xRect 0, outV m c 0⟩]

theorem writes_out (c : Dev nD) (o0 : Buf (Elt F) ((c : Thread nD τ).loc cc0_stg4_0)) :
    (oM : Memref sig .tc .vmem S2x2048x512 .bf16).view.writes (Elt F) o0
        [⟨xRect 3, outV m c 3⟩, ⟨xRect 2, outV m c 2⟩, ⟨xRect 1, outV m c 1⟩, ⟨xRect 0, outV m c 0⟩]
      = outBlk m c := by
  have h := View.read_writes_eq_canon (Val := Elt F) (oM : Memref sig .tc .vmem S2x2048x512 .bf16).view o0
    (outPieces m c) (out_cover m c)
  rw [View.read_whole] at h
  exact h

theorem stores_out (c : Dev nD) (o0 : Buf (Elt F) ((c : Thread nD τ).loc cc0_stg4_0)) :
    ((oM : Memref sig .tc .vmem S2x2048x512 .bf16).access (xRect 3) : View sig .tc _ _ _).write (Elt F)
      (((oM : Memref sig .tc .vmem S2x2048x512 .bf16).access (xRect 2) : View sig .tc _ _ _).write (Elt F)
        (((oM : Memref sig .tc .vmem S2x2048x512 .bf16).access (xRect 1) : View sig .tc _ _ _).write (Elt F)
          (((oM : Memref sig .tc .vmem S2x2048x512 .bf16).access (xRect 0) : View sig .tc _ _ _).write (Elt F) o0
            (outV m c 0) Finset.univ)
          (outV m c 1) Finset.univ)
        (outV m c 2) Finset.univ)
      (outV m c 3) Finset.univ
      = outBlk m c :=
  writes_out m c o0

theorem stores_out_lit (c : Dev nD) (o0 : Buf (Elt F) ((c : Thread nD τ).loc cc0_stg4_0)) :
    ((oM : Memref sig .tc .vmem S2x2048x512 .bf16).access
        (Rect.unit (s := S2x2048x512) ![0, 1536, 0] S2x512x512.size inb_S2x2048x512_S2x512x512_0_1536_0) : View sig .tc _ _ _).write (Elt F)
      (((oM : Memref sig .tc .vmem S2x2048x512 .bf16).access
          (Rect.unit (s := S2x2048x512) ![0, 1024, 0] S2x512x512.size inb_S2x2048x512_S2x512x512_0_1024_0) : View sig .tc _ _ _).write (Elt F)
        (((oM : Memref sig .tc .vmem S2x2048x512 .bf16).access
            (Rect.unit (s := S2x2048x512) ![0, 512, 0] S2x512x512.size inb_S2x2048x512_S2x512x512_0_512_0) : View sig .tc _ _ _).write (Elt F)
          (((oM : Memref sig .tc .vmem S2x2048x512 .bf16).access
              (Rect.unit (s := S2x2048x512) ![0, 0, 0] S2x512x512.size inb_S2x2048x512_S2x512x512_0_0_0) : View sig .tc _ _ _).write (Elt F) o0
            (outV m c 0) Finset.univ)
          (outV m c 1) Finset.univ)
        (outV m c 2) Finset.univ)
      (outV m c 3) Finset.univ
      = outBlk m c :=
  stores_out m c o0

end Cert.Kernel.Coll

end
-- ==== Proof.Kernel.Body.lean ====
import proofs.«900763_g7700000000000764_dist_diff_adaln_cshard_i_b2_s2048_c512_v7x_i4_bf16_1_alg».proof.Proof.Kernel.PartsA
import proofs.«900763_g7700000000000764_dist_diff_adaln_cshard_i_b2_s2048_c512_v7x_i4_bf16_1_alg».proof.Proof.Kernel.PartsB
import proofs.«900763_g7700000000000764_dist_diff_adaln_cshard_i_b2_s2048_c512_v7x_i4_bf16_1_alg».proof.Proof.Kernel.PartsC
import proofs.«900763_g7700000000000764_dist_diff_adaln_cshard_i_b2_s2048_c512_v7x_i4_bf16_1_alg».proof.Proof.Kernel.PartsD
import proofs.«900763_g7700000000000764_dist_diff_adaln_cshard_i_b2_s2048_c512_v7x_i4_bf16_1_alg».proof.Proof.Kernel.Exit
import proofs.«900763_g7700000000000764_dist_diff_adaln_cshard_i_b2_s2048_c512_v7x_i4_bf16_1_alg».proof.Proof.Kernel.OutBlock

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 25 → ℕ)

theorem cfg0_N : cfg0.N = 1 := by decide
def t₀ : Fin cfg0.N := ⟨0, by rw [cfg0_N]; decide⟩

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((records m K ∗ positions c ∗ payToks c ∗ cred (tallyAt (barCell c) () 3)
        ∗ (bigSep Finset.univ fun hj : Fin 4 × Fin 3 => cred (tallyAt (recvCell c hj.1 hj.2) () N)) ∗ levAts L lv
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ∗ (dats m ρ 0 c).owesAt () t₀.castSucc
      ∗ stg c cc0_stg0_0 (xstg m c) ∗ stg c cc0_stg1_0 (tstg m c) ∗ stg c cc0_stg2_0 (wsstg m c) ∗ stg c cc0_stg3_0 (wshstg m c)
      ∗ (∃ g : Buf (Elt F) ((c : Thread nD τ).loc cc0_stg4_0), ((c : Thread nD τ).loc cc0_stg4_0) ↦{fullShare} g))

def bodyPost (c : Dev nD) : sProp 𝕄 :=
  iprop(Φ₁ c ∗ (dats m ρ 0 c).owesAt () t₀.succ
    ∗ stg c cc0_stg0_0 (xstg m c) ∗ stg c cc0_stg1_0 (tstg m c) ∗ stg c cc0_stg2_0 (wsstg m c) ∗ stg c cc0_stg3_0 (wshstg m c)
    ∗ stg c cc0_stg4_0 (outBlk m c))

theorem finish (c : Dev nD) (Kt : PUnit → sProp 𝕄) (Wf : Waits sig Unit) (o0 : Buf (Elt F) ((c : Thread nD τ).loc cc0_stg4_0)) :
    iprop(records m K ∗ (((ownHeld m c 0 (qLent 0) ∗ ownHeld m c 0 (qLent 1) ∗ ownHeld m c 0 (qLent 2) ∗ ownHeld m c 0 qKept) ∗ (ownHeld m c 1 (qLent 0) ∗ ownHeld m c 1 (qLent 1) ∗ ownHeld m c 1 (qLent 2) ∗ ownHeld m c 1 qKept) ∗ (ownHeld m c 2 (qLent 0) ∗ ownHeld m c 2 (qLent 1) ∗ ownHeld m c 2 (qLent 2) ∗ ownHeld m c 2 qKept) ∗ (ownHeld m c 3 (qLent 0) ∗ ownHeld m c 3 (qLent 1) ∗ ownHeld m c 3 (qLent 2) ∗ ownHeld m c 3 qKept)))
        ∗ (slotLanded m c 0 0 ∗ slotLanded m c 0 1 ∗ slotLanded m c 0 2 ∗ slotLanded m c 1 0 ∗ slotLanded m c 1 1 ∗ slotLanded m c 1 2 ∗ slotLanded m c 2 0 ∗ slotLanded m c 2 1 ∗ slotLanded m c 2 2 ∗ slotLanded m c 3 0 ∗ slotLanded m c 3 1 ∗ slotLanded m c 3 2)
        ∗ (atPos ER (sendCell c 0 0) 1 ∅ 0 ∗ atPos ER (sendCell c 0 1) 1 ∅ 0 ∗ atPos ER (sendCell c 0 2) 1 ∅ 0 ∗ atPos ER (sendCell c 1 0) 1 ∅ 0 ∗ atPos ER (sendCell c 1 1) 1 ∅ 0 ∗ atPos ER (sendCell c 1 2) 1 ∅ 0 ∗ atPos ER (sendCell c 2 0) 1 ∅ 0 ∗ atPos ER (sendCell c 2 1) 1 ∅ 0 ∗ atPos ER (sendCell c 2 2) 1 ∅ 0 ∗ atPos ER (sendCell c 3 0) 1 ∅ 0 ∗ atPos ER (sendCell c 3 1) 1 ∅ 0 ∗ atPos ER (sendCell c 3 2) 1 ∅ 0)
        ∗ (atPos ER (recvCell c 0 0) 1 ∅ 0 ∗ atPos ER (recvCell c 0 1) 1 ∅ 0 ∗ atPos ER (recvCell c 0 2) 1 ∅ 0 ∗ atPos ER (recvCell c 1 0) 1 ∅ 0 ∗ atPos ER (recvCell c 1 1) 1 ∅ 0 ∗ atPos ER (recvCell c 1 2) 1 ∅ 0 ∗ atPos ER (recvCell c 2 0) 1 ∅ 0 ∗ atPos ER (recvCell c 2 1) 1 ∅ 0 ∗ atPos ER (recvCell c 2 2) 1 ∅ 0 ∗ atPos ER (recvCell c 3 0) 1 ∅ 0 ∗ atPos ER (recvCell c 3 1) 1 ∅ 0 ∗ atPos ER (recvCell c 3 2) 1 ∅ 0)
        ∗ owes (c : Thread nD τ) (owedFor ((acts c).drop 15)) Wf
        ∗ ((xM : Memref sig .tc .vmem S2x2048x512 .f32).view.loc (c : Thread nD τ) ↦{fullShare} xstg m c) ∗ ((tM : Memref sig .tc .vmem S2x128 .f32).view.loc (c : Thread nD τ) ↦{fullShare} tstg m c) ∗ ((wsM : Memref sig .tc .vmem S128x512 .f32).view.loc (c : Thread nD τ) ↦{fullShare} wsstg m c) ∗ ((wshM : Memref sig .tc .vmem S128x512 .f32).view.loc (c : Thread nD τ) ↦{fullShare} wshstg m c)
        ∗ ((oM : Memref sig .tc .vmem S2x2048x512 .bf16).view.loc (c : Thread nD τ) ↦{fullShare} (((oM : Memref sig .tc .vmem S2x2048x512 .bf16).access (Rect.unit (s := S2x2048x512) ![0, 1536, 0] S2x512x512.size inb_S2x2048x512_S2x512x512_0_1536_0)).write (Elt F) (((oM : Memref sig .tc .vmem S2x2048x512 .bf16).access (Rect.unit (s := S2x2048x512) ![0, 1024, 0] S2x512x512.size inb_S2x2048x512_S2x512x512_0_1024_0)).write (Elt F) (((oM : Memref sig .tc .vmem S2x2048x512 .bf16).access (Rect.unit (s := S2x2048x512) ![0, 512, 0] S2x512x512.size inb_S2x2048x512_S2x512x512_0_512_0)).write (Elt F) (((oM : Memref sig .tc .vmem S2x2048x512 .bf16).access (Rect.unit (s := S2x2048x512) ![0, 0, 0] S2x512x512.size inb_S2x2048x512_S2x512x512_0_0_0)).write (Elt F) o0 (outV m c 0) Finset.univ) (outV m c 1) Finset.univ) (outV m c 2) Finset.univ) (outV m c 3) Finset.univ))
        ∗ (bodyPost m ρ c -∗ Kt ⟨⟩))
      ⊢ wp frame (wpE (defs₀ (F := F)) 𝒱₀ c none) Set.univ (Prog.ret PUnit.unit) Kt := by
  iintro ⟨#Hrec, Hown, Hland, HpS, HpR, HO, Hx, Ht, Hws, Hwsh, Hout, Hk⟩
  imod (exit_phi1 m c (fun h e => K (c, kS h e)) (fun h j => K (c, kR h j)) (inv_S m K c) (inv_R m K c)) $$ [Hown Hland HpS HpR] with HΦ
  · isplitr; · iexact Hrec
    isplitl [Hown]; · iexact Hown
    isplitl [Hland]; · iexact Hland
    isplitl [HpS]; · iexact HpS
    iexact HpR
  iapply (le_wp_ret _ _)
  iapply Hk
  unfold bodyPost
  isplitl [HΦ]; · iexact HΦ
  isplitl [HO]
  · unfold Dat.owesAt Pipeline.owesWithin
    iexists Wf
    isplitr; · (ipureintro; exact fun _ _ => Or.inl trivial)
    iexact HO
  isplitl [Hx]
  · sl_close
  isplitl [Ht]
  · sl_close
  isplitl [Hws]
  · sl_close
  isplitl [Hwsh]
  · sl_close
  iexists _
  isplitr; · (ipureintro; exact stores_out_lit m c o0)
  iexact Hout

theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _) cc0_scratch2 cc0_scratch3) Kt := by
  unfold bodyPre
  rw [positions_flat', payToks_flat', creds_flat']
  iintro ⟨⟨⟨#Hrec, ⟨HpB, ⟨HpS00, HpS01, HpS02, HpS10, HpS11, HpS12, HpS20, HpS21, HpS22, HpS30, HpS31, HpS32⟩, ⟨HpR00, HpR01, HpR02, HpR10, HpR11, HpR12, HpR20, HpR21, HpR22, HpR30, HpR31, HpR32⟩⟩, ⟨⟨HtB0, HtB1, HtB2⟩, ⟨HtR00, HtR01, HtR02, HtR10, HtR11, HtR12, HtR20, HtR21, HtR22, HtR30, HtR31, HtR32⟩, ⟨HtS00, HtS01, HtS02, HtS10, HtS11, HtS12, HtS20, HtS21, HtS22, HtS30, HtS31, HtS32⟩⟩, HcB, ⟨HcR00, HcR01, HcR02, HcR10, HcR11, HcR12, HcR20, HcR21, HcR22, HcR30, HcR31, HcR32⟩, #Hlev, ⟨%f0, Hown⟩, ⟨%g0, Hcomm⟩⟩, Ho, ⟨%x0, %hx0, Hx⟩, ⟨%x1, %hx1, Ht⟩, ⟨%x2, %hx2, Hws⟩, ⟨%x3, %hx3, Hwsh⟩, ⟨%o0, Hout⟩⟩, Hk⟩
  subst hx0 hx1 hx2 hx3
  unfold Dat.owesAt Pipeline.owesWithin
  icases Ho with ⟨%W, %hW, HO⟩
  rw [show (dats m ρ 0 c).owed t₀.castSucc = O₀ c from rfl]
  ihave Hown4 := (own_split c fullShare f0) $$ Hown
  icases Hown4 with ⟨Ho0, Ho1, Ho2, Ho3⟩
  ihave Hc12 := (comm_split c g0) $$ Hcomm
  icases Hc12 with ⟨⟨Hs00, Hs10, Hs20, Hs30⟩, ⟨Hs01, Hs11, Hs21, Hs31⟩, ⟨Hs02, Hs12, Hs22, Hs32⟩⟩
  have hc1 := part1_spec m K c
  have hc2 := part2_spec m K c
  have hc3 := part3_spec m K c
  have hc4 := part4_spec m K c
  have hc5 := part5_spec m K c
  have hc6 := part6_spec m K c
  have hc7 := part7_spec m K c
  have hc8 := part8_spec m K c
  have hc9 := part9_spec m K c
  have hc10 := part10_spec m K c
  have hc11 := part11_spec m K c
  have hc12 := part12_spec m K c
  have hc13 := part13_spec m K c
  have hc14 := part14_spec m K c
  have hc15 := part15_spec m K c
  have hc16 := part16_spec m K c
  have hc17 := part17_spec m K c
  have hc18 := part18_spec m K c
  have hc19 := part19_spec m K c
  have hc20 := part20_spec m K c
  have hc21 := part21_spec m K c
  have hc22 := part22_spec m K c
  have hc23 := part23_spec m K c
  sl_exec
  iapply (wp_wait_send m c 3 0 (inv_S m K c 3 0) (hw_send c 3 0) _) $$ [Hk0_part10_7 Hk0_part23_0 HpS30]
  · sl_close
  iintro ⟨HO, HpS30, Hh30⟩
  sl_exec
  iapply (wp_wait_send m c 3 1 (inv_S m K c 3 1) (hw_send c 3 1) _) $$ [Hk0_part11_1 HO HpS31]
  · sl_close
  iintro ⟨HO, HpS31, Hh31⟩
  sl_exec
  iapply (wp_wait_send m c 3 2 (inv_S m K c 3 2) (hw_send c 3 2) _) $$ [Hk0_part12_3 HO HpS32]
  · sl_close
  iintro ⟨HO, HpS32, Hh32⟩
  sl_exec
  iapply (finish m ρ K c Kt _ o0)
  sl_close

end Body

theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem body_obligation (c : Dev nD) : BodyObligation (dats (F := F) m ρ 0 c) (defs₀ (F := F)) 𝒱₀ () Set.univ := fun t => by
  rw [fin_N t]
  rw [bigSep_W0, bigSep_W0]
  simp only [owns_whole_eq]
  have ha0 : (dats (F := F) m ρ 0 c).after 0 t₀ = xstg m c := by dsimp only [dats]
  have ha1 : (dats (F := F) m ρ 0 c).after 1 t₀ = tstg m c := by dsimp only [dats]
  have ha2 : (dats (F := F) m ρ 0 c).after 2 t₀ = wsstg m c := by dsimp only [dats]
  have ha3 : (dats (F := F) m ρ 0 c).after 3 t₀ = wshstg m c := by dsimp only [dats]
  have ha4 : (dats (F := F) m ρ 0 c).after 4 t₀ = outBlk m c := by dsimp only [dats]
  have hb0 : ∀ d, (dats (F := F) m ρ 0 c).before 0 t₀ d = xstg m c := fun d => by
    unfold Dat.before; rw [if_pos (fetch0_0 t₀)]; rfl
  have hb1 : ∀ d, (dats (F := F) m ρ 0 c).before 1 t₀ d = tstg m c := fun d => by
    unfold Dat.before; rw [if_pos (fetch0_1 t₀)]; rfl
  have hb2 : ∀ d, (dats (F := F) m ρ 0 c).before 2 t₀ d = wsstg m c := fun d => by
    unfold Dat.before; rw [if_pos (fetch0_2 t₀)]; rfl
  have hb3 : ∀ d, (dats (F := F) m ρ 0 c).before 3 t₀ d = wshstg m c := fun d => by
    unfold Dat.before; rw [if_pos (fetch0_3 t₀)]; rfl
  simp only [ha0, ha1, ha2, ha3, ha4, hb0, hb1, hb2, hb3]
  rw [show (dats (F := F) m ρ 0 c).Φ t₀.castSucc = Φ₀ m c from rfl, show (dats (F := F) m ρ 0 c).Φ t₀.succ = Φ₁ c from rfl]
  unfold Φ₀ start
  iintro ⟨⟨⟨⟨%K, Hg⟩, Hc3, HcR, Hlev⟩, Hs0, Hs1⟩, Ho, ⟨%d0, H0⟩, ⟨%d1, H1⟩, ⟨%d2, H2⟩, ⟨%d3, H3⟩, ⟨%d4, %g, -, H4⟩⟩
  iapply (sound_body m ρ K c _)
  unfold bodyPre bodyPost ghost
  isplitr []
  · isplitl [Hg Hc3 HcR Hlev Hs0 Hs1]
    · icases Hg with ⟨Hrec, Hpos, Htok⟩
      isplitl [Hrec]; · iexact Hrec
      isplitl [Hpos]; · iexact Hpos
      isplitl [Htok]; · iexact Htok
      isplitl [Hc3]; · iexact Hc3
      isplitl [HcR]; · iexact HcR
      isplitl [Hlev]; · iexact Hlev
      isplitl [Hs0]; · iexact Hs0
      iexact Hs1
    isplitl [Ho]; · iexact Ho
    isplitl [H0]; · iexact H0
    isplitl [H1]; · iexact H1
    isplitl [H2]; · iexact H2
    isplitl [H3]; · iexact H3
    iexists g; iexact H4
  · iintro H; iexact H

end Cert.Kernel.Coll

end
-- ==== Proof.lean ====
import proofs.«900763_g7700000000000764_dist_diff_adaln_cshard_i_b2_s2048_c512_v7x_i4_bf16_1_alg».proof.Defs
import proofs.«900763_g7700000000000764_dist_diff_adaln_cshard_i_b2_s2048_c512_v7x_i4_bf16_1_alg».proof.Proof.Gen.Kernel
import proofs.«900763_g7700000000000764_dist_diff_adaln_cshard_i_b2_s2048_c512_v7x_i4_bf16_1_alg».proof.Proof.Gen.KernelIdeal
import proofs.«900763_g7700000000000764_dist_diff_adaln_cshard_i_b2_s2048_c512_v7x_i4_bf16_1_alg».proof.Proof.Gen.ReferenceIdeal
import proofs.«900763_g7700000000000764_dist_diff_adaln_cshard_i_b2_s2048_c512_v7x_i4_bf16_1_alg».proof.Proof.Gen.Pre_finite_inputs_Kernel
import proofs.«900763_g7700000000000764_dist_diff_adaln_cshard_i_b2_s2048_c512_v7x_i4_bf16_1_alg».proof.Proof.Gen.Pre_finite_inputs_ReferenceIdeal
import proofs.«900763_g7700000000000764_dist_diff_adaln_cshard_i_b2_s2048_c512_v7x_i4_bf16_1_alg».proof.Proof.RefRun
import proofs.«900763_g7700000000000764_dist_diff_adaln_cshard_i_b2_s2048_c512_v7x_i4_bf16_1_alg».proof.Proof.Bridge
import proofs.«900763_g7700000000000764_dist_diff_adaln_cshard_i_b2_s2048_c512_v7x_i4_bf16_1_alg».proof.Proof.KernelIdeal.Body
import proofs.«900763_g7700000000000764_dist_diff_adaln_cshard_i_b2_s2048_c512_v7x_i4_bf16_1_alg».proof.Proof.KernelIdeal.Launch
import proofs.«900763_g7700000000000764_dist_diff_adaln_cshard_i_b2_s2048_c512_v7x_i4_bf16_1_alg».proof.Proof.Kernel.Body
import proofs.«900763_g7700000000000764_dist_diff_adaln_cshard_i_b2_s2048_c512_v7x_i4_bf16_1_alg».proof.Proof.Kernel.Launch
import Idealize.ShloMosaic.Adequacy
import Idealize.ShloMosaic.Init

noncomputable section

namespace Cert.Proof

open Idealize.ShloMosaic Idealize.SL.Sem

theorem frame_ReferenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

theorem frame_Kernel : Cert.frame_Kernel := fun m ρ _ =>
  (θ_run Cert.Kernel.defs _ _).mono (fun _ h c => (h c).2) (Cert.Kernel.Coll.run_post (F := Bits) m ρ (Cert.Kernel.Coll.body_obligation m ρ))

theorem frame_KernelIdeal : Cert.frame_KernelIdeal := fun m ρ _ =>
  (θ_run Cert.KernelIdeal.defs _ _).mono (fun _ h c => (h c).2) (Cert.KernelIdeal.Coll.run_post (F := Ideal) m ρ (Cert.KernelIdeal.Coll.body_obligation m ρ))

theorem algebraic : Cert.algebraic_KernelIdeal_ReferenceIdeal := by
  intro m ρ m' ρ' hpre hagree
  exact ⟨_, (θ_run Cert.KernelIdeal.defs _ _).mono (fun _ h c => ⟨(h c).1.trans (Cert.Bridge.out_eq m m' hpre hagree c), (h c).2⟩)
      (Cert.KernelIdeal.Coll.run_post (F := Ideal) m ρ (Cert.KernelIdeal.Coll.body_obligation m ρ)),
    (θ_run Cert.ReferenceIdeal.defs _ _).mono (fun _ h => h 0) (Cert.ReferenceIdeal.RefRun.run (F := Ideal) m' ρ')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, preserves, algebraic⟩

end Cert.Proof

end
